-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S8192 : Shape := ⟨1, ![8192]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1024 : S_.BroadcastsInDim S1024 (![] : Fin 0 → Fin S1024.rank)
  reducesTo_S1024_S_d0 : S1024.ReducesTo [0] S_
  bcast_S_S8192 : S_.BroadcastsInDim S8192 (![] : Fin 0 → Fin S8192.rank)
  reducesTo_S8192_S_d0 : S8192.ReducesTo [0] S_

variable [Facts]

def fn_part4 {F : FTy → Type} [FloatOps F] (main_arg2 : IVec S8192 32) (main_v63 : IVec S_ 1) (main_v67 : IVec S_ 1) : IVec S_ 1 :=
  let main_v68 : IVec S_ 1 := andi main_v63 main_v67
  let main_c_26 : IVec S_ 32 := constantI S_ 32 0#32
  let main_v69 : IVec S8192 32 := broadcastInDim S8192 ![] bcast_S_S8192 main_c_26
  let main_v70 : IVec S8192 1 := cmpi .sge main_arg2 main_v69
  let main_c_27 : IVec S_ 32 := constantI S_ 32 10#32
  let main_v71 : IVec S8192 32 := broadcastInDim S8192 ![] bcast_S_S8192 main_c_27
  let main_v72 : IVec S8192 1 := cmpi .slt main_arg2 main_v71
  let main_v73 : IVec S8192 1 := andi main_v70 main_v72
  let main_c_28 : IVec S_ 1 := constantI S_ 1 1#1
  let main_v74 : IVec S_ 1 := (fun x v => Host.reduce IntOp.andi x v reducesTo_S8192_S_d0 h_S_) main_v73 main_c_28
  let main_v75 : IVec S_ 1 := andi main_v68 main_v74
  main_v75

def fn_part3 {F : FTy → Type} [FloatOps F] (main_arg2 : IVec S8192 32) (main_arg12 : FVec F S512 .f32) (main_arg13 : FVec F S256 .f32) (main_arg14 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_v63 main_v67

def fn_part2 {F : FTy → Type} [FloatOps F] (main_arg2 : IVec S8192 32) (main_arg8 : FVec F S128 .f32) (main_arg9 : FVec F S1024 .f32) (main_arg10 : FVec F S1024 .f32) (main_arg11 : FVec F S512 .f32) (main_arg12 : FVec F S512 .f32) (main_arg13 : FVec F S256 .f32) (main_arg14 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg2 main_arg12 main_arg13 main_arg14 main_v48 main_v49 main_v50

def fn_part1 {F : FTy → Type} [FloatOps F] (main_arg2 : IVec S8192 32) (main_arg5 : FVec F S256x512 .f32) (main_arg6 : FVec F S256 .f32) (main_arg7 : FVec F S128x256 .f32) (main_arg8 : FVec F S128 .f32) (main_arg9 : FVec F S1024 .f32) (main_arg10 : FVec F S1024 .f32) (main_arg11 : FVec F S512 .f32) (main_arg12 : FVec F S512 .f32) (main_arg13 : FVec F S256 .f32) (main_arg14 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S4096x1024 .f32) (main_arg1 : FVec F S8192x1024 .f32) (main_arg2 : IVec S8192 32) (main_arg3 : FVec F S512x1024 .f32) (main_arg4 : FVec F S512 .f32) (main_arg5 : FVec F S256x512 .f32) (main_arg6 : FVec F S256 .f32) (main_arg7 : FVec F S128x256 .f32) (main_arg8 : FVec F S128 .f32) (main_arg9 : FVec F S1024 .f32) (main_arg10 : FVec F S1024 .f32) (main_arg11 : FVec F S512 .f32) (main_arg12 : FVec F S512 .f32) (main_arg13 : FVec F S256 .f32) (main_arg14 : FVec F S256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S8192x1024 : Shape := ⟨2, ![8192, 1024]⟩
abbrev S8192 : Shape := ⟨1, ![8192]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024 : Shape := ⟨1, ![1024]⟩
abbrev S_ : Shape := ⟨0, ![]⟩
abbrev S1x1024 : Shape := ⟨2, ![1, 1024]⟩
abbrev S1x512 : Shape := ⟨2, ![1, 512]⟩
abbrev S4096x512 : Shape := ⟨2, ![4096, 512]⟩
abbrev S4x1x512 : Shape := ⟨3, ![4, 1, 512]⟩
abbrev S1024x1024 : Shape := ⟨2, ![1024, 1024]⟩
abbrev S1024x512 : Shape := ⟨2, ![1024, 512]⟩
abbrev S1x1x512 : Shape := ⟨3, ![1, 1, 512]⟩
abbrev S1x256 : Shape := ⟨2, ![1, 256]⟩
abbrev S4096x256 : Shape := ⟨2, ![4096, 256]⟩
abbrev S4x1x256 : Shape := ⟨3, ![4, 1, 256]⟩
abbrev S1024x256 : Shape := ⟨2, ![1024, 256]⟩
abbrev S1x1x256 : Shape := ⟨3, ![1, 1, 256]⟩
abbrev S1x128 : Shape := ⟨2, ![1, 128]⟩
abbrev S4096x128 : Shape := ⟨2, ![4096, 128]⟩
abbrev S4x1x128 : Shape := ⟨3, ![4, 1, 128]⟩
abbrev S1024x128 : Shape := ⟨2, ![1024, 128]⟩
abbrev S1x1x128 : Shape := ⟨3, ![1, 1, 128]⟩
abbrev S8192x512 : Shape := ⟨2, ![8192, 512]⟩
abbrev S8x1x512 : Shape := ⟨3, ![8, 1, 512]⟩
abbrev S8192x256 : Shape := ⟨2, ![8192, 256]⟩
abbrev S8x1x256 : Shape := ⟨3, ![8, 1, 256]⟩
abbrev S8192x128 : Shape := ⟨2, ![8192, 128]⟩
abbrev S8x1x128 : Shape := ⟨3, ![8, 1, 128]⟩
abbrev S8192x1 : Shape := ⟨2, ![8192, 1]⟩
abbrev S1x8192 : Shape := ⟨2, ![1, 8192]⟩
abbrev S1024x1 : Shape := ⟨2, ![1024, 1]⟩
abbrev S4096x10 : Shape := ⟨2, ![4096, 10]⟩

abbrev nBuf : Space → Nat
  | .hbm => 150
  | .vmem => 97
  | .smem => 0
  | _ => 0

abbrev hbmTy0_0 (i : Nat) : BufTy := match i % 128 with
  | 0 => ⟨S4096x1024, .f32⟩
  | 1 => ⟨S8192x1024, .f32⟩
  | 2 => ⟨S8192, .i32⟩
  | 3 => ⟨S512x1024, .f32⟩
  | 4 => ⟨S512, .f32⟩
  | 5 => ⟨S256x512, .f32⟩
  | 6 => ⟨S256, .f32⟩
  | 7 => ⟨S128x256, .f32⟩
  | 8 => ⟨S128, .f32⟩
  | 9 => ⟨S1024, .f32⟩
  | 10 => ⟨S1024, .f32⟩
  | 11 => ⟨S512, .f32⟩
  | 12 => ⟨S512, .f32⟩
  | 13 => ⟨S256, .f32⟩
  | 14 => ⟨S256, .f32⟩
  | 15 => ⟨S_, .f32⟩
  | 16 => ⟨S1024, .f32⟩
  | 17 => ⟨S4096x1024, .f32⟩
  | 18 => ⟨S_, .f32⟩
  | 19 => ⟨S1024, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024, .f32⟩
  | 27 => ⟨S1024, .f32⟩
  | 28 => ⟨S1x1024, .f32⟩
  | 29 => ⟨S1x1024, .f32⟩
  | 30 => ⟨S1x1024, .f32⟩
  | 31 => ⟨S1x1024, .f32⟩
  | 32 => ⟨S1x512, .f32⟩
  | 33 => ⟨S4096x512, .f32⟩
  | 34 => ⟨S4x1x512, .f32⟩
  | 35 => ⟨S4x1x512, .f32⟩
  | 36 => ⟨S_, .f32⟩
  | 37 => ⟨S512, .f32⟩
  | 38 => ⟨S_, .f32⟩
  | 39 => ⟨S512, .f32⟩
  | 40 => ⟨S_, .f32⟩
  | 41 => ⟨S512, .f32⟩
  | 42 => ⟨S512, .f32⟩
  | 43 => ⟨S_, .f32⟩
  | 44 => ⟨S512, .f32⟩
  | 45 => ⟨S512, .f32⟩
  | 46 => ⟨S512, .f32⟩
  | 47 => ⟨S512, .f32⟩
  | 48 => ⟨S1x512, .f32⟩
  | 49 => ⟨S1x512, .f32⟩
  | 50 => ⟨S1x512, .f32⟩
  | 51 => ⟨S1x512, .f32⟩
  | 52 => ⟨S1x256, .f32⟩
  | 53 => ⟨S4096x256, .f32⟩
  | 54 => ⟨S4x1x256, .f32⟩
  | 55 => ⟨S4x1x256, .f32⟩
  | 56 => ⟨S_, .f32⟩
  | 57 => ⟨S256, .f32⟩
  | 58 => ⟨S_, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S256, .f32⟩
  | 67 => ⟨S256, .f32⟩
  | 68 => ⟨S1x256, .f32⟩
  | 69 => ⟨S1x256, .f32⟩
  | 70 => ⟨S1x256, .f32⟩
  | 71 => ⟨S1x256, .f32⟩
  | 72 => ⟨S1x128, .f32⟩
  | 73 => ⟨S4096x128, .bf16⟩
  | 74 => ⟨S4x1x128, .f32⟩
  | 75 => ⟨S4x1x128, .f32⟩
  | 76 => ⟨S_, .f32⟩
  | 77 => ⟨S1024, .f32⟩
  | 78 => ⟨S8192x1024, .f32⟩
  | 79 => ⟨S_, .f32⟩
  | 80 => ⟨S1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S1x1024, .f32⟩
  | 90 => ⟨S1x1024, .f32⟩
  | 91 => ⟨S1x1024, .f32⟩
  | 92 => ⟨S1x1024, .f32⟩
  | 93 => ⟨S1x512, .f32⟩
  | 94 => ⟨S8192x512, .f32⟩
  | 95 => ⟨S8x1x512, .f32⟩
  | 96 => ⟨S8x1x512, .f32⟩
  | 97 => ⟨S_, .f32⟩
  | 98 => ⟨S512, .f32⟩
  | 99 => ⟨S_, .f32⟩
  | 100 => ⟨S512, .f32⟩
  | 101 => ⟨S_, .f32⟩
  | 102 => ⟨S512, .f32⟩
  | 103 => ⟨S512, .f32⟩
  | 104 => ⟨S_, .f32⟩
  | 105 => ⟨S512, .f32⟩
  | 106 => ⟨S512, .f32⟩
  | 107 => ⟨S512, .f32⟩
  | 108 => ⟨S512, .f32⟩
  | 109 => ⟨S1x512, .f32⟩
  | 110 => ⟨S1x512, .f32⟩
  | 111 => ⟨S1x512, .f32⟩
  | 112 => ⟨S1x512, .f32⟩
  | 113 => ⟨S1x256, .f32⟩
  | 114 => ⟨S8192x256, .f32⟩
  | 115 => ⟨S8x1x256, .f32⟩
  | 116 => ⟨S8x1x256, .f32⟩
  | 117 => ⟨S_, .f32⟩
  | 118 => ⟨S256, .f32⟩
  | 119 => ⟨S_, .f32⟩
  | 120 => ⟨S256, .f32⟩
  | 121 => ⟨S_, .f32⟩
  | 122 => ⟨S256, .f32⟩
  | 123 => ⟨S256, .f32⟩
  | 124 => ⟨S_, .f32⟩
  | 125 => ⟨S256, .f32⟩
  | 126 => ⟨S256, .f32⟩
  | 127 => ⟨S256, .f32⟩
  | _ => ⟨S4096x1024, .f32⟩

abbrev hbmTy0_1 (i : Nat) : BufTy := match i % 128 with
  | 0 => ⟨S256, .f32⟩
  | 1 => ⟨S1x256, .f32⟩
  | 2 => ⟨S1x256, .f32⟩
  | 3 => ⟨S1x256, .f32⟩
  | 4 => ⟨S1x256, .f32⟩
  | 5 => ⟨S1x128, .f32⟩
  | 6 => ⟨S8192x128, .bf16⟩
  | 7 => ⟨S8x1x128, .f32⟩
  | 8 => ⟨S8x1x128, .f32⟩
  | 9 => ⟨S8192x1, .i32⟩
  | 10 => ⟨S1x128, .i32⟩
  | 11 => ⟨S8192x128, .i32⟩
  | 12 => ⟨S8192x128, .i32⟩
  | 13 => ⟨S8192x128, .i1⟩
  | 14 => ⟨S8192x128, .bf16⟩
  | 15 => ⟨S8192x128, .f32⟩
  | 16 => ⟨S8192x128, .f32⟩
  | 17 => ⟨S_, .f32⟩
  | 18 => ⟨S8192, .f32⟩
  | 19 => ⟨S1x8192, .f32⟩
  | 20 => ⟨S4096x128, .f32⟩
  | 21 => ⟨S4096x10, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1024x512, .f32⟩
  | .local _ .vmem, ⟨15, _⟩ => ⟨S1024x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S256x512, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1024x256, .f32⟩
  | .local _ .vmem, ⟨29, _⟩ => ⟨S1024x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S128x256, .f32⟩
  | .local _ .vmem, ⟨35, _⟩ => ⟨S1x128, .f32⟩
  | .local _ .vmem, ⟨36, _⟩ => ⟨S1024x128, .bf16⟩
  | .local _ .vmem, ⟨37, _⟩ => ⟨S1024x128, .bf16⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1024x1024, .f32⟩
  | .local _ .vmem, ⟨43, _⟩ => ⟨S1024x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S512x1024, .f32⟩
  | .local _ .vmem, ⟨49, _⟩ => ⟨S1x512, .f32⟩
  | .local _ .vmem, ⟨50, _⟩ => ⟨S1024x512, .f32⟩
  | .local _ .vmem, ⟨51, _⟩ => ⟨S1024x512, .f32⟩
  | .local _ .vmem, ⟨52, _⟩ => ⟨S1x1x512, .f32⟩
  | .local _ .vmem, ⟨53, _⟩ => ⟨S1x1x512, .f32⟩
  | .local _ .vmem, ⟨54, _⟩ => ⟨S1x1x512, .f32⟩
  | .local _ .vmem, ⟨55, _⟩ => ⟨S1x1x512, .f32⟩
  | .local _ .vmem, ⟨56, _⟩ => ⟨S1024x512, .f32⟩
  | .local _ .vmem, ⟨57, _⟩ => ⟨S1024x512, .f32⟩
  | .local _ .vmem, ⟨58, _⟩ => ⟨S1x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S256x512, .f32⟩
  | .local _ .vmem, ⟨63, _⟩ => ⟨S1x256, .f32⟩
  | .local _ .vmem, ⟨64, _⟩ => ⟨S1024x256, .f32⟩
  | .local _ .vmem, ⟨65, _⟩ => ⟨S1024x256, .f32⟩
  | .local _ .vmem, ⟨66, _⟩ => ⟨S1x1x256, .f32⟩
  | .local _ .vmem, ⟨67, _⟩ => ⟨S1x1x256, .f32⟩
  | .local _ .vmem, ⟨68, _⟩ => ⟨S1x1x256, .f32⟩
  | .local _ .vmem, ⟨69, _⟩ => ⟨S1x1x256, .f32⟩
  | .local _ .vmem, ⟨70, _⟩ => ⟨S1024x256, .f32⟩
  | .local _ .vmem, ⟨71, _⟩ => ⟨S1024x256, .f32⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S128x256, .f32⟩
  | .local _ .vmem, ⟨77, _⟩ => ⟨S1x128, .f32⟩
  | .local _ .vmem, ⟨78, _⟩ => ⟨S1024x128, .bf16⟩
  | .local _ .vmem, ⟨79, _⟩ => ⟨S1024x128, .bf16⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x128, .f32⟩
  | .local _ .vmem, ⟨84, _⟩ => ⟨S1024x128, .bf16⟩
  | .local _ .vmem, ⟨85, _⟩ => ⟨S1024x128, .bf16⟩
  | .local _ .vmem, ⟨86, _⟩ => ⟨S1024x128, .bf16⟩
  | .local _ .vmem, ⟨87, _⟩ => ⟨S1024x128, .bf16⟩
  | .local _ .vmem, ⟨88, _⟩ => ⟨S1x1024, .f32⟩
  | .local _ .vmem, ⟨89, _⟩ => ⟨S1x1024, .f32⟩
  | .local _ .vmem, ⟨90, _⟩ => ⟨S1024x128, .bf16⟩
  | .local _ .vmem, ⟨91, _⟩ => ⟨S1024x128, .bf16⟩
  | .local _ .vmem, ⟨92, _⟩ => ⟨S1024x128, .f32⟩
  | .local _ .vmem, ⟨93, _⟩ => ⟨S1024x128, .f32⟩
  | .local _ .vmem, ⟨94, _⟩ => ⟨S1024x1, .f32⟩
  | .local _ .vmem, ⟨95, _⟩ => ⟨S1024x1, .f32⟩
  | .local _ .vmem, ⟨96, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_cst_3 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_v28_2 : Ref sig .tc := ⟨.hbm, 55, rfl⟩
abbrev main_cst_7 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_cst_11 : Ref sig .tc := ⟨.hbm, 76, rfl⟩
abbrev main_v43 : Ref sig .tc := ⟨.hbm, 77, rfl⟩
abbrev main_v44 : Ref sig .tc := ⟨.hbm, 78, rfl⟩
abbrev main_cst_12 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_v47 : Ref sig .tc := ⟨.hbm, 83, rfl⟩
abbrev main_cst_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57_0 : Ref sig .tc := ⟨.hbm, 94, rfl⟩
abbrev main_v57_1 : Ref sig .tc := ⟨.hbm, 95, rfl⟩
abbrev main_v57_2 : Ref sig .tc := ⟨.hbm, 96, rfl⟩
abbrev main_cst_15 : Ref sig .tc := ⟨.hbm, 97, rfl⟩
abbrev main_v58 : Ref sig .tc := ⟨.hbm, 98, rfl⟩
abbrev main_cst_16 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_cst_18 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71_0 : Ref sig .tc := ⟨.hbm, 114, rfl⟩
abbrev main_v71_1 : Ref sig .tc := ⟨.hbm, 115, rfl⟩
abbrev main_v71_2 : Ref sig .tc := ⟨.hbm, 116, rfl⟩
abbrev main_cst_19 : Ref sig .tc := ⟨.hbm, 117, rfl⟩
abbrev main_v72 : Ref sig .tc := ⟨.hbm, 118, rfl⟩
abbrev main_cst_20 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_cst_22 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85_0 : Ref sig .tc := ⟨.hbm, 134, rfl⟩
abbrev main_v85_1 : Ref sig .tc := ⟨.hbm, 135, rfl⟩
abbrev main_v85_2 : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_23 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg7_1 : Ref sig .tc := ⟨.vmem, 51, rfl⟩
abbrev cc3_stg8_0 : Ref sig .tc := ⟨.vmem, 52, rfl⟩
abbrev cc3_stg8_1 : Ref sig .tc := ⟨.vmem, 53, rfl⟩
abbrev cc3_stg9_0 : Ref sig .tc := ⟨.vmem, 54, rfl⟩
abbrev cc3_stg9_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg7_1 : Ref sig .tc := ⟨.vmem, 65, rfl⟩
abbrev cc4_stg8_0 : Ref sig .tc := ⟨.vmem, 66, rfl⟩
abbrev cc4_stg8_1 : Ref sig .tc := ⟨.vmem, 67, rfl⟩
abbrev cc4_stg9_0 : Ref sig .tc := ⟨.vmem, 68, rfl⟩
abbrev cc4_stg9_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg2_0 : Ref sig .tc := ⟨.vmem, 73, rfl⟩
abbrev cc5_stg3_0 : Ref sig .tc := ⟨.vmem, 74, rfl⟩
abbrev cc5_stg4_0 : Ref sig .tc := ⟨.vmem, 75, rfl⟩
abbrev cc5_stg5_0 : Ref sig .tc := ⟨.vmem, 76, rfl⟩
abbrev cc5_stg6_0 : Ref sig .tc := ⟨.vmem, 77, rfl⟩
abbrev cc5_stg7_0 : Ref sig .tc := ⟨.vmem, 78, rfl⟩
abbrev cc5_stg7_1 : Ref sig .tc := ⟨.vmem, 79, rfl⟩
abbrev cc5_stg8_0 : Ref sig .tc := ⟨.vmem, 80, rfl⟩
abbrev cc5_stg8_1 : Ref sig .tc := ⟨.vmem, 81, rfl⟩
abbrev cc5_stg9_0 : Ref sig .tc := ⟨.vmem, 82, rfl⟩
abbrev cc5_stg9_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg3_1 : Ref sig .tc := ⟨.vmem, 91, rfl⟩
abbrev cc6_stg4_0 : Ref sig .tc := ⟨.vmem, 92, rfl⟩
abbrev cc6_stg4_1 : Ref sig .tc := ⟨.vmem, 93, rfl⟩
abbrev cc6_scratch0 : Ref sig .tc := ⟨.vmem, 94, rfl⟩
abbrev cc6_scratch1 : Ref sig .tc := ⟨.vmem, 95, rfl⟩
abbrev cc6_scratch2 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem7_1 : DmaSem sig := 51
abbrev cc3_sem8_0 : DmaSem sig := 52
abbrev cc3_sem8_1 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem7_1 : DmaSem sig := 65
abbrev cc4_sem8_0 : DmaSem sig := 66
abbrev cc4_sem8_1 : DmaSem sig := 67
abbrev cc4_sem9_0 : DmaSem sig := 68
abbrev cc4_sem9_1 : DmaSem sig := 69
abbrev cc5_sem0_0 : DmaSem sig := 70
abbrev cc5_sem0_1 : DmaSem sig := 71
abbrev cc5_sem1_0 : DmaSem sig := 72
abbrev cc5_sem2_0 : DmaSem sig := 73
abbrev cc5_sem3_0 : DmaSem sig := 74
abbrev cc5_sem4_0 : DmaSem sig := 75
abbrev cc5_sem5_0 : DmaSem sig := 76
abbrev cc5_sem6_0 : DmaSem sig := 77
abbrev cc5_sem7_0 : DmaSem sig := 78
abbrev cc5_sem7_1 : DmaSem sig := 79
abbrev cc5_sem8_0 : DmaSem sig := 80
abbrev cc5_sem8_1 : DmaSem sig := 81
abbrev cc5_sem9_0 : DmaSem sig := 82
abbrev cc5_sem9_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem3_1 : DmaSem sig := 91
abbrev cc6_sem4_0 : DmaSem sig := 92
abbrev cc6_sem4_1 : DmaSem sig := 93

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1024x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1x1x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨2, ![4, 8], ![false, false]⟩

def k6_cond2 (i : grid6.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_26 : BitVec 32 := 0#32
  let v48 : BitVec 1 := Scalar.cmpi .ne v47 c0_i32_26
  v48

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1024x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1024x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

class Facts₀ : Prop where
  reducesTo_S4096x1024_S1024_d0 : S4096x1024.ReducesTo [0] S1024
  h_S_ : 0 < S_.numel
  bcast_S_S1024 : S_.BroadcastsInDim S1024 (![] : Fin 0 → Fin S1024.rank)
  shapeCasts_S1024_S1x1024 : S1024.ShapeCasts S1x1024
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x1x512 : S512.ShapeCasts S1x1x512
  inb_S1x1x512_S1x1x512_0_0_0 : ∀ a, (![0, 0, 0] : Fin 3 → Nat) a + S1x1x512.size a ≤ S1x1x512.size a
  h_S1x1x512 : 0 < S1x1x512.numel
  reducesTo_S4x1x512_S512_d0_1 : S4x1x512.ReducesTo [0, 1] S512
  bcast_S_S512 : S_.BroadcastsInDim S512 (![] : Fin 0 → Fin S512.rank)
  shapeCasts_S256_S1x256 : S256.ShapeCasts S1x256
  shapeCasts_S1024x512_S1024x512 : S1024x512.ShapeCasts S1024x512
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  reduces_S1024x256_S256 : S1024x256.Reduces [0] S256
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S4x1x256_S256_d0_1 : S4x1x256.ReducesTo [0, 1] S256
  bcast_S_S256 : S_.BroadcastsInDim S256 (![] : Fin 0 → Fin S256.rank)
  shapeCasts_S128_S1x128 : S128.ShapeCasts S1x128
  shapeCasts_S1024x256_S1024x256 : S1024x256.ShapeCasts S1024x256
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  reduces_S1024x128_S128 : S1024x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S8192x1024_S1024_d0 : S8192x1024.ReducesTo [0] S1024
  reducesTo_S8x1x512_S512_d0_1 : S8x1x512.ReducesTo [0, 1] S512
  reducesTo_S8x1x256_S256_d0_1 : S8x1x256.ReducesTo [0, 1] S256
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  reducesTo_S8192x128_S8192_d1 : S8192x128.ReducesTo [1] S8192
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  reduces_S1024x128_S1024 : S1024x128.Reduces [1] S1024
  broadcasts_S1024x1_S1024x128 : S1024x1.Broadcasts S1024x128
  slices_S4096x128_S4096x10_0_0 : S4096x128.Slices ![0, 0] S4096x10
  dot_S1024x1024_S512x1024_S1024x512_1_1_0_0_n_n_wf : DotDims.WF S1024x1024 S512x1024 S1024x512 [1] [1] [0] [0] [] []
  dot_S1024x512_S256x512_S1024x256_1_1_0_0_n_n_wf : DotDims.WF S1024x512 S256x512 S1024x256 [1] [1] [0] [0] [] []
  dot_S1024x256_S128x256_S1024x128_1_1_0_0_n_n_wf : DotDims.WF S1024x256 S128x256 S1024x128 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x512.size a
  hwx0_7 : ∀ i : grid0.Coords, EltTy.bits .f32 = 32 ∨ (Rect.block (s := S4096x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S4x1x512.size a
  hwx0_8 : ∀ i : grid0.Coords, EltTy.bits .f32 = 32 ∨ (Rect.block (s := S4x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S4x1x512.size a
  hwx0_9 : ∀ i : grid0.Coords, EltTy.bits .f32 = 32 ∨ (Rect.block (s := S4x1x512) S1x1x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .f32 = 32 ∨ (Rect.block (s := S256x512) S256x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x256.size a ≤ S4096x256.size a
  hwx1_7 : ∀ i : grid1.Coords, EltTy.bits .f32 = 32 ∨ (Rect.block (s := S4096x256) S1024x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256.size a ≤ S4x1x256.size a
  hwx1_8 : ∀ i : grid1.Coords, EltTy.bits .f32 = 32 ∨ (Rect.block (s := S4x1x256) S1x1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x256.size a ≤ S4x1x256.size a
  hwx1_9 : ∀ i : grid1.Coords, EltTy.bits .f32 = 32 ∨ (Rect.block (s := S4x1x256) S1x1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S4096x128.size a
  hwx2_7 : ∀ i : grid2.Coords, EltTy.bits .bf16 = 32 ∨ (Rect.block (s := S4096x128) S1024x128.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S4x1x128.size a
  hwx2_8 : ∀ i : grid2.Coords, EltTy.bits .f32 = 32 ∨ (Rect.block (s := S4x1x128) S1x1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x128.size a ≤ S4x1x128.size a
  hwx2_9 : ∀ i : grid2.Coords, EltTy.bits .f32 = 32 ∨ (Rect.block (s := S4x1x128) S1x1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .f32 = 32 ∨ (Rect.block (s := S8192x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S512x1024.size a
  hwx3_5 : ∀ i : grid3.Coords, EltTy.bits .f32 = 32 ∨ (Rect.block (s := S512x1024) S512x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x512.size a ≤ S8192x512.size a
  hwx3_7 : ∀ i : grid3.Coords, EltTy.bits .f32 = 32 ∨ (Rect.block (s := S8192x512) S1024x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x512.size a ≤ S8x1x512.size a
  hwx3_8 : ∀ i : grid3.Coords, EltTy.bits .f32 = 32 ∨ (Rect.block (s := S8x1x512) S1x1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1x512.size a ≤ S8x1x512.size a
  hwx3_9 : ∀ i : grid3.Coords, EltTy.bits .f32 = 32 ∨ (Rect.block (s := S8x1x512) S1x1x512.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .f32 = 32 ∨ (Rect.block (s := S8192x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x512.size a ≤ S256x512.size a
  hwx4_5 : ∀ i : grid4.Coords, EltTy.bits .f32 = 32 ∨ (Rect.block (s := S256x512) S256x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x256.size a ≤ S8192x256.size a
  hwx4_7 : ∀ i : grid4.Coords, EltTy.bits .f32 = 32 ∨ (Rect.block (s := S8192x256) S1024x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x1x256.size a ≤ S8x1x256.size a
  hwx4_8 : ∀ i : grid4.Coords, EltTy.bits .f32 = 32 ∨ (Rect.block (s := S8x1x256) S1x1x256.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x1x256.size a ≤ S8x1x256.size a
  hwx4_9 : ∀ i : grid4.Coords, EltTy.bits .f32 = 32 ∨ (Rect.block (s := S8x1x256) S1x1x256.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S8192x256.size a
  hwx5_0 : ∀ i : grid5.Coords, EltTy.bits .f32 = 32 ∨ (Rect.block (s := S8192x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .f32 = 32 ∨ (Rect.block (s := S128x256) S128x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1024x128.size a ≤ S8192x128.size a
  hwx5_7 : ∀ i : grid5.Coords, EltTy.bits .bf16 = 32 ∨ (Rect.block (s := S8192x128) S1024x128.size (cc5_transform_7 i) (hinb5_7 i)).WholeWords (EltTy.packing .bf16)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x1x128.size a ≤ S8x1x128.size a
  hwx5_8 : ∀ i : grid5.Coords, EltTy.bits .f32 = 32 ∨ (Rect.block (s := S8x1x128) S1x1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x1x128.size a ≤ S8x1x128.size a
  hwx5_9 : ∀ i : grid5.Coords, EltTy.bits .f32 = 32 ∨ (Rect.block (s := S8x1x128) S1x1x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S4096x128.size a
  hwx6_0 : ∀ i : grid6.Coords, EltTy.bits .bf16 = 32 ∨ (Rect.block (s := S4096x128) S1024x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x128.size a ≤ S8192x128.size a
  hwx6_1 : ∀ i : grid6.Coords, EltTy.bits .bf16 = 32 ∨ (Rect.block (s := S8192x128) S1024x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x8192.size a
  hwx6_2 : ∀ i : grid6.Coords, EltTy.bits .f32 = 32 ∨ (Rect.block (s := S1x8192) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x128.size a ≤ S8192x128.size a
  hwx6_3 : ∀ i : grid6.Coords, EltTy.bits .bf16 = 32 ∨ (Rect.block (s := S8192x128) S1024x128.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x128.size a ≤ S4096x128.size a
  hwx6_4 : ∀ i : grid6.Coords, EltTy.bits .f32 = 32 ∨ (Rect.block (s := S4096x128) S1024x128.size (cc6_transform_4 i) (hinb6_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf
def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S1x1x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S1x1x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S1024x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S1x1x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v28_2) S1x1x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v28_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_0) S1024x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v42_1) S1x1x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v42_2) S1x1x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg3) S512x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57_0) S1024x512.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v57_1) S1x1x512.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v57_2) S1x1x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v57_0) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg5) S256x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v71_0) S1024x256.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v71_1) S1x1x256.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v71_2) S1x1x256.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v71_0) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg7) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v84) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v85_0) S1024x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v85_1) S1x1x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v85_2) S1x1x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v42_0) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85_0) S1024x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1024x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1024x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8192x1024 : Shape := ⟨2, ![8192, 1024]⟩
abbrev S8192 : Shape := ⟨1, ![8192]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024 : Shape := ⟨1, ![1024]⟩
abbrev S_ : Shape := ⟨0, ![]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S1x256 : Shape := ⟨2, ![1, 256]⟩
abbrev S256x128 : Shape := ⟨2, ![256, 128]⟩
abbrev S4096x128 : Shape := ⟨2, ![4096, 128]⟩
abbrev S1x128 : Shape := ⟨2, ![1, 128]⟩
abbrev S8192x512 : Shape := ⟨2, ![8192, 512]⟩
abbrev S8192x256 : Shape := ⟨2, ![8192, 256]⟩
abbrev S8192x128 : Shape := ⟨2, ![8192, 128]⟩
abbrev S128x8192 : Shape := ⟨2, ![128, 8192]⟩
abbrev S4096x8192 : Shape := ⟨2, ![4096, 8192]⟩
abbrev S4096 : Shape := ⟨1, ![4096]⟩
abbrev S4096x1 : Shape := ⟨2, ![4096, 1]⟩
abbrev S1x8192 : Shape := ⟨2, ![1, 8192]⟩
abbrev S8192x1 : Shape := ⟨2, ![8192, 1]⟩
abbrev S1x10 : Shape := ⟨2, ![1, 10]⟩
abbrev S8192x10 : Shape := ⟨2, ![8192, 10]⟩
abbrev S4096x10 : Shape := ⟨2, ![4096, 10]⟩

abbrev nBuf : Space → Nat
  | .hbm => 277
  | .vmem => 0
  | .smem => 0
  | _ => 0

abbrev hbmTy0_0 (i : Nat) : BufTy := match i % 128 with
  | 0 => ⟨S4096x1024, .f32⟩
  | 1 => ⟨S8192x1024, .f32⟩
  | 2 => ⟨S8192, .i32⟩
  | 3 => ⟨S512x1024, .f32⟩
  | 4 => ⟨S512, .f32⟩
  | 5 => ⟨S256x512, .f32⟩
  | 6 => ⟨S256, .f32⟩
  | 7 => ⟨S128x256, .f32⟩
  | 8 => ⟨S128, .f32⟩
  | 9 => ⟨S1024, .f32⟩
  | 10 => ⟨S1024, .f32⟩
  | 11 => ⟨S512, .f32⟩
  | 12 => ⟨S512, .f32⟩
  | 13 => ⟨S256, .f32⟩
  | 14 => ⟨S256, .f32⟩
  | 15 => ⟨S_, .f32⟩
  | 16 => ⟨S1024, .f32⟩
  | 17 => ⟨S_, .f32⟩
  | 18 => ⟨S1024, .f32⟩
  | 19 => ⟨S1024, .f32⟩
  | 20 => ⟨S1x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S_, .f32⟩
  | 27 => ⟨S1024, .f32⟩
  | 28 => ⟨S1024, .f32⟩
  | 29 => ⟨S1x1024, .f32⟩
  | 30 => ⟨S4096x1024, .f32⟩
  | 31 => ⟨S4096x1024, .f32⟩
  | 32 => ⟨S1x1024, .f32⟩
  | 33 => ⟨S4096x1024, .f32⟩
  | 34 => ⟨S4096x1024, .f32⟩
  | 35 => ⟨S_, .f32⟩
  | 36 => ⟨S1024, .f32⟩
  | 37 => ⟨S1024, .f32⟩
  | 38 => ⟨S1024, .f32⟩
  | 39 => ⟨S1x1024, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1024x512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S_, .f32⟩
  | 52 => ⟨S512, .f32⟩
  | 53 => ⟨S_, .f32⟩
  | 54 => ⟨S512, .f32⟩
  | 55 => ⟨S512, .f32⟩
  | 56 => ⟨S1x512, .f32⟩
  | 57 => ⟨S4096x512, .f32⟩
  | 58 => ⟨S4096x512, .f32⟩
  | 59 => ⟨S4096x512, .f32⟩
  | 60 => ⟨S_, .f32⟩
  | 61 => ⟨S512, .f32⟩
  | 62 => ⟨S_, .f32⟩
  | 63 => ⟨S512, .f32⟩
  | 64 => ⟨S512, .f32⟩
  | 65 => ⟨S1x512, .f32⟩
  | 66 => ⟨S4096x512, .f32⟩
  | 67 => ⟨S4096x512, .f32⟩
  | 68 => ⟨S1x512, .f32⟩
  | 69 => ⟨S4096x512, .f32⟩
  | 70 => ⟨S4096x512, .f32⟩
  | 71 => ⟨S_, .f32⟩
  | 72 => ⟨S512, .f32⟩
  | 73 => ⟨S512, .f32⟩
  | 74 => ⟨S512, .f32⟩
  | 75 => ⟨S1x512, .f32⟩
  | 76 => ⟨S4096x512, .f32⟩
  | 77 => ⟨S4096x512, .f32⟩
  | 78 => ⟨S1x512, .f32⟩
  | 79 => ⟨S4096x512, .f32⟩
  | 80 => ⟨S4096x512, .f32⟩
  | 81 => ⟨S512x256, .f32⟩
  | 82 => ⟨S4096x256, .f32⟩
  | 83 => ⟨S1x256, .f32⟩
  | 84 => ⟨S4096x256, .f32⟩
  | 85 => ⟨S4096x256, .f32⟩
  | 86 => ⟨S4096x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S4096x256, .f32⟩
  | 94 => ⟨S4096x256, .f32⟩
  | 95 => ⟨S4096x256, .f32⟩
  | 96 => ⟨S_, .f32⟩
  | 97 => ⟨S256, .f32⟩
  | 98 => ⟨S_, .f32⟩
  | 99 => ⟨S256, .f32⟩
  | 100 => ⟨S256, .f32⟩
  | 101 => ⟨S1x256, .f32⟩
  | 102 => ⟨S4096x256, .f32⟩
  | 103 => ⟨S4096x256, .f32⟩
  | 104 => ⟨S1x256, .f32⟩
  | 105 => ⟨S4096x256, .f32⟩
  | 106 => ⟨S4096x256, .f32⟩
  | 107 => ⟨S_, .f32⟩
  | 108 => ⟨S256, .f32⟩
  | 109 => ⟨S256, .f32⟩
  | 110 => ⟨S256, .f32⟩
  | 111 => ⟨S1x256, .f32⟩
  | 112 => ⟨S4096x256, .f32⟩
  | 113 => ⟨S4096x256, .f32⟩
  | 114 => ⟨S1x256, .f32⟩
  | 115 => ⟨S4096x256, .f32⟩
  | 116 => ⟨S4096x256, .f32⟩
  | 117 => ⟨S256x128, .f32⟩
  | 118 => ⟨S4096x128, .f32⟩
  | 119 => ⟨S1x128, .f32⟩
  | 120 => ⟨S4096x128, .f32⟩
  | 121 => ⟨S4096x128, .f32⟩
  | 122 => ⟨S4096x128, .f32⟩
  | 123 => ⟨S_, .f32⟩
  | 124 => ⟨S1024, .f32⟩
  | 125 => ⟨S_, .f32⟩
  | 126 => ⟨S1024, .f32⟩
  | 127 => ⟨S1024, .f32⟩
  | _ => ⟨S4096x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S1024, .f32⟩
  | 18 => ⟨S1024, .f32⟩
  | 19 => ⟨S1x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S1024x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S_, .f32⟩
  | 32 => ⟨S512, .f32⟩
  | 33 => ⟨S_, .f32⟩
  | 34 => ⟨S512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S_, .f32⟩
  | 41 => ⟨S512, .f32⟩
  | 42 => ⟨S_, .f32⟩
  | 43 => ⟨S512, .f32⟩
  | 44 => ⟨S512, .f32⟩
  | 45 => ⟨S1x512, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S_, .f32⟩
  | 52 => ⟨S512, .f32⟩
  | 53 => ⟨S512, .f32⟩
  | 54 => ⟨S512, .f32⟩
  | 55 => ⟨S1x512, .f32⟩
  | 56 => ⟨S8192x512, .f32⟩
  | 57 => ⟨S8192x512, .f32⟩
  | 58 => ⟨S1x512, .f32⟩
  | 59 => ⟨S8192x512, .f32⟩
  | 60 => ⟨S8192x512, .f32⟩
  | 61 => ⟨S512x256, .f32⟩
  | 62 => ⟨S8192x256, .f32⟩
  | 63 => ⟨S1x256, .f32⟩
  | 64 => ⟨S8192x256, .f32⟩
  | 65 => ⟨S8192x256, .f32⟩
  | 66 => ⟨S8192x256, .f32⟩
  | 67 => ⟨S_, .f32⟩
  | 68 => ⟨S256, .f32⟩
  | 69 => ⟨S_, .f32⟩
  | 70 => ⟨S256, .f32⟩
  | 71 => ⟨S256, .f32⟩
  | 72 => ⟨S1x256, .f32⟩
  | 73 => ⟨S8192x256, .f32⟩
  | 74 => ⟨S8192x256, .f32⟩
  | 75 => ⟨S8192x256, .f32⟩
  | 76 => ⟨S_, .f32⟩
  | 77 => ⟨S256, .f32⟩
  | 78 => ⟨S_, .f32⟩
  | 79 => ⟨S256, .f32⟩
  | 80 => ⟨S256, .f32⟩
  | 81 => ⟨S1x256, .f32⟩
  | 82 => ⟨S8192x256, .f32⟩
  | 83 => ⟨S8192x256, .f32⟩
  | 84 => ⟨S1x256, .f32⟩
  | 85 => ⟨S8192x256, .f32⟩
  | 86 => ⟨S8192x256, .f32⟩
  | 87 => ⟨S_, .f32⟩
  | 88 => ⟨S256, .f32⟩
  | 89 => ⟨S256, .f32⟩
  | 90 => ⟨S256, .f32⟩
  | 91 => ⟨S1x256, .f32⟩
  | 92 => ⟨S8192x256, .f32⟩
  | 93 => ⟨S8192x256, .f32⟩
  | 94 => ⟨S1x256, .f32⟩
  | 95 => ⟨S8192x256, .f32⟩
  | 96 => ⟨S8192x256, .f32⟩
  | 97 => ⟨S256x128, .f32⟩
  | 98 => ⟨S8192x128, .f32⟩
  | 99 => ⟨S1x128, .f32⟩
  | 100 => ⟨S8192x128, .f32⟩
  | 101 => ⟨S8192x128, .f32⟩
  | 102 => ⟨S8192x128, .f32⟩
  | 103 => ⟨S128x8192, .f32⟩
  | 104 => ⟨S4096x8192, .f32⟩
  | 105 => ⟨S_, .f32⟩
  | 106 => ⟨S4096x8192, .f32⟩
  | 107 => ⟨S4096x8192, .f32⟩
  | 108 => ⟨S4096x128, .f32⟩
  | 109 => ⟨S_, .f32⟩
  | 110 => ⟨S4096, .f32⟩
  | 111 => ⟨S4096x1, .f32⟩
  | 112 => ⟨S4096x8192, .f32⟩
  | 113 => ⟨S4096x8192, .f32⟩
  | 114 => ⟨S8192x128, .f32⟩
  | 115 => ⟨S_, .f32⟩
  | 116 => ⟨S8192, .f32⟩
  | 117 => ⟨S1x8192, .f32⟩
  | 118 => ⟨S4096x8192, .f32⟩
  | 119 => ⟨S4096x8192, .f32⟩
  | 120 => ⟨S8192x1, .i32⟩
  | 121 => ⟨S1x10, .i32⟩
  | 122 => ⟨S8192x10, .i32⟩
  | 123 => ⟨S8192x10, .i32⟩
  | 124 => ⟨S8192x10, .i1⟩
  | 125 => ⟨S8192x10, .f32⟩
  | 126 => ⟨S_, .f32⟩
  | 127 => ⟨S4096, .f32⟩
  | _ => ⟨S4096x1024, .f32⟩

abbrev hbmTy0_2 (i : Nat) : BufTy := match i % 128 with
  | 0 => ⟨S_, .f32⟩
  | 1 => ⟨S4096, .f32⟩
  | 2 => ⟨S4096, .f32⟩
  | 3 => ⟨S4096x1, .f32⟩
  | 4 => ⟨S4096x8192, .f32⟩
  | 5 => ⟨S4096x8192, .f32⟩
  | 6 => ⟨S4096x8192, .f32⟩
  | 7 => ⟨S_, .f32⟩
  | 8 => ⟨S4096, .f32⟩
  | 9 => ⟨S4096x1, .f32⟩
  | 10 => ⟨S4096x8192, .f32⟩
  | 11 => ⟨S4096x8192, .f32⟩
  | 12 => ⟨S4096x10, .f32⟩
  | 13 => ⟨S_, .f32⟩
  | 14 => ⟨S_, .f32⟩
  | 15 => ⟨S_, .f32⟩
  | 16 => ⟨S4096x10, .f32⟩
  | 17 => ⟨S4096x10, .f32⟩
  | 18 => ⟨S_, .f32⟩
  | 19 => ⟨S4096x10, .f32⟩
  | 20 => ⟨S4096x10, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_cst_15 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_16 : Ref sig .tc := ⟨.hbm, 132, rfl⟩
abbrev main_v100 : Ref sig .tc := ⟨.hbm, 133, rfl⟩
abbrev main_cst_17 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_18 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_cst_20 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_21 : Ref sig .tc := ⟨.hbm, 168, rfl⟩
abbrev main_v131 : Ref sig .tc := ⟨.hbm, 169, rfl⟩
abbrev main_cst_22 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_23 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_24 : Ref sig .tc := ⟨.hbm, 195, rfl⟩
abbrev main_v155 : Ref sig .tc := ⟨.hbm, 196, rfl⟩
abbrev main_cst_25 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_26 : Ref sig .tc := ⟨.hbm, 204, rfl⟩
abbrev main_v162 : Ref sig .tc := ⟨.hbm, 205, rfl⟩
abbrev main_cst_27 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_28 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_29 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_cst_30 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_31 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_call0_v0 : Ref sig .tc := ⟨.hbm, 248, rfl⟩
abbrev main_call0_v1 : Ref sig .tc := ⟨.hbm, 249, rfl⟩
abbrev main_call0_v2 : Ref sig .tc := ⟨.hbm, 250, rfl⟩
abbrev main_call0_v3 : Ref sig .tc := ⟨.hbm, 251, rfl⟩
abbrev main_call0_v4 : Ref sig .tc := ⟨.hbm, 252, rfl⟩
abbrev main_v200 : Ref sig .tc := ⟨.hbm, 253, rfl⟩
abbrev main_cst_32 : Ref sig .tc := ⟨.hbm, 254, rfl⟩
abbrev main_v201 : Ref sig .tc := ⟨.hbm, 255, rfl⟩
abbrev main_cst_33 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_cst_34 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_35 : Ref sig .tc := ⟨.hbm, 269, rfl⟩
abbrev main_cst_36 : Ref sig .tc := ⟨.hbm, 270, rfl⟩
abbrev main_call1_v0 : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_v213 : Ref sig .tc := ⟨.hbm, 276, rfl⟩

abbrev nD : Nat := 1
abbrev τ : Topo := Topo.v7x

variable {F : FTy → Type} [FloatOps F]

class Facts₀ : Prop where
  reducesTo_S4096x1024_S1024_d0 : S4096x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  bcast_S_S512 : S_.BroadcastsInDim S512 (![] : Fin 0 → Fin S512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S256_d0 : S4096x256.ReducesTo [0] S256
  bcast_S_S256 : S_.BroadcastsInDim S256 (![] : Fin 0 → Fin S256.rank)
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S8192x1024_S1024_d0 : S8192x1024.ReducesTo [0] S1024
  bcast_S1x1024_S8192x1024_0_1 : S1x1024.BroadcastsInDim S8192x1024 (![0, 1] : Fin 2 → Fin S8192x1024.rank)
  bcast_S1x512_S8192x512_0_1 : S1x512.BroadcastsInDim S8192x512 (![0, 1] : Fin 2 → Fin S8192x512.rank)
  reducesTo_S8192x512_S512_d0 : S8192x512.ReducesTo [0] S512
  bcast_S1x256_S8192x256_0_1 : S1x256.BroadcastsInDim S8192x256 (![0, 1] : Fin 2 → Fin S8192x256.rank)
  reducesTo_S8192x256_S256_d0 : S8192x256.ReducesTo [0] S256
  bcast_S1x128_S8192x128_0_1 : S1x128.BroadcastsInDim S8192x128 (![0, 1] : Fin 2 → Fin S8192x128.rank)
  transposes_S8192x128_S128x8192_1_0 : S8192x128.Transposes [1, 0] S128x8192
  bcast_S_S4096x8192 : S_.BroadcastsInDim S4096x8192 (![] : Fin 0 → Fin S4096x8192.rank)
  reducesTo_S4096x128_S4096_d1 : S4096x128.ReducesTo [1] S4096
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  reducesTo_S8192x128_S8192_d1 : S8192x128.ReducesTo [1] S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  reducesTo_S4096x8192_S4096_d1 : S4096x8192.ReducesTo [1] S4096
  bcast_S_S4096 : S_.BroadcastsInDim S4096 (![] : Fin 0 → Fin S4096.rank)
  bcast_S_S4096x10 : S_.BroadcastsInDim S4096x10 (![] : Fin 0 → Fin S4096x10.rank)
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S4096x128_S128x8192_S4096x8192_1_0_0_1_n_n_wf : DotDims.WF S4096x128 S128x8192 S4096x8192 [1] [0] [0] [1] [] []
  dot_S4096x8192_S8192x10_S4096x10_1_0_0_1_n_n_wf : DotDims.WF S4096x8192 S8192x10 S4096x10 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf
def dot_S4096x8192_S8192x10_S4096x10_1_0_0_1_n_n : DotDims S4096x8192 S8192x10 S4096x10 where
  lhsContracting := [1]
  rhsContracting := [0]
  lhsNonContracting := [0]
  rhsNonContracting := [1]
  lhsBatch := []
  rhsBatch := []
  wf := dot_S4096x8192_S8192x10_S4096x10_1_0_0_1_n_n_wf

class Facts : Prop extends Facts₀ where

variable [Facts]
-- ==== Proof.Ref.RunChunk0.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops0 : List (HloOp τ sig (Elt F)) :=
  [ nullary main_cst (constant S_ .f32 0x00000000#32),
    binary main_arg0 main_cst main_v0 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    nullary main_cst_0 (constant S_ .f32 0x45800000#32),
    unary main_cst_0 main_v1 (broadcastInDim S1024 ![] bcast_S_S1024 : (⟨S_, .f32⟩ : BufTy).Contents (Elt F) → (⟨S1024, .f32⟩ : BufTy).Contents (Elt F)),
    binary main_v0 main_v1 main_v2 (Host.divf : (⟨S1024, .f32⟩ : BufTy).Contents (Elt F) → (⟨S1024, .f32⟩ : BufTy).Contents (Elt F) → (⟨S1024, .f32⟩ : BufTy).Contents (Elt F)),
    unary main_v2 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S4096x1024 ![0, 1] bcast_S1x1024_S4096x1024_0_1 : (⟨S1x1024, .f32⟩ : BufTy).Contents (Elt F) → (⟨S4096x1024, .f32⟩ : BufTy).Contents (Elt F)),
    binary main_arg0 main_v4 main_v5 (subf : (⟨S4096x1024, .f32⟩ : BufTy).Contents (Elt F) → (⟨S4096x1024, .f32⟩ : BufTy).Contents (Elt F) → (⟨S4096x1024, .f32⟩ : BufTy).Contents (Elt F)),
    binary main_v5 main_v5 main_v6 (mulf : (⟨S4096x1024, .f32⟩ : BufTy).Contents (Elt F) → (⟨S4096x1024, .f32⟩ : BufTy).Contents (Elt F) → (⟨S4096x1024, .f32⟩ : BufTy).Contents (Elt F)),
    nullary main_cst_1 (constant S_ .f32 0x00000000#32),
    binary main_v6 main_cst_1 main_v7 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    nullary main_cst_2 (constant S_ .f32 0x45800000#32),
    unary main_cst_2 main_v8 (broadcastInDim S1024 ![] bcast_S_S1024 : (⟨S_, .f32⟩ : BufTy).Contents (Elt F) → (⟨S1024, .f32⟩ : BufTy).Contents (Elt F)),
    binary main_v7 main_v8 main_v9 (Host.divf : (⟨S1024, .f32⟩ : BufTy).Contents (Elt F) → (⟨S1024, .f32⟩ : BufTy).Contents (Elt F) → (⟨S1024, .f32⟩ : BufTy).Contents (Elt F)),
    unary main_v2 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S4096x1024 ![0, 1] bcast_S1x1024_S4096x1024_0_1 : (⟨S1x1024, .f32⟩ : BufTy).Contents (Elt F) → (⟨S4096x1024, .f32⟩ : BufTy).Contents (Elt F)),
    binary main_arg0 main_v11 main_v12 (subf : (⟨S4096x1024, .f32⟩ : BufTy).Contents (Elt F) → (⟨S4096x1024, .f32⟩ : BufTy).Contents (Elt F) → (⟨S4096x1024, .f32⟩ : BufTy).Contents (Elt F)),
    unary main_arg9 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S4096x1024 ![0, 1] bcast_S1x1024_S4096x1024_0_1 : (⟨S1x1024, .f32⟩ : BufTy).Contents (Elt F) → (⟨S4096x1024, .f32⟩ : BufTy).Contents (Elt F)),
    binary main_v14 main_v12 main_v15 (mulf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x3727C5AC#32),
    unary main_cst_3 main_v16 (broadcastInDim S1024 ![] bcast_S_S1024 : (⟨S_, .f32⟩ : BufTy).Contents (Elt F) → (⟨S1024, .f32⟩ : BufTy).Contents (Elt F)),
    binary main_v9 main_v16 main_v17 (addf : (⟨S1024, .f32⟩ : BufTy).Contents (Elt F) → (⟨S1024, .f32⟩ : BufTy).Contents (Elt F) → (⟨S1024, .f32⟩ : BufTy).Contents (Elt F)),
    unary main_v17 main_v18 (Host.sqrt : (⟨S1024, .f32⟩ : BufTy).Contents (Elt F) → (⟨S1024, .f32⟩ : BufTy).Contents (Elt F)),
    unary main_v18 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S4096x1024 ![0, 1] bcast_S1x1024_S4096x1024_0_1 : (⟨S1x1024, .f32⟩ : BufTy).Contents (Elt F) → (⟨S4096x1024, .f32⟩ : BufTy).Contents (Elt F)),
    binary main_v15 main_v20 main_v21 (Host.divf : (⟨S4096x1024, .f32⟩ : BufTy).Contents (Elt F) → (⟨S4096x1024, .f32⟩ : BufTy).Contents (Elt F) → (⟨S4096x1024, .f32⟩ : BufTy).Contents (Elt F)),
    unary main_arg10 main_v22 (broadcastInDim S1x1024 ![1] bcast_S1024_S1x1024_1 : (⟨S1024, .f32⟩ : BufTy).Contents (Elt F) → (⟨S1x1024, .f32⟩ : BufTy).Contents (Elt F)),
    unary main_v22 main_v23 (broadcastInDim S4096x1024 ![0, 1] bcast_S1x1024_S4096x1024_0_1 : (⟨S1x1024, .f32⟩ : BufTy).Contents (Elt F) → (⟨S4096x1024, .f32⟩ : BufTy).Contents (Elt F)),
    binary main_v21 main_v23 main_v24 (addf : (⟨S4096x1024, .f32⟩ : BufTy).Contents (Elt F) → (⟨S4096x1024, .f32⟩ : BufTy).Contents (Elt F) → (⟨S4096x1024, .f32⟩ : BufTy).Contents (Elt F)),
    unary main_arg3 main_v25 ((transpose S1024x512 [1, 0] · transposes_S512x1024_S1024x512_1_0) : (⟨S512x1024, .f32⟩ : BufTy).Contents (Elt F) → (⟨S1024x512, .f32⟩ : BufTy).Contents (Elt F)),
    binary main_v24 main_v25 main_v26 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg4 main_v27 (broadcastInDim S1x512 ![1] bcast_S512_S1x512_1 : (⟨S512, .f32⟩ : BufTy).Contents (Elt F) → (⟨S1x512, .f32⟩ : BufTy).Contents (Elt F)),
    unary main_v27 main_v28 (broadcastInDim S4096x512 ![0, 1] bcast_S1x512_S4096x512_0_1 : (⟨S1x512, .f32⟩ : BufTy).Contents (Elt F) → (⟨S4096x512, .f32⟩ : BufTy).Contents (Elt F)),
    binary main_v26 main_v28 main_v29 (addf : (⟨S4096x512, .f32⟩ : BufTy).Contents (Elt F) → (⟨S4096x512, .f32⟩ : BufTy).Contents (Elt F) → (⟨S4096x512, .f32⟩ : BufTy).Contents (Elt F)),
    unary main_v29 main_v30 (Host.tanh : (⟨S4096x512, .f32⟩ : BufTy).Contents (Elt F) → (⟨S4096x512, .f32⟩ : BufTy).Contents (Elt F)) ]

theorem ops0_sub : (ops0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops0_fresh : ∀ op ∈ (ops0 : List (HloOp τ sig (Elt F))), op.fresh = ∅ := by
  intro _ h; (repeat (cases h with | head => rfl | tail _ h => ?_)); exact nomatch h

abbrev ops0_W : List (Ref sig .tc) := [main_cst, main_v0, main_cst_0, main_v1, main_v2, main_v3, main_v4, main_v5, main_v6, main_cst_1, main_v7, main_cst_2, main_v8, main_v9, main_v10, main_v11, main_v12, main_v13, main_v14, main_v15, main_cst_3, main_v16, main_v17, main_v18, main_v19, main_v20, main_v21, main_v22, main_v23, main_v24, main_v25, main_v26, main_v27, main_v28, main_v29, main_v30]

theorem ops0_writes : (ops0 : List (HloOp τ sig (Elt F))).Forall fun op => op.writes ⊆ (ops0_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops0_keep (V : Valuation τ sig (Elt F)) (r : Ref sig .tc) (h : r ∉ ops0_W) :
    after ops0 V (Proc.devRef .tc r) = V (Proc.devRef .tc r) :=
  after_of_writes_sub ops0 V ops0_writes h

theorem chunk0_main_v30 (V : Valuation τ sig (Elt F)) (x0 x3 x4 x9 x10)
    (h_main_arg0 : V (Proc.devRef .tc main_arg0) = x0)
    (h_main_arg9 : V (Proc.devRef .tc main_arg9) = x9)
    (h_main_arg10 : V (Proc.devRef .tc main_arg10) = x10)
    (h_main_arg3 : V (Proc.devRef .tc main_arg3) = x3)
    (h_main_arg4 : V (Proc.devRef .tc main_arg4) = x4) :
    after ops0 V (Proc.devRef .tc main_v30) = val_main_v30 (F := F) x0 x3 x4 x9 x10 := by
  simp only [ops0]
  after_results_simp
  simp only [h_main_arg0, h_main_arg9, h_main_arg10, h_main_arg3, h_main_arg4]
  rfl

end Cert.ReferenceIdeal.HandRun

end
-- ==== Proof.Ref.RunChunk1.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops1 : List (HloOp τ sig (Elt F)) :=
  [ nullary main_cst_4 (constant S_ .f32 0x00000000#32),
    binary main_v30 main_cst_4 main_v31 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    nullary main_cst_5 (constant S_ .f32 0x45800000#32),
    unary main_cst_5 main_v32 (broadcastInDim S512 ![] bcast_S_S512 : (⟨S_, .f32⟩ : BufTy).Contents (Elt F) → (⟨S512, .f32⟩ : BufTy).Contents (Elt F)),
    binary main_v31 main_v32 main_v33 (Host.divf : (⟨S512, .f32⟩ : BufTy).Contents (Elt F) → (⟨S512, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    unary main_v34 main_v35 (broadcastInDim S4096x512 ![0, 1] bcast_S1x512_S4096x512_0_1 : (⟨S1x512, .f32⟩ : BufTy).Contents (Elt F) → (⟨S4096x512, .f32⟩ : BufTy).Contents (Elt F)),
    binary main_v30 main_v35 main_v36 (subf : (⟨S4096x512, .f32⟩ : BufTy).Contents (Elt F) → (⟨S4096x512, .f32⟩ : BufTy).Contents (Elt F) → (⟨S4096x512, .f32⟩ : BufTy).Contents (Elt F)),
    binary main_v36 main_v36 main_v37 (mulf : (⟨S4096x512, .f32⟩ : BufTy).Contents (Elt F) → (⟨S4096x512, .f32⟩ : BufTy).Contents (Elt F) → (⟨S4096x512, .f32⟩ : BufTy).Contents (Elt F)),
    nullary main_cst_6 (constant S_ .f32 0x00000000#32),
    binary main_v37 main_cst_6 main_v38 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    nullary main_cst_7 (constant S_ .f32 0x45800000#32),
    unary main_cst_7 main_v39 (broadcastInDim S512 ![] bcast_S_S512 : (⟨S_, .f32⟩ : BufTy).Contents (Elt F) → (⟨S512, .f32⟩ : BufTy).Contents (Elt F)),
    binary main_v38 main_v39 main_v40 (Host.divf : (⟨S512, .f32⟩ : BufTy).Contents (Elt F) → (⟨S512, .f32⟩ : BufTy).Contents (Elt F) → (⟨S512, .f32⟩ : BufTy).Contents (Elt F)),
    unary main_v33 main_v41 (broadcastInDim S1x512 ![1] bcast_S512_S1x512_1 : (⟨S512, .f32⟩ : BufTy).Contents (Elt F) → (⟨S1x512, .f32⟩ : BufTy).Contents (Elt F)),
    unary main_v41 main_v42 (broadcastInDim S4096x512 ![0, 1] bcast_S1x512_S4096x512_0_1 : (⟨S1x512, .f32⟩ : BufTy).Contents (Elt F) → (⟨S4096x512, .f32⟩ : BufTy).Contents (Elt F)),
    binary main_v30 main_v42 main_v43 (subf : (⟨S4096x512, .f32⟩ : BufTy).Contents (Elt F) → (⟨S4096x512, .f32⟩ : BufTy).Contents (Elt F) → (⟨S4096x512, .f32⟩ : BufTy).Contents (Elt F)),
    unary main_arg11 main_v44 (broadcastInDim S1x512 ![1] bcast_S512_S1x512_1 : (⟨S512, .f32⟩ : BufTy).Contents (Elt F) → (⟨S1x512, .f32⟩ : BufTy).Contents (Elt F)),
    unary main_v44 main_v45 (broadcastInDim S4096x512 ![0, 1] bcast_S1x512_S4096x512_0_1 : (⟨S1x512, .f32⟩ : BufTy).Contents (Elt F) → (⟨S4096x512, .f32⟩ : BufTy).Contents (Elt F)),
    binary main_v45 main_v43 main_v46 (mulf : (⟨S4096x512, .f32⟩ : BufTy).Contents (Elt F) → (⟨S4096x512, .f32⟩ : BufTy).Contents (Elt F) → (⟨S4096x512, .f32⟩ : BufTy).Contents (Elt F)),
    nullary main_cst_8 (constant S_ .f32 0x3727C5AC#32),
    unary main_cst_8 main_v47 (broadcastInDim S512 ![] bcast_S_S512 : (⟨S_, .f32⟩ : BufTy).Contents (Elt F) → (⟨S512, .f32⟩ : BufTy).Contents (Elt F)),
    binary main_v40 main_v47 main_v48 (addf : (⟨S512, .f32⟩ : BufTy).Contents (Elt F) → (⟨S512, .f32⟩ : BufTy).Contents (Elt F) → (⟨S512, .f32⟩ : BufTy).Contents (Elt F)),
    unary main_v48 main_v49 (Host.sqrt : (⟨S512, .f32⟩ : BufTy).Contents (Elt F) → (⟨S512, .f32⟩ : BufTy).Contents (Elt F)),
    unary main_v49 main_v50 (broadcastInDim S1x512 ![1] bcast_S512_S1x512_1 : (⟨S512, .f32⟩ : BufTy).Contents (Elt F) → (⟨S1x512, .f32⟩ : BufTy).Contents (Elt F)),
    unary main_v50 main_v51 (broadcastInDim S4096x512 ![0, 1] bcast_S1x512_S4096x512_0_1 : (⟨S1x512, .f32⟩ : BufTy).Contents (Elt F) → (⟨S4096x512, .f32⟩ : BufTy).Contents (Elt F)),
    binary main_v46 main_v51 main_v52 (Host.divf : (⟨S4096x512, .f32⟩ : BufTy).Contents (Elt F) → (⟨S4096x512, .f32⟩ : BufTy).Contents (Elt F) → (⟨S4096x512, .f32⟩ : BufTy).Contents (Elt F)),
    unary main_arg12 main_v53 (broadcastInDim S1x512 ![1] bcast_S512_S1x512_1 : (⟨S512, .f32⟩ : BufTy).Contents (Elt F) → (⟨S1x512, .f32⟩ : BufTy).Contents (Elt F)),
    unary main_v53 main_v54 (broadcastInDim S4096x512 ![0, 1] bcast_S1x512_S4096x512_0_1 : (⟨S1x512, .f32⟩ : BufTy).Contents (Elt F) → (⟨S4096x512, .f32⟩ : BufTy).Contents (Elt F)),
    binary main_v52 main_v54 main_v55 (addf : (⟨S4096x512, .f32⟩ : BufTy).Contents (Elt F) → (⟨S4096x512, .f32⟩ : BufTy).Contents (Elt F) → (⟨S4096x512, .f32⟩ : BufTy).Contents (Elt F)),
    unary main_arg5 main_v56 ((transpose S512x256 [1, 0] · transposes_S256x512_S512x256_1_0) : (⟨S256x512, .f32⟩ : BufTy).Contents (Elt F) → (⟨S512x256, .f32⟩ : BufTy).Contents (Elt F)),
    binary main_v55 main_v56 main_v57 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg6 main_v58 (broadcastInDim S1x256 ![1] bcast_S256_S1x256_1 : (⟨S256, .f32⟩ : BufTy).Contents (Elt F) → (⟨S1x256, .f32⟩ : BufTy).Contents (Elt F)),
    unary main_v58 main_v59 (broadcastInDim S4096x256 ![0, 1] bcast_S1x256_S4096x256_0_1 : (⟨S1x256, .f32⟩ : BufTy).Contents (Elt F) → (⟨S4096x256, .f32⟩ : BufTy).Contents (Elt F)),
    binary main_v57 main_v59 main_v60 (addf : (⟨S4096x256, .f32⟩ : BufTy).Contents (Elt F) → (⟨S4096x256, .f32⟩ : BufTy).Contents (Elt F) → (⟨S4096x256, .f32⟩ : BufTy).Contents (Elt F)),
    unary main_v60 main_v61 (Host.tanh : (⟨S4096x256, .f32⟩ : BufTy).Contents (Elt F) → (⟨S4096x256, .f32⟩ : BufTy).Contents (Elt F)) ]

theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops1_fresh : ∀ op ∈ (ops1 : List (HloOp τ sig (Elt F))), op.fresh = ∅ := by
  intro _ h; (repeat (cases h with | head => rfl | tail _ h => ?_)); exact nomatch h

abbrev ops1_W : List (Ref sig .tc) := [main_cst_4, main_v31, main_cst_5, main_v32, main_v33, main_v34, main_v35, main_v36, main_v37, main_cst_6, main_v38, main_cst_7, main_v39, main_v40, main_v41, main_v42, main_v43, main_v44, main_v45, main_v46, main_cst_8, main_v47, main_v48, main_v49, main_v50, main_v51, main_v52, main_v53, main_v54, main_v55, main_v56, main_v57, main_v58, main_v59, main_v60, main_v61]

theorem ops1_writes : (ops1 : List (HloOp τ sig (Elt F))).Forall fun op => op.writes ⊆ (ops1_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops1_keep (V : Valuation τ sig (Elt F)) (r : Ref sig .tc) (h : r ∉ ops1_W) :
    after ops1 V (Proc.devRef .tc r) = V (Proc.devRef .tc r) :=
  after_of_writes_sub ops1 V ops1_writes h

theorem chunk1_main_v61 (V : Valuation τ sig (Elt F)) (x0 x3 x4 x5 x6 x9 x10 x11 x12)
    (h_main_v30 : V (Proc.devRef .tc main_v30) = val_main_v30 (F := F) x0 x3 x4 x9 x10)
    (h_main_arg11 : V (Proc.devRef .tc main_arg11) = x11)
    (h_main_arg12 : V (Proc.devRef .tc main_arg12) = x12)
    (h_main_arg5 : V (Proc.devRef .tc main_arg5) = x5)
    (h_main_arg6 : V (Proc.devRef .tc main_arg6) = x6) :
    after ops1 V (Proc.devRef .tc main_v61) = val_main_v61 (F := F) x0 x3 x4 x5 x6 x9 x10 x11 x12 := by
  simp only [ops1]
  after_results_simp
  simp only [h_main_v30, h_main_arg11, h_main_arg12, h_main_arg5, h_main_arg6]
  rfl

end Cert.ReferenceIdeal.HandRun

end
-- ==== Proof.Ref.RunChunk2.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops2 : List (HloOp τ sig (Elt F)) :=
  [ nullary main_cst_9 (constant S_ .f32 0x00000000#32),
    binary main_v61 main_cst_9 main_v62 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_10 (constant S_ .f32 0x45800000#32),
    unary main_cst_10 main_v63 (broadcastInDim S256 ![] bcast_S_S256 : (⟨S_, .f32⟩ : BufTy).Contents (Elt F) → (⟨S256, .f32⟩ : BufTy).Contents (Elt F)),
    binary main_v62 main_v63 main_v64 (Host.divf : (⟨S256, .f32⟩ : BufTy).Contents (Elt F) → (⟨S256, .f32⟩ : BufTy).Contents (Elt F) → (⟨S256, .f32⟩ : BufTy).Contents (Elt F)),
    unary main_v64 main_v65 (broadcastInDim S1x256 ![1] bcast_S256_S1x256_1 : (⟨S256, .f32⟩ : BufTy).Contents (Elt F) → (⟨S1x256, .f32⟩ : BufTy).Contents (Elt F)),
    unary main_v65 main_v66 (broadcastInDim S4096x256 ![0, 1] bcast_S1x256_S4096x256_0_1 : (⟨S1x256, .f32⟩ : BufTy).Contents (Elt F) → (⟨S4096x256, .f32⟩ : BufTy).Contents (Elt F)),
    binary main_v61 main_v66 main_v67 (subf : (⟨S4096x256, .f32⟩ : BufTy).Contents (Elt F) → (⟨S4096x256, .f32⟩ : BufTy).Contents (Elt F) → (⟨S4096x256, .f32⟩ : BufTy).Contents (Elt F)),
    binary main_v67 main_v67 main_v68 (mulf : (⟨S4096x256, .f32⟩ : BufTy).Contents (Elt F) → (⟨S4096x256, .f32⟩ : BufTy).Contents (Elt F) → (⟨S4096x256, .f32⟩ : BufTy).Contents (Elt F)),
    nullary main_cst_11 (constant S_ .f32 0x00000000#32),
    binary main_v68 main_cst_11 main_v69 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_12 (constant S_ .f32 0x45800000#32),
    unary main_cst_12 main_v70 (broadcastInDim S256 ![] bcast_S_S256 : (⟨S_, .f32⟩ : BufTy).Contents (Elt F) → (⟨S256, .f32⟩ : BufTy).Contents (Elt F)),
    binary main_v69 main_v70 main_v71 (Host.divf : (⟨S256, .f32⟩ : BufTy).Contents (Elt F) → (⟨S256, .f32⟩ : BufTy).Contents (Elt F) → (⟨S256, .f32⟩ : BufTy).Contents (Elt F)),
    unary main_v64 main_v72 (broadcastInDim S1x256 ![1] bcast_S256_S1x256_1 : (⟨S256, .f32⟩ : BufTy).Contents (Elt F) → (⟨S1x256, .f32⟩ : BufTy).Contents (Elt F)),
    unary main_v72 main_v73 (broadcastInDim S4096x256 ![0, 1] bcast_S1x256_S4096x256_0_1 : (⟨S1x256, .f32⟩ : BufTy).Contents (Elt F) → (⟨S4096x256, .f32⟩ : BufTy).Contents (Elt F)),
    binary main_v61 main_v73 main_v74 (subf : (⟨S4096x256, .f32⟩ : BufTy).Contents (Elt F) → (⟨S4096x256, .f32⟩ : BufTy).Contents (Elt F) → (⟨S4096x256, .f32⟩ : BufTy).Contents (Elt F)),
    unary main_arg13 main_v75 (broadcastInDim S1x256 ![1] bcast_S256_S1x256_1 : (⟨S256, .f32⟩ : BufTy).Contents (Elt F) → (⟨S1x256, .f32⟩ : BufTy).Contents (Elt F)),
    unary main_v75 main_v76 (broadcastInDim S4096x256 ![0, 1] bcast_S1x256_S4096x256_0_1 : (⟨S1x256, .f32⟩ : BufTy).Contents (Elt F) → (⟨S4096x256, .f32⟩ : BufTy).Contents (Elt F)),
    binary main_v76 main_v74 main_v77 (mulf : (⟨S4096x256, .f32⟩ : BufTy).Contents (Elt F) → (⟨S4096x256, .f32⟩ : BufTy).Contents (Elt F) → (⟨S4096x256, .f32⟩ : BufTy).Contents (Elt F)),
    nullary main_cst_13 (constant S_ .f32 0x3727C5AC#32),
    unary main_cst_13 main_v78 (broadcastInDim S256 ![] bcast_S_S256 : (⟨S_, .f32⟩ : BufTy).Contents (Elt F) → (⟨S256, .f32⟩ : BufTy).Contents (Elt F)),
    binary main_v71 main_v78 main_v79 (addf : (⟨S256, .f32⟩ : BufTy).Contents (Elt F) → (⟨S256, .f32⟩ : BufTy).Contents (Elt F) → (⟨S256, .f32⟩ : BufTy).Contents (Elt F)),
    unary main_v79 main_v80 (Host.sqrt : (⟨S256, .f32⟩ : BufTy).Contents (Elt F) → (⟨S256, .f32⟩ : BufTy).Contents (Elt F)),
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S4096x256 ![0, 1] bcast_S1x256_S4096x256_0_1 : (⟨S1x256, .f32⟩ : BufTy).Contents (Elt F) → (⟨S4096x256, .f32⟩ : BufTy).Contents (Elt F)),
    binary main_v77 main_v82 main_v83 (Host.divf : (⟨S4096x256, .f32⟩ : BufTy).Contents (Elt F) → (⟨S4096x256, .f32⟩ : BufTy).Contents (Elt F) → (⟨S4096x256, .f32⟩ : BufTy).Contents (Elt F)),
    unary main_arg14 main_v84 (broadcastInDim S1x256 ![1] bcast_S256_S1x256_1 : (⟨S256, .f32⟩ : BufTy).Contents (Elt F) → (⟨S1x256, .f32⟩ : BufTy).Contents (Elt F)),
    unary main_v84 main_v85 (broadcastInDim S4096x256 ![0, 1] bcast_S1x256_S4096x256_0_1 : (⟨S1x256, .f32⟩ : BufTy).Contents (Elt F) → (⟨S4096x256, .f32⟩ : BufTy).Contents (Elt F)),
    binary main_v83 main_v85 main_v86 (addf : (⟨S4096x256, .f32⟩ : BufTy).Contents (Elt F) → (⟨S4096x256, .f32⟩ : BufTy).Contents (Elt F) → (⟨S4096x256, .f32⟩ : BufTy).Contents (Elt F)),
    unary main_arg7 main_v87 ((transpose S256x128 [1, 0] · transposes_S128x256_S256x128_1_0) : (⟨S128x256, .f32⟩ : BufTy).Contents (Elt F) → (⟨S256x128, .f32⟩ : BufTy).Contents (Elt F)),
    binary main_v86 main_v87 main_v88 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg8 main_v89 (broadcastInDim S1x128 ![1] bcast_S128_S1x128_1 : (⟨S128, .f32⟩ : BufTy).Contents (Elt F) → (⟨S1x128, .f32⟩ : BufTy).Contents (Elt F)),
    unary main_v89 main_v90 (broadcastInDim S4096x128 ![0, 1] bcast_S1x128_S4096x128_0_1 : (⟨S1x128, .f32⟩ : BufTy).Contents (Elt F) → (⟨S4096x128, .f32⟩ : BufTy).Contents (Elt F)),
    binary main_v88 main_v90 main_v91 (addf : (⟨S4096x128, .f32⟩ : BufTy).Contents (Elt F) → (⟨S4096x128, .f32⟩ : BufTy).Contents (Elt F) → (⟨S4096x128, .f32⟩ : BufTy).Contents (Elt F)),
    unary main_v91 main_v92 (Host.tanh : (⟨S4096x128, .f32⟩ : BufTy).Contents (Elt F) → (⟨S4096x128, .f32⟩ : BufTy).Contents (Elt F)) ]

theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops2_fresh : ∀ op ∈ (ops2 : List (HloOp τ sig (Elt F))), op.fresh = ∅ := by
  intro _ h; (repeat (cases h with | head => rfl | tail _ h => ?_)); exact nomatch h

abbrev ops2_W : List (Ref sig .tc) := [main_cst_9, main_v62, main_cst_10, main_v63, main_v64, main_v65, main_v66, main_v67, main_v68, main_cst_11, main_v69, main_cst_12, main_v70, main_v71, main_v72, main_v73, main_v74, main_v75, main_v76, main_v77, main_cst_13, main_v78, main_v79, main_v80, main_v81, main_v82, main_v83, main_v84, main_v85, main_v86, main_v87, main_v88, main_v89, main_v90, main_v91, main_v92]

theorem ops2_writes : (ops2 : List (HloOp τ sig (Elt F))).Forall fun op => op.writes ⊆ (ops2_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops2_keep (V : Valuation τ sig (Elt F)) (r : Ref sig .tc) (h : r ∉ ops2_W) :
    after ops2 V (Proc.devRef .tc r) = V (Proc.devRef .tc r) :=
  after_of_writes_sub ops2 V ops2_writes h

theorem chunk2_main_v92 (V : Valuation τ sig (Elt F)) (x0 x3 x4 x5 x6 x7 x8 x9 x10 x11 x12 x13 x14)
    (h_main_v61 : V (Proc.devRef .tc main_v61) = val_main_v61 (F := F) x0 x3 x4 x5 x6 x9 x10 x11 x12)
    (h_main_arg13 : V (Proc.devRef .tc main_arg13) = x13)
    (h_main_arg14 : V (Proc.devRef .tc main_arg14) = x14)
    (h_main_arg7 : V (Proc.devRef .tc main_arg7) = x7)
    (h_main_arg8 : V (Proc.devRef .tc main_arg8) = x8) :
    after ops2 V (Proc.devRef .tc main_v92) = val_main_v92 (F := F) x0 x3 x4 x5 x6 x7 x8 x9 x10 x11 x12 x13 x14 := by
  simp only [ops2]
  after_results_simp
  simp only [h_main_v61, h_main_arg13, h_main_arg14, h_main_arg7, h_main_arg8]
  rfl

end Cert.ReferenceIdeal.HandRun

end
-- ==== Proof.Ref.RunChunk3.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops3 : List (HloOp τ sig (Elt F)) :=
  [ nullary main_cst_14 (constant S_ .f32 0x00000000#32),
    binary main_arg1 main_cst_14 main_v93 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_15 (constant S_ .f32 0x46000000#32),
    unary main_cst_15 main_v94 (broadcastInDim S1024 ![] bcast_S_S1024 : (⟨S_, .f32⟩ : BufTy).Contents (Elt F) → (⟨S1024, .f32⟩ : BufTy).Contents (Elt F)),
    binary main_v93 main_v94 main_v95 (Host.divf : (⟨S1024, .f32⟩ : BufTy).Contents (Elt F) → (⟨S1024, .f32⟩ : BufTy).Contents (Elt F) → (⟨S1024, .f32⟩ : BufTy).Contents (Elt F)),
    unary main_v95 main_v96 (broadcastInDim S1x1024 ![1] bcast_S1024_S1x1024_1 : (⟨S1024, .f32⟩ : BufTy).Contents (Elt F) → (⟨S1x1024, .f32⟩ : BufTy).Contents (Elt F)),
    unary main_v96 main_v97 (broadcastInDim S8192x1024 ![0, 1] bcast_S1x1024_S8192x1024_0_1 : (⟨S1x1024, .f32⟩ : BufTy).Contents (Elt F) → (⟨S8192x1024, .f32⟩ : BufTy).Contents (Elt F)),
    binary main_arg1 main_v97 main_v98 (subf : (⟨S8192x1024, .f32⟩ : BufTy).Contents (Elt F) → (⟨S8192x1024, .f32⟩ : BufTy).Contents (Elt F) → (⟨S8192x1024, .f32⟩ : BufTy).Contents (Elt F)),
    binary main_v98 main_v98 main_v99 (mulf : (⟨S8192x1024, .f32⟩ : BufTy).Contents (Elt F) → (⟨S8192x1024, .f32⟩ : BufTy).Contents (Elt F) → (⟨S8192x1024, .f32⟩ : BufTy).Contents (Elt F)),
    nullary main_cst_16 (constant S_ .f32 0x00000000#32),
    binary main_v99 main_cst_16 main_v100 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_17 (constant S_ .f32 0x46000000#32),
    unary main_cst_17 main_v101 (broadcastInDim S1024 ![] bcast_S_S1024 : (⟨S_, .f32⟩ : BufTy).Contents (Elt F) → (⟨S1024, .f32⟩ : BufTy).Contents (Elt F)),
    binary main_v100 main_v101 main_v102 (Host.divf : (⟨S1024, .f32⟩ : BufTy).Contents (Elt F) → (⟨S1024, .f32⟩ : BufTy).Contents (Elt F) → (⟨S1024, .f32⟩ : BufTy).Contents (Elt F)),
    unary main_v95 main_v103 (broadcastInDim S1x1024 ![1] bcast_S1024_S1x1024_1 : (⟨S1024, .f32⟩ : BufTy).Contents (Elt F) → (⟨S1x1024, .f32⟩ : BufTy).Contents (Elt F)),
    unary main_v103 main_v104 (broadcastInDim S8192x1024 ![0, 1] bcast_S1x1024_S8192x1024_0_1 : (⟨S1x1024, .f32⟩ : BufTy).Contents (Elt F) → (⟨S8192x1024, .f32⟩ : BufTy).Contents (Elt F)),
    binary main_arg1 main_v104 main_v105 (subf : (⟨S8192x1024, .f32⟩ : BufTy).Contents (Elt F) → (⟨S8192x1024, .f32⟩ : BufTy).Contents (Elt F) → (⟨S8192x1024, .f32⟩ : BufTy).Contents (Elt F)),
    unary main_arg9 main_v106 (broadcastInDim S1x1024 ![1] bcast_S1024_S1x1024_1 : (⟨S1024, .f32⟩ : BufTy).Contents (Elt F) → (⟨S1x1024, .f32⟩ : BufTy).Contents (Elt F)),
    unary main_v106 main_v107 (broadcastInDim S8192x1024 ![0, 1] bcast_S1x1024_S8192x1024_0_1 : (⟨S1x1024, .f32⟩ : BufTy).Contents (Elt F) → (⟨S8192x1024, .f32⟩ : BufTy).Contents (Elt F)),
    binary main_v107 main_v105 main_v108 (mulf : (⟨S8192x1024, .f32⟩ : BufTy).Contents (Elt F) → (⟨S8192x1024, .f32⟩ : BufTy).Contents (Elt F) → (⟨S8192x1024, .f32⟩ : BufTy).Contents (Elt F)),
    nullary main_cst_18 (constant S_ .f32 0x3727C5AC#32),
    unary main_cst_18 main_v109 (broadcastInDim S1024 ![] bcast_S_S1024 : (⟨S_, .f32⟩ : BufTy).Contents (Elt F) → (⟨S1024, .f32⟩ : BufTy).Contents (Elt F)),
    binary main_v102 main_v109 main_v110 (addf : (⟨S1024, .f32⟩ : BufTy).Contents (Elt F) → (⟨S1024, .f32⟩ : BufTy).Contents (Elt F) → (⟨S1024, .f32⟩ : BufTy).Contents (Elt F)),
    unary main_v110 main_v111 (Host.sqrt : (⟨S1024, .f32⟩ : BufTy).Contents (Elt F) → (⟨S1024, .f32⟩ : BufTy).Contents (Elt F)),
    unary main_v111 main_v112 (broadcastInDim S1x1024 ![1] bcast_S1024_S1x1024_1 : (⟨S1024, .f32⟩ : BufTy).Contents (Elt F) → (⟨S1x1024, .f32⟩ : BufTy).Contents (Elt F)),
    unary main_v112 main_v113 (broadcastInDim S8192x1024 ![0, 1] bcast_S1x1024_S8192x1024_0_1 : (⟨S1x1024, .f32⟩ : BufTy).Contents (Elt F) → (⟨S8192x1024, .f32⟩ : BufTy).Contents (Elt F)),
    binary main_v108 main_v113 main_v114 (Host.divf : (⟨S8192x1024, .f32⟩ : BufTy).Contents (Elt F) → (⟨S8192x1024, .f32⟩ : BufTy).Contents (Elt F) → (⟨S8192x1024, .f32⟩ : BufTy).Contents (Elt F)),
    unary main_arg10 main_v115 (broadcastInDim S1x1024 ![1] bcast_S1024_S1x1024_1 : (⟨S1024, .f32⟩ : BufTy).Contents (Elt F) → (⟨S1x1024, .f32⟩ : BufTy).Contents (Elt F)),
    unary main_v115 main_v116 (broadcastInDim S8192x1024 ![0, 1] bcast_S1x1024_S8192x1024_0_1 : (⟨S1x1024, .f32⟩ : BufTy).Contents (Elt F) → (⟨S8192x1024, .f32⟩ : BufTy).Contents (Elt F)),
    binary main_v114 main_v116 main_v117 (addf : (⟨S8192x1024, .f32⟩ : BufTy).Contents (Elt F) → (⟨S8192x1024, .f32⟩ : BufTy).Contents (Elt F) → (⟨S8192x1024, .f32⟩ : BufTy).Contents (Elt F)),
    unary main_arg3 main_v118 ((transpose S1024x512 [1, 0] · transposes_S512x1024_S1024x512_1_0) : (⟨S512x1024, .f32⟩ : BufTy).Contents (Elt F) → (⟨S1024x512, .f32⟩ : BufTy).Contents (Elt F)),
    binary main_v117 main_v118 main_v119 ((fun l r => Host.dotGeneral dot_S8192x1024_S1024x512_S8192x512_1_0_0_1_n_n none l r) : (⟨S8192x1024, .f32⟩ : BufTy).Contents (Elt F) → (⟨S1024x512, .f32⟩ : BufTy).Contents (Elt F) → (⟨S8192x512, .f32⟩ : BufTy).Contents (Elt F)),
    unary main_arg4 main_v120 (broadcastInDim S1x512 ![1] bcast_S512_S1x512_1 : (⟨S512, .f32⟩ : BufTy).Contents (Elt F) → (⟨S1x512, .f32⟩ : BufTy).Contents (Elt F)),
    unary main_v120 main_v121 (broadcastInDim S8192x512 ![0, 1] bcast_S1x512_S8192x512_0_1 : (⟨S1x512, .f32⟩ : BufTy).Contents (Elt F) → (⟨S8192x512, .f32⟩ : BufTy).Contents (Elt F)),
    binary main_v119 main_v121 main_v122 (addf : (⟨S8192x512, .f32⟩ : BufTy).Contents (Elt F) → (⟨S8192x512, .f32⟩ : BufTy).Contents (Elt F) → (⟨S8192x512, .f32⟩ : BufTy).Contents (Elt F)),
    unary main_v122 main_v123 (Host.tanh : (⟨S8192x512, .f32⟩ : BufTy).Contents (Elt F) → (⟨S8192x512, .f32⟩ : BufTy).Contents (Elt F)) ]

theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops3_fresh : ∀ op ∈ (ops3 : List (HloOp τ sig (Elt F))), op.fresh = ∅ := by
  intro _ h; (repeat (cases h with | head => rfl | tail _ h => ?_)); exact nomatch h

abbrev ops3_W : List (Ref sig .tc) := [main_cst_14, main_v93, main_cst_15, main_v94, main_v95, main_v96, main_v97, main_v98, main_v99, main_cst_16, main_v100, main_cst_17, main_v101, main_v102, main_v103, main_v104, main_v105, main_v106, main_v107, main_v108, main_cst_18, main_v109, main_v110, main_v111, main_v112, main_v113, main_v114, main_v115, main_v116, main_v117, main_v118, main_v119, main_v120, main_v121, main_v122, main_v123]

theorem ops3_writes : (ops3 : List (HloOp τ sig (Elt F))).Forall fun op => op.writes ⊆ (ops3_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops3_keep (V : Valuation τ sig (Elt F)) (r : Ref sig .tc) (h : r ∉ ops3_W) :
    after ops3 V (Proc.devRef .tc r) = V (Proc.devRef .tc r) :=
  after_of_writes_sub ops3 V ops3_writes h

theorem chunk3_main_v123 (V : Valuation τ sig (Elt F)) (x1 x3 x4 x9 x10)
    (h_main_arg1 : V (Proc.devRef .tc main_arg1) = x1)
    (h_main_arg9 : V (Proc.devRef .tc main_arg9) = x9)
    (h_main_arg10 : V (Proc.devRef .tc main_arg10) = x10)
    (h_main_arg3 : V (Proc.devRef .tc main_arg3) = x3)
    (h_main_arg4 : V (Proc.devRef .tc main_arg4) = x4) :
    after ops3 V (Proc.devRef .tc main_v123) = val_main_v123 (F := F) x1 x3 x4 x9 x10 := by
  simp only [ops3]
  after_results_simp
  simp only [h_main_arg1, h_main_arg9, h_main_arg10, h_main_arg3, h_main_arg4]
  rfl

end Cert.ReferenceIdeal.HandRun

end
-- ==== Proof.Ref.RunChunk4.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops4 : List (HloOp τ sig (Elt F)) :=
  [ nullary main_cst_19 (constant S_ .f32 0x00000000#32),
    binary main_v123 main_cst_19 main_v124 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_20 (constant S_ .f32 0x46000000#32),
    unary main_cst_20 main_v125 (broadcastInDim S512 ![] bcast_S_S512 : (⟨S_, .f32⟩ : BufTy).Contents (Elt F) → (⟨S512, .f32⟩ : BufTy).Contents (Elt F)),
    binary main_v124 main_v125 main_v126 (Host.divf : (⟨S512, .f32⟩ : BufTy).Contents (Elt F) → (⟨S512, .f32⟩ : BufTy).Contents (Elt F) → (⟨S512, .f32⟩ : BufTy).Contents (Elt F)),
    unary main_v126 main_v127 (broadcastInDim S1x512 ![1] bcast_S512_S1x512_1 : (⟨S512, .f32⟩ : BufTy).Contents (Elt F) → (⟨S1x512, .f32⟩ : BufTy).Contents (Elt F)),
    unary main_v127 main_v128 (broadcastInDim S8192x512 ![0, 1] bcast_S1x512_S8192x512_0_1 : (⟨S1x512, .f32⟩ : BufTy).Contents (Elt F) → (⟨S8192x512, .f32⟩ : BufTy).Contents (Elt F)),
    binary main_v123 main_v128 main_v129 (subf : (⟨S8192x512, .f32⟩ : BufTy).Contents (Elt F) → (⟨S8192x512, .f32⟩ : BufTy).Contents (Elt F) → (⟨S8192x512, .f32⟩ : BufTy).Contents (Elt F)),
    binary main_v129 main_v129 main_v130 (mulf : (⟨S8192x512, .f32⟩ : BufTy).Contents (Elt F) → (⟨S8192x512, .f32⟩ : BufTy).Contents (Elt F) → (⟨S8192x512, .f32⟩ : BufTy).Contents (Elt F)),
    nullary main_cst_21 (constant S_ .f32 0x00000000#32),
    binary main_v130 main_cst_21 main_v131 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_22 (constant S_ .f32 0x46000000#32),
    unary main_cst_22 main_v132 (broadcastInDim S512 ![] bcast_S_S512 : (⟨S_, .f32⟩ : BufTy).Contents (Elt F) → (⟨S512, .f32⟩ : BufTy).Contents (Elt F)),
    binary main_v131 main_v132 main_v133 (Host.divf : (⟨S512, .f32⟩ : BufTy).Contents (Elt F) → (⟨S512, .f32⟩ : BufTy).Contents (Elt F) → (⟨S512, .f32⟩ : BufTy).Contents (Elt F)),
    unary main_v126 main_v134 (broadcastInDim S1x512 ![1] bcast_S512_S1x512_1 : (⟨S512, .f32⟩ : BufTy).Contents (Elt F) → (⟨S1x512, .f32⟩ : BufTy).Contents (Elt F)),
    unary main_v134 main_v135 (broadcastInDim S8192x512 ![0, 1] bcast_S1x512_S8192x512_0_1 : (⟨S1x512, .f32⟩ : BufTy).Contents (Elt F) → (⟨S8192x512, .f32⟩ : BufTy).Contents (Elt F)),
    binary main_v123 main_v135 main_v136 (subf : (⟨S8192x512, .f32⟩ : BufTy).Contents (Elt F) → (⟨S8192x512, .f32⟩ : BufTy).Contents (Elt F) → (⟨S8192x512, .f32⟩ : BufTy).Contents (Elt F)),
    unary main_arg11 main_v137 (broadcastInDim S1x512 ![1] bcast_S512_S1x512_1 : (⟨S512, .f32⟩ : BufTy).Contents (Elt F) → (⟨S1x512, .f32⟩ : BufTy).Contents (Elt F)),
    unary main_v137 main_v138 (broadcastInDim S8192x512 ![0, 1] bcast_S1x512_S8192x512_0_1 : (⟨S1x512, .f32⟩ : BufTy).Contents (Elt F) → (⟨S8192x512, .f32⟩ : BufTy).Contents (Elt F)),
    binary main_v138 main_v136 main_v139 (mulf : (⟨S8192x512, .f32⟩ : BufTy).Contents (Elt F) → (⟨S8192x512, .f32⟩ : BufTy).Contents (Elt F) → (⟨S8192x512, .f32⟩ : BufTy).Contents (Elt F)),
    nullary main_cst_23 (constant S_ .f32 0x3727C5AC#32),
    unary main_cst_23 main_v140 (broadcastInDim S512 ![] bcast_S_S512 : (⟨S_, .f32⟩ : BufTy).Contents (Elt F) → (⟨S512, .f32⟩ : BufTy).Contents (Elt F)),
    binary main_v133 main_v140 main_v141 (addf : (⟨S512, .f32⟩ : BufTy).Contents (Elt F) → (⟨S512, .f32⟩ : BufTy).Contents (Elt F) → (⟨S512, .f32⟩ : BufTy).Contents (Elt F)),
    unary main_v141 main_v142 (Host.sqrt : (⟨S512, .f32⟩ : BufTy).Contents (Elt F) → (⟨S512, .f32⟩ : BufTy).Contents (Elt F)),
    unary main_v142 main_v143 (broadcastInDim S1x512 ![1] bcast_S512_S1x512_1 : (⟨S512, .f32⟩ : BufTy).Contents (Elt F) → (⟨S1x512, .f32⟩ : BufTy).Contents (Elt F)),
    unary main_v143 main_v144 (broadcastInDim S8192x512 ![0, 1] bcast_S1x512_S8192x512_0_1 : (⟨S1x512, .f32⟩ : BufTy).Contents (Elt F) → (⟨S8192x512, .f32⟩ : BufTy).Contents (Elt F)),
    binary main_v139 main_v144 main_v145 (Host.divf : (⟨S8192x512, .f32⟩ : BufTy).Contents (Elt F) → (⟨S8192x512, .f32⟩ : BufTy).Contents (Elt F) → (⟨S8192x512, .f32⟩ : BufTy).Contents (Elt F)),
    unary main_arg12 main_v146 (broadcastInDim S1x512 ![1] bcast_S512_S1x512_1 : (⟨S512, .f32⟩ : BufTy).Contents (Elt F) → (⟨S1x512, .f32⟩ : BufTy).Contents (Elt F)),
    unary main_v146 main_v147 (broadcastInDim S8192x512 ![0, 1] bcast_S1x512_S8192x512_0_1 : (⟨S1x512, .f32⟩ : BufTy).Contents (Elt F) → (⟨S8192x512, .f32⟩ : BufTy).Contents (Elt F)),
    binary main_v145 main_v147 main_v148 (addf : (⟨S8192x512, .f32⟩ : BufTy).Contents (Elt F) → (⟨S8192x512, .f32⟩ : BufTy).Contents (Elt F) → (⟨S8192x512, .f32⟩ : BufTy).Contents (Elt F)),
    unary main_arg5 main_v149 ((transpose S512x256 [1, 0] · transposes_S256x512_S512x256_1_0) : (⟨S256x512, .f32⟩ : BufTy).Contents (Elt F) → (⟨S512x256, .f32⟩ : BufTy).Contents (Elt F)),
    binary main_v148 main_v149 main_v150 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg6 main_v151 (broadcastInDim S1x256 ![1] bcast_S256_S1x256_1 : (⟨S256, .f32⟩ : BufTy).Contents (Elt F) → (⟨S1x256, .f32⟩ : BufTy).Contents (Elt F)),
    unary main_v151 main_v152 (broadcastInDim S8192x256 ![0, 1] bcast_S1x256_S8192x256_0_1 : (⟨S1x256, .f32⟩ : BufTy).Contents (Elt F) → (⟨S8192x256, .f32⟩ : BufTy).Contents (Elt F)),
    binary main_v150 main_v152 main_v153 (addf : (⟨S8192x256, .f32⟩ : BufTy).Contents (Elt F) → (⟨S8192x256, .f32⟩ : BufTy).Contents (Elt F) → (⟨S8192x256, .f32⟩ : BufTy).Contents (Elt F)),
    unary main_v153 main_v154 (Host.tanh : (⟨S8192x256, .f32⟩ : BufTy).Contents (Elt F) → (⟨S8192x256, .f32⟩ : BufTy).Contents (Elt F)) ]

theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops4_fresh : ∀ op ∈ (ops4 : List (HloOp τ sig (Elt F))), op.fresh = ∅ := by
  intro _ h; (repeat (cases h with | head => rfl | tail _ h => ?_)); exact nomatch h

abbrev ops4_W : List (Ref sig .tc) := [main_cst_19, main_v124, main_cst_20, main_v125, main_v126, main_v127, main_v128, main_v129, main_v130, main_cst_21, main_v131, main_cst_22, main_v132, main_v133, main_v134, main_v135, main_v136, main_v137, main_v138, main_v139, main_cst_23, main_v140, main_v141, main_v142, main_v143, main_v144, main_v145, main_v146, main_v147, main_v148, main_v149, main_v150, main_v151, main_v152, main_v153, main_v154]

theorem ops4_writes : (ops4 : List (HloOp τ sig (Elt F))).Forall fun op => op.writes ⊆ (ops4_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops4_keep (V : Valuation τ sig (Elt F)) (r : Ref sig .tc) (h : r ∉ ops4_W) :
    after ops4 V (Proc.devRef .tc r) = V (Proc.devRef .tc r) :=
  after_of_writes_sub ops4 V ops4_writes h

theorem chunk4_main_v154 (V : Valuation τ sig (Elt F)) (x1 x3 x4 x5 x6 x9 x10 x11 x12)
    (h_main_v123 : V (Proc.devRef .tc main_v123) = val_main_v123 (F := F) x1 x3 x4 x9 x10)
    (h_main_arg11 : V (Proc.devRef .tc main_arg11) = x11)
    (h_main_arg12 : V (Proc.devRef .tc main_arg12) = x12)
    (h_main_arg5 : V (Proc.devRef .tc main_arg5) = x5)
    (h_main_arg6 : V (Proc.devRef .tc main_arg6) = x6) :
    after ops4 V (Proc.devRef .tc main_v154) = val_main_v154 (F := F) x1 x3 x4 x5 x6 x9 x10 x11 x12 := by
  simp only [ops4]
  after_results_simp
  simp only [h_main_v123, h_main_arg11, h_main_arg12, h_main_arg5, h_main_arg6]
  rfl

end Cert.ReferenceIdeal.HandRun

end
-- ==== Proof.Ref.RunChunk5.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops5 : List (HloOp τ sig (Elt F)) :=
  [ nullary main_cst_24 (constant S_ .f32 0x00000000#32),
    binary main_v154 main_cst_24 main_v155 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    nullary main_cst_25 (constant S_ .f32 0x46000000#32),
    unary main_cst_25 main_v156 (broadcastInDim S256 ![] bcast_S_S256 : (⟨S_, .f32⟩ : BufTy).Contents (Elt F) → (⟨S256, .f32⟩ : BufTy).Contents (Elt F)),
    binary main_v155 main_v156 main_v157 (Host.divf : (⟨S256, .f32⟩ : BufTy).Contents (Elt F) → (⟨S256, .f32⟩ : BufTy).Contents (Elt F) → (⟨S256, .f32⟩ : BufTy).Contents (Elt F)),
    unary main_v157 main_v158 (broadcastInDim S1x256 ![1] bcast_S256_S1x256_1 : (⟨S256, .f32⟩ : BufTy).Contents (Elt F) → (⟨S1x256, .f32⟩ : BufTy).Contents (Elt F)),
    unary main_v158 main_v159 (broadcastInDim S8192x256 ![0, 1] bcast_S1x256_S8192x256_0_1 : (⟨S1x256, .f32⟩ : BufTy).Contents (Elt F) → (⟨S8192x256, .f32⟩ : BufTy).Contents (Elt F)),
    binary main_v154 main_v159 main_v160 (subf : (⟨S8192x256, .f32⟩ : BufTy).Contents (Elt F) → (⟨S8192x256, .f32⟩ : BufTy).Contents (Elt F) → (⟨S8192x256, .f32⟩ : BufTy).Contents (Elt F)),
    binary main_v160 main_v160 main_v161 (mulf : (⟨S8192x256, .f32⟩ : BufTy).Contents (Elt F) → (⟨S8192x256, .f32⟩ : BufTy).Contents (Elt F) → (⟨S8192x256, .f32⟩ : BufTy).Contents (Elt F)),
    nullary main_cst_26 (constant S_ .f32 0x00000000#32),
    binary main_v161 main_cst_26 main_v162 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    nullary main_cst_27 (constant S_ .f32 0x46000000#32),
    unary main_cst_27 main_v163 (broadcastInDim S256 ![] bcast_S_S256 : (⟨S_, .f32⟩ : BufTy).Contents (Elt F) → (⟨S256, .f32⟩ : BufTy).Contents (Elt F)),
    binary main_v162 main_v163 main_v164 (Host.divf : (⟨S256, .f32⟩ : BufTy).Contents (Elt F) → (⟨S256, .f32⟩ : BufTy).Contents (Elt F) → (⟨S256, .f32⟩ : BufTy).Contents (Elt F)),
    unary main_v157 main_v165 (broadcastInDim S1x256 ![1] bcast_S256_S1x256_1 : (⟨S256, .f32⟩ : BufTy).Contents (Elt F) → (⟨S1x256, .f32⟩ : BufTy).Contents (Elt F)),
    unary main_v165 main_v166 (broadcastInDim S8192x256 ![0, 1] bcast_S1x256_S8192x256_0_1 : (⟨S1x256, .f32⟩ : BufTy).Contents (Elt F) → (⟨S8192x256, .f32⟩ : BufTy).Contents (Elt F)),
    binary main_v154 main_v166 main_v167 (subf : (⟨S8192x256, .f32⟩ : BufTy).Contents (Elt F) → (⟨S8192x256, .f32⟩ : BufTy).Contents (Elt F) → (⟨S8192x256, .f32⟩ : BufTy).Contents (Elt F)),
    unary main_arg13 main_v168 (broadcastInDim S1x256 ![1] bcast_S256_S1x256_1 : (⟨S256, .f32⟩ : BufTy).Contents (Elt F) → (⟨S1x256, .f32⟩ : BufTy).Contents (Elt F)),
    unary main_v168 main_v169 (broadcastInDim S8192x256 ![0, 1] bcast_S1x256_S8192x256_0_1 : (⟨S1x256, .f32⟩ : BufTy).Contents (Elt F) → (⟨S8192x256, .f32⟩ : BufTy).Contents (Elt F)),
    binary main_v169 main_v167 main_v170 (mulf : (⟨S8192x256, .f32⟩ : BufTy).Contents (Elt F) → (⟨S8192x256, .f32⟩ : BufTy).Contents (Elt F) → (⟨S8192x256, .f32⟩ : BufTy).Contents (Elt F)),
    nullary main_cst_28 (constant S_ .f32 0x3727C5AC#32),
    unary main_cst_28 main_v171 (broadcastInDim S256 ![] bcast_S_S256 : (⟨S_, .f32⟩ : BufTy).Contents (Elt F) → (⟨S256, .f32⟩ : BufTy).Contents (Elt F)),
    binary main_v164 main_v171 main_v172 (addf : (⟨S256, .f32⟩ : BufTy).Contents (Elt F) → (⟨S256, .f32⟩ : BufTy).Contents (Elt F) → (⟨S256, .f32⟩ : BufTy).Contents (Elt F)),
    unary main_v172 main_v173 (Host.sqrt : (⟨S256, .f32⟩ : BufTy).Contents (Elt F) → (⟨S256, .f32⟩ : BufTy).Contents (Elt F)),
    unary main_v173 main_v174 (broadcastInDim S1x256 ![1] bcast_S256_S1x256_1 : (⟨S256, .f32⟩ : BufTy).Contents (Elt F) → (⟨S1x256, .f32⟩ : BufTy).Contents (Elt F)),
    unary main_v174 main_v175 (broadcastInDim S8192x256 ![0, 1] bcast_S1x256_S8192x256_0_1 : (⟨S1x256, .f32⟩ : BufTy).Contents (Elt F) → (⟨S8192x256, .f32⟩ : BufTy).Contents (Elt F)),
    binary main_v170 main_v175 main_v176 (Host.divf : (⟨S8192x256, .f32⟩ : BufTy).Contents (Elt F) → (⟨S8192x256, .f32⟩ : BufTy).Contents (Elt F) → (⟨S8192x256, .f32⟩ : BufTy).Contents (Elt F)),
    unary main_arg14 main_v177 (broadcastInDim S1x256 ![1] bcast_S256_S1x256_1 : (⟨S256, .f32⟩ : BufTy).Contents (Elt F) → (⟨S1x256, .f32⟩ : BufTy).Contents (Elt F)),
    unary main_v177 main_v178 (broadcastInDim S8192x256 ![0, 1] bcast_S1x256_S8192x256_0_1 : (⟨S1x256, .f32⟩ : BufTy).Contents (Elt F) → (⟨S8192x256, .f32⟩ : BufTy).Contents (Elt F)),
    binary main_v176 main_v178 main_v179 (addf : (⟨S8192x256, .f32⟩ : BufTy).Contents (Elt F) → (⟨S8192x256, .f32⟩ : BufTy).Contents (Elt F) → (⟨S8192x256, .f32⟩ : BufTy).Contents (Elt F)),
    unary main_arg7 main_v180 ((transpose S256x128 [1, 0] · transposes_S128x256_S256x128_1_0) : (⟨S128x256, .f32⟩ : BufTy).Contents (Elt F) → (⟨S256x128, .f32⟩ : BufTy).Contents (Elt F)),
    binary main_v179 main_v180 main_v181 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg8 main_v182 (broadcastInDim S1x128 ![1] bcast_S128_S1x128_1 : (⟨S128, .f32⟩ : BufTy).Contents (Elt F) → (⟨S1x128, .f32⟩ : BufTy).Contents (Elt F)),
    unary main_v182 main_v183 (broadcastInDim S8192x128 ![0, 1] bcast_S1x128_S8192x128_0_1 : (⟨S1x128, .f32⟩ : BufTy).Contents (Elt F) → (⟨S8192x128, .f32⟩ : BufTy).Contents (Elt F)),
    binary main_v181 main_v183 main_v184 (addf : (⟨S8192x128, .f32⟩ : BufTy).Contents (Elt F) → (⟨S8192x128, .f32⟩ : BufTy).Contents (Elt F) → (⟨S8192x128, .f32⟩ : BufTy).Contents (Elt F)),
    unary main_v184 main_v185 (Host.tanh : (⟨S8192x128, .f32⟩ : BufTy).Contents (Elt F) → (⟨S8192x128, .f32⟩ : BufTy).Contents (Elt F)) ]

theorem ops5_sub : (ops5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

theorem ops5_fresh : ∀ op ∈ (ops5 : List (HloOp τ sig (Elt F))), op.fresh = ∅ := by
  intro _ h; (repeat (cases h with | head => rfl | tail _ h => ?_)); exact nomatch h

abbrev ops5_W : List (Ref sig .tc) := [main_cst_24, main_v155, main_cst_25, main_v156, main_v157, main_v158, main_v159, main_v160, main_v161, main_cst_26, main_v162, main_cst_27, main_v163, main_v164, main_v165, main_v166, main_v167, main_v168, main_v169, main_v170, main_cst_28, main_v171, main_v172, main_v173, main_v174, main_v175, main_v176, main_v177, main_v178, main_v179, main_v180, main_v181, main_v182, main_v183, main_v184, main_v185]

theorem ops5_writes : (ops5 : List (HloOp τ sig (Elt F))).Forall fun op => op.writes ⊆ (ops5_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops5_keep (V : Valuation τ sig (Elt F)) (r : Ref sig .tc) (h : r ∉ ops5_W) :
    after ops5 V (Proc.devRef .tc r) = V (Proc.devRef .tc r) :=
  after_of_writes_sub ops5 V ops5_writes h

theorem chunk5_main_v185 (V : Valuation τ sig (Elt F)) (x1 x3 x4 x5 x6 x7 x8 x9 x10 x11 x12 x13 x14)
    (h_main_v154 : V (Proc.devRef .tc main_v154) = val_main_v154 (F := F) x1 x3 x4 x5 x6 x9 x10 x11 x12)
    (h_main_arg13 : V (Proc.devRef .tc main_arg13) = x13)
    (h_main_arg14 : V (Proc.devRef .tc main_arg14) = x14)
    (h_main_arg7 : V (Proc.devRef .tc main_arg7) = x7)
    (h_main_arg8 : V (Proc.devRef .tc main_arg8) = x8) :
    after ops5 V (Proc.devRef .tc main_v185) = val_main_v185 (F := F) x1 x3 x4 x5 x6 x7 x8 x9 x10 x11 x12 x13 x14 := by
  simp only [ops5]
  after_results_simp
  simp only [h_main_v154, h_main_arg13, h_main_arg14, h_main_arg7, h_main_arg8]
  rfl

end Cert.ReferenceIdeal.HandRun

end
-- ==== Proof.Ref.RunChunk6.lean ====
import proofs.«428610_j54915451847256_3_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops6 : List (HloOp τ sig (Elt F)) :=
  [ unary main_v185 main_v186 ((transpose S128x8192 [1, 0] · transposes_S8192x128_S128x8192_1_0) : (⟨S8192x128, .f32⟩ : BufTy).Contents (Elt F) → (⟨S128x8192, .f32⟩ : BufTy).Contents (Elt F)),
    binary main_v92 main_v186 main_v187 ((fun l r => Host.dotGeneral dot_S4096x128_S128x8192_S4096x8192_1_0_0_1_n_n none l r) : (⟨S4096x128, .f32⟩ : BufTy).Contents (Elt F) → (⟨S128x8192, .f32⟩ : BufTy).Contents (Elt F) → (⟨S4096x8192, .f32⟩ : BufTy).Contents (Elt F)),
    nullary main_cst_29 (constant S_ .f32 0x40000000#32),
    unary main_cst_29 main_v188 (broadcastInDim S4096x8192 ![] bcast_S_S4096x8192 : (⟨S_, .f32⟩ : BufTy).Contents (Elt F) → (⟨S4096x8192, .f32⟩ : BufTy).Contents (Elt F)),
    binary main_v188 main_v187 main_v189 (mulf : (⟨S4096x8192, .f32⟩ : BufTy).Contents (Elt F) → (⟨S4096x8192, .f32⟩ : BufTy).Contents (Elt F) → (⟨S4096x8192, .f32⟩ : BufTy).Contents (Elt F)),
    binary main_v92 main_v92 main_v190 (mulf : (⟨S4096x128, .f32⟩ : BufTy).Contents (Elt F) → (⟨S4096x128, .f32⟩ : BufTy).Contents (Elt F) → (⟨S4096x128, .f32⟩ : BufTy).Contents (Elt F)),
    nullary main_cst_30 (constant S_ .f32 0x00000000#32),
    binary main_v190 main_cst_30 main_v191 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v191 main_v192 (broadcastInDim S4096x1 ![0] bcast_S4096_S4096x1_0 : (⟨S4096, .f32⟩ : BufTy).Contents (Elt F) → (⟨S4096x1, .f32⟩ : BufTy).Contents (Elt F)),
    unary main_v192 main_v193 (broadcastInDim S4096x8192 ![0, 1] bcast_S4096x1_S4096x8192_0_1 : (⟨S4096x1, .f32⟩ : BufTy).Contents (Elt F) → (⟨S4096x8192, .f32⟩ : BufTy).Contents (Elt F)),
    binary main_v189 main_v193 main_v194 (subf : (⟨S4096x8192, .f32⟩ : BufTy).Contents (Elt F) → (⟨S4096x8192, .f32⟩ : BufTy).Contents (Elt F) → (⟨S4096x8192, .f32⟩ : BufTy).Contents (Elt F)),
    binary main_v185 main_v185 main_v195 (mulf : (⟨S8192x128, .f32⟩ : BufTy).Contents (Elt F) → (⟨S8192x128, .f32⟩ : BufTy).Contents (Elt F) → (⟨S8192x128, .f32⟩ : BufTy).Contents (Elt F)),
    nullary main_cst_31 (constant S_ .f32 0x00000000#32),
    binary main_v195 main_cst_31 main_v196 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v196 main_v197 (broadcastInDim S1x8192 ![1] bcast_S8192_S1x8192_1 : (⟨S8192, .f32⟩ : BufTy).Contents (Elt F) → (⟨S1x8192, .f32⟩ : BufTy).Contents (Elt F)),
    unary main_v197 main_v198 (broadcastInDim S4096x8192 ![0, 1] bcast_S1x8192_S4096x8192_0_1 : (⟨S1x8192, .f32⟩ : BufTy).Contents (Elt F) → (⟨S4096x8192, .f32⟩ : BufTy).Contents (Elt F)),
    binary main_v194 main_v198 main_v199 (subf : (⟨S4096x8192, .f32⟩ : BufTy).Contents (Elt F) → (⟨S4096x8192, .f32⟩ : BufTy).Contents (Elt F) → (⟨S4096x8192, .f32⟩ : BufTy).Contents (Elt F)),
    TRef.unary (TRef.of (T := ⟨S8192, .i32⟩) main_arg2) (TRef.of (T := ⟨S8192x1, .i32⟩) main_call0_v0) (broadcastInDim S8192x1 ![0] bcast_S8192_S8192x1_0),
    TRef.nullary (TRef.of (T := ⟨S1x10, .i32⟩) main_call0_v1) (iotaInDim S1x10 32 1),
    TRef.unary (TRef.of (T := ⟨S8192x1, .i32⟩) main_call0_v0) (TRef.of (T := ⟨S8192x10, .i32⟩) main_call0_v2) (broadcastInDim S8192x10 ![0, 1] bcast_S8192x1_S8192x10_0_1),
    TRef.unary (TRef.of (T := ⟨S1x10, .i32⟩) main_call0_v1) (TRef.of (T := ⟨S8192x10, .i32⟩) main_call0_v3) (broadcastInDim S8192x10 ![0, 1] bcast_S1x10_S8192x10_0_1),
    TRef.binary (TRef.of (T := ⟨S8192x10, .i32⟩) main_call0_v2) (TRef.of (T := ⟨S8192x10, .i32⟩) main_call0_v3) (TRef.of (T := ⟨S8192x10, .i1⟩) main_call0_v4) (cmpi .eq),
    TRef.unary (TRef.of (T := ⟨S8192x10, .i1⟩) main_call0_v4) (TRef.of (T := ⟨S8192x10, .f32⟩) main_v200) (uitofp .f32),
    nullary main_cst_32 (constant S_ .f32 0xFF800000#32),
    binary main_v199 main_cst_32 main_v201 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_33 (constant S_ .f32 0xFF800000#32),
    unary main_cst_33 main_v202 (broadcastInDim S4096 ![] bcast_S_S4096 : (⟨S_, .f32⟩ : BufTy).Contents (Elt F) → (⟨S4096, .f32⟩ : BufTy).Contents (Elt F)),
    binary main_v202 main_v201 main_v203 (maximumf : (⟨S4096, .f32⟩ : BufTy).Contents (Elt F) → (⟨S4096, .f32⟩ : BufTy).Contents (Elt F) → (⟨S4096, .f32⟩ : BufTy).Contents (Elt F)),
    unary main_v203 main_v204 (broadcastInDim S4096x1 ![0] bcast_S4096_S4096x1_0 : (⟨S4096, .f32⟩ : BufTy).Contents (Elt F) → (⟨S4096x1, .f32⟩ : BufTy).Contents (Elt F)),
    unary main_v204 main_v205 (broadcastInDim S4096x8192 ![0, 1] bcast_S4096x1_S4096x8192_0_1 : (⟨S4096x1, .f32⟩ : BufTy).Contents (Elt F) → (⟨S4096x8192, .f32⟩ : BufTy).Contents (Elt F)),
    binary main_v199 main_v205 main_v206 (subf : (⟨S4096x8192, .f32⟩ : BufTy).Contents (Elt F) → (⟨S4096x8192, .f32⟩ : BufTy).Contents (Elt F) → (⟨S4096x8192, .f32⟩ : BufTy).Contents (Elt F)),
    unary main_v206 main_v207 (Host.exp : (⟨S4096x8192, .f32⟩ : BufTy).Contents (Elt F) → (⟨S4096x8192, .f32⟩ : BufTy).Contents (Elt F)),
    nullary main_cst_34 (constant S_ .f32 0x00000000#32),
    binary main_v207 main_cst_34 main_v208 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v208 main_v209 (broadcastInDim S4096x1 ![0] bcast_S4096_S4096x1_0 : (⟨S4096, .f32⟩ : BufTy).Contents (Elt F) → (⟨S4096x1, .f32⟩ : BufTy).Contents (Elt F)),
    unary main_v209 main_v210 (broadcastInDim S4096x8192 ![0, 1] bcast_S4096x1_S4096x8192_0_1 : (⟨S4096x1, .f32⟩ : BufTy).Contents (Elt F) → (⟨S4096x8192, .f32⟩ : BufTy).Contents (Elt F)),
    binary main_v207 main_v210 main_v211 (Host.divf : (⟨S4096x8192, .f32⟩ : BufTy).Contents (Elt F) → (⟨S4096x8192, .f32⟩ : BufTy).Contents (Elt F) → (⟨S4096x8192, .f32⟩ : BufTy).Contents (Elt F)),
    binary main_v211 main_v200 main_v212 ((fun l r => Host.dotGeneral dot_S4096x8192_S8192x10_S4096x10_1_0_0_1_n_n none l r) : (⟨S4096x8192, .f32⟩ : BufTy).Contents (Elt F) → (⟨S8192x10, .f32⟩ : BufTy).Contents (Elt F) → (⟨S4096x10, .f32⟩ : BufTy).Contents (Elt F)),
    nullary main_cst_35 (constant S_ .f32 0x00000000#32),
    nullary main_cst_36 (constant S_ .f32 0x3F800000#32),
    TRef.unary (TRef.of (T := ⟨S_, .f32⟩) main_cst_35) (TRef.of (T := ⟨S_, .f32⟩) main_call1_v0) id,
    TRef.unary (TRef.of (T := ⟨S_, .f32⟩) main_call1_v0) (TRef.of (T := ⟨S4096x10, .f32⟩) main_call1_v1) (broadcastInDim S4096x10 ![] bcast_S_S4096x10),
    TRef.binary (TRef.of (T := ⟨S4096x10, .f32⟩) main_call1_v1) (TRef.of (T := ⟨S4096x10, .f32⟩) main_v212) (TRef.of (T := ⟨S4096x10, .f32⟩) main_call1_v2) maximumf,
    TRef.unary (TRef.of (T := ⟨S_, .f32⟩) main_cst_36) (TRef.of (T := ⟨S_, .f32⟩) main_call1_v3) id,
    TRef.unary (TRef.of (T := ⟨S_, .f32⟩) main_call1_v3) (TRef.of (T := ⟨S4096x10, .f32⟩) main_call1_v4) (broadcastInDim S4096x10 ![] bcast_S_S4096x10),
    TRef.binary (TRef.of (T := ⟨S4096x10, .f32⟩) main_call1_v4) (TRef.of (T := ⟨S4096x10, .f32⟩) main_call1_v2) (TRef.of (T := ⟨S4096x10, .f32⟩) main_v213) minimumf ]

theorem ops6_sub : (ops6 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

theorem ops6_fresh : ∀ op ∈ (ops6 : List (HloOp τ sig (Elt F))), op.fresh = ∅ := by
  intro _ h; (repeat (cases h with | head => rfl | tail _ h => ?_)); exact nomatch h

abbrev ops6_W : List (Ref sig .tc) := [main_v186, main_v187, main_cst_29, main_v188, main_v189, main_v190, main_cst_30, main_v191, main_v192, main_v193, main_v194, main_v195, main_cst_31, main_v196, main_v197, main_v198, main_v199, main_call0_v0, main_call0_v1, main_call0_v2, main_call0_v3, main_call0_v4, main_v200, main_cst_32, main_v201, main_cst_33, main_v202, main_v203, main_v204, main_v205, main_v206, main_v207, main_cst_34, main_v208, main_v209, main_v210, main_v211, main_v212, main_cst_35, main_cst_36, main_call1_v0, main_call1_v1, main_call1_v2, main_call1_v3, main_call1_v4, main_v213]

theorem ops6_writes : (ops6 : List (HloOp τ sig (Elt F))).Forall fun op => op.writes ⊆ (ops6_W.map (Proc.devRef (τ := τ) .tc)).toFinset := by
  simp only [List.Forall, nullary_writes, unary_writes, binary_writes, Finset.singleton_subset_iff, List.mem_toFinset]
  repeat' apply And.intro
  all_goals exact List.mem_map_of_mem (by decide)

theorem ops6_keep (V : Valuation τ sig (Elt F)) (r : Ref sig .tc) (h : r ∉ ops6_W) :
    after ops6 V (Proc.devRef .tc r) = V (Proc.devRef .tc r) :=
  after_of_writes_sub ops6 V ops6_writes h

theorem chunk6_main_v213 (V : Valuation τ sig (Elt F)) (x0 x1 x2 x3 x4 x5 x6 x7 x8 x9 x10 x11 x12 x13 x14)
    (h_main_v185 : V (Proc.devRef .tc main_v185) = val_main_v185 (F := F) x1 x3 x4 x5 x6 x7 x8 x9 x10 x11 x12 x13 x14)
    (h_main_v92 : V (Proc.devRef .tc main_v92) = val_main_v92 (F := F) x0 x3 x4 x5 x6 x7 x8 x9 x10 x11 x12 x13 x14)
    (h_main_arg2 : V (Proc.devRef .tc main_arg2) = x2) :
    after ops6 V (Proc.devRef .tc main_v213) = val_main_v213 (F := F) x0 x1 x2 x3 x4 x5 x6 x7 x8 x9 x10 x11 x12 x13 x14 := by
  simp only [ops6]
  after_results_simp
  simp only [h_main_v185, h_main_v92, h_main_arg2]
  rfl

end Cert.ReferenceIdeal.HandRun

end
-- ==== Proof.Ref.RunHand.lean ====
import proofs.«428610_j54915451847256_3_alg».proof.Proof.Ref.RunChunk0
import proofs.«428610_j54915451847256_3_alg».proof.Proof.Ref.RunChunk1
import proofs.«428610_j54915451847256_3_alg».proof.Proof.Ref.RunChunk2
import proofs.«428610_j54915451847256_3_alg».proof.Proof.Ref.RunChunk3
import proofs.«428610_j54915451847256_3_alg».proof.Proof.Ref.RunChunk4
import proofs.«428610_j54915451847256_3_alg».proof.Proof.Ref.RunChunk5
import proofs.«428610_j54915451847256_3_alg».proof.Proof.Ref.RunChunk6
import Idealize.ShloMosaic.Lib.Pipeline.Frame

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops : List (HloOp τ sig (Elt F)) := ops0 ++ ops1 ++ ops2 ++ ops3 ++ ops4 ++ ops5 ++ ops6

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨ops0_sub, ops1_sub⟩, ops2_sub⟩, ops3_sub⟩, ops4_sub⟩, ops5_sub⟩, ops6_sub⟩

theorem ops_fresh : ∀ op ∈ (ops : List (HloOp τ sig (Elt F))), op.fresh = ∅ := by
  intro op h
  simp only [ops, List.mem_append] at h
  rcases h with (((((h | h) | h) | h) | h) | h) | h
  · exact ops0_fresh op h
  · exact ops1_fresh op h
  · exact ops2_fresh op h
  · exact ops3_fresh op h
  · exact ops4_fresh op h
  · exact ops5_fresh op h
  · exact ops6_fresh op h

def W1 (V0 : Valuation τ sig (Elt F)) : Valuation τ sig (Elt F) := after ops0 V0
def W2 (V0 : Valuation τ sig (Elt F)) : Valuation τ sig (Elt F) := after ops1 (W1 V0)
def W3 (V0 : Valuation τ sig (Elt F)) : Valuation τ sig (Elt F) := after ops2 (W2 V0)
def W4 (V0 : Valuation τ sig (Elt F)) : Valuation τ sig (Elt F) := after ops3 (W3 V0)
def W5 (V0 : Valuation τ sig (Elt F)) : Valuation τ sig (Elt F) := after ops4 (W4 V0)
def W6 (V0 : Valuation τ sig (Elt F)) : Valuation τ sig (Elt F) := after ops5 (W5 V0)
def W7 (V0 : Valuation τ sig (Elt F)) : Valuation τ sig (Elt F) := after ops6 (W6 V0)

theorem after_ops (V0 : Valuation τ sig (Elt F)) : after ops V0 = W7 V0 := by
  simp only [ops, after_append]
  rfl

abbrev argRefs : List (Ref sig .tc) := [main_arg0, main_arg1, main_arg2, main_arg3, main_arg4, main_arg5, main_arg6, main_arg7, main_arg8, main_arg9, main_arg10, main_arg11, main_arg12, main_arg13, main_arg14]

-- No stretch of the program writes an argument buffer.
theorem args_kept : ∀ r ∈ argRefs,
    r ∉ ops0_W ∧ r ∉ ops1_W ∧ r ∉ ops2_W ∧ r ∉ ops3_W ∧ r ∉ ops4_W ∧ r ∉ ops5_W ∧ r ∉ ops6_W := by decide

-- An argument holds its launch contents at every boundary.
theorem start (V0 : Valuation τ sig (Elt F)) (r : Ref sig .tc)
    (h : r ∈ argRefs) :
    W1 V0 (Proc.devRef .tc r) = V0 (Proc.devRef .tc r) ∧ W2 V0 (Proc.devRef .tc r) = V0 (Proc.devRef .tc r) ∧ W3 V0 (Proc.devRef .tc r) = V0 (Proc.devRef .tc r)
      ∧ W4 V0 (Proc.devRef .tc r) = V0 (Proc.devRef .tc r) ∧ W5 V0 (Proc.devRef .tc r) = V0 (Proc.devRef .tc r) ∧ W6 V0 (Proc.devRef .tc r) = V0 (Proc.devRef .tc r)
      ∧ W7 V0 (Proc.devRef .tc r) = V0 (Proc.devRef .tc r) := by
  obtain ⟨h0, h1, h2, h3, h4, h5, h6⟩ := args_kept r h
  have e1 := ops0_keep V0 r h0
  have e2 := (ops1_keep (W1 V0) r h1).trans e1
  have e3 := (ops2_keep (W2 V0) r h2).trans e2
  have e4 := (ops3_keep (W3 V0) r h3).trans e3
  have e5 := (ops4_keep (W4 V0) r h4).trans e4
  have e6 := (ops5_keep (W5 V0) r h5).trans e5
  exact ⟨e1, e2, e3, e4, e5, e6, (ops6_keep (W6 V0) r h6).trans e6⟩

theorem keep (V0 : Valuation τ sig (Elt F)) (r : Ref sig .tc)
    (h : r ∈ argRefs) :
    after ops V0 (Proc.devRef .tc r) = V0 (Proc.devRef .tc r) :=
  (congrFun (after_ops V0) _).trans (start V0 r h).2.2.2.2.2.2

theorem W7_main_v213 (V0 : Valuation τ sig (Elt F)) : W7 V0 (Proc.devRef .tc main_v213) = val_main_v213 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  have h1 := chunk0_main_v30 V0 _ _ _ _ _ rfl rfl rfl rfl rfl
  have h2 := chunk1_main_v61 (W1 V0) _ _ _ _ _ _ _ _ _ h1 (start V0 main_arg11 (by decide)).1 (start V0 main_arg12 (by decide)).1 (start V0 main_arg5 (by decide)).1 (start V0 main_arg6 (by decide)).1
  have h3 := chunk2_main_v92 (W2 V0) _ _ _ _ _ _ _ _ _ _ _ _ _ h2 (start V0 main_arg13 (by decide)).2.1 (start V0 main_arg14 (by decide)).2.1 (start V0 main_arg7 (by decide)).2.1 (start V0 main_arg8 (by decide)).2.1
  have h4 := chunk3_main_v123 (W3 V0) _ _ _ _ _ (start V0 main_arg1 (by decide)).2.2.1 (start V0 main_arg9 (by decide)).2.2.1 (start V0 main_arg10 (by decide)).2.2.1 (start V0 main_arg3 (by decide)).2.2.1 (start V0 main_arg4 (by decide)).2.2.1
  have h5 := chunk4_main_v154 (W4 V0) _ _ _ _ _ _ _ _ _ h4 (start V0 main_arg11 (by decide)).2.2.2.1 (start V0 main_arg12 (by decide)).2.2.2.1 (start V0 main_arg5 (by decide)).2.2.2.1 (start V0 main_arg6 (by decide)).2.2.2.1
  have h6 := chunk5_main_v185 (W5 V0) _ _ _ _ _ _ _ _ _ _ _ _ _ h5 (start V0 main_arg13 (by decide)).2.2.2.2.1 (start V0 main_arg14 (by decide)).2.2.2.2.1 (start V0 main_arg7 (by decide)).2.2.2.2.1 (start V0 main_arg8 (by decide)).2.2.2.2.1
  chunk6_main_v213 (W6 V0) _ _ _ _ _ _ _ _ _ _ _ _ _ _ _ h6
    ((ops5_keep (W5 V0) main_v92 (by decide)).trans ((ops4_keep (W4 V0) main_v92 (by decide)).trans
      ((ops3_keep (W3 V0) main_v92 (by decide)).trans h3)))
    (start V0 main_arg2 (by decide)).2.2.2.2.2.1

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v213) = val_main_v213 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v213).trans ((congrFun (after_ops _) _).trans (W7_main_v213 (launchContents m c))),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide)),
      (h c main_arg12).trans (keep _ main_arg12 (by decide)),
      (h c main_arg13).trans (keep _ main_arg13 (by decide)),
      (h c main_arg14).trans (keep _ main_arg14 (by decide))⟩)
    (run_seq scopedRefs_eq scopedSems_eq defs main (fun _ => ops) main_eq (fun _ => ops_sub) m ρ (fun _ => ops_fresh))

end Cert.ReferenceIdeal.HandRun

end
-- ==== Proof.K.Enc0.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit ![0, 0] S1024x1024.size inb_S1024x1024_S1024x1024_0_0
abbrev r0_1 : Rect S1x1024 := Rect.unit ![0, 0] S1x1024.size inb_S1x1024_S1x1024_0_0
abbrev r0_2 : Rect S512x1024 := Rect.unit ![0, 0] S512x1024.size inb_S512x1024_S512x1024_0_0
abbrev r0_3 : Rect S1x512 := Rect.unit ![0, 0] S1x512.size inb_S1x512_S1x512_0_0
abbrev r0_4 : Rect S1024x512 := Rect.unit ![0, 0] S1024x512.size inb_S1024x512_S1024x512_0_0
abbrev r0_5 : Rect S1x1x512 := Rect.unit ![0, 0, 0] S1x1x512.size inb_S1x1x512_S1x1x512_0_0_0

section
variable (x0 : Vec F S1024x1024 .f32) (x1 x2 x3 x4 : Vec F S1x1024 .f32) (x5 : Vec F S512x1024 .f32) (x6 : Vec F S1x512 .f32)

def out0_7 : Vec F S1024x512 .f32 :=
  View.canon [⟨r0_4, k0_pay2 (View.ld x0 r0_0) (View.ld x4 r0_1) (View.ld x3 r0_1) (View.ld x1 r0_1) (View.ld x2 r0_1) (View.ld x5 r0_2) (View.ld x6 r0_3)⟩]

def out0_8 : Vec F S1x1x512 .f32 :=
  View.canon [⟨r0_5, k0_pay3 (View.ld x0 r0_0) (View.ld x4 r0_1) (View.ld x3 r0_1) (View.ld x1 r0_1) (View.ld x2 r0_1) (View.ld x5 r0_2) (View.ld x6 r0_3)⟩]

def out0_9 : Vec F S1x1x512 .f32 :=
  View.canon [⟨r0_5, k0_pay1 (k0_pay4 (View.ld x0 r0_0) (View.ld x4 r0_1) (View.ld x3 r0_1) (View.ld x1 r0_1) (View.ld x2 r0_1) (View.ld x5 r0_2) (View.ld x6 r0_3))⟩]

end

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (w : Fin cfg0.W) : (dat0 V c).A w = V c (Pipeline.arrRef spec0 w) := rfl

variable (t : Fin cfg0.N)

theorem after0_7 : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 : (dat0 V c).after 9 t = out0_9 (iblk0 V c 0 t) (iblk0 V c 1 t) (iblk0 V c 2 t) (iblk0 V c 3 t) (iblk0 V c 4 t) (iblk0 V c 5 t) (iblk0 V c 6 t) := by dsimp only [dat0]

-- an input window's buffer holds its block at every point: the body leaves it as it found it
theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl
theorem before0_6 (d) : (dat0 V c).before 6 t d = iblk0 V c 6 t :=
  ((dat0 V c).before_in_eq_fetched 6 rfl (fun _ => rfl) (fun _ _ _ => rfl) (fun _ => rfl) t d).trans rfl

set_option maxHeartbeats 1000000 in
-- each output is one whole-block write of a function of the input blocks
theorem body_obligation0 : BodyObligation (dat0 V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  simp only [before0_0, before0_1, before0_2, before0_3, before0_4, before0_5, before0_6, after0_7, after0_8, after0_9]
  show _ ⊢ wp _ _ _ (bodyAt0 t) _
  unfold bodyAt0
  simp only [cc0__bn_linear_tanh_kernel_eq_skeleton]; unfold cc0__bn_linear_tanh_kernel_skel
  simp only [k0_part1_eq_skeleton]; unfold k0_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1x512.size (by rfl))
  iexists _; isplitr
  swap; · iexact H9
  ipureintro
  exact View.read_writes_eq_canon _ _ _ (View.cover_of_tiled _ S1x1x512.size (by rfl))

end Regions

end Cert.Kernel.Hand

end
-- ==== Proof.K.Enc1.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit ![0, 0] S1024x512.size inb_S1024x512_S1024x512_0_0
abbrev r1_1 : Rect S1x512 := Rect.unit ![0, 0] S1x512.size inb_S1x512_S1x512_0_0
abbrev r1_2 : Rect S256x512 := Rect.unit ![0, 0] S256x512.size inb_S256x512_S256x512_0_0
abbrev r1_3 : Rect S1x256 := Rect.unit ![0, 0] S1x256.size inb_S1x256_S1x256_0_0
abbrev r1_4 : Rect S1024x256 := Rect.unit ![0, 0] S1024x256.size inb_S1024x256_S1024x256_0_0
abbrev r1_5 : Rect S1x1x256 := Rect.unit ![0, 0, 0] S1x1x256.size inb_S1x1x256_S1x1x256_0_0_0

section
variable (x0 : Vec F S1024x512 .f32) (x1 x2 x3 x4 : Vec F S1x512 .f32) (x5 : Vec F S256x512 .f32) (x6 : Vec F S1x256 .f32)

def out1_7 : Vec F S1024x256 .f32 :=
  View.canon [⟨r1_4, k1_pay2 (View.ld x0 r1_0) (View.ld x4 r1_1) (View.ld x3 r1_1) (View.ld x1 r1_1) (View.ld x2 r1_1) (View.ld x5 r1_2) (View.ld x6 r1_3)⟩]

def out1_8 : Vec F S1x1x256 .f32 :=
  View.canon [⟨r1_5, k1_pay3 (View.ld x0 r1_0) (View.ld x4 r1_1) (View.ld x3 r1_1) (View.ld x1 r1_1) (View.ld x2 r1_1) (View.ld x5 r1_2) (View.ld x6 r1_3)⟩]

def out1_9 : Vec F S1x1x256 .f32 :=
  View.canon [⟨r1_5, k1_pay1 (k1_pay4 (View.ld x0 r1_0) (View.ld x4 r1_1) (View.ld x3 r1_1) (View.ld x1 r1_1) (View.ld x2 r1_1) (View.ld x5 r1_2) (View.ld x6 r1_3))⟩]

end

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (w : Fin cfg1.W) : (dat1 V c).A w = V c (Pipeline.arrRef spec1 w) := rfl

variable (t : Fin cfg1.N)

theorem after1_7 : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 : (dat1 V c).after 9 t = out1_9 (iblk1 V c 0 t) (iblk1 V c 1 t) (iblk1 V c 2 t) (iblk1 V c 3 t) (iblk1 V c 4 t) (iblk1 V c 5 t) (iblk1 V c 6 t) := by dsimp only [dat1]

-- an input window's buffer holds its block at every point: the body leaves it as it found it
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl
theorem before1_6 (d) : (dat1 V c).before 6 t d = iblk1 V c 6 t :=
  ((dat1 V c).before_in_eq_fetched 6 rfl (fun _ => rfl) (fun _ _ _ => rfl) (fun _ => rfl) t d).trans rfl

set_option maxHeartbeats 1000000 in
-- each output is one whole-block write of a function of the input blocks
theorem body_obligation1 : BodyObligation (dat1 V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1_0, before1_1, before1_2, before1_3, before1_4, before1_5, before1_6, after1_7, after1_8, after1_9]
  show _ ⊢ wp _ _ _ (bodyAt1 t) _
  unfold bodyAt1
  simp only [cc1__bn_linear_tanh_kernel_eq_skeleton]; unfold cc1__bn_linear_tanh_kernel_skel
  simp only [k1_part1_eq_skeleton]; unfold k1_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1x256.size (by rfl))
  iexists _; isplitr
  swap; · iexact H9
  ipureintro
  exact View.read_writes_eq_canon _ _ _ (View.cover_of_tiled _ S1x1x256.size (by rfl))

end Regions

end Cert.Kernel.Hand

end
-- ==== Proof.K.RunFoldA.lean ====
import proofs.«428610_j54915451847256_3_alg».proof.Proof.Gen.Kernel.Launch
import proofs.«428610_j54915451847256_3_alg».proof.Proof.Gen.Kernel.Regions
import proofs.«428610_j54915451847256_3_alg».proof.Proof.K.Enc0
import proofs.«428610_j54915451847256_3_alg».proof.Proof.K.Enc1

noncomputable section

namespace Cert.Kernel.Hand

open Idealize.ShloMosaic Idealize.ShloMosaic.TcCoe
open Cert.Kernel.Gen (launch0 launch1 hostOps0 hostOps1 hostOps0_writes hostOps1_writes hostOps0_W hostOps1_W)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev arrs0 : List (Ref sig .tc) := [main_arg0, main_v9, main_v10, main_v11, main_v12, main_arg3, main_v13, main_v14_0, main_v14_1, main_v14_2]
theorem arrRef0_mem : ∀ w, Pipeline.arrRef spec0 w ∈ arrs0 := by decide
theorem W2_of_not_mem (c : Dev nD) (b : Ref sig .tc) (hb : b ∉ arrs0) :
    W2 m ρ c (Proc.devRef .tc b) = W1 m ρ c (Proc.devRef .tc b) :=
  W2_of_ne m ρ c b fun w e => hb (e ▸ arrRef0_mem w)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
abbrev arrs1 : List (Ref sig .tc) := [main_v14_0, main_v23, main_v24, main_v25, main_v26, main_arg5, main_v27, main_v28_0, main_v28_1, main_v28_2]
theorem arrRef1_mem : ∀ w, Pipeline.arrRef spec1 w ∈ arrs1 := by decide
theorem W4_of_not_mem (c : Dev nD) (b : Ref sig .tc) (hb : b ∉ arrs1) :
    W4 m ρ c (Proc.devRef .tc b) = W3 m ρ c (Proc.devRef .tc b) :=
  W4_of_ne m ρ c b fun w e => hb (e ▸ arrRef1_mem w)

end Cert.Kernel.Hand

end
-- ==== Proof.K.Enc2.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x256 := Rect.unit ![0, 0] S1024x256.size inb_S1024x256_S1024x256_0_0
abbrev r2_1 : Rect S1x256 := Rect.unit ![0, 0] S1x256.size inb_S1x256_S1x256_0_0
abbrev r2_2 : Rect S128x256 := Rect.unit ![0, 0] S128x256.size inb_S128x256_S128x256_0_0
abbrev r2_3 : Rect S1x128 := Rect.unit ![0, 0] S1x128.size inb_S1x128_S1x128_0_0
abbrev r2_4 : Rect S1024x128 := Rect.unit ![0, 0] S1024x128.size inb_S1024x128_S1024x128_0_0
abbrev r2_5 : Rect S1x1x128 := Rect.unit ![0, 0, 0] S1x1x128.size inb_S1x1x128_S1x1x128_0_0_0

section
variable (x0 : Vec F S1024x256 .f32) (x1 x2 x3 x4 : Vec F S1x256 .f32) (x5 : Vec F S128x256 .f32) (x6 : Vec F S1x128 .f32)

def out2_7 : Vec F S1024x128 .bf16 :=
  View.canon [⟨r2_4, k2_pay3 (View.ld x0 r2_0) (View.ld x4 r2_1) (View.ld x3 r2_1) (View.ld x1 r2_1) (View.ld x2 r2_1) (View.ld x5 r2_2) (View.ld x6 r2_3)⟩]

def out2_8 : Vec F S1x1x128 .f32 :=
  View.canon [⟨r2_5, k2_pay4 (View.ld x0 r2_0) (View.ld x4 r2_1) (View.ld x3 r2_1) (View.ld x1 r2_1) (View.ld x2 r2_1) (View.ld x5 r2_2) (View.ld x6 r2_3)⟩]

def out2_9 : Vec F S1x1x128 .f32 :=
  View.canon [⟨r2_5, k2_pay1 (k2_pay2 (View.ld x0 r2_0) (View.ld x4 r2_1) (View.ld x3 r2_1) (View.ld x1 r2_1) (View.ld x2 r2_1) (View.ld x5 r2_2) (View.ld x6 r2_3))⟩]

end

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
    | ⟨9, _⟩ => out2_9 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_7 : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 : (dat2 V c).after 8 t = out2_8 (iblk2 V c 0 t) (iblk2 V c 1 t) (iblk2 V c 2 t) (iblk2 V c 3 t) (iblk2 V c 4 t) (iblk2 V c 5 t) (iblk2 V c 6 t) := by dsimp only [dat2]
theorem after2_9 : (dat2 V c).after 9 t = out2_9 (iblk2 V c 0 t) (iblk2 V c 1 t) (iblk2 V c 2 t) (iblk2 V c 3 t) (iblk2 V c 4 t) (iblk2 V c 5 t) (iblk2 V c 6 t) := by dsimp only [dat2]

-- an input window's buffer holds its block at every point: the body leaves it as it found it
theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = iblk2 V c 1 t :=
  ((dat2 V c).before_in_eq_fetched 1 rfl (fun _ => rfl) (fun _ _ _ => rfl) (fun _ => rfl) t d).trans rfl
theorem before2_2 (d) : (dat2 V c).before 2 t d = iblk2 V c 2 t :=
  ((dat2 V c).before_in_eq_fetched 2 rfl (fun _ => rfl) (fun _ _ _ => rfl) (fun _ => rfl) t d).trans rfl
theorem before2_3 (d) : (dat2 V c).before 3 t d = iblk2 V c 3 t :=
  ((dat2 V c).before_in_eq_fetched 3 rfl (fun _ => rfl) (fun _ _ _ => rfl) (fun _ => rfl) t d).trans rfl
theorem before2_4 (d) : (dat2 V c).before 4 t d = iblk2 V c 4 t :=
  ((dat2 V c).before_in_eq_fetched 4 rfl (fun _ => rfl) (fun _ _ _ => rfl) (fun _ => rfl) t d).trans rfl
theorem before2_5 (d) : (dat2 V c).before 5 t d = iblk2 V c 5 t :=
  ((dat2 V c).before_in_eq_fetched 5 rfl (fun _ => rfl) (fun _ _ _ => rfl) (fun _ => rfl) t d).trans rfl
theorem before2_6 (d) : (dat2 V c).before 6 t d = iblk2 V c 6 t :=
  ((dat2 V c).before_in_eq_fetched 6 rfl (fun _ => rfl) (fun _ _ _ => rfl) (fun _ => rfl) t d).trans rfl

set_option maxHeartbeats 1000000 in
-- each output is one whole-block write of a function of the input blocks
theorem body_obligation2 : BodyObligation (dat2 V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl]
  simp only [before2_0, before2_1, before2_2, before2_3, before2_4, before2_5, before2_6, after2_7, after2_8, after2_9]
  show _ ⊢ wp _ _ _ (bodyAt2 t) _
  unfold bodyAt2
  simp only [cc2__bn_linear_tanh_kernel_eq_skeleton]; unfold cc2__bn_linear_tanh_kernel_skel
  simp only [k2_part1_eq_skeleton]; unfold k2_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x128.size (by rfl))
  isplitl [H8]
  · iexists _; isplitr
    swap; · iexact H8
    ipureintro
    exact View.read_writes_eq_canon _ _ _ (View.cover_of_tiled _ S1x1x128.size (by rfl))
  iexists _; isplitr
  swap; · iexact H9
  ipureintro
  exact View.read_writes_eq_canon _ _ _ (View.cover_of_tiled _ S1x1x128.size (by rfl))

end Regions

end Cert.Kernel.Hand

end
-- ==== Proof.K.Enc3.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x1024 := Rect.unit ![0, 0] S1024x1024.size inb_S1024x1024_S1024x1024_0_0
abbrev r3_1 : Rect S1x1024 := Rect.unit ![0, 0] S1x1024.size inb_S1x1024_S1x1024_0_0
abbrev r3_2 : Rect S512x1024 := Rect.unit ![0, 0] S512x1024.size inb_S512x1024_S512x1024_0_0
abbrev r3_3 : Rect S1x512 := Rect.unit ![0, 0] S1x512.size inb_S1x512_S1x512_0_0
abbrev r3_4 : Rect S1024x512 := Rect.unit ![0, 0] S1024x512.size inb_S1024x512_S1024x512_0_0
abbrev r3_5 : Rect S1x1x512 := Rect.unit ![0, 0, 0] S1x1x512.size inb_S1x1x512_S1x1x512_0_0_0

section
variable (x0 : Vec F S1024x1024 .f32) (x1 x2 x3 x4 : Vec F S1x1024 .f32) (x5 : Vec F S512x1024 .f32) (x6 : Vec F S1x512 .f32)

def out3_7 : Vec F S1024x512 .f32 :=
  View.canon [⟨r3_4, k3_pay2 (View.ld x0 r3_0) (View.ld x4 r3_1) (View.ld x3 r3_1) (View.ld x1 r3_1) (View.ld x2 r3_1) (View.ld x5 r3_2) (View.ld x6 r3_3)⟩]

def out3_8 : Vec F S1x1x512 .f32 :=
  View.canon [⟨r3_5, k3_pay3 (View.ld x0 r3_0) (View.ld x4 r3_1) (View.ld x3 r3_1) (View.ld x1 r3_1) (View.ld x2 r3_1) (View.ld x5 r3_2) (View.ld x6 r3_3)⟩]

def out3_9 : Vec F S1x1x512 .f32 :=
  View.canon [⟨r3_5, k3_pay1 (k3_pay4 (View.ld x0 r3_0) (View.ld x4 r3_1) (View.ld x3 r3_1) (View.ld x1 r3_1) (View.ld x2 r3_1) (View.ld x5 r3_2) (View.ld x6 r3_3))⟩]

end

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
    | ⟨9, _⟩ => out3_9 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (w : Fin cfg3.W) : (dat3 V c).A w = V c (Pipeline.arrRef spec3 w) := rfl

variable (t : Fin cfg3.N)

theorem after3_7 : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 : (dat3 V c).after 8 t = out3_8 (iblk3 V c 0 t) (iblk3 V c 1 t) (iblk3 V c 2 t) (iblk3 V c 3 t) (iblk3 V c 4 t) (iblk3 V c 5 t) (iblk3 V c 6 t) := by dsimp only [dat3]
theorem after3_9 : (dat3 V c).after 9 t = out3_9 (iblk3 V c 0 t) (iblk3 V c 1 t) (iblk3 V c 2 t) (iblk3 V c 3 t) (iblk3 V c 4 t) (iblk3 V c 5 t) (iblk3 V c 6 t) := by dsimp only [dat3]

-- an input window's buffer holds its block at every point: the body leaves it as it found it
theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl
theorem before3_3 (d) : (dat3 V c).before 3 t d = iblk3 V c 3 t :=
  ((dat3 V c).before_in_eq_fetched 3 rfl (fun _ => rfl) (fun _ _ _ => rfl) (fun _ => rfl) t d).trans rfl
theorem before3_4 (d) : (dat3 V c).before 4 t d = iblk3 V c 4 t :=
  ((dat3 V c).before_in_eq_fetched 4 rfl (fun _ => rfl) (fun _ _ _ => rfl) (fun _ => rfl) t d).trans rfl
theorem before3_5 (d) : (dat3 V c).before 5 t d = iblk3 V c 5 t :=
  ((dat3 V c).before_in_eq_fetched 5 rfl (fun _ => rfl) (fun _ _ _ => rfl) (fun _ => rfl) t d).trans rfl
theorem before3_6 (d) : (dat3 V c).before 6 t d = iblk3 V c 6 t :=
  ((dat3 V c).before_in_eq_fetched 6 rfl (fun _ => rfl) (fun _ _ _ => rfl) (fun _ => rfl) t d).trans rfl

set_option maxHeartbeats 1000000 in
-- each output is one whole-block write of a function of the input blocks
theorem body_obligation3 : BodyObligation (dat3 V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  simp only [before3_0, before3_1, before3_2, before3_3, before3_4, before3_5, before3_6, after3_7, after3_8, after3_9]
  show _ ⊢ wp _ _ _ (bodyAt3 t) _
  unfold bodyAt3
  simp only [cc3__bn_linear_tanh_kernel_eq_skeleton]; unfold cc3__bn_linear_tanh_kernel_skel
  simp only [k3_part1_eq_skeleton]; unfold k3_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1x512.size (by rfl))
  iexists _; isplitr
  swap; · iexact H9
  ipureintro
  exact View.read_writes_eq_canon _ _ _ (View.cover_of_tiled _ S1x1x512.size (by rfl))

end Regions

end Cert.Kernel.Hand

end
-- ==== Proof.K.RunFoldB.lean ====
import proofs.«428610_j54915451847256_3_alg».proof.Proof.K.RunFoldA
import proofs.«428610_j54915451847256_3_alg».proof.Proof.K.Enc2
import proofs.«428610_j54915451847256_3_alg».proof.Proof.K.Enc3

noncomputable section

namespace Cert.Kernel.Hand

open Idealize.ShloMosaic Idealize.ShloMosaic.TcCoe
open Cert.Kernel.Gen (launch2 launch3 hostOps2 hostOps3 hostOps2_writes hostOps3_writes hostOps2_W hostOps3_W)

variable {F : FTy → Type} [FloatOps F]

variable (m : (ℓ : Loc nD τ sig) → Buf (Elt F) ℓ) (ρ : Dev nD → PrngReg)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
abbrev arrs2 : List (Ref sig .tc) := [main_v28_0, main_v37, main_v38, main_v39, main_v40, main_arg7, main_v41, main_v42_0, main_v42_1, main_v42_2]
theorem arrRef2_mem : ∀ w, Pipeline.arrRef spec2 w ∈ arrs2 := by decide
theorem W6_of_not_mem (c : Dev nD) (b : Ref sig .tc) (hb : b ∉ arrs2) :
    W6 m ρ c (Proc.devRef .tc b) = W5 m ρ c (Proc.devRef .tc b) :=
  W6_of_ne m ρ c b fun w e => hb (e ▸ arrRef2_mem w)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev arrs3 : List (Ref sig .tc) := [main_arg1, main_v52, main_v53, main_v54, main_v55, main_arg3, main_v56, main_v57_0, main_v57_1, main_v57_2]
theorem arrRef3_mem : ∀ w, Pipeline.arrRef spec3 w ∈ arrs3 := by decide
theorem W8_of_not_mem (c : Dev nD) (b : Ref sig .tc) (hb : b ∉ arrs3) :
    W8 m ρ c (Proc.devRef .tc b) = W7 m ρ c (Proc.devRef .tc b) :=
  W8_of_ne m ρ c b fun w e => hb (e ▸ arrRef3_mem w)

end Cert.Kernel.Hand

end
-- ==== Proof.K.Enc4.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x512 := Rect.unit ![0, 0] S1024x512.size inb_S1024x512_S1024x512_0_0
abbrev r4_1 : Rect S1x512 := Rect.unit ![0, 0] S1x512.size inb_S1x512_S1x512_0_0
abbrev r4_2 : Rect S256x512 := Rect.unit ![0, 0] S256x512.size inb_S256x512_S256x512_0_0
abbrev r4_3 : Rect S1x256 := Rect.unit ![0, 0] S1x256.size inb_S1x256_S1x256_0_0
abbrev r4_4 : Rect S1024x256 := Rect.unit ![0, 0] S1024x256.size inb_S1024x256_S1024x256_0_0
abbrev r4_5 : Rect S1x1x256 := Rect.unit ![0, 0, 0] S1x1x256.size inb_S1x1x256_S1x1x256_0_0_0

section
variable (x0 : Vec F S1024x512 .f32) (x1 x2 x3 x4 : Vec F S1x512 .f32) (x5 : Vec F S256x512 .f32) (x6 : Vec F S1x256 .f32)

def out4_7 : Vec F S1024x256 .f32 :=
  View.canon [⟨r4_4, k4_pay2 (View.ld x0 r4_0) (View.ld x4 r4_1) (View.ld x3 r4_1) (View.ld x1 r4_1) (View.ld x2 r4_1) (View.ld x5 r4_2) (View.ld x6 r4_3)⟩]

def out4_8 : Vec F S1x1x256 .f32 :=
  View.canon [⟨r4_5, k4_pay3 (View.ld x0 r4_0) (View.ld x4 r4_1) (View.ld x3 r4_1) (View.ld x1 r4_1) (View.ld x2 r4_1) (View.ld x5 r4_2) (View.ld x6 r4_3)⟩]

def out4_9 : Vec F S1x1x256 .f32 :=
  View.canon [⟨r4_5, k4_pay1 (k4_pay4 (View.ld x0 r4_0) (View.ld x4 r4_1) (View.ld x3 r4_1) (View.ld x1 r4_1) (View.ld x2 r4_1) (View.ld x5 r4_2) (View.ld x6 r4_3))⟩]

end

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
    | ⟨9, _⟩ => out4_9 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (w : Fin cfg4.W) : (dat4 V c).A w = V c (Pipeline.arrRef spec4 w) := rfl

variable (t : Fin cfg4.N)

theorem after4_7 : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 : (dat4 V c).after 8 t = out4_8 (iblk4 V c 0 t) (iblk4 V c 1 t) (iblk4 V c 2 t) (iblk4 V c 3 t) (iblk4 V c 4 t) (iblk4 V c 5 t) (iblk4 V c 6 t) := by dsimp only [dat4]
theorem after4_9 : (dat4 V c).after 9 t = out4_9 (iblk4 V c 0 t) (iblk4 V c 1 t) (iblk4 V c 2 t) (iblk4 V c 3 t) (iblk4 V c 4 t) (iblk4 V c 5 t) (iblk4 V c 6 t) := by dsimp only [dat4]

-- an input window's buffer holds its block at every point: the body leaves it as it found it
theorem before4_0 (d) : (dat4 V c).before 0 t d = iblk4 V c 0 t :=
  ((dat4 V c).before_in_eq_fetched 0 rfl (fun _ => rfl) (fun _ _ _ => rfl) (fun _ => rfl) t d).trans rfl
theorem before4_1 (d) : (dat4 V c).before 1 t d = iblk4 V c 1 t :=
  ((dat4 V c).before_in_eq_fetched 1 rfl (fun _ => rfl) (fun _ _ _ => rfl) (fun _ => rfl) t d).trans rfl
theorem before4_2 (d) : (dat4 V c).before 2 t d = iblk4 V c 2 t :=
  ((dat4 V c).before_in_eq_fetched 2 rfl (fun _ => rfl) (fun _ _ _ => rfl) (fun _ => rfl) t d).trans rfl
theorem before4_3 (d) : (dat4 V c).before 3 t d = iblk4 V c 3 t :=
  ((dat4 V c).before_in_eq_fetched 3 rfl (fun _ => rfl) (fun _ _ _ => rfl) (fun _ => rfl) t d).trans rfl
theorem before4_4 (d) : (dat4 V c).before 4 t d = iblk4 V c 4 t :=
  ((dat4 V c).before_in_eq_fetched 4 rfl (fun _ => rfl) (fun _ _ _ => rfl) (fun _ => rfl) t d).trans rfl
theorem before4_5 (d) : (dat4 V c).before 5 t d = iblk4 V c 5 t :=
  ((dat4 V c).before_in_eq_fetched 5 rfl (fun _ => rfl) (fun _ _ _ => rfl) (fun _ => rfl) t d).trans rfl
theorem before4_6 (d) : (dat4 V c).before 6 t d = iblk4 V c 6 t :=
  ((dat4 V c).before_in_eq_fetched 6 rfl (fun _ => rfl) (fun _ _ _ => rfl) (fun _ => rfl) t d).trans rfl

set_option maxHeartbeats 1000000 in
-- each output is one whole-block write of a function of the input blocks
theorem body_obligation4 : BodyObligation (dat4 V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl]
  simp only [before4_0, before4_1, before4_2, before4_3, before4_4, before4_5, before4_6, after4_7, after4_8, after4_9]
  show _ ⊢ wp _ _ _ (bodyAt4 t) _
  unfold bodyAt4
  simp only [cc4__bn_linear_tanh_kernel_eq_skeleton]; unfold cc4__bn_linear_tanh_kernel_skel
  simp only [k4_part1_eq_skeleton]; unfold k4_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1x256.size (by rfl))
  iexists _; isplitr
  swap; · iexact H9
  ipureintro
  exact View.read_writes_eq_canon _ _ _ (View.cover_of_tiled _ S1x1x256.size (by rfl))

end Regions

end Cert.Kernel.Hand

end
-- ==== Proof.K.Enc5.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x256 := Rect.unit ![0, 0] S1024x256.size inb_S1024x256_S1024x256_0_0
abbrev r5_1 : Rect S1x256 := Rect.unit ![0, 0] S1x256.size inb_S1x256_S1x256_0_0
abbrev r5_2 : Rect S128x256 := Rect.unit ![0, 0] S128x256.size inb_S128x256_S128x256_0_0
abbrev r5_3 : Rect S1x128 := Rect.unit ![0, 0] S1x128.size inb_S1x128_S1x128_0_0
abbrev r5_4 : Rect S1024x128 := Rect.unit ![0, 0] S1024x128.size inb_S1024x128_S1024x128_0_0
abbrev r5_5 : Rect S1x1x128 := Rect.unit ![0, 0, 0] S1x1x128.size inb_S1x1x128_S1x1x128_0_0_0

section
variable (x0 : Vec F S1024x256 .f32) (x1 x2 x3 x4 : Vec F S1x256 .f32) (x5 : Vec F S128x256 .f32) (x6 : Vec F S1x128 .f32)

def out5_7 : Vec F S1024x128 .bf16 :=
  View.canon [⟨r5_4, k5_pay3 (View.ld x0 r5_0) (View.ld x4 r5_1) (View.ld x3 r5_1) (View.ld x1 r5_1) (View.ld x2 r5_1) (View.ld x5 r5_2) (View.ld x6 r5_3)⟩]

def out5_8 : Vec F S1x1x128 .f32 :=
  View.canon [⟨r5_5, k5_pay4 (View.ld x0 r5_0) (View.ld x4 r5_1) (View.ld x3 r5_1) (View.ld x1 r5_1) (View.ld x2 r5_1) (View.ld x5 r5_2) (View.ld x6 r5_3)⟩]

def out5_9 : Vec F S1x1x128 .f32 :=
  View.canon [⟨r5_5, k5_pay1 (k5_pay2 (View.ld x0 r5_0) (View.ld x4 r5_1) (View.ld x3 r5_1) (View.ld x1 r5_1) (View.ld x2 r5_1) (View.ld x5 r5_2) (View.ld x6 r5_3))⟩]

end

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t) (iblk5 V c 3 t) (iblk5 V c 4 t) (iblk5 V c 5 t) (iblk5 V c 6 t)
    | ⟨9, _⟩ => out5_9 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_7 : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 : (dat5 V c).after 8 t = out5_8 (iblk5 V c 0 t) (iblk5 V c 1 t) (iblk5 V c 2 t) (iblk5 V c 3 t) (iblk5 V c 4 t) (iblk5 V c 5 t) (iblk5 V c 6 t) := by dsimp only [dat5]
theorem after5_9 : (dat5 V c).after 9 t = out5_9 (iblk5 V c 0 t) (iblk5 V c 1 t) (iblk5 V c 2 t) (iblk5 V c 3 t) (iblk5 V c 4 t) (iblk5 V c 5 t) (iblk5 V c 6 t) := by dsimp only [dat5]

-- an input window's buffer holds its block at every point: the body leaves it as it found it
theorem before5_0 (d) : (dat5 V c).before 0 t d = iblk5 V c 0 t :=
  ((dat5 V c).before_in_eq_fetched 0 rfl (fun _ => rfl) (fun _ _ _ => rfl) (fun _ => rfl) t d).trans rfl
theorem before5_1 (d) : (dat5 V c).before 1 t d = iblk5 V c 1 t :=
  ((dat5 V c).before_in_eq_fetched 1 rfl (fun _ => rfl) (fun _ _ _ => rfl) (fun _ => rfl) t d).trans rfl
theorem before5_2 (d) : (dat5 V c).before 2 t d = iblk5 V c 2 t :=
  ((dat5 V c).before_in_eq_fetched 2 rfl (fun _ => rfl) (fun _ _ _ => rfl) (fun _ => rfl) t d).trans rfl
theorem before5_3 (d) : (dat5 V c).before 3 t d = iblk5 V c 3 t :=
  ((dat5 V c).before_in_eq_fetched 3 rfl (fun _ => rfl) (fun _ _ _ => rfl) (fun _ => rfl) t d).trans rfl
theorem before5_4 (d) : (dat5 V c).before 4 t d = iblk5 V c 4 t :=
  ((dat5 V c).before_in_eq_fetched 4 rfl (fun _ => rfl) (fun _ _ _ => rfl) (fun _ => rfl) t d).trans rfl
theorem before5_5 (d) : (dat5 V c).before 5 t d = iblk5 V c 5 t :=
  ((dat5 V c).before_in_eq_fetched 5 rfl (fun _ => rfl) (fun _ _ _ => rfl) (fun _ => rfl) t d).trans rfl
theorem before5_6 (d) : (dat5 V c).before 6 t d = iblk5 V c 6 t :=
  ((dat5 V c).before_in_eq_fetched 6 rfl (fun _ => rfl) (fun _ _ _ => rfl) (fun _ => rfl) t d).trans rfl

set_option maxHeartbeats 1000000 in
-- each output is one whole-block write of a function of the input blocks
theorem body_obligation5 : BodyObligation (dat5 V c) (defs₀ (F := F)) Variants.none () Set.univ := fun t => by
  rw [bigSep_W5, bigSep_W5, show (dat5 V c).Φ t.succ = (dat5 V c).Φ t.castSucc from rfl,
    show (dat5 V c).owesAt () t.succ = (dat5 V c).owesAt () t.castSucc from rfl]
  simp only [before5_0, before5_1, before5_2, before5_3, before5_4, before5_5, before5_6, after5_7, after5_8, after5_9]
  show _ ⊢ wp _ _ _ (bodyAt5 t) _
  unfold bodyAt5
  simp only [cc5__bn_linear_tanh_kernel_eq_skeleton]; unfold cc5__bn_linear_tanh_kernel_skel
  simp only [k5_part1_eq_skeleton]; unfold k5_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x128.size (by rfl))
  isplitl [H8]
  · iexists _; isplitr
    swap; · iexact H8
    ipureintro
    exact View.read_writes_eq_canon _ _ _ (View.cover_of_tiled _ S1x1x128.size (by rfl))
  iexists _; isplitr
  swap; · iexact H9
  ipureintro
  exact View.read_writes_eq_canon _ _ _ (View.cover_of_tiled _ S1x1x128.size (by rfl))

end Regions

end Cert.Kernel.Hand

end
-- ==== Proof.K.RunFoldC.lean ====
import proofs.«428610_j54915451847256_3_alg».proof.Proof.K.RunFoldB
import proofs.«428610_j54915451847256_3_alg».proof.Proof.K.Enc4
import proofs.«428610_j54915451847256_3_alg».proof.Proof.K.Enc5

noncomputable section

namespace Cert.Kernel.Hand

open Idealize.ShloMosaic Idealize.ShloMosaic.TcCoe
open Cert.Kernel.Gen (launch4 launch5 hostOps4 hostOps5 hostOps4_writes hostOps5_writes hostOps4_W hostOps5_W)

variable {F : FTy → Type} [FloatOps F]

variable (m : (ℓ : Loc nD τ sig) → Buf (Elt F) ℓ) (ρ : Dev nD → PrngReg)

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
abbrev arrs4 : List (Ref sig .tc) := [main_v57_0, main_v66, main_v67, main_v68, main_v69, main_arg5, main_v70, main_v71_0, main_v71_1, main_v71_2]
theorem arrRef4_mem : ∀ w, Pipeline.arrRef spec4 w ∈ arrs4 := by decide
theorem W10_of_not_mem (c : Dev nD) (b : Ref sig .tc) (hb : b ∉ arrs4) :
    W10 m ρ c (Proc.devRef .tc b) = W9 m ρ c (Proc.devRef .tc b) :=
  W10_of_ne m ρ c b fun w e => hb (e ▸ arrRef4_mem w)

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
abbrev arrs5 : List (Ref sig .tc) := [main_v71_0, main_v80, main_v81, main_v82, main_v83, main_arg7, main_v84, main_v85_0, main_v85_1, main_v85_2]
theorem arrRef5_mem : ∀ w, Pipeline.arrRef spec5 w ∈ arrs5 := by decide
theorem W12_of_not_mem (c : Dev nD) (b : Ref sig .tc) (hb : b ∉ arrs5) :
    W12 m ρ c (Proc.devRef .tc b) = W11 m ρ c (Proc.devRef .tc b) :=
  W12_of_ne m ρ c b fun w e => hb (e ▸ arrRef5_mem w)

end Cert.Kernel.Hand

end
-- ==== Proof.K.FlashBase.lean ====
import proofs.«428610_j54915451847256_3_alg».proof.Proof.Gen.Kernel.Launch
import proofs.«428610_j54915451847256_3_alg».proof.Proof.Gen.Kernel.Skeleton
import proofs.«428610_j54915451847256_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

variable {c : Dev nD} (dat : Dat τ (Elt F) Unit ℕ (UR sig nD τ) ℕ cfg6 c)

theorem before6_0_of (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

end Blocks

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem idleAt6_4_A : ∀ t : Fin cfg6.N, cond6_0 (grid6.coords t) → ¬cond6_1 (grid6.coords t) → cfg6.idle 4 (grid6.coords t) = true := by decide +kernel
theorem noFlush6_4_A : ∀ t : Fin cfg6.N, cond6_0 (grid6.coords t) → ¬cond6_1 (grid6.coords t) → (cfg6.win 4).flush t = false := by decide +kernel
theorem idleAt6_4_B : ∀ t : Fin cfg6.N, ¬cond6_0 (grid6.coords t) → ¬cond6_1 (grid6.coords t) → cfg6.idle 4 (grid6.coords t) = true := by decide +kernel
theorem noFlush6_4_B : ∀ t : Fin cfg6.N, ¬cond6_0 (grid6.coords t) → ¬cond6_1 (grid6.coords t) → (cfg6.win 4).flush t = false := by decide +kernel
theorem liveAt6_4_C : ∀ t : Fin cfg6.N, ¬cond6_0 (grid6.coords t) → cond6_1 (grid6.coords t) → cfg6.idle 4 (grid6.coords t) = false := by decide +kernel

abbrev VO6_4 : View sig .tc .vmem S1024x128 .f32 := (Memref.whole cc6_stg4_0 : Memref sig .tc .vmem S1024x128 .f32).view
abbrev ms6_0 (t : Fin cfg6.N) : Memref sig .tc .vmem S1024x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x128 .f32 := win6_4.stage (cfg6.slots t 4)
abbrev hs6_4 (t : Fin cfg6.N) : (ms6_4 t).IsWhole := hstage6_4 ((cfg6.slots t 4).cast nbuf6_4)
abbrev scM6_0 : Memref sig .tc .vmem S1024x1 .f32 := Memref.whole cc6_scratch0
abbrev scM6_1 : Memref sig .tc .vmem S1024x1 .f32 := Memref.whole cc6_scratch1
abbrev scM6_2 : Memref sig .tc .vmem S1024x128 .f32 := Memref.whole cc6_scratch2
abbrev VS6_0 : View sig .tc .vmem S1024x1 .f32 := scM6_0.view
abbrev VS6_1 : View sig .tc .vmem S1024x1 .f32 := scM6_1.view
abbrev VS6_2 : View sig .tc .vmem S1024x128 .f32 := scM6_2.view

end Cert.Kernel.Hand

end
-- ==== Proof.K.FlashRunA.lean ====
import proofs.«428610_j54915451847256_3_alg».proof.Proof.K.FlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_A (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond6_0 i) (hc1 : ¬cond6_1 i)
    (x0 : Vec F S1024x128 .bf16) (x1 : Vec F S1024x128 .bf16) (x2 : Vec F S1x1024 .f32) (x3 : Vec F S1024x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.FlashRunB.lean ====
import proofs.«428610_j54915451847256_3_alg».proof.Proof.K.FlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_B (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond6_0 i) (hc1 : ¬cond6_1 i)
    (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.FlashRunC.lean ====
import proofs.«428610_j54915451847256_3_alg».proof.Proof.K.FlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_C (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond6_0 i) (hc1 : cond6_1 i)
    (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨?_, ?_, ?_, ?_, fun E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.FlashRuns.lean ====
import proofs.«428610_j54915451847256_3_alg».proof.Proof.K.FlashRunA
import proofs.«428610_j54915451847256_3_alg».proof.Proof.K.FlashRunB
import proofs.«428610_j54915451847256_3_alg».proof.Proof.K.FlashRunC
-- ==== Proof.K.FlashOuts.lean ====
import proofs.«428610_j54915451847256_3_alg».proof.Proof.K.FlashRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Runs
variable (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)

section A
variable (hc0 : cond6_0 i) (hc1 : ¬cond6_1 i) (x0 : Vec F S1024x128 .bf16) (x1 : Vec F S1024x128 .bf16) (x2 : Vec F S1x1024 .f32) (x3 : Vec F S1024x128 .bf16)

def out6_A_4 : Vec F S1024x128 .f32 :=
  VO6_4.read (Elt F) (VO6_4.writes (Elt F) VO6_4.junk (kernelRun6_A c i arg2 harg2 arg3 harg3 arg4 harg4 arg5 harg5 arg6 harg6 arg7 harg7 arg8 harg8 arg9 harg9 hc0 hc1 x0 x1 x2 x3).1)

theorem scover6_A_0 (y : S1024x1.Idx) : ∃ pc ∈ (kernelRun6_A c i arg2 harg2 arg3 harg3 arg4 harg4 arg5 harg5 arg6 harg6 arg7 harg7 arg8 harg8 arg9 harg9 hc0 hc1 x0 x1 x2 x3).2.1, y ∈ pc.1.set :=
  View.cover_of_tiledL _ S1024x1.size (by sl_kernel_rfl) y

def sout6_A_0 : Vec F S1024x1 .f32 :=
  VS6_0.read (Elt F) (VS6_0.writes (Elt F) VS6_0.junk (kernelRun6_A c i arg2 harg2 arg3 harg3 arg4 harg4 arg5 harg5 arg6 harg6 arg7 harg7 arg8 harg8 arg9 harg9 hc0 hc1 x0 x1 x2 x3).2.1)

theorem scover6_A_1 (y : S1024x1.Idx) : ∃ pc ∈ (kernelRun6_A c i arg2 harg2 arg3 harg3 arg4 harg4 arg5 harg5 arg6 harg6 arg7 harg7 arg8 harg8 arg9 harg9 hc0 hc1 x0 x1 x2 x3).2.2.1, y ∈ pc.1.set :=
  View.cover_of_tiledL _ S1024x1.size (by sl_kernel_rfl) y

def sout6_A_1 : Vec F S1024x1 .f32 :=
  VS6_1.read (Elt F) (VS6_1.writes (Elt F) VS6_1.junk (kernelRun6_A c i arg2 harg2 arg3 harg3 arg4 harg4 arg5 harg5 arg6 harg6 arg7 harg7 arg8 harg8 arg9 harg9 hc0 hc1 x0 x1 x2 x3).2.2.1)

theorem scover6_A_2 (y : S1024x128.Idx) : ∃ pc ∈ (kernelRun6_A c i arg2 harg2 arg3 harg3 arg4 harg4 arg5 harg5 arg6 harg6 arg7 harg7 arg8 harg8 arg9 harg9 hc0 hc1 x0 x1 x2 x3).2.2.2.1, y ∈ pc.1.set :=
  View.cover_of_tiledL _ S1024x128.size (by sl_kernel_rfl) y

def sout6_A_2 : Vec F S1024x128 .f32 :=
  VS6_2.read (Elt F) (VS6_2.writes (Elt F) VS6_2.junk (kernelRun6_A c i arg2 harg2 arg3 harg3 arg4 harg4 arg5 harg5 arg6 harg6 arg7 harg7 arg8 harg8 arg9 harg9 hc0 hc1 x0 x1 x2 x3).2.2.2.1)

def outs6_A : Vec F S1024x128 .f32 × Vec F S1024x1 .f32 × Vec F S1024x1 .f32 × Vec F S1024x128 .f32 :=
  (out6_A_4 c i arg2 harg2 arg3 harg3 arg4 harg4 arg5 harg5 arg6 harg6 arg7 harg7 arg8 harg8 arg9 harg9 hc0 hc1 x0 x1 x2 x3, sout6_A_0 c i arg2 harg2 arg3 harg3 arg4 harg4 arg5 harg5 arg6 harg6 arg7 harg7 arg8 harg8 arg9 harg9 hc0 hc1 x0 x1 x2 x3, sout6_A_1 c i arg2 harg2 arg3 harg3 arg4 harg4 arg5 harg5 arg6 harg6 arg7 harg7 arg8 harg8 arg9 harg9 hc0 hc1 x0 x1 x2 x3, sout6_A_2 c i arg2 harg2 arg3 harg3 arg4 harg4 arg5 harg5 arg6 harg6 arg7 harg7 arg8 harg8 arg9 harg9 hc0 hc1 x0 x1 x2 x3)

end A

section B
variable (hc0 : ¬cond6_0 i) (hc1 : ¬cond6_1 i) (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

def out6_B_4 : Vec F S1024x128 .f32 :=
  VO6_4.read (Elt F) (VO6_4.writes (Elt F) VO6_4.junk (kernelRun6_B c i arg2 harg2 arg3 harg3 arg4 harg4 arg5 harg5 arg6 harg6 arg7 harg7 arg8 harg8 arg9 harg9 hc0 hc1 x0 x1 x2 x3 xs0 xs1 xs2).1)

theorem scover6_B_0 (y : S1024x1.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL _ S1024x1.size (by sl_kernel_rfl) y

def sout6_B_0 : Vec F S1024x1 .f32 :=
  VS6_0.read (Elt F) (VS6_0.writes (Elt F) VS6_0.junk (kernelRun6_B c i arg2 harg2 arg3 harg3 arg4 harg4 arg5 harg5 arg6 harg6 arg7 harg7 arg8 harg8 arg9 harg9 hc0 hc1 x0 x1 x2 x3 xs0 xs1 xs2).2.1)

theorem scover6_B_1 (y : S1024x1.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL _ S1024x1.size (by sl_kernel_rfl) y

def sout6_B_1 : Vec F S1024x1 .f32 :=
  VS6_1.read (Elt F) (VS6_1.writes (Elt F) VS6_1.junk (kernelRun6_B c i arg2 harg2 arg3 harg3 arg4 harg4 arg5 harg5 arg6 harg6 arg7 harg7 arg8 harg8 arg9 harg9 hc0 hc1 x0 x1 x2 x3 xs0 xs1 xs2).2.2.1)

theorem scover6_B_2 (y : S1024x128.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL _ S1024x128.size (by sl_kernel_rfl) y

def sout6_B_2 : Vec F S1024x128 .f32 :=
  VS6_2.read (Elt F) (VS6_2.writes (Elt F) VS6_2.junk (kernelRun6_B c i arg2 harg2 arg3 harg3 arg4 harg4 arg5 harg5 arg6 harg6 arg7 harg7 arg8 harg8 arg9 harg9 hc0 hc1 x0 x1 x2 x3 xs0 xs1 xs2).2.2.2.1)

def outs6_B : Vec F S1024x128 .f32 × Vec F S1024x1 .f32 × Vec F S1024x1 .f32 × Vec F S1024x128 .f32 :=
  (out6_B_4 c i arg2 harg2 arg3 harg3 arg4 harg4 arg5 harg5 arg6 harg6 arg7 harg7 arg8 harg8 arg9 harg9 hc0 hc1 x0 x1 x2 x3 xs0 xs1 xs2, sout6_B_0 c i arg2 harg2 arg3 harg3 arg4 harg4 arg5 harg5 arg6 harg6 arg7 harg7 arg8 harg8 arg9 harg9 hc0 hc1 x0 x1 x2 x3 xs0 xs1 xs2, sout6_B_1 c i arg2 harg2 arg3 harg3 arg4 harg4 arg5 harg5 arg6 harg6 arg7 harg7 arg8 harg8 arg9 harg9 hc0 hc1 x0 x1 x2 x3 xs0 xs1 xs2, sout6_B_2 c i arg2 harg2 arg3 harg3 arg4 harg4 arg5 harg5 arg6 harg6 arg7 harg7 arg8 harg8 arg9 harg9 hc0 hc1 x0 x1 x2 x3 xs0 xs1 xs2)

end B

section C
variable (hc0 : ¬cond6_0 i) (hc1 : cond6_1 i) (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

theorem cover6_C_4 (y : S1024x128.Idx) : ∃ pc ∈ (kernelRun6_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL _ S1024x128.size (by sl_kernel_rfl) y

def out6_C_4 : Vec F S1024x128 .f32 :=
  VO6_4.read (Elt F) (VO6_4.writes (Elt F) VO6_4.junk (kernelRun6_C c i arg2 harg2 arg3 harg3 arg4 harg4 arg5 harg5 arg6 harg6 arg7 harg7 arg8 harg8 arg9 harg9 hc0 hc1 x0 x1 x2 x3 xs0 xs1 xs2).1)

theorem scover6_C_0 (y : S1024x1.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL _ S1024x1.size (by sl_kernel_rfl) y

def sout6_C_0 : Vec F S1024x1 .f32 :=
  VS6_0.read (Elt F) (VS6_0.writes (Elt F) VS6_0.junk (kernelRun6_C c i arg2 harg2 arg3 harg3 arg4 harg4 arg5 harg5 arg6 harg6 arg7 harg7 arg8 harg8 arg9 harg9 hc0 hc1 x0 x1 x2 x3 xs0 xs1 xs2).2.1)

theorem scover6_C_1 (y : S1024x1.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL _ S1024x1.size (by sl_kernel_rfl) y

def sout6_C_1 : Vec F S1024x1 .f32 :=
  VS6_1.read (Elt F) (VS6_1.writes (Elt F) VS6_1.junk (kernelRun6_C c i arg2 harg2 arg3 harg3 arg4 harg4 arg5 harg5 arg6 harg6 arg7 harg7 arg8 harg8 arg9 harg9 hc0 hc1 x0 x1 x2 x3 xs0 xs1 xs2).2.2.1)

theorem scover6_C_2 (y : S1024x128.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL _ S1024x128.size (by sl_kernel_rfl) y

def sout6_C_2 : Vec F S1024x128 .f32 :=
  VS6_2.read (Elt F) (VS6_2.writes (Elt F) VS6_2.junk (kernelRun6_C c i arg2 harg2 arg3 harg3 arg4 harg4 arg5 harg5 arg6 harg6 arg7 harg7 arg8 harg8 arg9 harg9 hc0 hc1 x0 x1 x2 x3 xs0 xs1 xs2).2.2.2.1)

def outs6_C : Vec F S1024x128 .f32 × Vec F S1024x1 .f32 × Vec F S1024x1 .f32 × Vec F S1024x128 .f32 :=
  (out6_C_4 c i arg2 harg2 arg3 harg3 arg4 harg4 arg5 harg5 arg6 harg6 arg7 harg7 arg8 harg8 arg9 harg9 hc0 hc1 x0 x1 x2 x3 xs0 xs1 xs2, sout6_C_0 c i arg2 harg2 arg3 harg3 arg4 harg4 arg5 harg5 arg6 harg6 arg7 harg7 arg8 harg8 arg9 harg9 hc0 hc1 x0 x1 x2 x3 xs0 xs1 xs2, sout6_C_1 c i arg2 harg2 arg3 harg3 arg4 harg4 arg5 harg5 arg6 harg6 arg7 harg7 arg8 harg8 arg9 harg9 hc0 hc1 x0 x1 x2 x3 xs0 xs1 xs2, sout6_C_2 c i arg2 harg2 arg3 harg3 arg4 harg4 arg5 harg5 arg6 harg6 arg7 harg7 arg8 harg8 arg9 harg9 hc0 hc1 x0 x1 x2 x3 xs0 xs1 xs2)

end C

end Runs

def at6_A (c : Dev nD) (t : Fin cfg6.N) (h0 : t.val % 8 = 0) (h1 : ¬t.val % 8 = 7) :=
  outs6_A c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) ((hcond6_0 t).mpr h0) (fun h => h1 ((hcond6_1 t).mp h)) (iblk6 V c 0 t) (iblk6 V c 1 t) (iblk6 V c 2 t) (iblk6 V c 3 t)

def at6_B (c : Dev nD) (t : Fin cfg6.N) (h0 : ¬t.val % 8 = 0) (h1 : ¬t.val % 8 = 7) (p : Vec F S1024x1 .f32 × Vec F S1024x1 .f32 × Vec F S1024x128 .f32) :=
  outs6_B c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) (fun h => h0 ((hcond6_0 t).mp h)) (fun h => h1 ((hcond6_1 t).mp h)) (iblk6 V c 0 t) (iblk6 V c 1 t) (iblk6 V c 2 t) (iblk6 V c 3 t) p.1 p.2.1 p.2.2

def at6_C (c : Dev nD) (t : Fin cfg6.N) (h0 : ¬t.val % 8 = 0) (h1 : t.val % 8 = 7) (p : Vec F S1024x1 .f32 × Vec F S1024x1 .f32 × Vec F S1024x128 .f32) :=
  outs6_C c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) (fun h => h0 ((hcond6_0 t).mp h)) ((hcond6_1 t).mpr h1) (iblk6 V c 0 t) (iblk6 V c 1 t) (iblk6 V c 2 t) (iblk6 V c 3 t) p.1 p.2.1 p.2.2

-- The values after position n: at n % 8 = 0 computed afresh, otherwise from the values after position n - 1.
def outsAt6 (c : Dev nD) : (n : ℕ) → n < cfg6.N → Vec F S1024x128 .f32 × Vec F S1024x1 .f32 × Vec F S1024x1 .f32 × Vec F S1024x128 .f32
  | 0, hn => at6_A V c ⟨0, hn⟩ (Nat.zero_mod _) (fun h => by (try dsimp only at h); omega)
  | n + 1, hn =>
    if h0 : (n + 1) % 8 = 0 then
      if h1 : (n + 1) % 8 = 7 then False.elim (by omega) else at6_A V c ⟨n + 1, hn⟩ h0 h1
    else if h1 : (n + 1) % 8 = 7 then at6_C V c ⟨n + 1, hn⟩ h0 h1 (outsAt6 c n (Nat.lt_of_succ_lt hn)).2
    else at6_B V c ⟨n + 1, hn⟩ h0 h1 (outsAt6 c n (Nat.lt_of_succ_lt hn)).2

theorem outsAt6_A (c : Dev nD) (t : Fin cfg6.N) (h0 : t.val % 8 = 0) (h1 : ¬t.val % 8 = 7) :
    outsAt6 V c t.val t.isLt = delta% delta% at6_A V c t h0 h1 := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = delta% delta% at6_B V c t h0 h1 (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = delta% delta% at6_C V c t h0 h1 (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def carried6 (c : Dev nD) (p : Vec F S1024x1 .f32 × Vec F S1024x1 .f32 × Vec F S1024x128 .f32) : sProp 𝕄 :=
  iprop(iprop(iprop(owns (c : Thread nD τ) scM6_0 fullShare p.1 ∗ owns (c : Thread nD τ) scM6_1 fullShare p.2.1 ∗ owns (c : Thread nD τ) scM6_2 fullShare p.2.2) ∗ Pipeline.scopedRestBut (Ix := Unit) (Name := ℕ) (U := UR sig nD τ) (Lvl := ℕ) (Val := Elt F) spec6 c [cc6_scratch0, cc6_scratch1, cc6_scratch2]) ∗ (∃ r, prngReg c r))

def PhiS6 (c : Dev nD) : (n : ℕ) → n ≤ cfg6.N → sProp 𝕄
  | 0, _ => Pipeline.ΦA spec6 c
  | n + 1, hn => carried6 c (outsAt6 V c n hn).2

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = carried6 c (outsAt6 V c n hn).2 := rfl

theorem PhiS6_pos (c : Dev nD) (n : ℕ) (h : n ≤ cfg6.N) (hz : n ≠ 0) :
    PhiS6 V c n h = carried6 c (outsAt6 V c (n - 1) (by omega)).2 := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d)) ∗ Pipeline.scopedRestBut (Ix := Unit) (Name := ℕ) (U := UR sig nD τ) (Lvl := ℕ) (Val := Elt F) spec6 c [cc6_scratch0, cc6_scratch1, cc6_scratch2]) ∗ (∃ r, prngReg c r)) := by
  unfold Pipeline.ΦA; rw [scopedRest6_split]; simp only [scM6_0, scM6_1, scM6_2, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

end Cert.Kernel.Hand

end
-- ==== Proof.K.Flash.lean ====
import proofs.«428610_j54915451847256_3_alg».proof.Proof.K.FlashOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

-- Existential weakening: each of the three carried values is some value.
theorem Phi_forget6 (c : Dev nD) (n : ℕ) (h : n ≤ cfg6.N) : PhiS6 V c n h ⊢ Pipeline.ΦA spec6 c := by
  cases n with
  | zero => exact .rfl
  | succ n =>
    rw [PhiS6_succ, PhiA6_eq]; unfold carried6
    iintro ⟨⟨⟨HS0, HS1, HS2⟩, Hb⟩, Hg⟩
    isplitl [HS0 HS1 HS2 Hb]
    · isplitl [HS0 HS1 HS2]
      · isplitl [HS0]; · iexists _; iexact HS0
        isplitl [HS1]; · iexists _; iexact HS1
        iexists _; iexact HS2
      iexact Hb
    iexact Hg

set_option maxHeartbeats 4800000 in
-- By cases on the position modulo 8; the pieces written cover every index, so the value read back does not depend on the prior contents.
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ, PhiS6_castSucc V c t]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val % 8 = 0
  · have h1 : ¬t.val % 8 = 7 := by omega
    rw [Dat.leavesExact_idle (dat6 V c) 4 t (idleAt6_4_A t ((hcond6_0 t).mpr h0) (fun h => h1 ((hcond6_1 t).mp h))) (noFlush6_4_A t ((hcond6_0 t).mpr h0) (fun h => h1 ((hcond6_1 t).mp h))), outsAt6_A V c t h0 h1]
    unfold carried6 sout6_A_0 sout6_A_1 sout6_A_2; (try dsimp only)
    refine BIBase.Entails.trans (sep_mono_left (Phi_forget6 V c _ _)) ?_
    rw [PhiA6_eq]
    iintro ⟨⟨⟨⟨HS0, HS1, HS2⟩, Hb⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hb Hg]
    · isplitl [HS0 HS1 HS2 Hb]
      · isplitl [HS0 HS1 HS2]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover6_A_1 c _ _ _ _ _ _ _ _ _ _ _ _ _ _ _ _ _ _ _ _ _ _ _)
          unfold owns; iexists _; isplitr
          swap; · iexact HS2
          ipureintro; exact View.read_writes_of_cover _ _ _ _ _ (scover6_A_2 c _ _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS6_pos V c _ _ hz]
    by_cases h1 : t.val % 8 = 7
    · rw [show (dat6 V c).leavesExact 4 t = owns (c : Thread nD τ) (ms6_4 t) fullShare ((dat6 V c).after 4 t) from by
        unfold Dat.leavesExact; rw [liveAt6_4_C t (fun h => h0 ((hcond6_0 t).mp h)) ((hcond6_1 t).mpr h1)], after6_4, outsAt6_C V c t h0 h1]
      unfold carried6 out6_C_4 sout6_C_0 sout6_C_1 sout6_C_2; (try dsimp only)
      iintro ⟨⟨⟨⟨HS0, HS1, HS2⟩, Hb⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hb Hg]
      · isplitl [HS0 HS1 HS2 Hb]
        · isplitl [HS0 HS1 HS2]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover6_C_1 c _ _ _ _ _ _ _ _ _ _ _ _ _ _ _ _ _ _ _ _ _ _ _ _ _ _)
            unfold owns; iexists _; isplitr
            swap; · iexact HS2
            ipureintro; exact View.read_writes_of_cover _ _ _ _ _ (scover6_C_2 c _ _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover6_C_4 c _ _ _ _ _ _ _ _ _ _ _ _ _ _ _ _ _ _ _ _ _ _ _ _ _ _)
    · rw [Dat.leavesExact_idle (dat6 V c) 4 t (idleAt6_4_B t (fun h => h0 ((hcond6_0 t).mp h)) (fun h => h1 ((hcond6_1 t).mp h))) (noFlush6_4_B t (fun h => h0 ((hcond6_0 t).mp h)) (fun h => h1 ((hcond6_1 t).mp h))), outsAt6_B V c t h0 h1]
      unfold carried6 sout6_B_0 sout6_B_1 sout6_B_2; (try dsimp only)
      iintro ⟨⟨⟨⟨HS0, HS1, HS2⟩, Hb⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hb Hg]
      · isplitl [HS0 HS1 HS2 Hb]
        · isplitl [HS0 HS1 HS2]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover6_B_1 c _ _ _ _ _ _ _ _ _ _ _ _ _ _ _ _ _ _ _ _ _ _ _ _ _ _)
            unfold owns; iexists _; isplitr
            swap; · iexact HS2
            ipureintro; exact View.read_writes_of_cover _ _ _ _ _ (scover6_B_2 c _ _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl

theorem hout6 (c : Dev nD) : (dat6 V c).Φ (Fin.last cfg6.N) ⊢ Pipeline.ΦA spec6 c :=
  Phi_forget6 V c _ (Nat.le_of_lt_succ (Fin.last cfg6.N).isLt)

end Cert.Kernel.Hand

end
-- ==== Proof.LibRegion.lean ====
import Idealize.ShloMosaic.Lib.Pipeline.RegionsLoop
import Idealize.ShloMosaic.Lib.Pipeline.FrameSuffix
import Idealize.ShloMosaic.Lib.Pipeline.Kit

noncomputable section

namespace Cert.Region

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ₀ : Idealize.SL.Sem.Labels}

local notation "𝕄" => MT nD τ sig Unit Val ℕ U ℕ

-- An update at the windows' arrays changes only an output window's array: at an input window the new value is the old one.
theorem withArrays_keep {cfg : Cfg sig Λ₀} {c : Dev nD} (dat : Dat τ Val Unit ℕ U ℕ cfg c)
    (hinj : Function.Injective (arrRef cfg.spec)) (V : Valuation τ sig Val)
    (hA : ∀ w, dat.A w = V (Proc.devRef .tc (arrRef cfg.spec w))) (t : Nat) (b : Ref sig .tc)
    (hb : ∀ w, arrRef cfg.spec w = b → (cfg.win w).isOut = false) :
    withArrays cfg.spec c V (fun w => dat.arrAt w t) (Proc.devRef .tc b) = V (Proc.devRef .tc b) := by
  by_cases h : ∃ w, arrRef cfg.spec w = b
  · obtain ⟨w, rfl⟩ := h
    rw [withArrays_arr cfg.spec hinj, dat.arrAt_in w (hb w rfl), hA]
  · exact withArrays_of_ne cfg.spec c V _ b fun w e => h ⟨w, e⟩

abbrev R (c : Dev nD) : sProp 𝕄 := iprop((∃ r, prngReg c r) ∗ ∃ W, owes (c : Thread nD τ) (0 : CellTallies nD τ sig Unit) W)

variable {P : Type} [Fintype P] (cfgs : P → Cfg sig Λ₀)
  (pdats : (p : P) → (c : Dev nD) → Dat τ Val Unit ℕ U ℕ (pin (fun q => (cfgs q).toPCfg (Val := Val)) (fun q => (cfgs q).toPCfg_adm) p) c)
  (defs₀ : Defs nD τ sig Val Λ₀) (𝒱₀ : Variants) (L : GSem nD τ sig → Finset Unit) (lv : GSem nD τ sig → Unit → ℕ)

-- One construction for every region: a segment from all unscoped buffers at `W` to the same at `W` updated at the windows' arrays, the rest of the state riding along.
set_option backward.isDefEq.respectTransparency.types false in
def regOf (p : P) (lf : LaunchFacts (nD := nD) (τ := τ) cfgs p) (W W' : Dev nD → Valuation τ sig Val)
    (hbody : ∀ c, BodyObligationLoose (pdats p c) defs₀ 𝒱₀ () Set.univ)
    (howed : ∀ c t, (pdats p c).owed t = 0)
    (hrec : ∀ c, (pdats p c).recorded 0 = Set.univ)
    (hq : ∀ c w, (pdats p c).q w = fullShare)
    (hA : ∀ c w, (pdats p c).A w = W c (Proc.devRef .tc (arrRef (cfgs p).spec w)))
    (hΦ0 : ∀ c, ΦA (cfgs p).spec c ⊢ (pdats p c).Φ 0)
    (hΦN : ∀ c, (pdats p c).Φ (Fin.last _) ⊢ ΦA (cfgs p).spec c)
    (hW' : ∀ c, W' c = withArrays (cfgs p).spec c (W c) fun w => (pdats p c).arrAt w (cfgs p).N) :
    RegionSeg (fun q => (cfgs q).toPCfg (Val := Val)) (fun q => (cfgs q).toPCfg_adm) pdats () defs₀ 𝒱₀ L lv p where
  win := lf.win.to₀
  block_pos := lf.block_pos
  stage_whole := lf.stage_whole
  K := PEmpty
  osem k := k.elim
  ho := OwnSemFacts.none _
  hbody := hbody
  hwaits := hwaits_of_owed_zero _ _ _ _ L lv p howed
  pre c := iprop(StableHlo.held (c : Thread nD τ) (ucRefs τ sig) (W c) ∗ R c)
  post c := iprop(StableHlo.held (c : Thread nD τ) (ucRefs τ sig) (W' c) ∗ R c)
  X c := iprop(∃ r, prngReg c r)
  Y c := iprop(∃ r, prngReg c r)
  Z c := unscopedRest (cfgs p).spec c fun b => W c (Proc.devRef .tc b)
  hentry c := by
    rw [ownSems0_none]
    have hsplit := arrays_of_unscopedBufs (p := p) (fun q => (cfgs q).toPCfg (Val := Val)) (fun q => (cfgs q).toPCfg_adm) pdats lf.win lf.arr_whole c
      ((pdats p c).share_full (hq c)) (fun b => W c (Proc.devRef .tc b)) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin Dat.bound; rw [howed c 0, hrec c]
      icases HO with ⟨%T, HO⟩; iexists T; isplitr; · ipureintro; exact fun _ _ => Or.inl trivial
      iexact HO
    isplitl [Hp]; · iexact Hp
    iexact Hrest
  hin c := by
    refine BIBase.Entails.trans ?_ (hΦ0 c)
    unfold ΦA
    iintro ⟨Hp, -, Hr⟩
    isplitl [Hr]; · iexact Hr
    iexact Hp
  hout c := by
    refine BIBase.Entails.trans (hΦN c) ?_
    rw [ownSems0_none]; unfold ΦA
    iintro ⟨Hr, Hp⟩
    isplitl [Hp]; · iexact Hp
    isplitr; · iempintro
    iexact Hr
  hexit c := by
    have hjoin := unscopedBufs_of_arrays (p := p) (fun q => (cfgs q).toPCfg (Val := Val)) (fun q => (cfgs q).toPCfg_adm) (Ix := Unit) (Name := ℕ) (U := U) (Lvl := ℕ)
      lf.win lf.arr_whole c pdats ((pdats p c).share_full (hq c))
      (fun b => W c (Proc.devRef .tc b)) (fun b => W' c (Proc.devRef .tc b)) ((pdats p c).arrAt · (cfgs p).N)
      (fun w => by rw [hW' c, withArrays_arr _ lf.win.arr_inj])
      (fun b hb => by rw [hW' c]; exact withArrays_of_ne _ c _ _ b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin; rw [howed c (Fin.last _)]
    icases HO with ⟨%T, -, HO⟩; iexists T; iexact HO

end Cert.Region

end
-- ==== Proof.K.RunFold.lean ====
import proofs.«428610_j54915451847256_3_alg».proof.Proof.K.RunFoldC
import proofs.«428610_j54915451847256_3_alg».proof.Proof.K.Flash
import proofs.«428610_j54915451847256_3_alg».proof.Proof.LibRegion

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen (launch6 hostOps6 hostOps6_1 hostOps6_writes hostOps6_1_writes hostOps6_W hostOps6_1_W hostOps7)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W13 : Dev nD → Valuation τ sig (Elt F) := fun c => StableHlo.after hostOps6 (W12 m ρ c)
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

abbrev W14 : Dev nD → Valuation τ sig (Elt F) := fun c => StableHlo.after hostOps6_1 (W13 m ρ c)
abbrev V14 : (c : Dev nD) → (b : Ref sig .tc) → Buf (Elt F) ((c : Thread nD τ).loc b) := fun c b => W14 m ρ c b
theorem W14_of (c : Dev nD) (r : Ref sig .tc) (h : r ∉ hostOps6_1_W) :
    W14 m ρ c (Proc.devRef .tc r) = W13 m ρ c (Proc.devRef .tc r) :=
  StableHlo.after_of_writes_sub hostOps6_1 _ hostOps6_1_writes h

def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N :=
  Pipeline.withArrays_arr spec6 launch6.win.arr_inj c _ _ w

abbrev W16 : Dev nD → Valuation τ sig (Elt F) := fun c => StableHlo.after hostOps7 (W15 m ρ c)

abbrev adm : (p : Fin 7) → (pcfgs (F := F) p).Adm := fun p => (cfgs p).toPCfg_adm
def pdats : (p : Fin 7) → (c : Dev nD) → Pipeline.Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V14 m ρ) c
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Region.R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

end Cert.Kernel.Hand

end
-- ==== Proof.K.RunArgs.lean ====
import proofs.«428610_j54915451847256_3_alg».proof.Proof.K.RunFold

noncomputable section

namespace Cert.Kernel.Hand

open Idealize.ShloMosaic Idealize.ShloMosaic.TcCoe
open Cert.Kernel.Gen

variable {F : FTy → Type} [FloatOps F]

variable (m : (ℓ : Loc nD τ sig) → Buf (Elt F) ℓ) (ρ : Dev nD → PrngReg)

-- A buffer that no stretch writes and that is no output window's array of any region is, at the end, as launched.
theorem kept (c : Dev nD) (r : Ref sig .tc)
    (hk : ¬ (Proc.devRef .tc r : DevRef τ sig).isScoped
      ∧ r ∉ hostOps0_W ++ hostOps1_W ++ hostOps2_W ++ hostOps3_W ++ hostOps4_W ++ hostOps5_W ++ hostOps6_W ++ hostOps6_1_W ++ hostOps7_W
      ∧ ∀ p w, Pipeline.arrRef (cfgs p).spec w = r → ((cfgs p).win w).isOut = false)
    {s : MemSt nD τ sig (Elt F)} (h : ∀ b ∈ Pipeline.ucRefs τ sig, s.mem (((c : Thread nD τ)).1, b) = W16 m ρ c b) :
    s.mem ((c.tc : Thread nD τ).loc r) = m ((c.tc : Thread nD τ).loc r) := by
  obtain ⟨hu, hh, hr⟩ := hk
  simp only [List.mem_append, not_or] at hh
  obtain ⟨⟨⟨⟨⟨⟨⟨⟨h0, h1⟩, h2⟩, h3⟩, h4⟩, h5⟩, h6⟩, h61⟩, h7⟩ := hh
  exact (h _ (mem_uc r hu)).trans <|
    (StableHlo.after_of_writes_sub hostOps7 _ hostOps7_writes h7).trans <|
    (Region.withArrays_keep (dat6 (V14 m ρ) c) launch6.win.arr_inj _ (A_eq6 (V14 m ρ) c) _ r (hr 6)).trans <|
    (W14_of m ρ c r h61).trans <|
    (W13_of m ρ c r h6).trans <|
    (Region.withArrays_keep (dat5 (V11 m ρ) c) launch5.win.arr_inj _ (A_eq5 (V11 m ρ) c) _ r (hr 5)).trans <|
    (W11_of m ρ c r h5).trans <|
    (Region.withArrays_keep (dat4 (V9 m ρ) c) launch4.win.arr_inj _ (A_eq4 (V9 m ρ) c) _ r (hr 4)).trans <|
    (W9_of m ρ c r h4).trans <|
    (Region.withArrays_keep (dat3 (V7 m ρ) c) launch3.win.arr_inj _ (A_eq3 (V7 m ρ) c) _ r (hr 3)).trans <|
    (W7_of m ρ c r h3).trans <|
    (Region.withArrays_keep (dat2 (V5 m ρ) c) launch2.win.arr_inj _ (A_eq2 (V5 m ρ) c) _ r (hr 2)).trans <|
    (W5_of m ρ c r h2).trans <|
    (Region.withArrays_keep (dat1 (V3 m ρ) c) launch1.win.arr_inj _ (A_eq1 (V3 m ρ) c) _ r (hr 1)).trans <|
    (W3_of m ρ c r h1).trans <|
    (Region.withArrays_keep (dat0 (V1 m ρ) c) launch0.win.arr_inj _ (A_eq0 (V1 m ρ) c) _ r (hr 0)).trans <|
    (W1_of m ρ c r h0).trans <|
    rfl

end Cert.Kernel.Hand

end
-- ==== Proof.K.RunReg0.lean ====
import proofs.«428610_j54915451847256_3_alg».proof.Proof.K.RunFold

noncomputable section

namespace Cert.Kernel.Hand

open Idealize.ShloMosaic Idealize.ShloMosaic.TcCoe
open Cert.Kernel.Gen (launch0)

variable {F : FTy → Type} [FloatOps F]

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 :=
  Region.regOf cfgs (pdats m ρ) defs₀ 𝒱₀ L lv 0 launch0 (W1 m ρ) (W2 m ρ) (fun c => (body_obligation0 (V1 m ρ) c).loose)
    (fun _ _ => rfl) (fun _ => rfl) (fun _ _ => rfl) (fun _ _ => rfl) (fun _ => .rfl) (fun _ => .rfl) fun _ => rfl

end Cert.Kernel.Hand

end
-- ==== Proof.K.RunReg1.lean ====
import proofs.«428610_j54915451847256_3_alg».proof.Proof.K.RunFold

noncomputable section

namespace Cert.Kernel.Hand

open Idealize.ShloMosaic Idealize.ShloMosaic.TcCoe
open Cert.Kernel.Gen (launch1)

variable {F : FTy → Type} [FloatOps F]

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 :=
  Region.regOf cfgs (pdats m ρ) defs₀ 𝒱₀ L lv 1 launch1 (W3 m ρ) (W4 m ρ) (fun c => (body_obligation1 (V3 m ρ) c).loose)
    (fun _ _ => rfl) (fun _ => rfl) (fun _ _ => rfl) (fun _ _ => rfl) (fun _ => .rfl) (fun _ => .rfl) fun _ => rfl

end Cert.Kernel.Hand

end
-- ==== Proof.K.RunReg2.lean ====
import proofs.«428610_j54915451847256_3_alg».proof.Proof.K.RunFold

noncomputable section

namespace Cert.Kernel.Hand

open Idealize.ShloMosaic Idealize.ShloMosaic.TcCoe
open Cert.Kernel.Gen (launch2)

variable {F : FTy → Type} [FloatOps F]

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 :=
  Region.regOf cfgs (pdats m ρ) defs₀ 𝒱₀ L lv 2 launch2 (W5 m ρ) (W6 m ρ) (fun c => (body_obligation2 (V5 m ρ) c).loose)
    (fun _ _ => rfl) (fun _ => rfl) (fun _ _ => rfl) (fun _ _ => rfl) (fun _ => .rfl) (fun _ => .rfl) fun _ => rfl

end Cert.Kernel.Hand

end
-- ==== Proof.K.RunReg3.lean ====
import proofs.«428610_j54915451847256_3_alg».proof.Proof.K.RunFold

noncomputable section

namespace Cert.Kernel.Hand

open Idealize.ShloMosaic Idealize.ShloMosaic.TcCoe
open Cert.Kernel.Gen (launch3)

variable {F : FTy → Type} [FloatOps F]

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 :=
  Region.regOf cfgs (pdats m ρ) defs₀ 𝒱₀ L lv 3 launch3 (W7 m ρ) (W8 m ρ) (fun c => (body_obligation3 (V7 m ρ) c).loose)
    (fun _ _ => rfl) (fun _ => rfl) (fun _ _ => rfl) (fun _ _ => rfl) (fun _ => .rfl) (fun _ => .rfl) fun _ => rfl

end Cert.Kernel.Hand

end
-- ==== Proof.K.RunReg4.lean ====
import proofs.«428610_j54915451847256_3_alg».proof.Proof.K.RunFold

noncomputable section

namespace Cert.Kernel.Hand

open Idealize.ShloMosaic Idealize.ShloMosaic.TcCoe
open Cert.Kernel.Gen (launch4)

variable {F : FTy → Type} [FloatOps F]

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 :=
  Region.regOf cfgs (pdats m ρ) defs₀ 𝒱₀ L lv 4 launch4 (W9 m ρ) (W10 m ρ) (fun c => (body_obligation4 (V9 m ρ) c).loose)
    (fun _ _ => rfl) (fun _ => rfl) (fun _ _ => rfl) (fun _ _ => rfl) (fun _ => .rfl) (fun _ => .rfl) fun _ => rfl

end Cert.Kernel.Hand

end
-- ==== Proof.K.RunReg5.lean ====
import proofs.«428610_j54915451847256_3_alg».proof.Proof.K.RunFold

noncomputable section

namespace Cert.Kernel.Hand

open Idealize.ShloMosaic Idealize.ShloMosaic.TcCoe
open Cert.Kernel.Gen (launch5)

variable {F : FTy → Type} [FloatOps F]

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 :=
  Region.regOf cfgs (pdats m ρ) defs₀ 𝒱₀ L lv 5 launch5 (W11 m ρ) (W12 m ρ) (fun c => (body_obligation5 (V11 m ρ) c).loose)
    (fun _ _ => rfl) (fun _ => rfl) (fun _ _ => rfl) (fun _ _ => rfl) (fun _ => .rfl) (fun _ => .rfl) fun _ => rfl

end Cert.Kernel.Hand

end
-- ==== Proof.K.RunReg6.lean ====
import proofs.«428610_j54915451847256_3_alg».proof.Proof.K.RunFold

noncomputable section

namespace Cert.Kernel.Hand

open Idealize.ShloMosaic Idealize.ShloMosaic.TcCoe
open Cert.Kernel.Gen (launch6)

variable {F : FTy → Type} [FloatOps F]

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 :=
  Region.regOf cfgs (pdats m ρ) defs₀ 𝒱₀ L lv 6 launch6 (W14 m ρ) (W15 m ρ) (fun c => (body_obligation6 (V14 m ρ) c).loose)
    (fun _ _ => rfl) (fun _ => rfl) (fun _ _ => rfl) (fun _ _ => rfl) (hin6 (V14 m ρ)) (hout6 (V14 m ρ)) fun _ => rfl

end Cert.Kernel.Hand

end
-- ==== Proof.K.Run.lean ====
import proofs.«428610_j54915451847256_3_alg».proof.Proof.K.RunArgs
import proofs.«428610_j54915451847256_3_alg».proof.Proof.K.RunReg0
import proofs.«428610_j54915451847256_3_alg».proof.Proof.K.RunReg1
import proofs.«428610_j54915451847256_3_alg».proof.Proof.K.RunReg2
import proofs.«428610_j54915451847256_3_alg».proof.Proof.K.RunReg3
import proofs.«428610_j54915451847256_3_alg».proof.Proof.K.RunReg4
import proofs.«428610_j54915451847256_3_alg».proof.Proof.K.RunReg5
import proofs.«428610_j54915451847256_3_alg».proof.Proof.K.RunReg6

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .region (reg6 m ρ),
    .host (hseg hostOps7 hostOps7_sub hostOps7_fresh (W15 m ρ)) ]
theorem main_run (c : Dev nD) : main (F := F) c = Pipeline.Seg.run (segs m ρ) := by
  rw [main_chain c, Pipeline.Seg.run_eq_chain]; rfl

set_option backward.isDefEq.respectTransparency.types false in
theorem run_named : θ_run defs (onTc (τ := τ) (main (F := F))) ⟨m, fun _ => 0, ρ⟩ (fun r => ∀ c : Dev nD,
      r.2.mem ((c.tc : Thread nD τ).loc main_v92) = W16 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Region.R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v92 (by decide)),
       kept m ρ c main_arg0 (by decide) (h c),
       kept m ρ c main_arg1 (by decide) (h c),
       kept m ρ c main_arg2 (by decide) (h c),
       kept m ρ c main_arg3 (by decide) (h c),
       kept m ρ c main_arg4 (by decide) (h c),
       kept m ρ c main_arg5 (by decide) (h c),
       kept m ρ c main_arg6 (by decide) (h c),
       kept m ρ c main_arg7 (by decide) (h c),
       kept m ρ c main_arg8 (by decide) (h c),
       kept m ρ c main_arg9 (by decide) (h c),
       kept m ρ c main_arg10 (by decide) (h c),
       kept m ρ c main_arg11 (by decide) (h c),
       kept m ρ c main_arg12 (by decide) (h c),
       kept m ρ c main_arg13 (by decide) (h c),
       kept m ρ c main_arg14 (by decide) (h c)⟩)

end Cert.Kernel.Hand

end
-- ==== Proof.KI.Enc0.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x1024 := Rect.unit ![0, 0] S1024x1024.size inb_S1024x1024_S1024x1024_0_0
abbrev r0_1 : Rect S1x1024 := Rect.unit ![0, 0] S1x1024.size inb_S1x1024_S1x1024_0_0
abbrev r0_2 : Rect S512x1024 := Rect.unit ![0, 0] S512x1024.size inb_S512x1024_S512x1024_0_0
abbrev r0_3 : Rect S1x512 := Rect.unit ![0, 0] S1x512.size inb_S1x512_S1x512_0_0
abbrev r0_4 : Rect S1024x512 := Rect.unit ![0, 0] S1024x512.size inb_S1024x512_S1024x512_0_0
abbrev r0_5 : Rect S1x1x512 := Rect.unit ![0, 0, 0] S1x1x512.size inb_S1x1x512_S1x1x512_0_0_0

section
variable (x0 : Vec F S1024x1024 .f32) (x1 x2 x3 x4 : Vec F S1x1024 .f32) (x5 : Vec F S512x1024 .f32) (x6 : Vec F S1x512 .f32)

def out0_7 : Vec F S1024x512 .f32 :=
  View.canon [⟨r0_4, k0_pay2 (View.ld x0 r0_0) (View.ld x4 r0_1) (View.ld x3 r0_1) (View.ld x1 r0_1) (View.ld x2 r0_1) (View.ld x5 r0_2) (View.ld x6 r0_3)⟩]

def out0_8 : Vec F S1x1x512 .f32 :=
  View.canon [⟨r0_5, k0_pay3 (View.ld x0 r0_0) (View.ld x4 r0_1) (View.ld x3 r0_1) (View.ld x1 r0_1) (View.ld x2 r0_1) (View.ld x5 r0_2) (View.ld x6 r0_3)⟩]

def out0_9 : Vec F S1x1x512 .f32 :=
  View.canon [⟨r0_5, k0_pay1 (k0_pay4 (View.ld x0 r0_0) (View.ld x4 r0_1) (View.ld x3 r0_1) (View.ld x1 r0_1) (View.ld x2 r0_1) (View.ld x5 r0_2) (View.ld x6 r0_3))⟩]

end

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (w : Fin cfg0.W) : (dat0 V c).A w = V c (Pipeline.arrRef spec0 w) := rfl

variable (t : Fin cfg0.N)

theorem after0_7 : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 : (dat0 V c).after 9 t = out0_9 (iblk0 V c 0 t) (iblk0 V c 1 t) (iblk0 V c 2 t) (iblk0 V c 3 t) (iblk0 V c 4 t) (iblk0 V c 5 t) (iblk0 V c 6 t) := by dsimp only [dat0]

-- an input window's buffer holds its block at every point: the body leaves it as it found it
theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl
theorem before0_6 (d) : (dat0 V c).before 6 t d = iblk0 V c 6 t :=
  ((dat0 V c).before_in_eq_fetched 6 rfl (fun _ => rfl) (fun _ _ _ => rfl) (fun _ => rfl) t d).trans rfl

set_option maxHeartbeats 1000000 in
-- each output is one whole-block write of a function of the input blocks
theorem body_obligation0 : BodyObligation (dat0 V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  simp only [before0_0, before0_1, before0_2, before0_3, before0_4, before0_5, before0_6, after0_7, after0_8, after0_9]
  show _ ⊢ wp _ _ _ (bodyAt0 t) _
  unfold bodyAt0
  simp only [cc0__bn_linear_tanh_kernel_eq_skeleton]; unfold cc0__bn_linear_tanh_kernel_skel
  simp only [k0_part1_eq_skeleton]; unfold k0_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1x512.size (by rfl))
  iexists _; isplitr
  swap; · iexact H9
  ipureintro
  exact View.read_writes_eq_canon _ _ _ (View.cover_of_tiled _ S1x1x512.size (by rfl))

end Regions

end Cert.KernelIdeal.Hand

end
-- ==== Proof.KI.Enc1.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit ![0, 0] S1024x512.size inb_S1024x512_S1024x512_0_0
abbrev r1_1 : Rect S1x512 := Rect.unit ![0, 0] S1x512.size inb_S1x512_S1x512_0_0
abbrev r1_2 : Rect S256x512 := Rect.unit ![0, 0] S256x512.size inb_S256x512_S256x512_0_0
abbrev r1_3 : Rect S1x256 := Rect.unit ![0, 0] S1x256.size inb_S1x256_S1x256_0_0
abbrev r1_4 : Rect S1024x256 := Rect.unit ![0, 0] S1024x256.size inb_S1024x256_S1024x256_0_0
abbrev r1_5 : Rect S1x1x256 := Rect.unit ![0, 0, 0] S1x1x256.size inb_S1x1x256_S1x1x256_0_0_0

section
variable (x0 : Vec F S1024x512 .f32) (x1 x2 x3 x4 : Vec F S1x512 .f32) (x5 : Vec F S256x512 .f32) (x6 : Vec F S1x256 .f32)

def out1_7 : Vec F S1024x256 .f32 :=
  View.canon [⟨r1_4, k1_pay2 (View.ld x0 r1_0) (View.ld x4 r1_1) (View.ld x3 r1_1) (View.ld x1 r1_1) (View.ld x2 r1_1) (View.ld x5 r1_2) (View.ld x6 r1_3)⟩]

def out1_8 : Vec F S1x1x256 .f32 :=
  View.canon [⟨r1_5, k1_pay3 (View.ld x0 r1_0) (View.ld x4 r1_1) (View.ld x3 r1_1) (View.ld x1 r1_1) (View.ld x2 r1_1) (View.ld x5 r1_2) (View.ld x6 r1_3)⟩]

def out1_9 : Vec F S1x1x256 .f32 :=
  View.canon [⟨r1_5, k1_pay1 (k1_pay4 (View.ld x0 r1_0) (View.ld x4 r1_1) (View.ld x3 r1_1) (View.ld x1 r1_1) (View.ld x2 r1_1) (View.ld x5 r1_2) (View.ld x6 r1_3))⟩]

end

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (w : Fin cfg1.W) : (dat1 V c).A w = V c (Pipeline.arrRef spec1 w) := rfl

variable (t : Fin cfg1.N)

theorem after1_7 : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 : (dat1 V c).after 9 t = out1_9 (iblk1 V c 0 t) (iblk1 V c 1 t) (iblk1 V c 2 t) (iblk1 V c 3 t) (iblk1 V c 4 t) (iblk1 V c 5 t) (iblk1 V c 6 t) := by dsimp only [dat1]

-- an input window's buffer holds its block at every point: the body leaves it as it found it
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl
theorem before1_6 (d) : (dat1 V c).before 6 t d = iblk1 V c 6 t :=
  ((dat1 V c).before_in_eq_fetched 6 rfl (fun _ => rfl) (fun _ _ _ => rfl) (fun _ => rfl) t d).trans rfl

set_option maxHeartbeats 1000000 in
-- each output is one whole-block write of a function of the input blocks
theorem body_obligation1 : BodyObligation (dat1 V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1_0, before1_1, before1_2, before1_3, before1_4, before1_5, before1_6, after1_7, after1_8, after1_9]
  show _ ⊢ wp _ _ _ (bodyAt1 t) _
  unfold bodyAt1
  simp only [cc1__bn_linear_tanh_kernel_eq_skeleton]; unfold cc1__bn_linear_tanh_kernel_skel
  simp only [k1_part1_eq_skeleton]; unfold k1_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1x256.size (by rfl))
  iexists _; isplitr
  swap; · iexact H9
  ipureintro
  exact View.read_writes_eq_canon _ _ _ (View.cover_of_tiled _ S1x1x256.size (by rfl))

end Regions

end Cert.KernelIdeal.Hand

end
-- ==== Proof.KI.RunFoldA.lean ====
import proofs.«428610_j54915451847256_3_alg».proof.Proof.Gen.KernelIdeal.Launch
import proofs.«428610_j54915451847256_3_alg».proof.Proof.Gen.KernelIdeal.Regions
import proofs.«428610_j54915451847256_3_alg».proof.Proof.KI.Enc0
import proofs.«428610_j54915451847256_3_alg».proof.Proof.KI.Enc1

noncomputable section

namespace Cert.KernelIdeal.Hand

open Idealize.ShloMosaic Idealize.ShloMosaic.TcCoe
open Cert.KernelIdeal.Gen (launch0 launch1 hostOps0 hostOps1 hostOps0_writes hostOps1_writes hostOps0_W hostOps1_W)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev arrs0 : List (Ref sig .tc) := [main_arg0, main_v9, main_v10, main_v11, main_v12, main_arg3, main_v13, main_v14_0, main_v14_1, main_v14_2]
theorem arrRef0_mem : ∀ w, Pipeline.arrRef spec0 w ∈ arrs0 := by decide
theorem W2_of_not_mem (c : Dev nD) (b : Ref sig .tc) (hb : b ∉ arrs0) :
    W2 m ρ c (Proc.devRef .tc b) = W1 m ρ c (Proc.devRef .tc b) :=
  W2_of_ne m ρ c b fun w e => hb (e ▸ arrRef0_mem w)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
abbrev arrs1 : List (Ref sig .tc) := [main_v14_0, main_v23, main_v24, main_v25, main_v26, main_arg5, main_v27, main_v28_0, main_v28_1, main_v28_2]
theorem arrRef1_mem : ∀ w, Pipeline.arrRef spec1 w ∈ arrs1 := by decide
theorem W4_of_not_mem (c : Dev nD) (b : Ref sig .tc) (hb : b ∉ arrs1) :
    W4 m ρ c (Proc.devRef .tc b) = W3 m ρ c (Proc.devRef .tc b) :=
  W4_of_ne m ρ c b fun w e => hb (e ▸ arrRef1_mem w)

end Cert.KernelIdeal.Hand

end
-- ==== Proof.KI.Enc2.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x256 := Rect.unit ![0, 0] S1024x256.size inb_S1024x256_S1024x256_0_0
abbrev r2_1 : Rect S1x256 := Rect.unit ![0, 0] S1x256.size inb_S1x256_S1x256_0_0
abbrev r2_2 : Rect S128x256 := Rect.unit ![0, 0] S128x256.size inb_S128x256_S128x256_0_0
abbrev r2_3 : Rect S1x128 := Rect.unit ![0, 0] S1x128.size inb_S1x128_S1x128_0_0
abbrev r2_4 : Rect S1024x128 := Rect.unit ![0, 0] S1024x128.size inb_S1024x128_S1024x128_0_0
abbrev r2_5 : Rect S1x1x128 := Rect.unit ![0, 0, 0] S1x1x128.size inb_S1x1x128_S1x1x128_0_0_0

section
variable (x0 : Vec F S1024x256 .f32) (x1 x2 x3 x4 : Vec F S1x256 .f32) (x5 : Vec F S128x256 .f32) (x6 : Vec F S1x128 .f32)

def out2_7 : Vec F S1024x128 .bf16 :=
  View.canon [⟨r2_4, k2_pay3 (View.ld x0 r2_0) (View.ld x4 r2_1) (View.ld x3 r2_1) (View.ld x1 r2_1) (View.ld x2 r2_1) (View.ld x5 r2_2) (View.ld x6 r2_3)⟩]

def out2_8 : Vec F S1x1x128 .f32 :=
  View.canon [⟨r2_5, k2_pay4 (View.ld x0 r2_0) (View.ld x4 r2_1) (View.ld x3 r2_1) (View.ld x1 r2_1) (View.ld x2 r2_1) (View.ld x5 r2_2) (View.ld x6 r2_3)⟩]

def out2_9 : Vec F S1x1x128 .f32 :=
  View.canon [⟨r2_5, k2_pay1 (k2_pay2 (View.ld x0 r2_0) (View.ld x4 r2_1) (View.ld x3 r2_1) (View.ld x1 r2_1) (View.ld x2 r2_1) (View.ld x5 r2_2) (View.ld x6 r2_3))⟩]

end

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
    | ⟨9, _⟩ => out2_9 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := rfl

variable (t : Fin cfg2.N)

theorem after2_7 : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 : (dat2 V c).after 8 t = out2_8 (iblk2 V c 0 t) (iblk2 V c 1 t) (iblk2 V c 2 t) (iblk2 V c 3 t) (iblk2 V c 4 t) (iblk2 V c 5 t) (iblk2 V c 6 t) := by dsimp only [dat2]
theorem after2_9 : (dat2 V c).after 9 t = out2_9 (iblk2 V c 0 t) (iblk2 V c 1 t) (iblk2 V c 2 t) (iblk2 V c 3 t) (iblk2 V c 4 t) (iblk2 V c 5 t) (iblk2 V c 6 t) := by dsimp only [dat2]

-- an input window's buffer holds its block at every point: the body leaves it as it found it
theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = iblk2 V c 1 t :=
  ((dat2 V c).before_in_eq_fetched 1 rfl (fun _ => rfl) (fun _ _ _ => rfl) (fun _ => rfl) t d).trans rfl
theorem before2_2 (d) : (dat2 V c).before 2 t d = iblk2 V c 2 t :=
  ((dat2 V c).before_in_eq_fetched 2 rfl (fun _ => rfl) (fun _ _ _ => rfl) (fun _ => rfl) t d).trans rfl
theorem before2_3 (d) : (dat2 V c).before 3 t d = iblk2 V c 3 t :=
  ((dat2 V c).before_in_eq_fetched 3 rfl (fun _ => rfl) (fun _ _ _ => rfl) (fun _ => rfl) t d).trans rfl
theorem before2_4 (d) : (dat2 V c).before 4 t d = iblk2 V c 4 t :=
  ((dat2 V c).before_in_eq_fetched 4 rfl (fun _ => rfl) (fun _ _ _ => rfl) (fun _ => rfl) t d).trans rfl
theorem before2_5 (d) : (dat2 V c).before 5 t d = iblk2 V c 5 t :=
  ((dat2 V c).before_in_eq_fetched 5 rfl (fun _ => rfl) (fun _ _ _ => rfl) (fun _ => rfl) t d).trans rfl
theorem before2_6 (d) : (dat2 V c).before 6 t d = iblk2 V c 6 t :=
  ((dat2 V c).before_in_eq_fetched 6 rfl (fun _ => rfl) (fun _ _ _ => rfl) (fun _ => rfl) t d).trans rfl

set_option maxHeartbeats 1000000 in
-- each output is one whole-block write of a function of the input blocks
theorem body_obligation2 : BodyObligation (dat2 V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl]
  simp only [before2_0, before2_1, before2_2, before2_3, before2_4, before2_5, before2_6, after2_7, after2_8, after2_9]
  show _ ⊢ wp _ _ _ (bodyAt2 t) _
  unfold bodyAt2
  simp only [cc2__bn_linear_tanh_kernel_eq_skeleton]; unfold cc2__bn_linear_tanh_kernel_skel
  simp only [k2_part1_eq_skeleton]; unfold k2_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x128.size (by rfl))
  isplitl [H8]
  · iexists _; isplitr
    swap; · iexact H8
    ipureintro
    exact View.read_writes_eq_canon _ _ _ (View.cover_of_tiled _ S1x1x128.size (by rfl))
  iexists _; isplitr
  swap; · iexact H9
  ipureintro
  exact View.read_writes_eq_canon _ _ _ (View.cover_of_tiled _ S1x1x128.size (by rfl))

end Regions

end Cert.KernelIdeal.Hand

end
-- ==== Proof.KI.Enc3.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x1024 := Rect.unit ![0, 0] S1024x1024.size inb_S1024x1024_S1024x1024_0_0
abbrev r3_1 : Rect S1x1024 := Rect.unit ![0, 0] S1x1024.size inb_S1x1024_S1x1024_0_0
abbrev r3_2 : Rect S512x1024 := Rect.unit ![0, 0] S512x1024.size inb_S512x1024_S512x1024_0_0
abbrev r3_3 : Rect S1x512 := Rect.unit ![0, 0] S1x512.size inb_S1x512_S1x512_0_0
abbrev r3_4 : Rect S1024x512 := Rect.unit ![0, 0] S1024x512.size inb_S1024x512_S1024x512_0_0
abbrev r3_5 : Rect S1x1x512 := Rect.unit ![0, 0, 0] S1x1x512.size inb_S1x1x512_S1x1x512_0_0_0

section
variable (x0 : Vec F S1024x1024 .f32) (x1 x2 x3 x4 : Vec F S1x1024 .f32) (x5 : Vec F S512x1024 .f32) (x6 : Vec F S1x512 .f32)

def out3_7 : Vec F S1024x512 .f32 :=
  View.canon [⟨r3_4, k3_pay2 (View.ld x0 r3_0) (View.ld x4 r3_1) (View.ld x3 r3_1) (View.ld x1 r3_1) (View.ld x2 r3_1) (View.ld x5 r3_2) (View.ld x6 r3_3)⟩]

def out3_8 : Vec F S1x1x512 .f32 :=
  View.canon [⟨r3_5, k3_pay3 (View.ld x0 r3_0) (View.ld x4 r3_1) (View.ld x3 r3_1) (View.ld x1 r3_1) (View.ld x2 r3_1) (View.ld x5 r3_2) (View.ld x6 r3_3)⟩]

def out3_9 : Vec F S1x1x512 .f32 :=
  View.canon [⟨r3_5, k3_pay1 (k3_pay4 (View.ld x0 r3_0) (View.ld x4 r3_1) (View.ld x3 r3_1) (View.ld x1 r3_1) (View.ld x2 r3_1) (View.ld x5 r3_2) (View.ld x6 r3_3))⟩]

end

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
    | ⟨9, _⟩ => out3_9 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (w : Fin cfg3.W) : (dat3 V c).A w = V c (Pipeline.arrRef spec3 w) := rfl

variable (t : Fin cfg3.N)

theorem after3_7 : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 : (dat3 V c).after 8 t = out3_8 (iblk3 V c 0 t) (iblk3 V c 1 t) (iblk3 V c 2 t) (iblk3 V c 3 t) (iblk3 V c 4 t) (iblk3 V c 5 t) (iblk3 V c 6 t) := by dsimp only [dat3]
theorem after3_9 : (dat3 V c).after 9 t = out3_9 (iblk3 V c 0 t) (iblk3 V c 1 t) (iblk3 V c 2 t) (iblk3 V c 3 t) (iblk3 V c 4 t) (iblk3 V c 5 t) (iblk3 V c 6 t) := by dsimp only [dat3]

-- an input window's buffer holds its block at every point: the body leaves it as it found it
theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl
theorem before3_3 (d) : (dat3 V c).before 3 t d = iblk3 V c 3 t :=
  ((dat3 V c).before_in_eq_fetched 3 rfl (fun _ => rfl) (fun _ _ _ => rfl) (fun _ => rfl) t d).trans rfl
theorem before3_4 (d) : (dat3 V c).before 4 t d = iblk3 V c 4 t :=
  ((dat3 V c).before_in_eq_fetched 4 rfl (fun _ => rfl) (fun _ _ _ => rfl) (fun _ => rfl) t d).trans rfl
theorem before3_5 (d) : (dat3 V c).before 5 t d = iblk3 V c 5 t :=
  ((dat3 V c).before_in_eq_fetched 5 rfl (fun _ => rfl) (fun _ _ _ => rfl) (fun _ => rfl) t d).trans rfl
theorem before3_6 (d) : (dat3 V c).before 6 t d = iblk3 V c 6 t :=
  ((dat3 V c).before_in_eq_fetched 6 rfl (fun _ => rfl) (fun _ _ _ => rfl) (fun _ => rfl) t d).trans rfl

set_option maxHeartbeats 1000000 in
-- each output is one whole-block write of a function of the input blocks
theorem body_obligation3 : BodyObligation (dat3 V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  simp only [before3_0, before3_1, before3_2, before3_3, before3_4, before3_5, before3_6, after3_7, after3_8, after3_9]
  show _ ⊢ wp _ _ _ (bodyAt3 t) _
  unfold bodyAt3
  simp only [cc3__bn_linear_tanh_kernel_eq_skeleton]; unfold cc3__bn_linear_tanh_kernel_skel
  simp only [k3_part1_eq_skeleton]; unfold k3_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x512.size (by rfl))
  isplitl [H8]
  · iexists _; isplitr
    swap; · iexact H8
    ipureintro
    exact View.read_writes_eq_canon _ _ _ (View.cover_of_tiled _ S1x1x512.size (by rfl))
  iexists _; isplitr
  swap; · iexact H9
  ipureintro
  exact View.read_writes_eq_canon _ _ _ (View.cover_of_tiled _ S1x1x512.size (by rfl))

end Regions

end Cert.KernelIdeal.Hand

end
-- ==== Proof.KI.RunFoldB.lean ====
import proofs.«428610_j54915451847256_3_alg».proof.Proof.KI.RunFoldA
import proofs.«428610_j54915451847256_3_alg».proof.Proof.KI.Enc2
import proofs.«428610_j54915451847256_3_alg».proof.Proof.KI.Enc3

noncomputable section

namespace Cert.KernelIdeal.Hand

open Idealize.ShloMosaic Idealize.ShloMosaic.TcCoe
open Cert.KernelIdeal.Gen (launch2 launch3 hostOps2 hostOps3 hostOps2_writes hostOps3_writes hostOps2_W hostOps3_W)

variable {F : FTy → Type} [FloatOps F]

variable (m : (ℓ : Loc nD τ sig) → Buf (Elt F) ℓ) (ρ : Dev nD → PrngReg)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
abbrev arrs2 : List (Ref sig .tc) := [main_v28_0, main_v37, main_v38, main_v39, main_v40, main_arg7, main_v41, main_v42_0, main_v42_1, main_v42_2]
theorem arrRef2_mem : ∀ w, Pipeline.arrRef spec2 w ∈ arrs2 := by decide
theorem W6_of_not_mem (c : Dev nD) (b : Ref sig .tc) (hb : b ∉ arrs2) :
    W6 m ρ c (Proc.devRef .tc b) = W5 m ρ c (Proc.devRef .tc b) :=
  W6_of_ne m ρ c b fun w e => hb (e ▸ arrRef2_mem w)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev arrs3 : List (Ref sig .tc) := [main_arg1, main_v52, main_v53, main_v54, main_v55, main_arg3, main_v56, main_v57_0, main_v57_1, main_v57_2]
theorem arrRef3_mem : ∀ w, Pipeline.arrRef spec3 w ∈ arrs3 := by decide
theorem W8_of_not_mem (c : Dev nD) (b : Ref sig .tc) (hb : b ∉ arrs3) :
    W8 m ρ c (Proc.devRef .tc b) = W7 m ρ c (Proc.devRef .tc b) :=
  W8_of_ne m ρ c b fun w e => hb (e ▸ arrRef3_mem w)

end Cert.KernelIdeal.Hand

end
-- ==== Proof.KI.Enc4.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x512 := Rect.unit ![0, 0] S1024x512.size inb_S1024x512_S1024x512_0_0
abbrev r4_1 : Rect S1x512 := Rect.unit ![0, 0] S1x512.size inb_S1x512_S1x512_0_0
abbrev r4_2 : Rect S256x512 := Rect.unit ![0, 0] S256x512.size inb_S256x512_S256x512_0_0
abbrev r4_3 : Rect S1x256 := Rect.unit ![0, 0] S1x256.size inb_S1x256_S1x256_0_0
abbrev r4_4 : Rect S1024x256 := Rect.unit ![0, 0] S1024x256.size inb_S1024x256_S1024x256_0_0
abbrev r4_5 : Rect S1x1x256 := Rect.unit ![0, 0, 0] S1x1x256.size inb_S1x1x256_S1x1x256_0_0_0

section
variable (x0 : Vec F S1024x512 .f32) (x1 x2 x3 x4 : Vec F S1x512 .f32) (x5 : Vec F S256x512 .f32) (x6 : Vec F S1x256 .f32)

def out4_7 : Vec F S1024x256 .f32 :=
  View.canon [⟨r4_4, k4_pay2 (View.ld x0 r4_0) (View.ld x4 r4_1) (View.ld x3 r4_1) (View.ld x1 r4_1) (View.ld x2 r4_1) (View.ld x5 r4_2) (View.ld x6 r4_3)⟩]

def out4_8 : Vec F S1x1x256 .f32 :=
  View.canon [⟨r4_5, k4_pay3 (View.ld x0 r4_0) (View.ld x4 r4_1) (View.ld x3 r4_1) (View.ld x1 r4_1) (View.ld x2 r4_1) (View.ld x5 r4_2) (View.ld x6 r4_3)⟩]

def out4_9 : Vec F S1x1x256 .f32 :=
  View.canon [⟨r4_5, k4_pay1 (k4_pay4 (View.ld x0 r4_0) (View.ld x4 r4_1) (View.ld x3 r4_1) (View.ld x1 r4_1) (View.ld x2 r4_1) (View.ld x5 r4_2) (View.ld x6 r4_3))⟩]

end

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
    | ⟨9, _⟩ => out4_9 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (w : Fin cfg4.W) : (dat4 V c).A w = V c (Pipeline.arrRef spec4 w) := rfl

variable (t : Fin cfg4.N)

theorem after4_7 : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 : (dat4 V c).after 8 t = out4_8 (iblk4 V c 0 t) (iblk4 V c 1 t) (iblk4 V c 2 t) (iblk4 V c 3 t) (iblk4 V c 4 t) (iblk4 V c 5 t) (iblk4 V c 6 t) := by dsimp only [dat4]
theorem after4_9 : (dat4 V c).after 9 t = out4_9 (iblk4 V c 0 t) (iblk4 V c 1 t) (iblk4 V c 2 t) (iblk4 V c 3 t) (iblk4 V c 4 t) (iblk4 V c 5 t) (iblk4 V c 6 t) := by dsimp only [dat4]

-- an input window's buffer holds its block at every point: the body leaves it as it found it
theorem before4_0 (d) : (dat4 V c).before 0 t d = iblk4 V c 0 t :=
  ((dat4 V c).before_in_eq_fetched 0 rfl (fun _ => rfl) (fun _ _ _ => rfl) (fun _ => rfl) t d).trans rfl
theorem before4_1 (d) : (dat4 V c).before 1 t d = iblk4 V c 1 t :=
  ((dat4 V c).before_in_eq_fetched 1 rfl (fun _ => rfl) (fun _ _ _ => rfl) (fun _ => rfl) t d).trans rfl
theorem before4_2 (d) : (dat4 V c).before 2 t d = iblk4 V c 2 t :=
  ((dat4 V c).before_in_eq_fetched 2 rfl (fun _ => rfl) (fun _ _ _ => rfl) (fun _ => rfl) t d).trans rfl
theorem before4_3 (d) : (dat4 V c).before 3 t d = iblk4 V c 3 t :=
  ((dat4 V c).before_in_eq_fetched 3 rfl (fun _ => rfl) (fun _ _ _ => rfl) (fun _ => rfl) t d).trans rfl
theorem before4_4 (d) : (dat4 V c).before 4 t d = iblk4 V c 4 t :=
  ((dat4 V c).before_in_eq_fetched 4 rfl (fun _ => rfl) (fun _ _ _ => rfl) (fun _ => rfl) t d).trans rfl
theorem before4_5 (d) : (dat4 V c).before 5 t d = iblk4 V c 5 t :=
  ((dat4 V c).before_in_eq_fetched 5 rfl (fun _ => rfl) (fun _ _ _ => rfl) (fun _ => rfl) t d).trans rfl
theorem before4_6 (d) : (dat4 V c).before 6 t d = iblk4 V c 6 t :=
  ((dat4 V c).before_in_eq_fetched 6 rfl (fun _ => rfl) (fun _ _ _ => rfl) (fun _ => rfl) t d).trans rfl

set_option maxHeartbeats 1000000 in
-- each output is one whole-block write of a function of the input blocks
theorem body_obligation4 : BodyObligation (dat4 V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl]
  simp only [before4_0, before4_1, before4_2, before4_3, before4_4, before4_5, before4_6, after4_7, after4_8, after4_9]
  show _ ⊢ wp _ _ _ (bodyAt4 t) _
  unfold bodyAt4
  simp only [cc4__bn_linear_tanh_kernel_eq_skeleton]; unfold cc4__bn_linear_tanh_kernel_skel
  simp only [k4_part1_eq_skeleton]; unfold k4_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x256.size (by rfl))
  isplitl [H8]
  · iexists _; isplitr
    swap; · iexact H8
    ipureintro
    exact View.read_writes_eq_canon _ _ _ (View.cover_of_tiled _ S1x1x256.size (by rfl))
  iexists _; isplitr
  swap; · iexact H9
  ipureintro
  exact View.read_writes_eq_canon _ _ _ (View.cover_of_tiled _ S1x1x256.size (by rfl))

end Regions

end Cert.KernelIdeal.Hand

end
-- ==== Proof.KI.Enc5.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

section Regions
variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x256 := Rect.unit ![0, 0] S1024x256.size inb_S1024x256_S1024x256_0_0
abbrev r5_1 : Rect S1x256 := Rect.unit ![0, 0] S1x256.size inb_S1x256_S1x256_0_0
abbrev r5_2 : Rect S128x256 := Rect.unit ![0, 0] S128x256.size inb_S128x256_S128x256_0_0
abbrev r5_3 : Rect S1x128 := Rect.unit ![0, 0] S1x128.size inb_S1x128_S1x128_0_0
abbrev r5_4 : Rect S1024x128 := Rect.unit ![0, 0] S1024x128.size inb_S1024x128_S1024x128_0_0
abbrev r5_5 : Rect S1x1x128 := Rect.unit ![0, 0, 0] S1x1x128.size inb_S1x1x128_S1x1x128_0_0_0

section
variable (x0 : Vec F S1024x256 .f32) (x1 x2 x3 x4 : Vec F S1x256 .f32) (x5 : Vec F S128x256 .f32) (x6 : Vec F S1x128 .f32)

def out5_7 : Vec F S1024x128 .bf16 :=
  View.canon [⟨r5_4, k5_pay3 (View.ld x0 r5_0) (View.ld x4 r5_1) (View.ld x3 r5_1) (View.ld x1 r5_1) (View.ld x2 r5_1) (View.ld x5 r5_2) (View.ld x6 r5_3)⟩]

def out5_8 : Vec F S1x1x128 .f32 :=
  View.canon [⟨r5_5, k5_pay4 (View.ld x0 r5_0) (View.ld x4 r5_1) (View.ld x3 r5_1) (View.ld x1 r5_1) (View.ld x2 r5_1) (View.ld x5 r5_2) (View.ld x6 r5_3)⟩]

def out5_9 : Vec F S1x1x128 .f32 :=
  View.canon [⟨r5_5, k5_pay1 (k5_pay2 (View.ld x0 r5_0) (View.ld x4 r5_1) (View.ld x3 r5_1) (View.ld x1 r5_1) (View.ld x2 r5_1) (View.ld x5 r5_2) (View.ld x6 r5_3))⟩]

end

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t) (iblk5 V c 3 t) (iblk5 V c 4 t) (iblk5 V c 5 t) (iblk5 V c 6 t)
    | ⟨9, _⟩ => out5_9 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (w : Fin cfg5.W) : (dat5 V c).A w = V c (Pipeline.arrRef spec5 w) := rfl

variable (t : Fin cfg5.N)

theorem after5_7 : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 : (dat5 V c).after 8 t = out5_8 (iblk5 V c 0 t) (iblk5 V c 1 t) (iblk5 V c 2 t) (iblk5 V c 3 t) (iblk5 V c 4 t) (iblk5 V c 5 t) (iblk5 V c 6 t) := by dsimp only [dat5]
theorem after5_9 : (dat5 V c).after 9 t = out5_9 (iblk5 V c 0 t) (iblk5 V c 1 t) (iblk5 V c 2 t) (iblk5 V c 3 t) (iblk5 V c 4 t) (iblk5 V c 5 t) (iblk5 V c 6 t) := by dsimp only [dat5]

-- an input window's buffer holds its block at every point: the body leaves it as it found it
theorem before5_0 (d) : (dat5 V c).before 0 t d = iblk5 V c 0 t :=
  ((dat5 V c).before_in_eq_fetched 0 rfl (fun _ => rfl) (fun _ _ _ => rfl) (fun _ => rfl) t d).trans rfl
theorem before5_1 (d) : (dat5 V c).before 1 t d = iblk5 V c 1 t :=
  ((dat5 V c).before_in_eq_fetched 1 rfl (fun _ => rfl) (fun _ _ _ => rfl) (fun _ => rfl) t d).trans rfl
theorem before5_2 (d) : (dat5 V c).before 2 t d = iblk5 V c 2 t :=
  ((dat5 V c).before_in_eq_fetched 2 rfl (fun _ => rfl) (fun _ _ _ => rfl) (fun _ => rfl) t d).trans rfl
theorem before5_3 (d) : (dat5 V c).before 3 t d = iblk5 V c 3 t :=
  ((dat5 V c).before_in_eq_fetched 3 rfl (fun _ => rfl) (fun _ _ _ => rfl) (fun _ => rfl) t d).trans rfl
theorem before5_4 (d) : (dat5 V c).before 4 t d = iblk5 V c 4 t :=
  ((dat5 V c).before_in_eq_fetched 4 rfl (fun _ => rfl) (fun _ _ _ => rfl) (fun _ => rfl) t d).trans rfl
theorem before5_5 (d) : (dat5 V c).before 5 t d = iblk5 V c 5 t :=
  ((dat5 V c).before_in_eq_fetched 5 rfl (fun _ => rfl) (fun _ _ _ => rfl) (fun _ => rfl) t d).trans rfl
theorem before5_6 (d) : (dat5 V c).before 6 t d = iblk5 V c 6 t :=
  ((dat5 V c).before_in_eq_fetched 6 rfl (fun _ => rfl) (fun _ _ _ => rfl) (fun _ => rfl) t d).trans rfl

set_option maxHeartbeats 1000000 in
-- each output is one whole-block write of a function of the input blocks
theorem body_obligation5 : BodyObligation (dat5 V c) (defs₀ (F := F)) Variants.none () Set.univ := fun t => by
  rw [bigSep_W5, bigSep_W5, show (dat5 V c).Φ t.succ = (dat5 V c).Φ t.castSucc from rfl,
    show (dat5 V c).owesAt () t.succ = (dat5 V c).owesAt () t.castSucc from rfl]
  simp only [before5_0, before5_1, before5_2, before5_3, before5_4, before5_5, before5_6, after5_7, after5_8, after5_9]
  show _ ⊢ wp _ _ _ (bodyAt5 t) _
  unfold bodyAt5
  simp only [cc5__bn_linear_tanh_kernel_eq_skeleton]; unfold cc5__bn_linear_tanh_kernel_skel
  simp only [k5_part1_eq_skeleton]; unfold k5_part1_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩⟩
  rw [← h0, ← h1, ← h2, ← h3, ← h4, ← h5, ← h6]
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap; · iexact H7
    ipureintro
    exact View.read_writes_eq_canon _ _ _ (View.cover_of_tiled _ S1024x128.size (by rfl))
  isplitl [H8]
  · iexists _; isplitr
    swap; · iexact H8
    ipureintro
    exact View.read_writes_eq_canon _ _ _ (View.cover_of_tiled _ S1x1x128.size (by rfl))
  iexists _; isplitr
  swap; · iexact H9
  ipureintro
  exact View.read_writes_eq_canon _ _ _ (View.cover_of_tiled _ S1x1x128.size (by rfl))

end Regions

end Cert.KernelIdeal.Hand

end
-- ==== Proof.KI.RunFoldC.lean ====
import proofs.«428610_j54915451847256_3_alg».proof.Proof.KI.RunFoldB
import proofs.«428610_j54915451847256_3_alg».proof.Proof.KI.Enc4
import proofs.«428610_j54915451847256_3_alg».proof.Proof.KI.Enc5

noncomputable section

namespace Cert.KernelIdeal.Hand

open Idealize.ShloMosaic Idealize.ShloMosaic.TcCoe
open Cert.KernelIdeal.Gen (launch4 launch5 hostOps4 hostOps5 hostOps4_writes hostOps5_writes hostOps4_W hostOps5_W)

variable {F : FTy → Type} [FloatOps F]

variable (m : (ℓ : Loc nD τ sig) → Buf (Elt F) ℓ) (ρ : Dev nD → PrngReg)

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
abbrev arrs4 : List (Ref sig .tc) := [main_v57_0, main_v66, main_v67, main_v68, main_v69, main_arg5, main_v70, main_v71_0, main_v71_1, main_v71_2]
theorem arrRef4_mem : ∀ w, Pipeline.arrRef spec4 w ∈ arrs4 := by decide
theorem W10_of_not_mem (c : Dev nD) (b : Ref sig .tc) (hb : b ∉ arrs4) :
    W10 m ρ c (Proc.devRef .tc b) = W9 m ρ c (Proc.devRef .tc b) :=
  W10_of_ne m ρ c b fun w e => hb (e ▸ arrRef4_mem w)

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
abbrev arrs5 : List (Ref sig .tc) := [main_v71_0, main_v80, main_v81, main_v82, main_v83, main_arg7, main_v84, main_v85_0, main_v85_1, main_v85_2]
theorem arrRef5_mem : ∀ w, Pipeline.arrRef spec5 w ∈ arrs5 := by decide
theorem W12_of_not_mem (c : Dev nD) (b : Ref sig .tc) (hb : b ∉ arrs5) :
    W12 m ρ c (Proc.devRef .tc b) = W11 m ρ c (Proc.devRef .tc b) :=
  W12_of_ne m ρ c b fun w e => hb (e ▸ arrRef5_mem w)

end Cert.KernelIdeal.Hand

end
-- ==== Proof.KI.FlashBase.lean ====
import proofs.«428610_j54915451847256_3_alg».proof.Proof.Gen.KernelIdeal.Launch
import proofs.«428610_j54915451847256_3_alg».proof.Proof.Gen.KernelIdeal.Skeleton
import proofs.«428610_j54915451847256_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

variable {c : Dev nD} (dat : Dat τ (Elt F) Unit ℕ (UR sig nD τ) ℕ cfg6 c)

theorem before6_0_of (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

end Blocks

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem idleAt6_4_A : ∀ t : Fin cfg6.N, cond6_0 (grid6.coords t) → ¬cond6_1 (grid6.coords t) → cfg6.idle 4 (grid6.coords t) = true := by decide +kernel
theorem noFlush6_4_A : ∀ t : Fin cfg6.N, cond6_0 (grid6.coords t) → ¬cond6_1 (grid6.coords t) → (cfg6.win 4).flush t = false := by decide +kernel
theorem idleAt6_4_B : ∀ t : Fin cfg6.N, ¬cond6_0 (grid6.coords t) → ¬cond6_1 (grid6.coords t) → cfg6.idle 4 (grid6.coords t) = true := by decide +kernel
theorem noFlush6_4_B : ∀ t : Fin cfg6.N, ¬cond6_0 (grid6.coords t) → ¬cond6_1 (grid6.coords t) → (cfg6.win 4).flush t = false := by decide +kernel
theorem liveAt6_4_C : ∀ t : Fin cfg6.N, ¬cond6_0 (grid6.coords t) → cond6_1 (grid6.coords t) → cfg6.idle 4 (grid6.coords t) = false := by decide +kernel

abbrev VO6_4 : View sig .tc .vmem S1024x128 .f32 := (Memref.whole cc6_stg4_0 : Memref sig .tc .vmem S1024x128 .f32).view
abbrev ms6_0 (t : Fin cfg6.N) : Memref sig .tc .vmem S1024x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x128 .f32 := win6_4.stage (cfg6.slots t 4)
abbrev hs6_4 (t : Fin cfg6.N) : (ms6_4 t).IsWhole := hstage6_4 ((cfg6.slots t 4).cast nbuf6_4)
abbrev scM6_0 : Memref sig .tc .vmem S1024x1 .f32 := Memref.whole cc6_scratch0
abbrev scM6_1 : Memref sig .tc .vmem S1024x1 .f32 := Memref.whole cc6_scratch1
abbrev scM6_2 : Memref sig .tc .vmem S1024x128 .f32 := Memref.whole cc6_scratch2
abbrev VS6_0 : View sig .tc .vmem S1024x1 .f32 := scM6_0.view
abbrev VS6_1 : View sig .tc .vmem S1024x1 .f32 := scM6_1.view
abbrev VS6_2 : View sig .tc .vmem S1024x128 .f32 := scM6_2.view

end Cert.KernelIdeal.Hand

end
-- ==== Proof.KI.FlashRunA.lean ====
import proofs.«428610_j54915451847256_3_alg».proof.Proof.KI.FlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_A (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond6_0 i) (hc1 : ¬cond6_1 i)
    (x0 : Vec F S1024x128 .bf16) (x1 : Vec F S1024x128 .bf16) (x2 : Vec F S1x1024 .f32) (x3 : Vec F S1024x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.FlashRunB.lean ====
import proofs.«428610_j54915451847256_3_alg».proof.Proof.KI.FlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_B (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond6_0 i) (hc1 : ¬cond6_1 i)
    (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.FlashRunC.lean ====
import proofs.«428610_j54915451847256_3_alg».proof.Proof.KI.FlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun6_C (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond6_0 i) (hc1 : cond6_1 i)
    (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc6__flash_knn_kernel i arg2 harg2 arg3 harg3 arg4 harg4 arg5 harg5 arg6 harg6 arg7 harg7 arg8 harg8 arg9 harg9) K } := by
  refine ⟨?_, ?_, ?_, ?_, fun E K => ?run⟩
  case run =>
    simp only [cc6__flash_knn_kernel_eq_skeleton]; unfold cc6__flash_knn_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.FlashRuns.lean ====
import proofs.«428610_j54915451847256_3_alg».proof.Proof.KI.FlashRunA
import proofs.«428610_j54915451847256_3_alg».proof.Proof.KI.FlashRunB
import proofs.«428610_j54915451847256_3_alg».proof.Proof.KI.FlashRunC
-- ==== Proof.KI.FlashOuts.lean ====
import proofs.«428610_j54915451847256_3_alg».proof.Proof.KI.FlashRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Runs
variable (c : Dev nD) (i : grid6.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)

section A
variable (hc0 : cond6_0 i) (hc1 : ¬cond6_1 i) (x0 : Vec F S1024x128 .bf16) (x1 : Vec F S1024x128 .bf16) (x2 : Vec F S1x1024 .f32) (x3 : Vec F S1024x128 .bf16)

def out6_A_4 : Vec F S1024x128 .f32 :=
  VO6_4.read (Elt F) (VO6_4.writes (Elt F) VO6_4.junk (kernelRun6_A c i arg2 harg2 arg3 harg3 arg4 harg4 arg5 harg5 arg6 harg6 arg7 harg7 arg8 harg8 arg9 harg9 hc0 hc1 x0 x1 x2 x3).1)

theorem scover6_A_0 (y : S1024x1.Idx) : ∃ pc ∈ (kernelRun6_A c i arg2 harg2 arg3 harg3 arg4 harg4 arg5 harg5 arg6 harg6 arg7 harg7 arg8 harg8 arg9 harg9 hc0 hc1 x0 x1 x2 x3).2.1, y ∈ pc.1.set :=
  View.cover_of_tiledL _ S1024x1.size (by sl_kernel_rfl) y

def sout6_A_0 : Vec F S1024x1 .f32 :=
  VS6_0.read (Elt F) (VS6_0.writes (Elt F) VS6_0.junk (kernelRun6_A c i arg2 harg2 arg3 harg3 arg4 harg4 arg5 harg5 arg6 harg6 arg7 harg7 arg8 harg8 arg9 harg9 hc0 hc1 x0 x1 x2 x3).2.1)

theorem scover6_A_1 (y : S1024x1.Idx) : ∃ pc ∈ (kernelRun6_A c i arg2 harg2 arg3 harg3 arg4 harg4 arg5 harg5 arg6 harg6 arg7 harg7 arg8 harg8 arg9 harg9 hc0 hc1 x0 x1 x2 x3).2.2.1, y ∈ pc.1.set :=
  View.cover_of_tiledL _ S1024x1.size (by sl_kernel_rfl) y

def sout6_A_1 : Vec F S1024x1 .f32 :=
  VS6_1.read (Elt F) (VS6_1.writes (Elt F) VS6_1.junk (kernelRun6_A c i arg2 harg2 arg3 harg3 arg4 harg4 arg5 harg5 arg6 harg6 arg7 harg7 arg8 harg8 arg9 harg9 hc0 hc1 x0 x1 x2 x3).2.2.1)

theorem scover6_A_2 (y : S1024x128.Idx) : ∃ pc ∈ (kernelRun6_A c i arg2 harg2 arg3 harg3 arg4 harg4 arg5 harg5 arg6 harg6 arg7 harg7 arg8 harg8 arg9 harg9 hc0 hc1 x0 x1 x2 x3).2.2.2.1, y ∈ pc.1.set :=
  View.cover_of_tiledL _ S1024x128.size (by sl_kernel_rfl) y

def sout6_A_2 : Vec F S1024x128 .f32 :=
  VS6_2.read (Elt F) (VS6_2.writes (Elt F) VS6_2.junk (kernelRun6_A c i arg2 harg2 arg3 harg3 arg4 harg4 arg5 harg5 arg6 harg6 arg7 harg7 arg8 harg8 arg9 harg9 hc0 hc1 x0 x1 x2 x3).2.2.2.1)

def outs6_A : Vec F S1024x128 .f32 × Vec F S1024x1 .f32 × Vec F S1024x1 .f32 × Vec F S1024x128 .f32 :=
  (out6_A_4 c i arg2 harg2 arg3 harg3 arg4 harg4 arg5 harg5 arg6 harg6 arg7 harg7 arg8 harg8 arg9 harg9 hc0 hc1 x0 x1 x2 x3, sout6_A_0 c i arg2 harg2 arg3 harg3 arg4 harg4 arg5 harg5 arg6 harg6 arg7 harg7 arg8 harg8 arg9 harg9 hc0 hc1 x0 x1 x2 x3, sout6_A_1 c i arg2 harg2 arg3 harg3 arg4 harg4 arg5 harg5 arg6 harg6 arg7 harg7 arg8 harg8 arg9 harg9 hc0 hc1 x0 x1 x2 x3, sout6_A_2 c i arg2 harg2 arg3 harg3 arg4 harg4 arg5 harg5 arg6 harg6 arg7 harg7 arg8 harg8 arg9 harg9 hc0 hc1 x0 x1 x2 x3)

end A

section B
variable (hc0 : ¬cond6_0 i) (hc1 : ¬cond6_1 i) (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

def out6_B_4 : Vec F S1024x128 .f32 :=
  VO6_4.read (Elt F) (VO6_4.writes (Elt F) VO6_4.junk (kernelRun6_B c i arg2 harg2 arg3 harg3 arg4 harg4 arg5 harg5 arg6 harg6 arg7 harg7 arg8 harg8 arg9 harg9 hc0 hc1 x0 x1 x2 x3 xs0 xs1 xs2).1)

theorem scover6_B_0 (y : S1024x1.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL _ S1024x1.size (by sl_kernel_rfl) y

def sout6_B_0 : Vec F S1024x1 .f32 :=
  VS6_0.read (Elt F) (VS6_0.writes (Elt F) VS6_0.junk (kernelRun6_B c i arg2 harg2 arg3 harg3 arg4 harg4 arg5 harg5 arg6 harg6 arg7 harg7 arg8 harg8 arg9 harg9 hc0 hc1 x0 x1 x2 x3 xs0 xs1 xs2).2.1)

theorem scover6_B_1 (y : S1024x1.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL _ S1024x1.size (by sl_kernel_rfl) y

def sout6_B_1 : Vec F S1024x1 .f32 :=
  VS6_1.read (Elt F) (VS6_1.writes (Elt F) VS6_1.junk (kernelRun6_B c i arg2 harg2 arg3 harg3 arg4 harg4 arg5 harg5 arg6 harg6 arg7 harg7 arg8 harg8 arg9 harg9 hc0 hc1 x0 x1 x2 x3 xs0 xs1 xs2).2.2.1)

theorem scover6_B_2 (y : S1024x128.Idx) : ∃ pc ∈ (kernelRun6_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL _ S1024x128.size (by sl_kernel_rfl) y

def sout6_B_2 : Vec F S1024x128 .f32 :=
  VS6_2.read (Elt F) (VS6_2.writes (Elt F) VS6_2.junk (kernelRun6_B c i arg2 harg2 arg3 harg3 arg4 harg4 arg5 harg5 arg6 harg6 arg7 harg7 arg8 harg8 arg9 harg9 hc0 hc1 x0 x1 x2 x3 xs0 xs1 xs2).2.2.2.1)

def outs6_B : Vec F S1024x128 .f32 × Vec F S1024x1 .f32 × Vec F S1024x1 .f32 × Vec F S1024x128 .f32 :=
  (out6_B_4 c i arg2 harg2 arg3 harg3 arg4 harg4 arg5 harg5 arg6 harg6 arg7 harg7 arg8 harg8 arg9 harg9 hc0 hc1 x0 x1 x2 x3 xs0 xs1 xs2, sout6_B_0 c i arg2 harg2 arg3 harg3 arg4 harg4 arg5 harg5 arg6 harg6 arg7 harg7 arg8 harg8 arg9 harg9 hc0 hc1 x0 x1 x2 x3 xs0 xs1 xs2, sout6_B_1 c i arg2 harg2 arg3 harg3 arg4 harg4 arg5 harg5 arg6 harg6 arg7 harg7 arg8 harg8 arg9 harg9 hc0 hc1 x0 x1 x2 x3 xs0 xs1 xs2, sout6_B_2 c i arg2 harg2 arg3 harg3 arg4 harg4 arg5 harg5 arg6 harg6 arg7 harg7 arg8 harg8 arg9 harg9 hc0 hc1 x0 x1 x2 x3 xs0 xs1 xs2)

end B

section C
variable (hc0 : ¬cond6_0 i) (hc1 : cond6_1 i) (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

theorem cover6_C_4 (y : S1024x128.Idx) : ∃ pc ∈ (kernelRun6_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL _ S1024x128.size (by sl_kernel_rfl) y

def out6_C_4 : Vec F S1024x128 .f32 :=
  VO6_4.read (Elt F) (VO6_4.writes (Elt F) VO6_4.junk (kernelRun6_C c i arg2 harg2 arg3 harg3 arg4 harg4 arg5 harg5 arg6 harg6 arg7 harg7 arg8 harg8 arg9 harg9 hc0 hc1 x0 x1 x2 x3 xs0 xs1 xs2).1)

theorem scover6_C_0 (y : S1024x1.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL _ S1024x1.size (by sl_kernel_rfl) y

def sout6_C_0 : Vec F S1024x1 .f32 :=
  VS6_0.read (Elt F) (VS6_0.writes (Elt F) VS6_0.junk (kernelRun6_C c i arg2 harg2 arg3 harg3 arg4 harg4 arg5 harg5 arg6 harg6 arg7 harg7 arg8 harg8 arg9 harg9 hc0 hc1 x0 x1 x2 x3 xs0 xs1 xs2).2.1)

theorem scover6_C_1 (y : S1024x1.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL _ S1024x1.size (by sl_kernel_rfl) y

def sout6_C_1 : Vec F S1024x1 .f32 :=
  VS6_1.read (Elt F) (VS6_1.writes (Elt F) VS6_1.junk (kernelRun6_C c i arg2 harg2 arg3 harg3 arg4 harg4 arg5 harg5 arg6 harg6 arg7 harg7 arg8 harg8 arg9 harg9 hc0 hc1 x0 x1 x2 x3 xs0 xs1 xs2).2.2.1)

theorem scover6_C_2 (y : S1024x128.Idx) : ∃ pc ∈ (kernelRun6_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL _ S1024x128.size (by sl_kernel_rfl) y

def sout6_C_2 : Vec F S1024x128 .f32 :=
  VS6_2.read (Elt F) (VS6_2.writes (Elt F) VS6_2.junk (kernelRun6_C c i arg2 harg2 arg3 harg3 arg4 harg4 arg5 harg5 arg6 harg6 arg7 harg7 arg8 harg8 arg9 harg9 hc0 hc1 x0 x1 x2 x3 xs0 xs1 xs2).2.2.2.1)

def outs6_C : Vec F S1024x128 .f32 × Vec F S1024x1 .f32 × Vec F S1024x1 .f32 × Vec F S1024x128 .f32 :=
  (out6_C_4 c i arg2 harg2 arg3 harg3 arg4 harg4 arg5 harg5 arg6 harg6 arg7 harg7 arg8 harg8 arg9 harg9 hc0 hc1 x0 x1 x2 x3 xs0 xs1 xs2, sout6_C_0 c i arg2 harg2 arg3 harg3 arg4 harg4 arg5 harg5 arg6 harg6 arg7 harg7 arg8 harg8 arg9 harg9 hc0 hc1 x0 x1 x2 x3 xs0 xs1 xs2, sout6_C_1 c i arg2 harg2 arg3 harg3 arg4 harg4 arg5 harg5 arg6 harg6 arg7 harg7 arg8 harg8 arg9 harg9 hc0 hc1 x0 x1 x2 x3 xs0 xs1 xs2, sout6_C_2 c i arg2 harg2 arg3 harg3 arg4 harg4 arg5 harg5 arg6 harg6 arg7 harg7 arg8 harg8 arg9 harg9 hc0 hc1 x0 x1 x2 x3 xs0 xs1 xs2)

end C

end Runs

def at6_A (c : Dev nD) (t : Fin cfg6.N) (h0 : t.val % 8 = 0) (h1 : ¬t.val % 8 = 7) :=
  outs6_A c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) ((hcond6_0 t).mpr h0) (fun h => h1 ((hcond6_1 t).mp h)) (iblk6 V c 0 t) (iblk6 V c 1 t) (iblk6 V c 2 t) (iblk6 V c 3 t)

def at6_B (c : Dev nD) (t : Fin cfg6.N) (h0 : ¬t.val % 8 = 0) (h1 : ¬t.val % 8 = 7) (p : Vec F S1024x1 .f32 × Vec F S1024x1 .f32 × Vec F S1024x128 .f32) :=
  outs6_B c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) (fun h => h0 ((hcond6_0 t).mp h)) (fun h => h1 ((hcond6_1 t).mp h)) (iblk6 V c 0 t) (iblk6 V c 1 t) (iblk6 V c 2 t) (iblk6 V c 3 t) p.1 p.2.1 p.2.2

def at6_C (c : Dev nD) (t : Fin cfg6.N) (h0 : ¬t.val % 8 = 0) (h1 : t.val % 8 = 7) (p : Vec F S1024x1 .f32 × Vec F S1024x1 .f32 × Vec F S1024x128 .f32) :=
  outs6_C c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) scM6_2 (Memref.isWhole_whole _) (fun h => h0 ((hcond6_0 t).mp h)) ((hcond6_1 t).mpr h1) (iblk6 V c 0 t) (iblk6 V c 1 t) (iblk6 V c 2 t) (iblk6 V c 3 t) p.1 p.2.1 p.2.2

-- The values after position n: at n % 8 = 0 computed afresh, otherwise from the values after position n - 1.
def outsAt6 (c : Dev nD) : (n : ℕ) → n < cfg6.N → Vec F S1024x128 .f32 × Vec F S1024x1 .f32 × Vec F S1024x1 .f32 × Vec F S1024x128 .f32
  | 0, hn => at6_A V c ⟨0, hn⟩ (Nat.zero_mod _) (fun h => by (try dsimp only at h); omega)
  | n + 1, hn =>
    if h0 : (n + 1) % 8 = 0 then
      if h1 : (n + 1) % 8 = 7 then False.elim (by omega) else at6_A V c ⟨n + 1, hn⟩ h0 h1
    else if h1 : (n + 1) % 8 = 7 then at6_C V c ⟨n + 1, hn⟩ h0 h1 (outsAt6 c n (Nat.lt_of_succ_lt hn)).2
    else at6_B V c ⟨n + 1, hn⟩ h0 h1 (outsAt6 c n (Nat.lt_of_succ_lt hn)).2

theorem outsAt6_A (c : Dev nD) (t : Fin cfg6.N) (h0 : t.val % 8 = 0) (h1 : ¬t.val % 8 = 7) :
    outsAt6 V c t.val t.isLt = delta% delta% at6_A V c t h0 h1 := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = delta% delta% at6_B V c t h0 h1 (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = delta% delta% at6_C V c t h0 h1 (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def carried6 (c : Dev nD) (p : Vec F S1024x1 .f32 × Vec F S1024x1 .f32 × Vec F S1024x128 .f32) : sProp 𝕄 :=
  iprop(iprop(iprop(owns (c : Thread nD τ) scM6_0 fullShare p.1 ∗ owns (c : Thread nD τ) scM6_1 fullShare p.2.1 ∗ owns (c : Thread nD τ) scM6_2 fullShare p.2.2) ∗ Pipeline.scopedRestBut (Ix := Unit) (Name := ℕ) (U := UR sig nD τ) (Lvl := ℕ) (Val := Elt F) spec6 c [cc6_scratch0, cc6_scratch1, cc6_scratch2]) ∗ (∃ r, prngReg c r))

def PhiS6 (c : Dev nD) : (n : ℕ) → n ≤ cfg6.N → sProp 𝕄
  | 0, _ => Pipeline.ΦA spec6 c
  | n + 1, hn => carried6 c (outsAt6 V c n hn).2

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = carried6 c (outsAt6 V c n hn).2 := rfl

theorem PhiS6_pos (c : Dev nD) (n : ℕ) (h : n ≤ cfg6.N) (hz : n ≠ 0) :
    PhiS6 V c n h = carried6 c (outsAt6 V c (n - 1) (by omega)).2 := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d)) ∗ Pipeline.scopedRestBut (Ix := Unit) (Name := ℕ) (U := UR sig nD τ) (Lvl := ℕ) (Val := Elt F) spec6 c [cc6_scratch0, cc6_scratch1, cc6_scratch2]) ∗ (∃ r, prngReg c r)) := by
  unfold Pipeline.ΦA; rw [scopedRest6_split]; simp only [scM6_0, scM6_1, scM6_2, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

end Cert.KernelIdeal.Hand

end
-- ==== Proof.KI.Flash.lean ====
import proofs.«428610_j54915451847256_3_alg».proof.Proof.KI.FlashOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

-- Existential weakening: each of the three carried values is some value.
theorem Phi_forget6 (c : Dev nD) (n : ℕ) (h : n ≤ cfg6.N) : PhiS6 V c n h ⊢ Pipeline.ΦA spec6 c := by
  cases n with
  | zero => exact .rfl
  | succ n =>
    rw [PhiS6_succ, PhiA6_eq]; unfold carried6
    iintro ⟨⟨⟨HS0, HS1, HS2⟩, Hb⟩, Hg⟩
    isplitl [HS0 HS1 HS2 Hb]
    · isplitl [HS0 HS1 HS2]
      · isplitl [HS0]; · iexists _; iexact HS0
        isplitl [HS1]; · iexists _; iexact HS1
        iexists _; iexact HS2
      iexact Hb
    iexact Hg

set_option maxHeartbeats 4800000 in
-- By cases on the position modulo 8; the pieces written cover every index, so the value read back does not depend on the prior contents.
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ, PhiS6_castSucc V c t]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val % 8 = 0
  · have h1 : ¬t.val % 8 = 7 := by omega
    rw [Dat.leavesExact_idle (dat6 V c) 4 t (idleAt6_4_A t ((hcond6_0 t).mpr h0) (fun h => h1 ((hcond6_1 t).mp h))) (noFlush6_4_A t ((hcond6_0 t).mpr h0) (fun h => h1 ((hcond6_1 t).mp h))), outsAt6_A V c t h0 h1]
    unfold carried6 sout6_A_0 sout6_A_1 sout6_A_2; (try dsimp only)
    refine BIBase.Entails.trans (sep_mono_left (Phi_forget6 V c _ _)) ?_
    rw [PhiA6_eq]
    iintro ⟨⟨⟨⟨HS0, HS1, HS2⟩, Hb⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hb Hg]
    · isplitl [HS0 HS1 HS2 Hb]
      · isplitl [HS0 HS1 HS2]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover6_A_1 c _ _ _ _ _ _ _ _ _ _ _ _ _ _ _ _ _ _ _ _ _ _ _)
          unfold owns; iexists _; isplitr
          swap; · iexact HS2
          ipureintro; exact View.read_writes_of_cover _ _ _ _ _ (scover6_A_2 c _ _ _ _ _ _ _ _ _ _ _ _ _ _ _ _ _ _ _ _ _ _ _)
        iexact Hb
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS6_pos V c _ _ hz]
    by_cases h1 : t.val % 8 = 7
    · rw [show (dat6 V c).leavesExact 4 t = owns (c : Thread nD τ) (ms6_4 t) fullShare ((dat6 V c).after 4 t) from by
        unfold Dat.leavesExact; rw [liveAt6_4_C t (fun h => h0 ((hcond6_0 t).mp h)) ((hcond6_1 t).mpr h1)], after6_4, outsAt6_C V c t h0 h1]
      unfold carried6 out6_C_4 sout6_C_0 sout6_C_1 sout6_C_2; (try dsimp only)
      iintro ⟨⟨⟨⟨HS0, HS1, HS2⟩, Hb⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hb Hg]
      · isplitl [HS0 HS1 HS2 Hb]
        · isplitl [HS0 HS1 HS2]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover6_C_1 c _ _ _ _ _ _ _ _ _ _ _ _ _ _ _ _ _ _ _ _ _ _ _ _ _ _)
            unfold owns; iexists _; isplitr
            swap; · iexact HS2
            ipureintro; exact View.read_writes_of_cover _ _ _ _ _ (scover6_C_2 c _ _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover6_C_4 c _ _ _ _ _ _ _ _ _ _ _ _ _ _ _ _ _ _ _ _ _ _ _ _ _ _)
    · rw [Dat.leavesExact_idle (dat6 V c) 4 t (idleAt6_4_B t (fun h => h0 ((hcond6_0 t).mp h)) (fun h => h1 ((hcond6_1 t).mp h))) (noFlush6_4_B t (fun h => h0 ((hcond6_0 t).mp h)) (fun h => h1 ((hcond6_1 t).mp h))), outsAt6_B V c t h0 h1]
      unfold carried6 sout6_B_0 sout6_B_1 sout6_B_2; (try dsimp only)
      iintro ⟨⟨⟨⟨HS0, HS1, HS2⟩, Hb⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hb Hg]
      · isplitl [HS0 HS1 HS2 Hb]
        · isplitl [HS0 HS1 HS2]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover6_B_1 c _ _ _ _ _ _ _ _ _ _ _ _ _ _ _ _ _ _ _ _ _ _ _ _ _ _)
            unfold owns; iexists _; isplitr
            swap; · iexact HS2
            ipureintro; exact View.read_writes_of_cover _ _ _ _ _ (scover6_B_2 c _ _ _ _ _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl

theorem hout6 (c : Dev nD) : (dat6 V c).Φ (Fin.last cfg6.N) ⊢ Pipeline.ΦA spec6 c :=
  Phi_forget6 V c _ (Nat.le_of_lt_succ (Fin.last cfg6.N).isLt)

end Cert.KernelIdeal.Hand

end
-- ==== Proof.KI.RunFold.lean ====
import proofs.«428610_j54915451847256_3_alg».proof.Proof.KI.RunFoldC
import proofs.«428610_j54915451847256_3_alg».proof.Proof.KI.Flash
import proofs.«428610_j54915451847256_3_alg».proof.Proof.LibRegion

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen (launch6 hostOps6 hostOps6_1 hostOps6_writes hostOps6_1_writes hostOps6_W hostOps6_1_W hostOps7)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W13 : Dev nD → Valuation τ sig (Elt F) := fun c => StableHlo.after hostOps6 (W12 m ρ c)
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

abbrev W14 : Dev nD → Valuation τ sig (Elt F) := fun c => StableHlo.after hostOps6_1 (W13 m ρ c)
abbrev V14 : (c : Dev nD) → (b : Ref sig .tc) → Buf (Elt F) ((c : Thread nD τ).loc b) := fun c b => W14 m ρ c b
theorem W14_of (c : Dev nD) (r : Ref sig .tc) (h : r ∉ hostOps6_1_W) :
    W14 m ρ c (Proc.devRef .tc r) = W13 m ρ c (Proc.devRef .tc r) :=
  StableHlo.after_of_writes_sub hostOps6_1 _ hostOps6_1_writes h

def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N :=
  Pipeline.withArrays_arr spec6 launch6.win.arr_inj c _ _ w

abbrev W16 : Dev nD → Valuation τ sig (Elt F) := fun c => StableHlo.after hostOps7 (W15 m ρ c)

abbrev adm : (p : Fin 7) → (pcfgs (F := F) p).Adm := fun p => (cfgs p).toPCfg_adm
def pdats : (p : Fin 7) → (c : Dev nD) → Pipeline.Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V14 m ρ) c
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Region.R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

end Cert.KernelIdeal.Hand

end
-- ==== Proof.KI.RunArgs.lean ====
import proofs.«428610_j54915451847256_3_alg».proof.Proof.KI.RunFold

noncomputable section

namespace Cert.KernelIdeal.Hand

open Idealize.ShloMosaic Idealize.ShloMosaic.TcCoe
open Cert.KernelIdeal.Gen

variable {F : FTy → Type} [FloatOps F]

variable (m : (ℓ : Loc nD τ sig) → Buf (Elt F) ℓ) (ρ : Dev nD → PrngReg)

-- A buffer that no stretch writes and that is no output window's array of any region is, at the end, as launched.
theorem kept (c : Dev nD) (r : Ref sig .tc)
    (hk : ¬ (Proc.devRef .tc r : DevRef τ sig).isScoped
      ∧ r ∉ hostOps0_W ++ hostOps1_W ++ hostOps2_W ++ hostOps3_W ++ hostOps4_W ++ hostOps5_W ++ hostOps6_W ++ hostOps6_1_W ++ hostOps7_W
      ∧ ∀ p w, Pipeline.arrRef (cfgs p).spec w = r → ((cfgs p).win w).isOut = false)
    {s : MemSt nD τ sig (Elt F)} (h : ∀ b ∈ Pipeline.ucRefs τ sig, s.mem (((c : Thread nD τ)).1, b) = W16 m ρ c b) :
    s.mem ((c.tc : Thread nD τ).loc r) = m ((c.tc : Thread nD τ).loc r) := by
  obtain ⟨hu, hh, hr⟩ := hk
  simp only [List.mem_append, not_or] at hh
  obtain ⟨⟨⟨⟨⟨⟨⟨⟨h0, h1⟩, h2⟩, h3⟩, h4⟩, h5⟩, h6⟩, h61⟩, h7⟩ := hh
  exact (h _ (mem_uc r hu)).trans <|
    (StableHlo.after_of_writes_sub hostOps7 _ hostOps7_writes h7).trans <|
    (Region.withArrays_keep (dat6 (V14 m ρ) c) launch6.win.arr_inj _ (A_eq6 (V14 m ρ) c) _ r (hr 6)).trans <|
    (W14_of m ρ c r h61).trans <|
    (W13_of m ρ c r h6).trans <|
    (Region.withArrays_keep (dat5 (V11 m ρ) c) launch5.win.arr_inj _ (A_eq5 (V11 m ρ) c) _ r (hr 5)).trans <|
    (W11_of m ρ c r h5).trans <|
    (Region.withArrays_keep (dat4 (V9 m ρ) c) launch4.win.arr_inj _ (A_eq4 (V9 m ρ) c) _ r (hr 4)).trans <|
    (W9_of m ρ c r h4).trans <|
    (Region.withArrays_keep (dat3 (V7 m ρ) c) launch3.win.arr_inj _ (A_eq3 (V7 m ρ) c) _ r (hr 3)).trans <|
    (W7_of m ρ c r h3).trans <|
    (Region.withArrays_keep (dat2 (V5 m ρ) c) launch2.win.arr_inj _ (A_eq2 (V5 m ρ) c) _ r (hr 2)).trans <|
    (W5_of m ρ c r h2).trans <|
    (Region.withArrays_keep (dat1 (V3 m ρ) c) launch1.win.arr_inj _ (A_eq1 (V3 m ρ) c) _ r (hr 1)).trans <|
    (W3_of m ρ c r h1).trans <|
    (Region.withArrays_keep (dat0 (V1 m ρ) c) launch0.win.arr_inj _ (A_eq0 (V1 m ρ) c) _ r (hr 0)).trans <|
    (W1_of m ρ c r h0).trans <|
    rfl

end Cert.KernelIdeal.Hand

end
-- ==== Proof.KI.RunReg0.lean ====
import proofs.«428610_j54915451847256_3_alg».proof.Proof.KI.RunFold

noncomputable section

namespace Cert.KernelIdeal.Hand

open Idealize.ShloMosaic Idealize.ShloMosaic.TcCoe
open Cert.KernelIdeal.Gen (launch0)

variable {F : FTy → Type} [FloatOps F]

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 :=
  Region.regOf cfgs (pdats m ρ) defs₀ 𝒱₀ L lv 0 launch0 (W1 m ρ) (W2 m ρ) (fun c => (body_obligation0 (V1 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg1.lean ====
import proofs.«428610_j54915451847256_3_alg».proof.Proof.KI.RunFold

noncomputable section

namespace Cert.KernelIdeal.Hand

open Idealize.ShloMosaic Idealize.ShloMosaic.TcCoe
open Cert.KernelIdeal.Gen (launch1)

variable {F : FTy → Type} [FloatOps F]

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 :=
  Region.regOf cfgs (pdats m ρ) defs₀ 𝒱₀ L lv 1 launch1 (W3 m ρ) (W4 m ρ) (fun c => (body_obligation1 (V3 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg2.lean ====
import proofs.«428610_j54915451847256_3_alg».proof.Proof.KI.RunFold

noncomputable section

namespace Cert.KernelIdeal.Hand

open Idealize.ShloMosaic Idealize.ShloMosaic.TcCoe
open Cert.KernelIdeal.Gen (launch2)

variable {F : FTy → Type} [FloatOps F]

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 :=
  Region.regOf cfgs (pdats m ρ) defs₀ 𝒱₀ L lv 2 launch2 (W5 m ρ) (W6 m ρ) (fun c => (body_obligation2 (V5 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg3.lean ====
import proofs.«428610_j54915451847256_3_alg».proof.Proof.KI.RunFold

noncomputable section

namespace Cert.KernelIdeal.Hand

open Idealize.ShloMosaic Idealize.ShloMosaic.TcCoe
open Cert.KernelIdeal.Gen (launch3)

variable {F : FTy → Type} [FloatOps F]

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 :=
  Region.regOf cfgs (pdats m ρ) defs₀ 𝒱₀ L lv 3 launch3 (W7 m ρ) (W8 m ρ) (fun c => (body_obligation3 (V7 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg4.lean ====
import proofs.«428610_j54915451847256_3_alg».proof.Proof.KI.RunFold

noncomputable section

namespace Cert.KernelIdeal.Hand

open Idealize.ShloMosaic Idealize.ShloMosaic.TcCoe
open Cert.KernelIdeal.Gen (launch4)

variable {F : FTy → Type} [FloatOps F]

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 :=
  Region.regOf cfgs (pdats m ρ) defs₀ 𝒱₀ L lv 4 launch4 (W9 m ρ) (W10 m ρ) (fun c => (body_obligation4 (V9 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg5.lean ====
import proofs.«428610_j54915451847256_3_alg».proof.Proof.KI.RunFold

noncomputable section

namespace Cert.KernelIdeal.Hand

open Idealize.ShloMosaic Idealize.ShloMosaic.TcCoe
open Cert.KernelIdeal.Gen (launch5)

variable {F : FTy → Type} [FloatOps F]

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 :=
  Region.regOf cfgs (pdats m ρ) defs₀ 𝒱₀ L lv 5 launch5 (W11 m ρ) (W12 m ρ) (fun c => (body_obligation5 (V11 m ρ) c).loose)
    (fun _ _ => rfl) (fun _ => rfl) (fun _ _ => rfl) (fun _ _ => rfl) (fun _ => .rfl) (fun _ => .rfl) fun _ => rfl

end Cert.KernelIdeal.Hand

end
-- ==== Proof.KI.RunReg6.lean ====
import proofs.«428610_j54915451847256_3_alg».proof.Proof.KI.RunFold

noncomputable section

namespace Cert.KernelIdeal.Hand

open Idealize.ShloMosaic Idealize.ShloMosaic.TcCoe
open Cert.KernelIdeal.Gen (launch6)

variable {F : FTy → Type} [FloatOps F]

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 :=
  Region.regOf cfgs (pdats m ρ) defs₀ 𝒱₀ L lv 6 launch6 (W14 m ρ) (W15 m ρ) (fun c => (body_obligation6 (V14 m ρ) c).loose)
    (fun _ _ => rfl) (fun _ => rfl) (fun _ _ => rfl) (fun _ _ => rfl) (hin6 (V14 m ρ)) (hout6 (V14 m ρ)) fun _ => rfl

end Cert.KernelIdeal.Hand

end
-- ==== Proof.KI.Run.lean ====
import proofs.«428610_j54915451847256_3_alg».proof.Proof.KI.RunArgs
import proofs.«428610_j54915451847256_3_alg».proof.Proof.KI.RunReg0
import proofs.«428610_j54915451847256_3_alg».proof.Proof.KI.RunReg1
import proofs.«428610_j54915451847256_3_alg».proof.Proof.KI.RunReg2
import proofs.«428610_j54915451847256_3_alg».proof.Proof.KI.RunReg3
import proofs.«428610_j54915451847256_3_alg».proof.Proof.KI.RunReg4
import proofs.«428610_j54915451847256_3_alg».proof.Proof.KI.RunReg5
import proofs.«428610_j54915451847256_3_alg».proof.Proof.KI.RunReg6

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .region (reg6 m ρ),
    .host (hseg hostOps7 hostOps7_sub hostOps7_fresh (W15 m ρ)) ]
theorem main_run (c : Dev nD) : main (F := F) c = Pipeline.Seg.run (segs m ρ) := by
  rw [main_chain c, Pipeline.Seg.run_eq_chain]; rfl

set_option backward.isDefEq.respectTransparency.types false in
theorem run_named : θ_run defs (onTc (τ := τ) (main (F := F))) ⟨m, fun _ => 0, ρ⟩ (fun r => ∀ c : Dev nD,
      r.2.mem ((c.tc : Thread nD τ).loc main_v92) = W16 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Region.R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v92 (by decide)),
       kept m ρ c main_arg0 (by decide) (h c),
       kept m ρ c main_arg1 (by decide) (h c),
       kept m ρ c main_arg2 (by decide) (h c),
       kept m ρ c main_arg3 (by decide) (h c),
       kept m ρ c main_arg4 (by decide) (h c),
       kept m ρ c main_arg5 (by decide) (h c),
       kept m ρ c main_arg6 (by decide) (h c),
       kept m ρ c main_arg7 (by decide) (h c),
       kept m ρ c main_arg8 (by decide) (h c),
       kept m ρ c main_arg9 (by decide) (h c),
       kept m ρ c main_arg10 (by decide) (h c),
       kept m ρ c main_arg11 (by decide) (h c),
       kept m ρ c main_arg12 (by decide) (h c),
       kept m ρ c main_arg13 (by decide) (h c),
       kept m ρ c main_arg14 (by decide) (h c)⟩)

end Cert.KernelIdeal.Hand

end
-- ==== Proof.Spec.lean ====
import Mathlib.Analysis.SpecialFunctions.Exp
import Mathlib.Analysis.SpecialFunctions.Sqrt
import Mathlib.Analysis.SpecialFunctions.Trigonometric.DerivHyp
import Mathlib.Algebra.BigOperators.Fin
import Mathlib.Order.Fin.Basic

noncomputable section

namespace Cert.Spec

open Finset

variable {N D O : ℕ}

def colMean (n : ℝ) (X : Fin N → Fin D → ℝ) (d : Fin D) : ℝ := (∑ i, X i d) / n

def colVarK (n : ℝ) (X : Fin N → Fin D → ℝ) (d : Fin D) : ℝ :=
  (∑ i, X i d * X i d) / n - colMean n X d * colMean n X d

def colVarR (n : ℝ) (X : Fin N → Fin D → ℝ) (d : Fin D) : ℝ :=
  (∑ i, (X i d - colMean n X d) * (X i d - colMean n X d)) / n

def linK (ε : ℝ) (X : Fin N → Fin D → ℝ) (γ β μ v : Fin D → ℝ) (W : Fin O → Fin D → ℝ) (b : Fin O → ℝ)
    (i : Fin N) (o : Fin O) : ℝ :=
  Real.tanh ((∑ d, ((X i d - μ d) * (Real.sqrt (v d + ε))⁻¹ * γ d + β d) * W o d) + b o)

def linR (ε : ℝ) (X : Fin N → Fin D → ℝ) (γ β μ v : Fin D → ℝ) (W : Fin O → Fin D → ℝ) (b : Fin O → ℝ)
    (i : Fin N) (o : Fin O) : ℝ :=
  Real.tanh ((∑ d, (γ d * (X i d - μ d) / Real.sqrt (v d + ε) + β d) * W o d) + b o)

def layerK (ε n : ℝ) (X : Fin N → Fin D → ℝ) (γ β : Fin D → ℝ) (W : Fin O → Fin D → ℝ) (b : Fin O → ℝ) :
    Fin N → Fin O → ℝ := linK ε X γ β (colMean n X) (colVarK n X) W b
def layerR (ε n : ℝ) (X : Fin N → Fin D → ℝ) (γ β : Fin D → ℝ) (W : Fin O → Fin D → ℝ) (b : Fin O → ℝ) :
    Fin N → Fin O → ℝ := linR ε X γ β (colMean n X) (colVarR n X) W b

structure Params where
  γ0 : Fin 1024 → ℝ
  β0 : Fin 1024 → ℝ
  W0 : Fin 512 → Fin 1024 → ℝ
  b0 : Fin 512 → ℝ
  γ1 : Fin 512 → ℝ
  β1 : Fin 512 → ℝ
  W1 : Fin 256 → Fin 512 → ℝ
  b1 : Fin 256 → ℝ
  γ2 : Fin 256 → ℝ
  β2 : Fin 256 → ℝ
  W2 : Fin 128 → Fin 256 → ℝ
  b2 : Fin 128 → ℝ

def encK (ε n : ℝ) (P : Params) (X : Fin N → Fin 1024 → ℝ) : Fin N → Fin 128 → ℝ :=
  layerK ε n (layerK ε n (layerK ε n X P.γ0 P.β0 P.W0 P.b0) P.γ1 P.β1 P.W1 P.b1) P.γ2 P.β2 P.W2 P.b2
def encR (ε n : ℝ) (P : Params) (X : Fin N → Fin 1024 → ℝ) : Fin N → Fin 128 → ℝ :=
  layerR ε n (layerR ε n (layerR ε n X P.γ0 P.β0 P.W0 P.b0) P.γ1 P.β1 P.W1 P.b1) P.γ2 P.β2 P.W2 P.b2

def clip01 (x : ℝ) : ℝ := min 1 (max 0 x)

def oneHot (C : ℕ) (y : Fin 8192 → ℤ) (j : Fin 8192) (c : Fin C) : ℝ := if y j = (c.val : ℤ) then 1 else 0

def keyOf (T : Fin 8) (r : Fin 1024) : Fin 8192 := ⟨T.val * 1024 + r.val, by have := T.isLt; have := r.isLt; omega⟩

def simK (q : Fin 4096 → Fin 128 → ℝ) (k : Fin 8192 → Fin 128 → ℝ) (i : Fin 4096) (j : Fin 8192) : ℝ :=
  2 * (∑ d, q i d * k j d) - ∑ d, k j d * k j d

def simR (q : Fin 4096 → Fin 128 → ℝ) (k : Fin 8192 → Fin 128 → ℝ) (i : Fin 4096) (j : Fin 8192) : ℝ :=
  2 * (∑ d, q i d * k j d) - (∑ d, q i d * q i d) - ∑ d, k j d * k j d

structure Carry where
  m : ℝ
  l : ℝ
  acc : Fin 128 → ℝ

def flashStep (s : Fin 1024 → ℝ) (oh : Fin 1024 → Fin 128 → ℝ) (st : Carry) : Carry :=
  let m' := max st.m (univ.sup' univ_nonempty s)
  let a := Real.exp (st.m - m')
  let pv : Fin 128 → ℝ := fun c => ∑ r, Real.exp (s r - m') * oh r c
  ⟨m', a * st.l + ∑ c, pv c, fun c => a * st.acc c + pv c⟩

def flashAt (neg : ℝ) (s : Fin 8 → Fin 1024 → ℝ) (oh : Fin 8 → Fin 1024 → Fin 128 → ℝ) : (T : ℕ) → T < 8 → Carry
  | 0, h => flashStep (s ⟨0, h⟩) (oh ⟨0, h⟩) ⟨neg, 0, fun _ => 0⟩
  | T + 1, h => flashStep (s ⟨T + 1, h⟩) (oh ⟨T + 1, h⟩) (flashAt neg s oh T (by omega))

def flashOut (neg : ℝ) (q : Fin 4096 → Fin 128 → ℝ) (k : Fin 8192 → Fin 128 → ℝ) (y : Fin 8192 → ℤ)
    (i : Fin 4096) (c : Fin 128) : ℝ :=
  let st := flashAt neg (fun T r => simK q k i (keyOf T r)) (fun T r => oneHot 128 y (keyOf T r)) 7 (by norm_num)
  clip01 (st.acc c / st.l)

def softOut (q : Fin 4096 → Fin 128 → ℝ) (k : Fin 8192 → Fin 128 → ℝ) (y : Fin 8192 → ℤ)
    (i : Fin 4096) (c : Fin 10) : ℝ :=
  let M := univ.sup' univ_nonempty (simR q k i)
  let e : Fin 8192 → ℝ := fun j => Real.exp (simR q k i j - M)
  clip01 (∑ j, e j / (∑ j', e j') * oneHot 10 y j c)

def kernelR (ε neg : ℝ) (P : Params) (x : Fin 4096 → Fin 1024 → ℝ) (xn : Fin 8192 → Fin 1024 → ℝ) (y : Fin 8192 → ℤ)
    (i : Fin 4096) (c : Fin 10) : ℝ :=
  flashOut neg (encK ε 4096 P x) (encK ε 8192 P xn) y i ⟨c.val, by have := c.isLt; omega⟩

def refR (ε : ℝ) (P : Params) (x : Fin 4096 → Fin 1024 → ℝ) (xn : Fin 8192 → Fin 1024 → ℝ) (y : Fin 8192 → ℤ)
    (i : Fin 4096) (c : Fin 10) : ℝ :=
  softOut (encR ε 4096 P x) (encR ε 8192 P xn) y i c

end Cert.Spec

end
-- ==== Proof.Iface.lean ====
import Idealize.ShloMosaic.PureOps.Ideal
import Idealize.ShloMosaic.Lib.ValueIdx
import proofs.«428610_j54915451847256_3_alg».proof.Proof.Spec

noncomputable section

namespace Cert.Iface

open Idealize.ShloMosaic Idealize.ShloMosaic.ValueIdx

abbrev Sh1 (a : ℕ) : Shape := ⟨1, ![a]⟩
abbrev Sh2 (a b : ℕ) : Shape := ⟨2, ![a, b]⟩

def epsR : ℝ := EReal.toReal (Ideal.ofBits .f32 0x3727C5AC#32)

def negR : ℝ := EReal.toReal (Ideal.ofBits .f32 0xFF333332#32)

structure ArgsReal
    (a0 : FVec Ideal (Sh2 4096 1024) .f32) (a1 : FVec Ideal (Sh2 8192 1024) .f32) (a2 : IVec (Sh1 8192) 32)
    (a3 : FVec Ideal (Sh2 512 1024) .f32) (a4 : FVec Ideal (Sh1 512) .f32)
    (a5 : FVec Ideal (Sh2 256 512) .f32) (a6 : FVec Ideal (Sh1 256) .f32)
    (a7 : FVec Ideal (Sh2 128 256) .f32) (a8 : FVec Ideal (Sh1 128) .f32)
    (a9 a10 : FVec Ideal (Sh1 1024) .f32) (a11 a12 : FVec Ideal (Sh1 512) .f32) (a13 a14 : FVec Ideal (Sh1 256) .f32)
    (P : Cert.Spec.Params) (x : Fin 4096 → Fin 1024 → ℝ) (xn : Fin 8192 → Fin 1024 → ℝ) (y : Fin 8192 → ℤ) : Prop where
  hx : ∀ p q, a0 (ix2 p q) = ((x p q : ℝ) : EReal)
  hxn : ∀ p q, a1 (ix2 p q) = ((xn p q : ℝ) : EReal)
  hy : ∀ j, (a2 (ix1 j)).toInt = y j
  hW0 : ∀ o d, a3 (ix2 o d) = ((P.W0 o d : ℝ) : EReal)
  hb0 : ∀ o, a4 (ix1 o) = ((P.b0 o : ℝ) : EReal)
  hW1 : ∀ o d, a5 (ix2 o d) = ((P.W1 o d : ℝ) : EReal)
  hb1 : ∀ o, a6 (ix1 o) = ((P.b1 o : ℝ) : EReal)
  hW2 : ∀ o d, a7 (ix2 o d) = ((P.W2 o d : ℝ) : EReal)
  hb2 : ∀ o, a8 (ix1 o) = ((P.b2 o : ℝ) : EReal)
  hγ0 : ∀ d, a9 (ix1 d) = ((P.γ0 d : ℝ) : EReal)
  hβ0 : ∀ d, a10 (ix1 d) = ((P.β0 d : ℝ) : EReal)
  hγ1 : ∀ d, a11 (ix1 d) = ((P.γ1 d : ℝ) : EReal)
  hβ1 : ∀ d, a12 (ix1 d) = ((P.β1 d : ℝ) : EReal)
  hγ2 : ∀ d, a13 (ix1 d) = ((P.γ2 d : ℝ) : EReal)
  hβ2 : ∀ d, a14 (ix1 d) = ((P.β2 d : ℝ) : EReal)

def LabelsInRange (y : Fin 8192 → ℤ) : Prop := ∀ j, 0 ≤ y j ∧ y j < 10

end Cert.Iface

end
-- ==== Proof.LibRealCoe.lean ====
import Idealize.ShloMosaic.PureOps.Ideal
import Idealize.ShloMosaic.PureOps.Ideal.Laws
import Idealize.ShloMosaic.Lib.ValueIdx
import Mathlib.Order.Fin.Basic
import proofs.«428610_j54915451847256_3_alg».proof.Proof.Iface

noncomputable section

namespace Cert.RealCoe

open Idealize.ShloMosaic Idealize.ShloMosaic.ValueIdx
open scoped BigOperators

section Scalar
variable (a b : ℝ)

theorem max_coe : max (a : EReal) (b : EReal) = ((max a b : ℝ) : EReal) :=
  (EReal.coe_strictMono.monotone.map_max (a := a) (b := b)).symm

theorem min_coe : min (a : EReal) (b : EReal) = ((min a b : ℝ) : EReal) :=
  (EReal.coe_strictMono.monotone.map_min (a := a) (b := b)).symm

variable {a b}

theorem div_coe_coe (hb : b ≠ 0) : Ideal.div (a : EReal) (b : EReal) = ((a / b : ℝ) : EReal) := by
  rw [Ideal.div, if_neg (EReal.coe_ne_zero.mpr hb), ← EReal.coe_inv, ← EReal.coe_mul, div_eq_mul_inv]

theorem sqrt_coe_nonneg (ha : 0 ≤ a) : Ideal.sqrt (a : EReal) = ((Real.sqrt a : ℝ) : EReal) := by
  rw [Ideal.sqrt_coe, if_neg (not_lt.mpr ha)]

theorem rsqrt_coe_pos (ha : 0 < a) : Ideal.rsqrt (a : EReal) = (((Real.sqrt a)⁻¹ : ℝ) : EReal) := by
  rw [Ideal.rsqrt_coe, if_neg (not_lt.mpr ha.le), if_neg ha.ne']

end Scalar

section Fields
variable {φ : FTy} (a b : ℝ)

theorem tanh_coe : FloatOps.tanh (F := Ideal) (φ := φ) (a : EReal) = ((Real.tanh a : ℝ) : EReal) := rfl

theorem exp_coe : FloatOps.exp (F := Ideal) (φ := φ) (a : EReal) = ((Real.exp a : ℝ) : EReal) := rfl

variable {a b}

end Fields

section Consts

theorem ofBits_zero : Ideal.ofBits .f32 0x00000000#32 = 0 := Ideal.ofBits_zero_f32

theorem ofBits_zero_coe : Ideal.ofBits .f32 0x00000000#32 = ((0 : ℝ) : EReal) := by rw [ofBits_zero, EReal.coe_zero]

theorem ofBits_one : Ideal.ofBits .f32 0x3F800000#32 = 1 := by
  simp [Ideal.ofBits, Ideal.ieee, -EReal.coe_mul]; norm_num

theorem ofBits_one_coe : Ideal.ofBits .f32 0x3F800000#32 = ((1 : ℝ) : EReal) := by rw [ofBits_one, EReal.coe_one]

theorem ofBits_two : Ideal.ofBits .f32 0x40000000#32 = ((2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_eps_val : Ideal.ofBits .f32 0x3727C5AC#32 = ((10995116 * (2 : ℝ) ^ (-40 : ℤ) : ℝ) : EReal) := by
  simp [Ideal.ofBits, Ideal.ieee, -EReal.coe_mul]

theorem epsR_eq : Cert.Iface.epsR = 10995116 * (2 : ℝ) ^ (-40 : ℤ) := by
  rw [Cert.Iface.epsR, ofBits_eps_val, EReal.toReal_coe]

theorem ofBits_eps : Ideal.ofBits .f32 0x3727C5AC#32 = ((Cert.Iface.epsR : ℝ) : EReal) := by
  rw [epsR_eq]; exact ofBits_eps_val

theorem epsR_pos : 0 < Cert.Iface.epsR := by
  rw [epsR_eq]; positivity

theorem ofBits_neg_val : Ideal.ofBits .f32 0xFF333332#32 = ((-(11744050 * (2 : ℝ) ^ (104 : ℤ)) : ℝ) : EReal) := by
  simp [Ideal.ofBits, Ideal.ieee, -EReal.coe_mul]

theorem negR_eq : Cert.Iface.negR = -(11744050 * (2 : ℝ) ^ (104 : ℤ)) := by
  rw [Cert.Iface.negR, ofBits_neg_val, EReal.toReal_coe]

theorem ofBits_neg : Ideal.ofBits .f32 0xFF333332#32 = ((Cert.Iface.negR : ℝ) : EReal) := by
  rw [negR_eq]; exact ofBits_neg_val

theorem ofBits_neginf : Ideal.ofBits .f32 0xFF800000#32 = ⊥ := by
  simp [Ideal.ofBits, Ideal.ieee]

end Consts

section AtIndex
variable {s : Shape} {φ : FTy}

theorem tanh_apply (x : FVec Ideal s φ) (i : s.Idx) : tanh x i = Ideal.tanh (x i) := rfl

theorem rsqrt_apply (x : FVec Ideal s φ) (i : s.Idx) : rsqrt x i = Ideal.rsqrt (x i) := rfl

variable {x y : FVec Ideal s φ} {i : s.Idx} {a b : ℝ}

end AtIndex

section Big
variable {ι : Type*}

theorem coe_sum (S : Finset ι) (f : ι → ℝ) : ∑ k ∈ S, ((f k : ℝ) : EReal) = ((∑ k ∈ S, f k : ℝ) : EReal) := by
  induction S using Finset.cons_induction with
  | empty => rw [Finset.sum_empty, Finset.sum_empty, EReal.coe_zero]
  | cons k S hk ih => rw [Finset.sum_cons, Finset.sum_cons, ih, EReal.coe_add]

theorem fold_max_bot_coe (S : Finset ι) (hS : S.Nonempty) (f : ι → ℝ) :
    S.fold max (⊥ : EReal) (fun k => ((f k : ℝ) : EReal)) = ((S.sup' hS f : ℝ) : EReal) := by
  refine le_antisymm ((Finset.fold_max_le _).mpr ⟨bot_le, fun k hk => EReal.coe_le_coe_iff.mpr (Finset.le_sup' f hk)⟩) ?_
  obtain ⟨k, hk, hek⟩ := Finset.exists_mem_eq_sup' hS f
  rw [hek]
  exact (Finset.le_fold_max _).mpr (Or.inr ⟨k, hk, le_rfl⟩)

end Big

end Cert.RealCoe

end
-- ==== Proof.KI.HostRead.lean ====
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.ValueIdx
open scoped BigOperators

theorem colSum_apply {N D : ℕ} (h' : (⟨2, ![N, D]⟩ : Shape).ReducesTo [0] ⟨1, ![D]⟩)
    (h : (⟨2, ![N, D]⟩ : Shape).Reduces [0] ⟨1, ![D]⟩)
    (x : (⟨2, ![N, D]⟩ : Shape).Idx → EReal) (init : EReal) (d : Fin D) :
    Ideal.hostReduceAdd h' x init (ix1 d) = init + ∑ k : Fin N, x (ix2 k d) := by
  rw [Ideal.hostReduceAdd_single h' h]
  refine congrArg (_ + ·) (Finset.sum_congr rfl fun k _ => ?_)
  exact congrArg x (funext fun a => Fin.ext (by match a with | ⟨0, _⟩ => rfl | ⟨1, _⟩ => rfl))

theorem rowSum_apply {N D : ℕ} (h' : (⟨2, ![N, D]⟩ : Shape).ReducesTo [1] ⟨1, ![N]⟩)
    (h : (⟨2, ![N, D]⟩ : Shape).Reduces [1] ⟨1, ![N]⟩)
    (x : (⟨2, ![N, D]⟩ : Shape).Idx → EReal) (init : EReal) (p : Fin N) :
    Ideal.hostReduceAdd h' x init (ix1 p) = init + ∑ k : Fin D, x (ix2 p k) := by
  rw [Ideal.hostReduceAdd_single h' h]
  refine congrArg (_ + ·) (Finset.sum_congr rfl fun k _ => ?_)
  exact congrArg x (funext fun a => Fin.ext (by match a with | ⟨0, _⟩ => rfl | ⟨1, _⟩ => rfl))

theorem tileSum_apply {T D : ℕ} (h' : (⟨3, ![T, 1, D]⟩ : Shape).ReducesTo [0, 1] ⟨1, ![D]⟩)
    (x : (⟨3, ![T, 1, D]⟩ : Shape).Idx → EReal) (init : EReal) (d : Fin D) :
    Ideal.hostReduceAdd h' x init (ix1 d) = init + ∑ t : Fin T, x (ix3 t (0 : Fin 1) d) := by
  unfold Ideal.hostReduceAdd
  refine congrArg (_ + ·) ?_
  have hleft : ∀ i ∈ Finset.univ.filter (fun i => h'.drop i = ix1 d), ix3 (i 0 : Fin T) (0 : Fin 1) d = i := by
    intro i hi
    have hd : h'.drop i = ix1 d := (Finset.mem_filter.1 hi).2
    have h2 : (i 2 : Fin D) = d := congrFun hd 0
    funext a
    match a with
    | ⟨0, _⟩ => rfl
    | ⟨1, _⟩ => exact Subsingleton.elim (α := Fin 1) _ _
    | ⟨2, _⟩ => exact h2.symm
  refine Finset.sum_nbij' (fun i => (i 0 : Fin T)) (fun t => ix3 t (0 : Fin 1) d) ?_ ?_ hleft ?_ ?_
  · intro i _; exact Finset.mem_univ _
  · intro t _
    refine Finset.mem_filter.2 ⟨Finset.mem_univ _, funext fun b => ?_⟩
    match b with | ⟨0, _⟩ => rfl
  · intro t _; rfl
  · intro i hi; exact congrArg x (hleft i hi).symm

theorem reshapeRow_apply {α : Type} {D : ℕ} (v : (⟨1, ![D]⟩ : Shape).Idx → α)
    (h : (⟨1, ![D]⟩ : Shape).ShapeCasts ⟨2, ![1, D]⟩) (d : Fin D) :
    shapeCast ⟨2, ![1, D]⟩ v h (ix2 (0 : Fin 1) d) = v (ix1 d) := by
  rw [shapeCast_addUnit_apply ![D] v h]
  exact congrArg v (funext fun a => by match a with | ⟨0, _⟩ => rfl)

theorem sum_coe_real {ι : Type} [Fintype ι] (g : ι → EReal) (f : ι → ℝ) (h : ∀ k, g k = ((f k : ℝ) : EReal)) :
    ∑ k, g k = ((∑ k, f k : ℝ) : EReal) := by
  rw [show g = fun k => ((f k : ℝ) : EReal) from funext h]
  induction (Finset.univ : Finset ι) using Finset.cons_induction with
  | empty => rw [Finset.sum_empty, Finset.sum_empty, EReal.coe_zero]
  | cons k S hk ih => rw [Finset.sum_cons, Finset.sum_cons, ih, EReal.coe_add]

theorem div_coe_real (a : ℝ) {n : ℝ} (hn : n ≠ 0) : Ideal.div (a : EReal) (n : EReal) = ((a / n : ℝ) : EReal) := by
  rw [Ideal.div_coe hn, ← EReal.coe_mul, mul_one_div]

section Real
variable {D : ℕ} {w : BitVec 32} {n : ℝ}

theorem hostColSum_real {N : ℕ} (h' : (⟨2, ![N, D]⟩ : Shape).ReducesTo [0] ⟨1, ![D]⟩)
    (h : (⟨2, ![N, D]⟩ : Shape).Reduces [0] ⟨1, ![D]⟩) (hS : 0 < (⟨0, ![]⟩ : Shape).numel)
    (a : FVec Ideal ⟨2, ![N, D]⟩ .f32) (x : Fin N → Fin D → ℝ) (hx : ∀ p q, a (ix2 p q) = ((x p q : ℝ) : EReal)) (d : Fin D) :
    Host.reduceAdd a (constant (F := Ideal) ⟨0, ![]⟩ .f32 0x00000000#32) h' hS (ix1 d) = ((∑ p, x p d : ℝ) : EReal) := by
  show Ideal.hostReduceAdd h' a (Ideal.ofBits .f32 0x00000000#32) (ix1 d) = _
  rw [colSum_apply h' h, Ideal.ofBits_zero_f32, zero_add]
  exact sum_coe_real _ _ fun k => hx k d

theorem hostRowSum_real {N : ℕ} (h' : (⟨2, ![N, D]⟩ : Shape).ReducesTo [1] ⟨1, ![N]⟩)
    (h : (⟨2, ![N, D]⟩ : Shape).Reduces [1] ⟨1, ![N]⟩) (hS : 0 < (⟨0, ![]⟩ : Shape).numel)
    (a : FVec Ideal ⟨2, ![N, D]⟩ .f32) (x : Fin N → Fin D → ℝ) (hx : ∀ p q, a (ix2 p q) = ((x p q : ℝ) : EReal)) (p : Fin N) :
    Host.reduceAdd a (constant (F := Ideal) ⟨0, ![]⟩ .f32 0x00000000#32) h' hS (ix1 p) = ((∑ q, x p q : ℝ) : EReal) := by
  show Ideal.hostReduceAdd h' a (Ideal.ofBits .f32 0x00000000#32) (ix1 p) = _
  rw [rowSum_apply h' h, Ideal.ofBits_zero_f32, zero_add]
  exact sum_coe_real _ _ fun k => hx p k

theorem hostTileSum_real {T : ℕ} (h' : (⟨3, ![T, 1, D]⟩ : Shape).ReducesTo [0, 1] ⟨1, ![D]⟩)
    (hS : 0 < (⟨0, ![]⟩ : Shape).numel)
    (a : FVec Ideal ⟨3, ![T, 1, D]⟩ .f32) (s : Fin T → Fin D → ℝ)
    (hs : ∀ t o, a (ix3 t (0 : Fin 1) o) = ((s t o : ℝ) : EReal)) (d : Fin D) :
    Host.reduceAdd a (constant (F := Ideal) ⟨0, ![]⟩ .f32 0x00000000#32) h' hS (ix1 d) = ((∑ t, s t d : ℝ) : EReal) := by
  show Ideal.hostReduceAdd h' a (Ideal.ofBits .f32 0x00000000#32) (ix1 d) = _
  rw [tileSum_apply h', Ideal.ofBits_zero_f32, zero_add]
  exact sum_coe_real _ _ fun t => hs t d

theorem hostDivConst_real (hb : (⟨0, ![]⟩ : Shape).BroadcastsInDim ⟨1, ![D]⟩ (![] : Fin 0 → Fin 1))
    (hw : Ideal.ofBits .f32 w = ((n : ℝ) : EReal)) (hn : n ≠ 0)
    (u : FVec Ideal ⟨1, ![D]⟩ .f32) (d : Fin D) (a : ℝ) (hu : u (ix1 d) = ((a : ℝ) : EReal)) :
    Host.divf u (broadcastInDim ⟨1, ![D]⟩ ![] hb (constant (F := Ideal) ⟨0, ![]⟩ .f32 w)) (ix1 d) = ((a / n : ℝ) : EReal) := by
  show Ideal.div (u (ix1 d)) (broadcastInDim ⟨1, ![D]⟩ ![] hb (constant (F := Ideal) ⟨0, ![]⟩ .f32 w) (ix1 d)) = _
  rw [hu, broadcastInDim_apply _ hb _ (ix1 d) ix0 (fun a => a.elim0)]
  show Ideal.div (a : EReal) (Ideal.ofBits .f32 w) = _
  rw [hw]; exact div_coe_real a hn

theorem hostVar_real (A M : FVec Ideal ⟨1, ![D]⟩ .f32) (d : Fin D) (b a : ℝ)
    (hA : A (ix1 d) = ((b : ℝ) : EReal)) (hM : M (ix1 d) = ((a : ℝ) : EReal)) :
    subf A (mulf M M) (ix1 d) = ((b - a * a : ℝ) : EReal) := by
  show A (ix1 d) - M (ix1 d) * M (ix1 d) = _
  rw [hA, hM, ← EReal.coe_mul, ← EReal.coe_sub]

theorem mulf_self_real {s : Shape} (a : FVec Ideal s .f32) (i : s.Idx) (x : ℝ) (hx : a i = ((x : ℝ) : EReal)) :
    mulf a a i = ((x * x : ℝ) : EReal) := by
  show a i * a i = _
  rw [hx, ← EReal.coe_mul]

end Real

end Cert.KernelIdeal.HandValue

end
-- ==== Proof.KI.Host0.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host0_m :=
  Host.divf (Host.reduceAdd (W (Proc.devRef .tc main_arg0) : S4096x1024.Idx → EReal) (constant (F := Ideal) S_ .f32 0x00000000#32) reducesTo_S4096x1024_S1024_d0 h_S_) (broadcastInDim S1024 ![] bcast_S_S1024 (constant (F := Ideal) S_ .f32 0x45800000#32))

theorem host0_mean_term :
    (StableHlo.after (hostOps0 (F := Ideal)) W (Proc.devRef .tc main_v11) : S1x1024.Idx → EReal)
      = shapeCast S1x1024 (host0_m W) shapeCasts_S1024_S1x1024 := by
  after_results_simp
  rfl

theorem host0_var_term :
    (StableHlo.after (hostOps0 (F := Ideal)) W (Proc.devRef .tc main_v12) : S1x1024.Idx → EReal)
      = shapeCast S1x1024 (subf (F := Ideal) (s := S1024) (φ := .f32) (Host.divf (Host.reduceAdd (mulf (F := Ideal) (s := S4096x1024) (φ := .f32) (W (Proc.devRef .tc main_arg0) : S4096x1024.Idx → EReal) (W (Proc.devRef .tc main_arg0) : S4096x1024.Idx → EReal)) (constant (F := Ideal) S_ .f32 0x00000000#32) reducesTo_S4096x1024_S1024_d0 h_S_) (broadcastInDim S1024 ![] bcast_S_S1024 (constant (F := Ideal) S_ .f32 0x45800000#32)))
          (mulf (F := Ideal) (s := S1024) (φ := .f32) (host0_m W) (host0_m W))) shapeCasts_S1024_S1x1024 := by
  after_results_simp
  rfl

variable (x : Fin 4096 → Fin 1024 → ℝ)
  (hx : ∀ p q, (W (Proc.devRef .tc main_arg0) : S4096x1024.Idx → EReal) (ix2 p q) = ((x p q : ℝ) : EReal))
include hx

theorem host0_mean (d : Fin 1024) :
    (StableHlo.after (hostOps0 (F := Ideal)) W (Proc.devRef .tc main_v11) : S1x1024.Idx → EReal) (ix2 (0 : Fin 1) d)
      = ((Spec.colMean 4096 x d : ℝ) : EReal) := by
  rw [host0_mean_term W, reshapeRow_apply]
  exact hostDivConst_real _ Cert.RealCoe.ofBits_4096 (by norm_num) _ d _ (hostColSum_real _ (by decide) _ _ x hx d)

theorem host0_var (d : Fin 1024) :
    (StableHlo.after (hostOps0 (F := Ideal)) W (Proc.devRef .tc main_v12) : S1x1024.Idx → EReal) (ix2 (0 : Fin 1) d)
      = ((Spec.colVarK 4096 x d : ℝ) : EReal) := by
  rw [host0_var_term W, reshapeRow_apply]
  exact hostVar_real _ _ d _ _
    (hostDivConst_real _ Cert.RealCoe.ofBits_4096 (by norm_num) _ d _
      (hostColSum_real _ (by decide) _ _ (fun p q => x p q * x p q) (fun p q => mulf_self_real _ _ _ (hx p q)) d))
    (hostDivConst_real _ Cert.RealCoe.ofBits_4096 (by norm_num) _ d _ (hostColSum_real _ (by decide) _ _ x hx d))

end

theorem host0_gamma (W : Valuation τ sig (Elt Ideal)) (d : Fin 1024) :
    (StableHlo.after (hostOps0 (F := Ideal)) W (Proc.devRef .tc main_v9) : S1x1024.Idx → EReal) (ix2 (0 : Fin 1) d)
      = (W (Proc.devRef .tc main_arg9) : S1024.Idx → EReal) (ix1 d) := by
  have e : (StableHlo.after (hostOps0 (F := Ideal)) W (Proc.devRef .tc main_v9) : S1x1024.Idx → EReal)
      = shapeCast S1x1024 (W (Proc.devRef .tc main_arg9) : S1024.Idx → EReal) shapeCasts_S1024_S1x1024 := by
    after_results_simp
    rfl
  rw [e, reshapeRow_apply]

theorem host0_beta (W : Valuation τ sig (Elt Ideal)) (d : Fin 1024) :
    (StableHlo.after (hostOps0 (F := Ideal)) W (Proc.devRef .tc main_v10) : S1x1024.Idx → EReal) (ix2 (0 : Fin 1) d)
      = (W (Proc.devRef .tc main_arg10) : S1024.Idx → EReal) (ix1 d) := by
  have e : (StableHlo.after (hostOps0 (F := Ideal)) W (Proc.devRef .tc main_v10) : S1x1024.Idx → EReal)
      = shapeCast S1x1024 (W (Proc.devRef .tc main_arg10) : S1024.Idx → EReal) shapeCasts_S1024_S1x1024 := by
    after_results_simp
    rfl
  rw [e, reshapeRow_apply]

theorem host0_bias (W : Valuation τ sig (Elt Ideal)) (d : Fin 512) :
    (StableHlo.after (hostOps0 (F := Ideal)) W (Proc.devRef .tc main_v13) : S1x512.Idx → EReal) (ix2 (0 : Fin 1) d)
      = (W (Proc.devRef .tc main_arg4) : S512.Idx → EReal) (ix1 d) := by
  have e : (StableHlo.after (hostOps0 (F := Ideal)) W (Proc.devRef .tc main_v13) : S1x512.Idx → EReal)
      = shapeCast S1x512 (W (Proc.devRef .tc main_arg4) : S512.Idx → EReal) shapeCasts_S512_S1x512 := by
    after_results_simp
    rfl
  rw [e, reshapeRow_apply]

end Cert.KernelIdeal.HandValue

end
-- ==== Proof.KI.Host1.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host1_m :=
  Host.divf (Host.reduceAdd (W (Proc.devRef .tc main_v14_1) : S4x1x512.Idx → EReal) (constant (F := Ideal) S_ .f32 0x00000000#32) reducesTo_S4x1x512_S512_d0_1 h_S_) (broadcastInDim S512 ![] bcast_S_S512 (constant (F := Ideal) S_ .f32 0x45800000#32))

theorem host1_mean_term :
    (StableHlo.after (hostOps1 (F := Ideal)) W (Proc.devRef .tc main_v25) : S1x512.Idx → EReal)
      = shapeCast S1x512 (host1_m W) shapeCasts_S512_S1x512 := by
  after_results_simp
  rfl

theorem host1_var_term :
    (StableHlo.after (hostOps1 (F := Ideal)) W (Proc.devRef .tc main_v26) : S1x512.Idx → EReal)
      = shapeCast S1x512 (subf (F := Ideal) (s := S512) (φ := .f32) (Host.divf (Host.reduceAdd (W (Proc.devRef .tc main_v14_2) : S4x1x512.Idx → EReal) (constant (F := Ideal) S_ .f32 0x00000000#32) reducesTo_S4x1x512_S512_d0_1 h_S_) (broadcastInDim S512 ![] bcast_S_S512 (constant (F := Ideal) S_ .f32 0x45800000#32)))
          (mulf (F := Ideal) (s := S512) (φ := .f32) (host1_m W) (host1_m W))) shapeCasts_S512_S1x512 := by
  after_results_simp
  rfl

variable (s1 s2 : Fin 4 → Fin 512 → ℝ)
  (h1 : ∀ t o, (W (Proc.devRef .tc main_v14_1) : S4x1x512.Idx → EReal) (ix3 t (0 : Fin 1) o) = ((s1 t o : ℝ) : EReal))
  (h2 : ∀ t o, (W (Proc.devRef .tc main_v14_2) : S4x1x512.Idx → EReal) (ix3 t (0 : Fin 1) o) = ((s2 t o : ℝ) : EReal))

include h1 in

theorem host1_mean (d : Fin 512) :
    (StableHlo.after (hostOps1 (F := Ideal)) W (Proc.devRef .tc main_v25) : S1x512.Idx → EReal) (ix2 (0 : Fin 1) d)
      = (((∑ t, s1 t d) / 4096 : ℝ) : EReal) := by
  rw [host1_mean_term W, reshapeRow_apply]
  exact hostDivConst_real _ Cert.RealCoe.ofBits_4096 (by norm_num) _ d _ (hostTileSum_real _ _ _ s1 h1 d)

include h1 h2 in

theorem host1_var (d : Fin 512) :
    (StableHlo.after (hostOps1 (F := Ideal)) W (Proc.devRef .tc main_v26) : S1x512.Idx → EReal) (ix2 (0 : Fin 1) d)
      = (((∑ t, s2 t d) / 4096 - (∑ t, s1 t d) / 4096 * ((∑ t, s1 t d) / 4096) : ℝ) : EReal) := by
  rw [host1_var_term W, reshapeRow_apply]
  exact hostVar_real _ _ d _ _
    (hostDivConst_real _ Cert.RealCoe.ofBits_4096 (by norm_num) _ d _ (hostTileSum_real _ _ _ s2 h2 d))
    (hostDivConst_real _ Cert.RealCoe.ofBits_4096 (by norm_num) _ d _ (hostTileSum_real _ _ _ s1 h1 d))

end

theorem host1_gamma (W : Valuation τ sig (Elt Ideal)) (d : Fin 512) :
    (StableHlo.after (hostOps1 (F := Ideal)) W (Proc.devRef .tc main_v23) : S1x512.Idx → EReal) (ix2 (0 : Fin 1) d)
      = (W (Proc.devRef .tc main_arg11) : S512.Idx → EReal) (ix1 d) := by
  have e : (StableHlo.after (hostOps1 (F := Ideal)) W (Proc.devRef .tc main_v23) : S1x512.Idx → EReal)
      = shapeCast S1x512 (W (Proc.devRef .tc main_arg11) : S512.Idx → EReal) shapeCasts_S512_S1x512 := by
    after_results_simp
    rfl
  rw [e, reshapeRow_apply]

theorem host1_beta (W : Valuation τ sig (Elt Ideal)) (d : Fin 512) :
    (StableHlo.after (hostOps1 (F := Ideal)) W (Proc.devRef .tc main_v24) : S1x512.Idx → EReal) (ix2 (0 : Fin 1) d)
      = (W (Proc.devRef .tc main_arg12) : S512.Idx → EReal) (ix1 d) := by
  have e : (StableHlo.after (hostOps1 (F := Ideal)) W (Proc.devRef .tc main_v24) : S1x512.Idx → EReal)
      = shapeCast S1x512 (W (Proc.devRef .tc main_arg12) : S512.Idx → EReal) shapeCasts_S512_S1x512 := by
    after_results_simp
    rfl
  rw [e, reshapeRow_apply]

theorem host1_bias (W : Valuation τ sig (Elt Ideal)) (d : Fin 256) :
    (StableHlo.after (hostOps1 (F := Ideal)) W (Proc.devRef .tc main_v27) : S1x256.Idx → EReal) (ix2 (0 : Fin 1) d)
      = (W (Proc.devRef .tc main_arg6) : S256.Idx → EReal) (ix1 d) := by
  have e : (StableHlo.after (hostOps1 (F := Ideal)) W (Proc.devRef .tc main_v27) : S1x256.Idx → EReal)
      = shapeCast S1x256 (W (Proc.devRef .tc main_arg6) : S256.Idx → EReal) shapeCasts_S256_S1x256 := by
    after_results_simp
    rfl
  rw [e, reshapeRow_apply]

end Cert.KernelIdeal.HandValue

end
-- ==== Proof.KI.Host2.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host2_m :=
  Host.divf (Host.reduceAdd (W (Proc.devRef .tc main_v28_1) : S4x1x256.Idx → EReal) (constant (F := Ideal) S_ .f32 0x00000000#32) reducesTo_S4x1x256_S256_d0_1 h_S_) (broadcastInDim S256 ![] bcast_S_S256 (constant (F := Ideal) S_ .f32 0x45800000#32))

theorem host2_mean_term :
    (StableHlo.after (hostOps2 (F := Ideal)) W (Proc.devRef .tc main_v39) : S1x256.Idx → EReal)
      = shapeCast S1x256 (host2_m W) shapeCasts_S256_S1x256 := by
  after_results_simp
  rfl

theorem host2_var_term :
    (StableHlo.after (hostOps2 (F := Ideal)) W (Proc.devRef .tc main_v40) : S1x256.Idx → EReal)
      = shapeCast S1x256 (subf (F := Ideal) (s := S256) (φ := .f32) (Host.divf (Host.reduceAdd (W (Proc.devRef .tc main_v28_2) : S4x1x256.Idx → EReal) (constant (F := Ideal) S_ .f32 0x00000000#32) reducesTo_S4x1x256_S256_d0_1 h_S_) (broadcastInDim S256 ![] bcast_S_S256 (constant (F := Ideal) S_ .f32 0x45800000#32)))
          (mulf (F := Ideal) (s := S256) (φ := .f32) (host2_m W) (host2_m W))) shapeCasts_S256_S1x256 := by
  after_results_simp
  rfl

variable (s1 s2 : Fin 4 → Fin 256 → ℝ)
  (h1 : ∀ t o, (W (Proc.devRef .tc main_v28_1) : S4x1x256.Idx → EReal) (ix3 t (0 : Fin 1) o) = ((s1 t o : ℝ) : EReal))
  (h2 : ∀ t o, (W (Proc.devRef .tc main_v28_2) : S4x1x256.Idx → EReal) (ix3 t (0 : Fin 1) o) = ((s2 t o : ℝ) : EReal))

include h1 in

theorem host2_mean (d : Fin 256) :
    (StableHlo.after (hostOps2 (F := Ideal)) W (Proc.devRef .tc main_v39) : S1x256.Idx → EReal) (ix2 (0 : Fin 1) d)
      = (((∑ t, s1 t d) / 4096 : ℝ) : EReal) := by
  rw [host2_mean_term W, reshapeRow_apply]
  exact hostDivConst_real _ Cert.RealCoe.ofBits_4096 (by norm_num) _ d _ (hostTileSum_real _ _ _ s1 h1 d)

include h1 h2 in

theorem host2_var (d : Fin 256) :
    (StableHlo.after (hostOps2 (F := Ideal)) W (Proc.devRef .tc main_v40) : S1x256.Idx → EReal) (ix2 (0 : Fin 1) d)
      = (((∑ t, s2 t d) / 4096 - (∑ t, s1 t d) / 4096 * ((∑ t, s1 t d) / 4096) : ℝ) : EReal) := by
  rw [host2_var_term W, reshapeRow_apply]
  exact hostVar_real _ _ d _ _
    (hostDivConst_real _ Cert.RealCoe.ofBits_4096 (by norm_num) _ d _ (hostTileSum_real _ _ _ s2 h2 d))
    (hostDivConst_real _ Cert.RealCoe.ofBits_4096 (by norm_num) _ d _ (hostTileSum_real _ _ _ s1 h1 d))

end

theorem host2_gamma (W : Valuation τ sig (Elt Ideal)) (d : Fin 256) :
    (StableHlo.after (hostOps2 (F := Ideal)) W (Proc.devRef .tc main_v37) : S1x256.Idx → EReal) (ix2 (0 : Fin 1) d)
      = (W (Proc.devRef .tc main_arg13) : S256.Idx → EReal) (ix1 d) := by
  have e : (StableHlo.after (hostOps2 (F := Ideal)) W (Proc.devRef .tc main_v37) : S1x256.Idx → EReal)
      = shapeCast S1x256 (W (Proc.devRef .tc main_arg13) : S256.Idx → EReal) shapeCasts_S256_S1x256 := by
    after_results_simp
    rfl
  rw [e, reshapeRow_apply]

theorem host2_beta (W : Valuation τ sig (Elt Ideal)) (d : Fin 256) :
    (StableHlo.after (hostOps2 (F := Ideal)) W (Proc.devRef .tc main_v38) : S1x256.Idx → EReal) (ix2 (0 : Fin 1) d)
      = (W (Proc.devRef .tc main_arg14) : S256.Idx → EReal) (ix1 d) := by
  have e : (StableHlo.after (hostOps2 (F := Ideal)) W (Proc.devRef .tc main_v38) : S1x256.Idx → EReal)
      = shapeCast S1x256 (W (Proc.devRef .tc main_arg14) : S256.Idx → EReal) shapeCasts_S256_S1x256 := by
    after_results_simp
    rfl
  rw [e, reshapeRow_apply]

theorem host2_bias (W : Valuation τ sig (Elt Ideal)) (d : Fin 128) :
    (StableHlo.after (hostOps2 (F := Ideal)) W (Proc.devRef .tc main_v41) : S1x128.Idx → EReal) (ix2 (0 : Fin 1) d)
      = (W (Proc.devRef .tc main_arg8) : S128.Idx → EReal) (ix1 d) := by
  have e : (StableHlo.after (hostOps2 (F := Ideal)) W (Proc.devRef .tc main_v41) : S1x128.Idx → EReal)
      = shapeCast S1x128 (W (Proc.devRef .tc main_arg8) : S128.Idx → EReal) shapeCasts_S128_S1x128 := by
    after_results_simp
    rfl
  rw [e, reshapeRow_apply]

end Cert.KernelIdeal.HandValue

end
-- ==== Proof.KI.Host3.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host3_m :=
  Host.divf (Host.reduceAdd (W (Proc.devRef .tc main_arg1) : S8192x1024.Idx → EReal) (constant (F := Ideal) S_ .f32 0x00000000#32) reducesTo_S8192x1024_S1024_d0 h_S_) (broadcastInDim S1024 ![] bcast_S_S1024 (constant (F := Ideal) S_ .f32 0x46000000#32))

theorem host3_mean_term :
    (StableHlo.after (hostOps3 (F := Ideal)) W (Proc.devRef .tc main_v54) : S1x1024.Idx → EReal)
      = shapeCast S1x1024 (host3_m W) shapeCasts_S1024_S1x1024 := by
  after_results_simp
  rfl

theorem host3_var_term :
    (StableHlo.after (hostOps3 (F := Ideal)) W (Proc.devRef .tc main_v55) : S1x1024.Idx → EReal)
      = shapeCast S1x1024 (subf (F := Ideal) (s := S1024) (φ := .f32) (Host.divf (Host.reduceAdd (mulf (F := Ideal) (s := S8192x1024) (φ := .f32) (W (Proc.devRef .tc main_arg1) : S8192x1024.Idx → EReal) (W (Proc.devRef .tc main_arg1) : S8192x1024.Idx → EReal)) (constant (F := Ideal) S_ .f32 0x00000000#32) reducesTo_S8192x1024_S1024_d0 h_S_) (broadcastInDim S1024 ![] bcast_S_S1024 (constant (F := Ideal) S_ .f32 0x46000000#32)))
          (mulf (F := Ideal) (s := S1024) (φ := .f32) (host3_m W) (host3_m W))) shapeCasts_S1024_S1x1024 := by
  after_results_simp
  rfl

variable (x : Fin 8192 → Fin 1024 → ℝ)
  (hx : ∀ p q, (W (Proc.devRef .tc main_arg1) : S8192x1024.Idx → EReal) (ix2 p q) = ((x p q : ℝ) : EReal))
include hx

theorem host3_mean (d : Fin 1024) :
    (StableHlo.after (hostOps3 (F := Ideal)) W (Proc.devRef .tc main_v54) : S1x1024.Idx → EReal) (ix2 (0 : Fin 1) d)
      = ((Spec.colMean 8192 x d : ℝ) : EReal) := by
  rw [host3_mean_term W, reshapeRow_apply]
  exact hostDivConst_real _ Cert.RealCoe.ofBits_8192 (by norm_num) _ d _ (hostColSum_real _ (by decide) _ _ x hx d)

theorem host3_var (d : Fin 1024) :
    (StableHlo.after (hostOps3 (F := Ideal)) W (Proc.devRef .tc main_v55) : S1x1024.Idx → EReal) (ix2 (0 : Fin 1) d)
      = ((Spec.colVarK 8192 x d : ℝ) : EReal) := by
  rw [host3_var_term W, reshapeRow_apply]
  exact hostVar_real _ _ d _ _
    (hostDivConst_real _ Cert.RealCoe.ofBits_8192 (by norm_num) _ d _
      (hostColSum_real _ (by decide) _ _ (fun p q => x p q * x p q) (fun p q => mulf_self_real _ _ _ (hx p q)) d))
    (hostDivConst_real _ Cert.RealCoe.ofBits_8192 (by norm_num) _ d _ (hostColSum_real _ (by decide) _ _ x hx d))

end

theorem host3_gamma (W : Valuation τ sig (Elt Ideal)) (d : Fin 1024) :
    (StableHlo.after (hostOps3 (F := Ideal)) W (Proc.devRef .tc main_v52) : S1x1024.Idx → EReal) (ix2 (0 : Fin 1) d)
      = (W (Proc.devRef .tc main_arg9) : S1024.Idx → EReal) (ix1 d) := by
  have e : (StableHlo.after (hostOps3 (F := Ideal)) W (Proc.devRef .tc main_v52) : S1x1024.Idx → EReal)
      = shapeCast S1x1024 (W (Proc.devRef .tc main_arg9) : S1024.Idx → EReal) shapeCasts_S1024_S1x1024 := by
    after_results_simp
    rfl
  rw [e, reshapeRow_apply]

theorem host3_beta (W : Valuation τ sig (Elt Ideal)) (d : Fin 1024) :
    (StableHlo.after (hostOps3 (F := Ideal)) W (Proc.devRef .tc main_v53) : S1x1024.Idx → EReal) (ix2 (0 : Fin 1) d)
      = (W (Proc.devRef .tc main_arg10) : S1024.Idx → EReal) (ix1 d) := by
  have e : (StableHlo.after (hostOps3 (F := Ideal)) W (Proc.devRef .tc main_v53) : S1x1024.Idx → EReal)
      = shapeCast S1x1024 (W (Proc.devRef .tc main_arg10) : S1024.Idx → EReal) shapeCasts_S1024_S1x1024 := by
    after_results_simp
    rfl
  rw [e, reshapeRow_apply]

theorem host3_bias (W : Valuation τ sig (Elt Ideal)) (d : Fin 512) :
    (StableHlo.after (hostOps3 (F := Ideal)) W (Proc.devRef .tc main_v56) : S1x512.Idx → EReal) (ix2 (0 : Fin 1) d)
      = (W (Proc.devRef .tc main_arg4) : S512.Idx → EReal) (ix1 d) := by
  have e : (StableHlo.after (hostOps3 (F := Ideal)) W (Proc.devRef .tc main_v56) : S1x512.Idx → EReal)
      = shapeCast S1x512 (W (Proc.devRef .tc main_arg4) : S512.Idx → EReal) shapeCasts_S512_S1x512 := by
    after_results_simp
    rfl
  rw [e, reshapeRow_apply]

end Cert.KernelIdeal.HandValue

end
-- ==== Proof.KI.Host4.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host4_m :=
  Host.divf (Host.reduceAdd (W (Proc.devRef .tc main_v57_1) : S8x1x512.Idx → EReal) (constant (F := Ideal) S_ .f32 0x00000000#32) reducesTo_S8x1x512_S512_d0_1 h_S_) (broadcastInDim S512 ![] bcast_S_S512 (constant (F := Ideal) S_ .f32 0x46000000#32))

theorem host4_mean_term :
    (StableHlo.after (hostOps4 (F := Ideal)) W (Proc.devRef .tc main_v68) : S1x512.Idx → EReal)
      = shapeCast S1x512 (host4_m W) shapeCasts_S512_S1x512 := by
  after_results_simp
  rfl

theorem host4_var_term :
    (StableHlo.after (hostOps4 (F := Ideal)) W (Proc.devRef .tc main_v69) : S1x512.Idx → EReal)
      = shapeCast S1x512 (subf (F := Ideal) (s := S512) (φ := .f32) (Host.divf (Host.reduceAdd (W (Proc.devRef .tc main_v57_2) : S8x1x512.Idx → EReal) (constant (F := Ideal) S_ .f32 0x00000000#32) reducesTo_S8x1x512_S512_d0_1 h_S_) (broadcastInDim S512 ![] bcast_S_S512 (constant (F := Ideal) S_ .f32 0x46000000#32)))
          (mulf (F := Ideal) (s := S512) (φ := .f32) (host4_m W) (host4_m W))) shapeCasts_S512_S1x512 := by
  after_results_simp
  rfl

variable (s1 s2 : Fin 8 → Fin 512 → ℝ)
  (h1 : ∀ t o, (W (Proc.devRef .tc main_v57_1) : S8x1x512.Idx → EReal) (ix3 t (0 : Fin 1) o) = ((s1 t o : ℝ) : EReal))
  (h2 : ∀ t o, (W (Proc.devRef .tc main_v57_2) : S8x1x512.Idx → EReal) (ix3 t (0 : Fin 1) o) = ((s2 t o : ℝ) : EReal))

include h1 in

theorem host4_mean (d : Fin 512) :
    (StableHlo.after (hostOps4 (F := Ideal)) W (Proc.devRef .tc main_v68) : S1x512.Idx → EReal) (ix2 (0 : Fin 1) d)
      = (((∑ t, s1 t d) / 8192 : ℝ) : EReal) := by
  rw [host4_mean_term W, reshapeRow_apply]
  exact hostDivConst_real _ Cert.RealCoe.ofBits_8192 (by norm_num) _ d _ (hostTileSum_real _ _ _ s1 h1 d)

include h1 h2 in

theorem host4_var (d : Fin 512) :
    (StableHlo.after (hostOps4 (F := Ideal)) W (Proc.devRef .tc main_v69) : S1x512.Idx → EReal) (ix2 (0 : Fin 1) d)
      = (((∑ t, s2 t d) / 8192 - (∑ t, s1 t d) / 8192 * ((∑ t, s1 t d) / 8192) : ℝ) : EReal) := by
  rw [host4_var_term W, reshapeRow_apply]
  exact hostVar_real _ _ d _ _
    (hostDivConst_real _ Cert.RealCoe.ofBits_8192 (by norm_num) _ d _ (hostTileSum_real _ _ _ s2 h2 d))
    (hostDivConst_real _ Cert.RealCoe.ofBits_8192 (by norm_num) _ d _ (hostTileSum_real _ _ _ s1 h1 d))

end

theorem host4_gamma (W : Valuation τ sig (Elt Ideal)) (d : Fin 512) :
    (StableHlo.after (hostOps4 (F := Ideal)) W (Proc.devRef .tc main_v66) : S1x512.Idx → EReal) (ix2 (0 : Fin 1) d)
      = (W (Proc.devRef .tc main_arg11) : S512.Idx → EReal) (ix1 d) := by
  have e : (StableHlo.after (hostOps4 (F := Ideal)) W (Proc.devRef .tc main_v66) : S1x512.Idx → EReal)
      = shapeCast S1x512 (W (Proc.devRef .tc main_arg11) : S512.Idx → EReal) shapeCasts_S512_S1x512 := by
    after_results_simp
    rfl
  rw [e, reshapeRow_apply]

theorem host4_beta (W : Valuation τ sig (Elt Ideal)) (d : Fin 512) :
    (StableHlo.after (hostOps4 (F := Ideal)) W (Proc.devRef .tc main_v67) : S1x512.Idx → EReal) (ix2 (0 : Fin 1) d)
      = (W (Proc.devRef .tc main_arg12) : S512.Idx → EReal) (ix1 d) := by
  have e : (StableHlo.after (hostOps4 (F := Ideal)) W (Proc.devRef .tc main_v67) : S1x512.Idx → EReal)
      = shapeCast S1x512 (W (Proc.devRef .tc main_arg12) : S512.Idx → EReal) shapeCasts_S512_S1x512 := by
    after_results_simp
    rfl
  rw [e, reshapeRow_apply]

theorem host4_bias (W : Valuation τ sig (Elt Ideal)) (d : Fin 256) :
    (StableHlo.after (hostOps4 (F := Ideal)) W (Proc.devRef .tc main_v70) : S1x256.Idx → EReal) (ix2 (0 : Fin 1) d)
      = (W (Proc.devRef .tc main_arg6) : S256.Idx → EReal) (ix1 d) := by
  have e : (StableHlo.after (hostOps4 (F := Ideal)) W (Proc.devRef .tc main_v70) : S1x256.Idx → EReal)
      = shapeCast S1x256 (W (Proc.devRef .tc main_arg6) : S256.Idx → EReal) shapeCasts_S256_S1x256 := by
    after_results_simp
    rfl
  rw [e, reshapeRow_apply]

end Cert.KernelIdeal.HandValue

end
-- ==== Proof.KI.Host5.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

section
variable (W : Valuation τ sig (Elt Ideal))

abbrev host5_m :=
  Host.divf (Host.reduceAdd (W (Proc.devRef .tc main_v71_1) : S8x1x256.Idx → EReal) (constant (F := Ideal) S_ .f32 0x00000000#32) reducesTo_S8x1x256_S256_d0_1 h_S_) (broadcastInDim S256 ![] bcast_S_S256 (constant (F := Ideal) S_ .f32 0x46000000#32))

theorem host5_mean_term :
    (StableHlo.after (hostOps5 (F := Ideal)) W (Proc.devRef .tc main_v82) : S1x256.Idx → EReal)
      = shapeCast S1x256 (host5_m W) shapeCasts_S256_S1x256 := by
  after_results_simp
  rfl

theorem host5_var_term :
    (StableHlo.after (hostOps5 (F := Ideal)) W (Proc.devRef .tc main_v83) : S1x256.Idx → EReal)
      = shapeCast S1x256 (subf (F := Ideal) (s := S256) (φ := .f32) (Host.divf (Host.reduceAdd (W (Proc.devRef .tc main_v71_2) : S8x1x256.Idx → EReal) (constant (F := Ideal) S_ .f32 0x00000000#32) reducesTo_S8x1x256_S256_d0_1 h_S_) (broadcastInDim S256 ![] bcast_S_S256 (constant (F := Ideal) S_ .f32 0x46000000#32)))
          (mulf (F := Ideal) (s := S256) (φ := .f32) (host5_m W) (host5_m W))) shapeCasts_S256_S1x256 := by
  after_results_simp
  rfl

variable (s1 s2 : Fin 8 → Fin 256 → ℝ)
  (h1 : ∀ t o, (W (Proc.devRef .tc main_v71_1) : S8x1x256.Idx → EReal) (ix3 t (0 : Fin 1) o) = ((s1 t o : ℝ) : EReal))
  (h2 : ∀ t o, (W (Proc.devRef .tc main_v71_2) : S8x1x256.Idx → EReal) (ix3 t (0 : Fin 1) o) = ((s2 t o : ℝ) : EReal))

include h1 in

theorem host5_mean (d : Fin 256) :
    (StableHlo.after (hostOps5 (F := Ideal)) W (Proc.devRef .tc main_v82) : S1x256.Idx → EReal) (ix2 (0 : Fin 1) d)
      = (((∑ t, s1 t d) / 8192 : ℝ) : EReal) := by
  rw [host5_mean_term W, reshapeRow_apply]
  exact hostDivConst_real _ Cert.RealCoe.ofBits_8192 (by norm_num) _ d _ (hostTileSum_real _ _ _ s1 h1 d)

include h1 h2 in

theorem host5_var (d : Fin 256) :
    (StableHlo.after (hostOps5 (F := Ideal)) W (Proc.devRef .tc main_v83) : S1x256.Idx → EReal) (ix2 (0 : Fin 1) d)
      = (((∑ t, s2 t d) / 8192 - (∑ t, s1 t d) / 8192 * ((∑ t, s1 t d) / 8192) : ℝ) : EReal) := by
  rw [host5_var_term W, reshapeRow_apply]
  exact hostVar_real _ _ d _ _
    (hostDivConst_real _ Cert.RealCoe.ofBits_8192 (by norm_num) _ d _ (hostTileSum_real _ _ _ s2 h2 d))
    (hostDivConst_real _ Cert.RealCoe.ofBits_8192 (by norm_num) _ d _ (hostTileSum_real _ _ _ s1 h1 d))

end

theorem host5_gamma (W : Valuation τ sig (Elt Ideal)) (d : Fin 256) :
    (StableHlo.after (hostOps5 (F := Ideal)) W (Proc.devRef .tc main_v80) : S1x256.Idx → EReal) (ix2 (0 : Fin 1) d)
      = (W (Proc.devRef .tc main_arg13) : S256.Idx → EReal) (ix1 d) := by
  have e : (StableHlo.after (hostOps5 (F := Ideal)) W (Proc.devRef .tc main_v80) : S1x256.Idx → EReal)
      = shapeCast S1x256 (W (Proc.devRef .tc main_arg13) : S256.Idx → EReal) shapeCasts_S256_S1x256 := by
    after_results_simp
    rfl
  rw [e, reshapeRow_apply]

theorem host5_beta (W : Valuation τ sig (Elt Ideal)) (d : Fin 256) :
    (StableHlo.after (hostOps5 (F := Ideal)) W (Proc.devRef .tc main_v81) : S1x256.Idx → EReal) (ix2 (0 : Fin 1) d)
      = (W (Proc.devRef .tc main_arg14) : S256.Idx → EReal) (ix1 d) := by
  have e : (StableHlo.after (hostOps5 (F := Ideal)) W (Proc.devRef .tc main_v81) : S1x256.Idx → EReal)
      = shapeCast S1x256 (W (Proc.devRef .tc main_arg14) : S256.Idx → EReal) shapeCasts_S256_S1x256 := by
    after_results_simp
    rfl
  rw [e, reshapeRow_apply]

theorem host5_bias (W : Valuation τ sig (Elt Ideal)) (d : Fin 128) :
    (StableHlo.after (hostOps5 (F := Ideal)) W (Proc.devRef .tc main_v84) : S1x128.Idx → EReal) (ix2 (0 : Fin 1) d)
      = (W (Proc.devRef .tc main_arg8) : S128.Idx → EReal) (ix1 d) := by
  have e : (StableHlo.after (hostOps5 (F := Ideal)) W (Proc.devRef .tc main_v84) : S1x128.Idx → EReal)
      = shapeCast S1x128 (W (Proc.devRef .tc main_arg8) : S128.Idx → EReal) shapeCasts_S128_S1x128 := by
    after_results_simp
    rfl
  rw [e, reshapeRow_apply]

end Cert.KernelIdeal.HandValue

end
-- ==== Proof.KI.Host6.lean ====
import proofs.«428610_j54915451847256_3_alg».proof.Proof.Gen.KernelIdeal.Launch
import proofs.«428610_j54915451847256_3_alg».proof.Proof.Iface
import proofs.«428610_j54915451847256_3_alg».proof.Proof.LibRealCoe
import proofs.«428610_j54915451847256_3_alg».proof.Proof.KI.HostRead
import Idealize.ShloMosaic.Lib.StableHlo.Run
import Idealize.ShloMosaic.Lib.StableHlo.Predicate

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen

open Idealize.ShloMosaic.StableHlo.Predicate in

theorem onehot_word (a : BitVec 32) (c : Fin 128) :
    (((IntOp.cmpi .eq a (BitVec.ofNat 32 c.val)).toNat : ℝ) : EReal) = (((if a.toInt = (c.val : ℤ) then 1 else 0 : ℝ)) : EReal) := by
  have hc : (BitVec.ofNat 32 c.val).toInt = (c.val : ℤ) := toInt_ofNat_small c.val (by have := c.isLt; omega)
  by_cases h : a = BitVec.ofNat 32 c.val
  · rw [cmpi_eq_iff.mpr h, if_pos (by rw [h, hc])]; norm_num
  · have h0 : IntOp.cmpi .eq a (BitVec.ofNat 32 c.val) = 0#1 := eq_zero_of_ne_one fun h1 => h (cmpi_eq_iff.mp h1)
    have hne : ¬ a.toInt = (c.val : ℤ) := fun e => h (BitVec.eq_of_toInt_eq (e.trans hc.symm))
    rw [h0, if_neg hne]; norm_num

section
variable (W : Valuation τ sig (Elt Ideal))

theorem host6_onehot_term :
    (StableHlo.after (hostOps6 (F := Ideal)) W (Proc.devRef .tc main_v86) : S8192x128.Idx → EReal)
      = uitofp (F := Ideal) .bf16 (cmpi .eq
          (broadcastInDim S8192x128 ![0, 1] bcast_S8192x1_S8192x128_0_1
            (broadcastInDim S8192x1 ![0] bcast_S8192_S8192x1_0 (W (Proc.devRef .tc main_arg2) : S8192.Idx → BitVec 32)))
          (broadcastInDim S8192x128 ![0, 1] bcast_S1x128_S8192x128_0_1 (iotaInDim S1x128 32 1))) := by
  after_results_simp
  rfl

theorem host6_onehot (y : Fin 8192 → ℤ)
    (hy : ∀ j, ((W (Proc.devRef .tc main_arg2) : S8192.Idx → BitVec 32) (ix1 j)).toInt = y j) (j : Fin 8192) (c : Fin 128) :
    (StableHlo.after (hostOps6 (F := Ideal)) W (Proc.devRef .tc main_v86) : S8192x128.Idx → EReal) (ix2 j c)
      = ((Spec.oneHot 128 y j c : ℝ) : EReal) := by
  rw [host6_onehot_term W]
  show (((IntOp.cmpi .eq
      (broadcastInDim S8192x128 ![0, 1] bcast_S8192x1_S8192x128_0_1
        (broadcastInDim S8192x1 ![0] bcast_S8192_S8192x1_0 (W (Proc.devRef .tc main_arg2) : S8192.Idx → BitVec 32)) (ix2 j c))
      (broadcastInDim S8192x128 ![0, 1] bcast_S1x128_S8192x128_0_1 (iotaInDim S1x128 32 1) (ix2 j c))).toNat : ℝ) : EReal) = _
  rw [broadcastInDim_apply _ bcast_S8192x1_S8192x128_0_1 _ (ix2 j c) (ix2 j (0 : Fin 1)) (fun a => match a with
        | ⟨0, _⟩ => by show j.val = if (8192 : Nat) = 1 then 0 else j.val; rw [if_neg (by decide)]
        | ⟨1, _⟩ => by show 0 = if (1 : Nat) = 1 then 0 else c.val; rw [if_pos rfl]),
    broadcastInDim_apply _ bcast_S8192_S8192x1_0 _ (ix2 j (0 : Fin 1)) (ix1 j) (fun a => match a with
        | ⟨0, _⟩ => by show j.val = if (8192 : Nat) = 1 then 0 else j.val; rw [if_neg (by decide)]),
    broadcastInDim_apply _ bcast_S1x128_S8192x128_0_1 _ (ix2 j c) (ix2 (0 : Fin 1) c) (fun a => match a with
        | ⟨0, _⟩ => by show 0 = if (1 : Nat) = 1 then 0 else j.val; rw [if_pos rfl]
        | ⟨1, _⟩ => by show c.val = if (128 : Nat) = 1 then 0 else c.val; rw [if_neg (by decide)])]
  show (((IntOp.cmpi .eq ((W (Proc.devRef .tc main_arg2) : S8192.Idx → BitVec 32) (ix1 j)) (BitVec.ofNat 32 c.val)).toNat : ℝ) : EReal) = _
  rw [onehot_word, hy]
  rfl

theorem host6_1_norm_term :
    (StableHlo.after (hostOps6_1 (F := Ideal)) W (Proc.devRef .tc main_v90) : S1x8192.Idx → EReal)
      = shapeCast S1x8192 (Host.reduceAdd
          (mulf (F := Ideal) (s := S8192x128) (φ := .f32)
            (extf .f32 (W (Proc.devRef .tc main_v85_0) : FVec Ideal S8192x128 .bf16) bitsLt_bf16_f32)
            (extf .f32 (W (Proc.devRef .tc main_v85_0) : FVec Ideal S8192x128 .bf16) bitsLt_bf16_f32))
          (constant (F := Ideal) S_ .f32 0x00000000#32) reducesTo_S8192x128_S8192_d1 h_S_) shapeCasts_S8192_S1x8192 := by
  after_results_simp
  rfl

theorem host6_1_norm (k : Fin 8192 → Fin 128 → ℝ)
    (hk : ∀ j d, (W (Proc.devRef .tc main_v85_0) : S8192x128.Idx → EReal) (ix2 j d) = ((k j d : ℝ) : EReal)) (j : Fin 8192) :
    (StableHlo.after (hostOps6_1 (F := Ideal)) W (Proc.devRef .tc main_v90) : S1x8192.Idx → EReal) (ix2 (0 : Fin 1) j)
      = ((∑ d, k j d * k j d : ℝ) : EReal) := by
  rw [host6_1_norm_term W, reshapeRow_apply]
  exact hostRowSum_real _ (by decide) _ _ (fun j d => k j d * k j d) (fun p q => mulf_self_real _ _ _ (hk p q)) j

theorem host7_slice (i : Fin 4096) (o : Fin 10) :
    (StableHlo.after (hostOps7 (F := Ideal)) W (Proc.devRef .tc main_v92) : S4096x10.Idx → EReal) (ix2 i o)
      = (W (Proc.devRef .tc main_v91) : S4096x128.Idx → EReal) (ix2 i (⟨o.val, by have := o.isLt; omega⟩ : Fin 128)) := by
  have e : (StableHlo.after (hostOps7 (F := Ideal)) W (Proc.devRef .tc main_v92) : S4096x10.Idx → EReal)
      = extractStridedSlice S4096x10 ![0, 0] (W (Proc.devRef .tc main_v91) : S4096x128.Idx → EReal) slices_S4096x128_S4096x10_0_0 := by
    after_results_simp
  rw [e]
  exact extractStridedSlice_apply _ _ slices_S4096x128_S4096x10_0_0 (ix2 i o) _ (fun a => match a with
    | ⟨0, _⟩ => by show i.val = 0 + i.val; omega
    | ⟨1, _⟩ => by show o.val = 0 + o.val; omega)

end

end Cert.KernelIdeal.HandValue

end
-- ==== Proof.KI.TileSums.lean ====
import proofs.«428610_j54915451847256_3_alg».proof.Proof.Spec
import Mathlib.Logic.Equiv.Fin.Basic
import Mathlib.Algebra.BigOperators.Fin

noncomputable section

namespace Cert.KernelIdeal.HandValue

open Finset

def rowOf {T N : ℕ} (hN : T * 1024 = N) (t : Fin T) (r : Fin 1024) : Fin N :=
  ⟨t.val * 1024 + r.val, by have := t.isLt; have := r.isLt; omega⟩

theorem sum_tiles {T N : ℕ} (hN : T * 1024 = N) (f : Fin N → ℝ) :
    ∑ t : Fin T, ∑ r : Fin 1024, f (rowOf hN t r) = ∑ p : Fin N, f p := by
  subst hN
  rw [← Fintype.sum_prod_type']
  refine Fintype.sum_equiv finProdFinEquiv _ _ fun x => congrArg f (Fin.ext ?_)
  show x.1.val * 1024 + x.2.val = x.2.val + 1024 * x.1.val
  omega

theorem tiles_mean {T N D : ℕ} (hN : T * 1024 = N) (n : ℝ) (Y : Fin N → Fin D → ℝ) (o : Fin D) :
    (∑ t : Fin T, ∑ r : Fin 1024, Y (rowOf hN t r) o) / n = Spec.colMean n Y o := by
  rw [sum_tiles hN fun p => Y p o]; rfl

theorem tiles_var {T N D : ℕ} (hN : T * 1024 = N) (n : ℝ) (Y : Fin N → Fin D → ℝ) (o : Fin D) :
    (∑ t : Fin T, ∑ r : Fin 1024, Y (rowOf hN t r) o * Y (rowOf hN t r) o) / n
        - (∑ t : Fin T, ∑ r : Fin 1024, Y (rowOf hN t r) o) / n * ((∑ t : Fin T, ∑ r : Fin 1024, Y (rowOf hN t r) o) / n)
      = Spec.colVarK n Y o := by
  rw [sum_tiles hN fun p => Y p o, sum_tiles hN fun p => Y p o * Y p o]; rfl

end Cert.KernelIdeal.HandValue

end
-- ==== Proof.KI.HostVal.lean ====
import proofs.«428610_j54915451847256_3_alg».proof.Proof.KI.Host0
import proofs.«428610_j54915451847256_3_alg».proof.Proof.KI.Host1
import proofs.«428610_j54915451847256_3_alg».proof.Proof.KI.Host2
import proofs.«428610_j54915451847256_3_alg».proof.Proof.KI.Host3
import proofs.«428610_j54915451847256_3_alg».proof.Proof.KI.Host4
import proofs.«428610_j54915451847256_3_alg».proof.Proof.KI.Host5
import proofs.«428610_j54915451847256_3_alg».proof.Proof.KI.Host6
import proofs.«428610_j54915451847256_3_alg».proof.Proof.KI.TileSums
-- ==== Proof.SpecMathEnc.lean ====
import proofs.«428610_j54915451847256_3_alg».proof.Proof.Spec

noncomputable section

namespace Cert.Spec

open Finset

variable {N D O : ℕ}

theorem colVarK_eq_colVarR {n : ℝ} {X : Fin N → Fin D → ℝ} {d : Fin D} (hn : n = (N : ℝ)) (hN : N ≠ 0) :
    colVarK n X d = colVarR n X d := by
  have hn0 : n ≠ 0 := by rw [hn]; exact_mod_cast hN
  unfold colVarK colVarR
  generalize hμ : colMean n X d = μ
  have hsum : (∑ i, X i d) = n * μ := by
    rw [← hμ, colMean, mul_div_cancel₀ _ hn0]
  have hexp : (∑ i, (X i d - μ) * (X i d - μ))
      = (∑ i, X i d * X i d) - 2 * μ * (∑ i, X i d) + n * (μ * μ) := by
    have h1 : ∀ i, (X i d - μ) * (X i d - μ) = X i d * X i d - 2 * μ * X i d + μ * μ := fun i => by ring
    simp only [h1, sum_add_distrib, sum_sub_distrib, ← mul_sum, sum_const, card_univ, Fintype.card_fin,
      nsmul_eq_mul, hn]
    ring
  rw [hexp, hsum]
  field_simp
  ring

theorem colVarR_nonneg {n : ℝ} {X : Fin N → Fin D → ℝ} {d : Fin D} (hn : 0 ≤ n) : 0 ≤ colVarR n X d :=
  div_nonneg (sum_nonneg fun i _ => mul_self_nonneg _) hn

theorem colVarR_add_pos {n ε : ℝ} {X : Fin N → Fin D → ℝ} {d : Fin D} (hn : 0 ≤ n) (hε : 0 < ε) :
    0 < colVarR n X d + ε :=
  add_pos_of_nonneg_of_pos (colVarR_nonneg hn) hε

theorem colVarK_add_pos {n ε : ℝ} {X : Fin N → Fin D → ℝ} {d : Fin D} (hn : n = (N : ℝ)) (hN : N ≠ 0)
    (hε : 0 < ε) : 0 < colVarK n X d + ε := by
  rw [colVarK_eq_colVarR hn hN]
  exact colVarR_add_pos (by rw [hn]; exact Nat.cast_nonneg N) hε

theorem linK_eq_linR (ε : ℝ) (X : Fin N → Fin D → ℝ) (γ β μ v : Fin D → ℝ) (W : Fin O → Fin D → ℝ)
    (b : Fin O → ℝ) : linK ε X γ β μ v W b = linR ε X γ β μ v W b := by
  funext i o
  unfold linK linR
  have h : ∀ d, (X i d - μ d) * (Real.sqrt (v d + ε))⁻¹ * γ d = γ d * (X i d - μ d) / Real.sqrt (v d + ε) :=
    fun d => by rw [div_eq_mul_inv]; ring
  simp only [h]

theorem layerK_eq_layerR {n : ℝ} (hn : n = (N : ℝ)) (hN : N ≠ 0) (ε : ℝ) (X : Fin N → Fin D → ℝ)
    (γ β : Fin D → ℝ) (W : Fin O → Fin D → ℝ) (b : Fin O → ℝ) :
    layerK ε n X γ β W b = layerR ε n X γ β W b := by
  unfold layerK layerR
  have hv : colVarK n X = colVarR n X := funext fun d => colVarK_eq_colVarR hn hN
  rw [hv, linK_eq_linR]

theorem encK_eq_encR {n : ℝ} (hn : n = (N : ℝ)) (hN : N ≠ 0) (ε : ℝ) (P : Params) (X : Fin N → Fin 1024 → ℝ) :
    encK ε n P X = encR ε n P X := by
  unfold encK encR
  rw [layerK_eq_layerR hn hN, layerK_eq_layerR hn hN, layerK_eq_layerR hn hN]

theorem encK_eq_encR_4096 (ε : ℝ) (P : Params) (X : Fin 4096 → Fin 1024 → ℝ) :
    encK ε 4096 P X = encR ε 4096 P X :=
  encK_eq_encR (by norm_num) (by norm_num) ε P X

theorem encK_eq_encR_8192 (ε : ℝ) (P : Params) (X : Fin 8192 → Fin 1024 → ℝ) :
    encK ε 8192 P X = encR ε 8192 P X :=
  encK_eq_encR (by norm_num) (by norm_num) ε P X

end Cert.Spec

end
-- ==== Proof.SpecMathFlash.lean ====
import proofs.«428610_j54915451847256_3_alg».proof.Proof.Spec

noncomputable section

namespace Cert.Spec

open Finset

theorem oneHot_row_sum (y : Fin 8192 → ℤ) (j : Fin 8192) (h0 : 0 ≤ y j) (h1 : y j < 128) :
    ∑ c : Fin 128, oneHot 128 y j c = 1 := by
  obtain ⟨k, hk⟩ := Int.eq_ofNat_of_zero_le h0
  have hk128 : k < 128 := by rw [hk] at h1; exact_mod_cast h1
  have hiff : ∀ c : Fin 128, (y j = (c.val : ℤ)) ↔ (c = ⟨k, hk128⟩) := fun c => by
    rw [hk, Fin.ext_iff]
    constructor
    · intro h; exact_mod_cast h.symm
    · intro h; exact_mod_cast h.symm
  unfold oneHot
  simp only [hiff, sum_ite_eq', mem_univ, if_true]

theorem oneHot_row_sum_of_labels (y : Fin 8192 → ℤ) (hy : ∀ j, 0 ≤ y j ∧ y j < 10) (j : Fin 8192) :
    ∑ c : Fin 128, oneHot 128 y j c = 1 :=
  oneHot_row_sum y j (hy j).1 (lt_trans (hy j).2 (by norm_num))

def tilesUpTo (T : ℕ) : Finset (Fin 8) := univ.filter fun T' => T'.val ≤ T

theorem mem_tilesUpTo (T : ℕ) (T' : Fin 8) : T' ∈ tilesUpTo T ↔ T'.val ≤ T := by
  simp [tilesUpTo]

theorem tilesUpTo_zero (h : 0 < 8) : tilesUpTo 0 = {(⟨0, h⟩ : Fin 8)} := by
  ext T'
  rw [mem_tilesUpTo, mem_singleton, Fin.ext_iff]
  exact Nat.le_zero

theorem tilesUpTo_succ (T : ℕ) (h : T + 1 < 8) : tilesUpTo (T + 1) = insert ⟨T + 1, h⟩ (tilesUpTo T) := by
  ext T'
  rw [mem_insert, mem_tilesUpTo, mem_tilesUpTo, Fin.ext_iff]
  show T'.val ≤ T + 1 ↔ T'.val = T + 1 ∨ T'.val ≤ T
  omega

theorem not_mem_tilesUpTo (T : ℕ) (h : T + 1 < 8) : (⟨T + 1, h⟩ : Fin 8) ∉ tilesUpTo T := by
  rw [mem_tilesUpTo]
  show ¬ (T + 1 ≤ T)
  omega

theorem tilesUpTo_seven : tilesUpTo 7 = univ := by
  ext T'
  rw [mem_tilesUpTo]
  have := T'.isLt
  simp only [mem_univ, iff_true]
  omega

theorem tilesUpTo_nonempty (T : ℕ) : (tilesUpTo T).Nonempty :=
  ⟨⟨0, by norm_num⟩, by rw [mem_tilesUpTo]; exact Nat.zero_le T⟩

theorem sum_keyOf (f : Fin 8192 → ℝ) : ∑ T : Fin 8, ∑ r : Fin 1024, f (keyOf T r) = ∑ j, f j := by
  rw [← Fintype.sum_prod_type' (f := fun T r => f (keyOf T r))]
  refine Fintype.sum_equiv (finProdFinEquiv : Fin 8 × Fin 1024 ≃ Fin 8192) _ _ ?_
  rintro ⟨T, r⟩
  congr 1
  apply Fin.ext
  show T.val * 1024 + r.val = r.val + 1024 * T.val
  omega

theorem flashStep_acc (s : Fin 1024 → ℝ) (oh : Fin 1024 → Fin 128 → ℝ) (st : Carry) (c : Fin 128) :
    (flashStep s oh st).acc c
      = Real.exp (st.m - (flashStep s oh st).m) * st.acc c
        + ∑ r, Real.exp (s r - (flashStep s oh st).m) * oh r c := rfl

theorem flashStep_l (s : Fin 1024 → ℝ) (oh : Fin 1024 → Fin 128 → ℝ) (st : Carry) :
    (flashStep s oh st).l
      = Real.exp (st.m - (flashStep s oh st).m) * st.l
        + ∑ c, ∑ r, Real.exp (s r - (flashStep s oh st).m) * oh r c := rfl

theorem flashStep_l_eq_sum_acc (s : Fin 1024 → ℝ) (oh : Fin 1024 → Fin 128 → ℝ) (st : Carry)
    (h : st.l = ∑ c, st.acc c) : (flashStep s oh st).l = ∑ c, (flashStep s oh st).acc c := by
  rw [flashStep_l, h]
  simp only [flashStep_acc, sum_add_distrib, mul_sum]

theorem rescale_sum {ι : Type*} (I : Finset ι) (sP w : ι → Fin 1024 → ℝ) (m m' : ℝ) :
    Real.exp (m - m') * (∑ t ∈ I, ∑ r, Real.exp (sP t r - m) * w t r)
      = ∑ t ∈ I, ∑ r, Real.exp (sP t r - m') * w t r := by
  rw [mul_sum]
  refine sum_congr rfl fun t _ => ?_
  rw [mul_sum]
  refine sum_congr rfl fun r _ => ?_
  rw [← mul_assoc, ← Real.exp_add]
  congr 2
  ring

theorem flashAt_zero (neg : ℝ) (s : Fin 8 → Fin 1024 → ℝ) (oh : Fin 8 → Fin 1024 → Fin 128 → ℝ) (h : 0 < 8) :
    flashAt neg s oh 0 h = flashStep (s ⟨0, h⟩) (oh ⟨0, h⟩) ⟨neg, 0, fun _ => 0⟩ := rfl

theorem flashAt_succ (neg : ℝ) (s : Fin 8 → Fin 1024 → ℝ) (oh : Fin 8 → Fin 1024 → Fin 128 → ℝ) (T : ℕ)
    (h : T + 1 < 8) :
    flashAt neg s oh (T + 1) h
      = flashStep (s ⟨T + 1, h⟩) (oh ⟨T + 1, h⟩) (flashAt neg s oh T (Nat.lt_of_succ_lt h)) := rfl

theorem flashAt_acc (neg : ℝ) (s : Fin 8 → Fin 1024 → ℝ) (oh : Fin 8 → Fin 1024 → Fin 128 → ℝ) (c : Fin 128) :
    ∀ (T : ℕ) (h : T < 8), (flashAt neg s oh T h).acc c
      = ∑ T' ∈ tilesUpTo T, ∑ r, Real.exp (s T' r - (flashAt neg s oh T h).m) * oh T' r c := by
  intro T
  induction T with
  | zero =>
    intro h
    rw [tilesUpTo_zero h, sum_singleton, flashAt_zero, flashStep_acc]
    simp only [mul_zero, zero_add]
  | succ T ih =>
    intro h
    rw [tilesUpTo_succ T h, sum_insert (not_mem_tilesUpTo T h), flashAt_succ, flashStep_acc,
      ih (Nat.lt_of_succ_lt h), rescale_sum, add_comm]

theorem flashAt_l_eq_sum_acc (neg : ℝ) (s : Fin 8 → Fin 1024 → ℝ) (oh : Fin 8 → Fin 1024 → Fin 128 → ℝ) :
    ∀ (T : ℕ) (h : T < 8), (flashAt neg s oh T h).l = ∑ c, (flashAt neg s oh T h).acc c := by
  intro T
  induction T with
  | zero =>
    intro h
    rw [flashAt_zero]
    exact flashStep_l_eq_sum_acc _ _ _ (by simp)
  | succ T ih =>
    intro h
    rw [flashAt_succ]
    exact flashStep_l_eq_sum_acc _ _ _ (ih _)

theorem flashAt_l (neg : ℝ) (s : Fin 8 → Fin 1024 → ℝ) (oh : Fin 8 → Fin 1024 → Fin 128 → ℝ) (T : ℕ) (h : T < 8) :
    (flashAt neg s oh T h).l
      = ∑ T' ∈ tilesUpTo T, ∑ r, Real.exp (s T' r - (flashAt neg s oh T h).m) * ∑ c, oh T' r c := by
  rw [flashAt_l_eq_sum_acc]
  simp only [flashAt_acc neg s oh _ T h]
  rw [sum_comm]
  refine sum_congr rfl fun T' _ => ?_
  rw [sum_comm]
  refine sum_congr rfl fun r _ => ?_
  rw [mul_sum]

theorem flashAt_l_of_rows (neg : ℝ) (s : Fin 8 → Fin 1024 → ℝ) (oh : Fin 8 → Fin 1024 → Fin 128 → ℝ)
    (hoh : ∀ T r, ∑ c, oh T r c = 1) (T : ℕ) (h : T < 8) :
    (flashAt neg s oh T h).l
      = ∑ T' ∈ tilesUpTo T, ∑ r, Real.exp (s T' r - (flashAt neg s oh T h).m) := by
  rw [flashAt_l]
  simp only [hoh, mul_one]

theorem flashAt_l_pos_of_rows (neg : ℝ) (s : Fin 8 → Fin 1024 → ℝ) (oh : Fin 8 → Fin 1024 → Fin 128 → ℝ)
    (hoh : ∀ T r, ∑ c, oh T r c = 1) (T : ℕ) (h : T < 8) : 0 < (flashAt neg s oh T h).l := by
  rw [flashAt_l_of_rows neg s oh hoh]
  exact sum_pos (fun T' _ => sum_pos (fun r _ => Real.exp_pos _) univ_nonempty) (tilesUpTo_nonempty T)

theorem flashAt_l_pos (neg : ℝ) (s : Fin 8 → Fin 1024 → ℝ) (y : Fin 8192 → ℤ) (hy : ∀ j, 0 ≤ y j ∧ y j < 10)
    (T : ℕ) (h : T < 8) :
    0 < (flashAt neg s (fun T r => oneHot 128 y (keyOf T r)) T h).l :=
  flashAt_l_pos_of_rows neg s _ (fun T r => oneHot_row_sum_of_labels y hy (keyOf T r)) T h

theorem flashAt_last_acc (neg : ℝ) (sK : Fin 8192 → ℝ) (y : Fin 8192 → ℤ) (h : 7 < 8) (c : Fin 128) :
    (flashAt neg (fun T r => sK (keyOf T r)) (fun T r => oneHot 128 y (keyOf T r)) 7 h).acc c
      = ∑ j, Real.exp (sK j
          - (flashAt neg (fun T r => sK (keyOf T r)) (fun T r => oneHot 128 y (keyOf T r)) 7 h).m)
          * oneHot 128 y j c := by
  rw [flashAt_acc, tilesUpTo_seven]
  exact sum_keyOf fun j => Real.exp (sK j - _) * oneHot 128 y j c

theorem flashAt_last_l (neg : ℝ) (sK : Fin 8192 → ℝ) (y : Fin 8192 → ℤ) (hy : ∀ j, 0 ≤ y j ∧ y j < 10)
    (h : 7 < 8) :
    (flashAt neg (fun T r => sK (keyOf T r)) (fun T r => oneHot 128 y (keyOf T r)) 7 h).l
      = ∑ j, Real.exp (sK j
          - (flashAt neg (fun T r => sK (keyOf T r)) (fun T r => oneHot 128 y (keyOf T r)) 7 h).m) := by
  rw [flashAt_l_of_rows _ _ _ (fun T r => oneHot_row_sum_of_labels y hy (keyOf T r)), tilesUpTo_seven]
  exact sum_keyOf fun j => Real.exp (sK j - _)

end Cert.Spec

end
-- ==== Proof.SpecMath.lean ====
import proofs.«428610_j54915451847256_3_alg».proof.Proof.SpecMathEnc
import proofs.«428610_j54915451847256_3_alg».proof.Proof.SpecMathFlash

noncomputable section

namespace Cert.Spec

open Finset

theorem simR_eq_simK_sub (q : Fin 4096 → Fin 128 → ℝ) (k : Fin 8192 → Fin 128 → ℝ) (i : Fin 4096)
    (j : Fin 8192) : simR q k i j = simK q k i j - ∑ d, q i d * q i d := by
  unfold simR simK; ring

theorem softmax_shift {ι : Type*} [Fintype ι] (sR sK w : ι → ℝ) (κ m M : ℝ) (h : ∀ j, sR j = sK j - κ) :
    ∑ j, Real.exp (sR j - M) / (∑ j', Real.exp (sR j' - M)) * w j
      = (∑ j, Real.exp (sK j - m) * w j) / ∑ j, Real.exp (sK j - m) := by
  have hA : ∀ j, Real.exp (sR j - M) = Real.exp (m - κ - M) * Real.exp (sK j - m) := fun j => by
    rw [h, ← Real.exp_add]; congr 1; ring
  simp only [hA, ← mul_sum]
  rw [div_eq_mul_inv, sum_mul]
  refine sum_congr rfl fun j _ => ?_
  rw [mul_div_mul_left _ _ (Real.exp_pos _).ne', div_eq_mul_inv]
  ring

theorem flashOut_eq_softOut (neg : ℝ) (q : Fin 4096 → Fin 128 → ℝ) (k : Fin 8192 → Fin 128 → ℝ)
    (y : Fin 8192 → ℤ) (hy : ∀ j, 0 ≤ y j ∧ y j < 10) (i : Fin 4096) (c : Fin 10) (hc : c.val < 128) :
    flashOut neg q k y i ⟨c.val, hc⟩ = softOut q k y i c := by
  unfold flashOut softOut
  dsimp only
  rw [flashAt_last_acc neg (simK q k i) y, flashAt_last_l neg (simK q k i) y hy]
  congr 1
  exact (softmax_shift (simR q k i) (simK q k i) (fun j => oneHot 128 y j ⟨c.val, hc⟩)
    (∑ d, q i d * q i d) _ _ (simR_eq_simK_sub q k i)).symm

theorem kernelR_eq_refR (ε neg : ℝ) (P : Params) (x : Fin 4096 → Fin 1024 → ℝ) (xn : Fin 8192 → Fin 1024 → ℝ)
    (y : Fin 8192 → ℤ) (hy : ∀ j, 0 ≤ y j ∧ y j < 10) (i : Fin 4096) (c : Fin 10) :
    kernelR ε neg P x xn y i c = refR ε P x xn y i c := by
  unfold kernelR refR
  rw [encK_eq_encR_4096, encK_eq_encR_8192]
  exact flashOut_eq_softOut neg _ _ y hy i c _

end Cert.Spec

end
-- ==== Proof.KI.KernelChain.lean ====
import proofs.«428610_j54915451847256_3_alg».proof.Proof.KI.RunFold
import proofs.«428610_j54915451847256_3_alg».proof.Proof.KI.HostVal
import proofs.«428610_j54915451847256_3_alg».proof.Proof.LibRealCoe
import proofs.«428610_j54915451847256_3_alg».proof.Proof.SpecMath
import proofs.«428610_j54915451847256_3_alg».proof.Proof.Iface

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen Cert.KernelIdeal.Hand
open Finset

theorem at_idx {s : Shape} {α : Type} {f g : s.Idx → α} (e : f = g) (i : s.Idx) : f i = g i := congrFun e i

abbrev Yq0 (P : Spec.Params) (x : Fin 4096 → Fin 1024 → ℝ) := Spec.layerK Iface.epsR 4096 x P.γ0 P.β0 P.W0 P.b0
abbrev Yq1 (P : Spec.Params) (x : Fin 4096 → Fin 1024 → ℝ) := Spec.layerK Iface.epsR 4096 (Yq0 P x) P.γ1 P.β1 P.W1 P.b1
abbrev Yq2 (P : Spec.Params) (x : Fin 4096 → Fin 1024 → ℝ) := Spec.layerK Iface.epsR 4096 (Yq1 P x) P.γ2 P.β2 P.W2 P.b2
abbrev Yk0 (P : Spec.Params) (xn : Fin 8192 → Fin 1024 → ℝ) := Spec.layerK Iface.epsR 8192 xn P.γ0 P.β0 P.W0 P.b0
abbrev Yk1 (P : Spec.Params) (xn : Fin 8192 → Fin 1024 → ℝ) := Spec.layerK Iface.epsR 8192 (Yk0 P xn) P.γ1 P.β1 P.W1 P.b1
abbrev Yk2 (P : Spec.Params) (xn : Fin 8192 → Fin 1024 → ℝ) := Spec.layerK Iface.epsR 8192 (Yk1 P xn) P.γ2 P.β2 P.W2 P.b2

-- Three buffers hold an array, its column sums within each tile of 1024 rows, and the same of its squares.
abbrev Holds3 {T N D : ℕ} (hN : T * 1024 = N) (Y : Fin N → Fin D → ℝ) (A : (⟨2, ![N, D]⟩ : Shape).Idx → EReal)
    (S Q : (⟨3, ![T, 1, D]⟩ : Shape).Idx → EReal) : Prop :=
  (∀ p o, A (ix2 p o) = ((Y p o : ℝ) : EReal))
  ∧ (∀ t o, S (ix3 t (0 : Fin 1) o) = ((∑ r : Fin 1024, Y (rowOf hN t r) o : ℝ) : EReal))
  ∧ (∀ t o, Q (ix3 t (0 : Fin 1) o) = ((∑ r : Fin 1024, Y (rowOf hN t r) o * Y (rowOf hN t r) o : ℝ) : EReal))

-- One layer: from a real array, scale, shift, mean and variance rows, a weight matrix and a bias row, `C` holds of the layer's result.
def EffEnc {N D O : ℕ} (A : (⟨2, ![N, D]⟩ : Shape).Idx → EReal) (G B M V : (⟨2, ![1, D]⟩ : Shape).Idx → EReal)
    (Wb : (⟨2, ![O, D]⟩ : Shape).Idx → EReal) (Bb : (⟨2, ![1, O]⟩ : Shape).Idx → EReal)
    (C : (Fin N → Fin O → ℝ) → Prop) : Prop :=
  ∀ (X : Fin N → Fin D → ℝ) (γ β μ v : Fin D → ℝ) (Wt : Fin O → Fin D → ℝ) (b : Fin O → ℝ),
    (∀ p q, A (ix2 p q) = ((X p q : ℝ) : EReal)) →
    (∀ d, G (ix2 (0 : Fin 1) d) = ((γ d : ℝ) : EReal)) →
    (∀ d, B (ix2 (0 : Fin 1) d) = ((β d : ℝ) : EReal)) →
    (∀ d, M (ix2 (0 : Fin 1) d) = ((μ d : ℝ) : EReal)) →
    (∀ d, V (ix2 (0 : Fin 1) d) = ((v d : ℝ) : EReal)) →
    (∀ o d, Wb (ix2 o d) = ((Wt o d : ℝ) : EReal)) →
    (∀ o, Bb (ix2 (0 : Fin 1) o) = ((b o : ℝ) : EReal)) →
    (∀ d, 0 < v d + Iface.epsR) → C (Spec.linK Iface.epsR X γ β μ v Wt b)

section Chain
variable (m : (ℓ : Loc nD τ sig) → Buf (Elt Ideal) ℓ) (ρ : Dev nD → PrngReg) (c : Dev nD)

section Keep
variable (r : Ref sig .tc)

-- A stage leaves what it does not write as it was: one stage more than the lemma before.
theorem keep2 (h : r ∉ arrs0 ∧ r ∉ hostOps0_W) :
    W2 m ρ c (Proc.devRef .tc r) = W0 m ρ c (Proc.devRef .tc r) :=
  (W2_of_not_mem m ρ c r h.1).trans (W1_of m ρ c r h.2)
theorem keep3 (h : r ∉ hostOps1_W ∧ r ∉ arrs0 ∧ r ∉ hostOps0_W) :
    W3 m ρ c (Proc.devRef .tc r) = W0 m ρ c (Proc.devRef .tc r) :=
  (W3_of m ρ c r h.1).trans (keep2 m ρ c r h.2)
theorem keep4 (h : r ∉ arrs1 ∧ r ∉ hostOps1_W ∧ r ∉ arrs0 ∧ r ∉ hostOps0_W) :
    W4 m ρ c (Proc.devRef .tc r) = W0 m ρ c (Proc.devRef .tc r) :=
  (W4_of_not_mem m ρ c r h.1).trans (keep3 m ρ c r h.2)
theorem keep5 (h : r ∉ hostOps2_W ∧ r ∉ arrs1 ∧ r ∉ hostOps1_W ∧ r ∉ arrs0 ∧ r ∉ hostOps0_W) :
    W5 m ρ c (Proc.devRef .tc r) = W0 m ρ c (Proc.devRef .tc r) :=
  (W5_of m ρ c r h.1).trans (keep4 m ρ c r h.2)
theorem keep6 (h : r ∉ arrs2 ∧ r ∉ hostOps2_W ∧ r ∉ arrs1 ∧ r ∉ hostOps1_W ∧ r ∉ arrs0 ∧ r ∉ hostOps0_W) :
    W6 m ρ c (Proc.devRef .tc r) = W0 m ρ c (Proc.devRef .tc r) :=
  (W6_of_not_mem m ρ c r h.1).trans (keep5 m ρ c r h.2)
theorem keep7 (h : r ∉ hostOps3_W ∧ r ∉ arrs2 ∧ r ∉ hostOps2_W ∧ r ∉ arrs1 ∧ r ∉ hostOps1_W ∧ r ∉ arrs0 ∧ r ∉ hostOps0_W) :
    W7 m ρ c (Proc.devRef .tc r) = W0 m ρ c (Proc.devRef .tc r) :=
  (W7_of m ρ c r h.1).trans (keep6 m ρ c r h.2)
theorem keep8 (h : r ∉ arrs3 ∧ r ∉ hostOps3_W ∧ r ∉ arrs2 ∧ r ∉ hostOps2_W ∧ r ∉ arrs1 ∧ r ∉ hostOps1_W ∧ r ∉ arrs0 ∧ r ∉ hostOps0_W) :
    W8 m ρ c (Proc.devRef .tc r) = W0 m ρ c (Proc.devRef .tc r) :=
  (W8_of_not_mem m ρ c r h.1).trans (keep7 m ρ c r h.2)
theorem keep9 (h : r ∉ hostOps4_W ∧ r ∉ arrs3 ∧ r ∉ hostOps3_W ∧ r ∉ arrs2 ∧ r ∉ hostOps2_W ∧ r ∉ arrs1 ∧ r ∉ hostOps1_W ∧ r ∉ arrs0 ∧ r ∉ hostOps0_W) :
    W9 m ρ c (Proc.devRef .tc r) = W0 m ρ c (Proc.devRef .tc r) :=
  (W9_of m ρ c r h.1).trans (keep8 m ρ c r h.2)
theorem keep10 (h : r ∉ arrs4 ∧ r ∉ hostOps4_W ∧ r ∉ arrs3 ∧ r ∉ hostOps3_W ∧ r ∉ arrs2 ∧ r ∉ hostOps2_W ∧ r ∉ arrs1 ∧ r ∉ hostOps1_W ∧ r ∉ arrs0 ∧ r ∉ hostOps0_W) :
    W10 m ρ c (Proc.devRef .tc r) = W0 m ρ c (Proc.devRef .tc r) :=
  (W10_of_not_mem m ρ c r h.1).trans (keep9 m ρ c r h.2)
theorem keep11 (h : r ∉ hostOps5_W ∧ r ∉ arrs4 ∧ r ∉ hostOps4_W ∧ r ∉ arrs3 ∧ r ∉ hostOps3_W ∧ r ∉ arrs2 ∧ r ∉ hostOps2_W ∧ r ∉ arrs1 ∧ r ∉ hostOps1_W ∧ r ∉ arrs0 ∧ r ∉ hostOps0_W) :
    W11 m ρ c (Proc.devRef .tc r) = W0 m ρ c (Proc.devRef .tc r) :=
  (W11_of m ρ c r h.1).trans (keep10 m ρ c r h.2)
theorem keep12 (h : r ∉ arrs5 ∧ r ∉ hostOps5_W ∧ r ∉ arrs4 ∧ r ∉ hostOps4_W ∧ r ∉ arrs3 ∧ r ∉ hostOps3_W ∧ r ∉ arrs2 ∧ r ∉ hostOps2_W ∧ r ∉ arrs1 ∧ r ∉ hostOps1_W ∧ r ∉ arrs0 ∧ r ∉ hostOps0_W) :
    W12 m ρ c (Proc.devRef .tc r) = W0 m ρ c (Proc.devRef .tc r) :=
  (W12_of_not_mem m ρ c r h.1).trans (keep11 m ρ c r h.2)

end Keep

abbrev Out0 (Y : Fin 4096 → Fin 512 → ℝ) : Prop :=
  Holds3 (by norm_num : 4 * 1024 = 4096) Y (W2 m ρ c (Proc.devRef .tc main_v14_0)) (W2 m ρ c (Proc.devRef .tc main_v14_1)) (W2 m ρ c (Proc.devRef .tc main_v14_2))
def Eff0 : Prop :=
  EffEnc (N := 4096) (D := 1024) (O := 512) (W1 m ρ c (Proc.devRef .tc main_arg0)) (W1 m ρ c (Proc.devRef .tc main_v9)) (W1 m ρ c (Proc.devRef .tc main_v10)) (W1 m ρ c (Proc.devRef .tc main_v11)) (W1 m ρ c (Proc.devRef .tc main_v12)) (W1 m ρ c (Proc.devRef .tc main_arg3)) (W1 m ρ c (Proc.devRef .tc main_v13)) (Out0 m ρ c)

abbrev Out1 (Y : Fin 4096 → Fin 256 → ℝ) : Prop :=
  Holds3 (by norm_num : 4 * 1024 = 4096) Y (W4 m ρ c (Proc.devRef .tc main_v28_0)) (W4 m ρ c (Proc.devRef .tc main_v28_1)) (W4 m ρ c (Proc.devRef .tc main_v28_2))
def Eff1 : Prop :=
  EffEnc (N := 4096) (D := 512) (O := 256) (W3 m ρ c (Proc.devRef .tc main_v14_0)) (W3 m ρ c (Proc.devRef .tc main_v23)) (W3 m ρ c (Proc.devRef .tc main_v24)) (W3 m ρ c (Proc.devRef .tc main_v25)) (W3 m ρ c (Proc.devRef .tc main_v26)) (W3 m ρ c (Proc.devRef .tc main_arg5)) (W3 m ρ c (Proc.devRef .tc main_v27)) (Out1 m ρ c)

def Eff2 : Prop :=
  EffEnc (N := 4096) (D := 256) (O := 128) (W5 m ρ c (Proc.devRef .tc main_v28_0)) (W5 m ρ c (Proc.devRef .tc main_v37)) (W5 m ρ c (Proc.devRef .tc main_v38)) (W5 m ρ c (Proc.devRef .tc main_v39)) (W5 m ρ c (Proc.devRef .tc main_v40)) (W5 m ρ c (Proc.devRef .tc main_arg7)) (W5 m ρ c (Proc.devRef .tc main_v41))
    fun Y => ∀ p o, (W6 m ρ c (Proc.devRef .tc main_v42_0) : S4096x128.Idx → EReal) (ix2 p o) = ((Y p o : ℝ) : EReal)

abbrev Out3 (Y : Fin 8192 → Fin 512 → ℝ) : Prop :=
  Holds3 (by norm_num : 8 * 1024 = 8192) Y (W8 m ρ c (Proc.devRef .tc main_v57_0)) (W8 m ρ c (Proc.devRef .tc main_v57_1)) (W8 m ρ c (Proc.devRef .tc main_v57_2))
def Eff3 : Prop :=
  EffEnc (N := 8192) (D := 1024) (O := 512) (W7 m ρ c (Proc.devRef .tc main_arg1)) (W7 m ρ c (Proc.devRef .tc main_v52)) (W7 m ρ c (Proc.devRef .tc main_v53)) (W7 m ρ c (Proc.devRef .tc main_v54)) (W7 m ρ c (Proc.devRef .tc main_v55)) (W7 m ρ c (Proc.devRef .tc main_arg3)) (W7 m ρ c (Proc.devRef .tc main_v56)) (Out3 m ρ c)

abbrev Out4 (Y : Fin 8192 → Fin 256 → ℝ) : Prop :=
  Holds3 (by norm_num : 8 * 1024 = 8192) Y (W10 m ρ c (Proc.devRef .tc main_v71_0)) (W10 m ρ c (Proc.devRef .tc main_v71_1)) (W10 m ρ c (Proc.devRef .tc main_v71_2))
def Eff4 : Prop :=
  EffEnc (N := 8192) (D := 512) (O := 256) (W9 m ρ c (Proc.devRef .tc main_v57_0)) (W9 m ρ c (Proc.devRef .tc main_v66)) (W9 m ρ c (Proc.devRef .tc main_v67)) (W9 m ρ c (Proc.devRef .tc main_v68)) (W9 m ρ c (Proc.devRef .tc main_v69)) (W9 m ρ c (Proc.devRef .tc main_arg5)) (W9 m ρ c (Proc.devRef .tc main_v70)) (Out4 m ρ c)

def Eff5 : Prop :=
  EffEnc (N := 8192) (D := 256) (O := 128) (W11 m ρ c (Proc.devRef .tc main_v71_0)) (W11 m ρ c (Proc.devRef .tc main_v80)) (W11 m ρ c (Proc.devRef .tc main_v81)) (W11 m ρ c (Proc.devRef .tc main_v82)) (W11 m ρ c (Proc.devRef .tc main_v83)) (W11 m ρ c (Proc.devRef .tc main_arg7)) (W11 m ρ c (Proc.devRef .tc main_v84))
    fun Y => ∀ p o, (W12 m ρ c (Proc.devRef .tc main_v85_0) : S8192x128.Idx → EReal) (ix2 p o) = ((Y p o : ℝ) : EReal)

def Eff6 : Prop :=
  ∀ (q : Fin 4096 → Fin 128 → ℝ) (k : Fin 8192 → Fin 128 → ℝ) (y : Fin 8192 → ℤ),
    (∀ i d, (W14 m ρ c (Proc.devRef .tc main_v42_0) : S4096x128.Idx → EReal) (ix2 i d) = ((q i d : ℝ) : EReal)) →
    (∀ j d, (W14 m ρ c (Proc.devRef .tc main_v85_0) : S8192x128.Idx → EReal) (ix2 j d) = ((k j d : ℝ) : EReal)) →
    (∀ j, (W14 m ρ c (Proc.devRef .tc main_v90) : S1x8192.Idx → EReal) (ix2 (0 : Fin 1) j) = ((∑ d, k j d * k j d : ℝ) : EReal)) →
    (∀ j c', (W14 m ρ c (Proc.devRef .tc main_v86) : S8192x128.Idx → EReal) (ix2 j c') = ((Spec.oneHot 128 y j c' : ℝ) : EReal)) →
    Iface.LabelsInRange y →
    ∀ i c', (W15 m ρ c (Proc.devRef .tc main_v91) : S4096x128.Idx → EReal) (ix2 i c') = ((Spec.flashOut Iface.negR q k y i c' : ℝ) : EReal)

variable (P : Spec.Params) (x : Fin 4096 → Fin 1024 → ℝ) (xn : Fin 8192 → Fin 1024 → ℝ) (y : Fin 8192 → ℤ)
  (h : Iface.ArgsReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) P x xn y)
  (hy : Iface.LabelsInRange y)
include h

theorem enc0_out (E0 : Eff0 m ρ c) :
    Out0 m ρ c (Yq0 P x) :=
  E0 x P.γ0 P.β0 (Spec.colMean 4096 x) (Spec.colVarK 4096 x) P.W0 P.b0
    (fun p q => (at_idx (s := S4096x1024) (W1_of m ρ c main_arg0 (by decide)) (ix2 p q)).trans (h.hx p q))
    (fun d => (host0_gamma (W0 m ρ c) d).trans (h.hγ0 d))
    (fun d => (host0_beta (W0 m ρ c) d).trans (h.hβ0 d))
    (host0_mean (W0 m ρ c) x h.hx)
    (host0_var (W0 m ρ c) x h.hx)
    (fun o d => (at_idx (s := S512x1024) (W1_of m ρ c main_arg3 (by decide)) (ix2 o d)).trans (h.hW0 o d))
    (fun o => (host0_bias (W0 m ρ c) o).trans (h.hb0 o))
    (fun d => Spec.colVarK_add_pos (by norm_num) (by norm_num) Cert.RealCoe.epsR_pos)

theorem enc1_out (E1 : Eff1 m ρ c) (L : Out0 m ρ c (Yq0 P x)) :
    Out1 m ρ c (Yq1 P x) :=
  E1 (Yq0 P x) P.γ1 P.β1 (Spec.colMean 4096 (Yq0 P x)) (Spec.colVarK 4096 (Yq0 P x)) P.W1 P.b1
    (fun p q => (at_idx (s := S4096x512) (W3_of m ρ c main_v14_0 (by decide)) (ix2 p q)).trans (L.1 p q))
    (fun d => (host1_gamma (W2 m ρ c) d).trans ((at_idx (s := S512) (keep2 m ρ c main_arg11 (by decide)) (ix1 d)).trans (h.hγ1 d)))
    (fun d => (host1_beta (W2 m ρ c) d).trans ((at_idx (s := S512) (keep2 m ρ c main_arg12 (by decide)) (ix1 d)).trans (h.hβ1 d)))
    (fun d => (host1_mean (W2 m ρ c) _ L.2.1 d).trans (congrArg Real.toEReal (tiles_mean (by norm_num) 4096 (Yq0 P x) d)))
    (fun d => (host1_var (W2 m ρ c) _ _ L.2.1 L.2.2 d).trans (congrArg Real.toEReal (tiles_var (by norm_num) 4096 (Yq0 P x) d)))
    (fun o d => (at_idx (s := S256x512) (keep3 m ρ c main_arg5 (by decide)) (ix2 o d)).trans (h.hW1 o d))
    (fun o => (host1_bias (W2 m ρ c) o).trans ((at_idx (s := S256) (keep2 m ρ c main_arg6 (by decide)) (ix1 o)).trans (h.hb1 o)))
    (fun d => Spec.colVarK_add_pos (by norm_num) (by norm_num) Cert.RealCoe.epsR_pos)

theorem enc2_out (E2 : Eff2 m ρ c) (L : Out1 m ρ c (Yq1 P x)) :
    ∀ p o, (W6 m ρ c (Proc.devRef .tc main_v42_0) : S4096x128.Idx → EReal) (ix2 p o) = ((Yq2 P x p o : ℝ) : EReal) :=
  E2 (Yq1 P x) P.γ2 P.β2 (Spec.colMean 4096 (Yq1 P x)) (Spec.colVarK 4096 (Yq1 P x)) P.W2 P.b2
    (fun p q => (at_idx (s := S4096x256) (W5_of m ρ c main_v28_0 (by decide)) (ix2 p q)).trans (L.1 p q))
    (fun d => (host2_gamma (W4 m ρ c) d).trans ((at_idx (s := S256) (keep4 m ρ c main_arg13 (by decide)) (ix1 d)).trans (h.hγ2 d)))
    (fun d => (host2_beta (W4 m ρ c) d).trans ((at_idx (s := S256) (keep4 m ρ c main_arg14 (by decide)) (ix1 d)).trans (h.hβ2 d)))
    (fun d => (host2_mean (W4 m ρ c) _ L.2.1 d).trans (congrArg Real.toEReal (tiles_mean (by norm_num) 4096 (Yq1 P x) d)))
    (fun d => (host2_var (W4 m ρ c) _ _ L.2.1 L.2.2 d).trans (congrArg Real.toEReal (tiles_var (by norm_num) 4096 (Yq1 P x) d)))
    (fun o d => (at_idx (s := S128x256) (keep5 m ρ c main_arg7 (by decide)) (ix2 o d)).trans (h.hW2 o d))
    (fun o => (host2_bias (W4 m ρ c) o).trans ((at_idx (s := S128) (keep4 m ρ c main_arg8 (by decide)) (ix1 o)).trans (h.hb2 o)))
    (fun d => Spec.colVarK_add_pos (by norm_num) (by norm_num) Cert.RealCoe.epsR_pos)

theorem enc3_out (E3 : Eff3 m ρ c) :
    Out3 m ρ c (Yk0 P xn) :=
  E3 xn P.γ0 P.β0 (Spec.colMean 8192 xn) (Spec.colVarK 8192 xn) P.W0 P.b0
    (fun p q => (at_idx (s := S8192x1024) (keep7 m ρ c main_arg1 (by decide)) (ix2 p q)).trans (h.hxn p q))
    (fun d => (host3_gamma (W6 m ρ c) d).trans ((at_idx (s := S1024) (keep6 m ρ c main_arg9 (by decide)) (ix1 d)).trans (h.hγ0 d)))
    (fun d => (host3_beta (W6 m ρ c) d).trans ((at_idx (s := S1024) (keep6 m ρ c main_arg10 (by decide)) (ix1 d)).trans (h.hβ0 d)))
    (host3_mean (W6 m ρ c) xn (fun p q => (at_idx (s := S8192x1024) (keep6 m ρ c main_arg1 (by decide)) (ix2 p q)).trans (h.hxn p q)))
    (host3_var (W6 m ρ c) xn (fun p q => (at_idx (s := S8192x1024) (keep6 m ρ c main_arg1 (by decide)) (ix2 p q)).trans (h.hxn p q)))
    (fun o d => (at_idx (s := S512x1024) ((W7_of m ρ c main_arg3 (by decide)).trans ((W6_of_not_mem m ρ c main_arg3 (by decide)).trans ((W5_of m ρ c main_arg3 (by decide)).trans ((W4_of_not_mem m ρ c main_arg3 (by decide)).trans ((W3_of m ρ c main_arg3 (by decide)).trans ((W2_in m ρ c 5 rfl).trans (W1_of m ρ c main_arg3 (by decide)))))))) (ix2 o d)).trans (h.hW0 o d))
    (fun o => (host3_bias (W6 m ρ c) o).trans ((at_idx (s := S512) (keep6 m ρ c main_arg4 (by decide)) (ix1 o)).trans (h.hb0 o)))
    (fun d => Spec.colVarK_add_pos (by norm_num) (by norm_num) Cert.RealCoe.epsR_pos)

theorem enc4_out (E4 : Eff4 m ρ c) (L : Out3 m ρ c (Yk0 P xn)) :
    Out4 m ρ c (Yk1 P xn) :=
  E4 (Yk0 P xn) P.γ1 P.β1 (Spec.colMean 8192 (Yk0 P xn)) (Spec.colVarK 8192 (Yk0 P xn)) P.W1 P.b1
    (fun p q => (at_idx (s := S8192x512) (W9_of m ρ c main_v57_0 (by decide)) (ix2 p q)).trans (L.1 p q))
    (fun d => (host4_gamma (W8 m ρ c) d).trans ((at_idx (s := S512) (keep8 m ρ c main_arg11 (by decide)) (ix1 d)).trans (h.hγ1 d)))
    (fun d => (host4_beta (W8 m ρ c) d).trans ((at_idx (s := S512) (keep8 m ρ c main_arg12 (by decide)) (ix1 d)).trans (h.hβ1 d)))
    (fun d => (host4_mean (W8 m ρ c) _ L.2.1 d).trans (congrArg Real.toEReal (tiles_mean (by norm_num) 8192 (Yk0 P xn) d)))
    (fun d => (host4_var (W8 m ρ c) _ _ L.2.1 L.2.2 d).trans (congrArg Real.toEReal (tiles_var (by norm_num) 8192 (Yk0 P xn) d)))
    (fun o d => (at_idx (s := S256x512) ((W9_of m ρ c main_arg5 (by decide)).trans ((W8_of_not_mem m ρ c main_arg5 (by decide)).trans ((W7_of m ρ c main_arg5 (by decide)).trans ((W6_of_not_mem m ρ c main_arg5 (by decide)).trans ((W5_of m ρ c main_arg5 (by decide)).trans ((W4_in m ρ c 5 rfl).trans (keep3 m ρ c main_arg5 (by decide)))))))) (ix2 o d)).trans (h.hW1 o d))
    (fun o => (host4_bias (W8 m ρ c) o).trans ((at_idx (s := S256) (keep8 m ρ c main_arg6 (by decide)) (ix1 o)).trans (h.hb1 o)))
    (fun d => Spec.colVarK_add_pos (by norm_num) (by norm_num) Cert.RealCoe.epsR_pos)

theorem enc5_out (E5 : Eff5 m ρ c) (L : Out4 m ρ c (Yk1 P xn)) :
    ∀ p o, (W12 m ρ c (Proc.devRef .tc main_v85_0) : S8192x128.Idx → EReal) (ix2 p o) = ((Yk2 P xn p o : ℝ) : EReal) :=
  E5 (Yk1 P xn) P.γ2 P.β2 (Spec.colMean 8192 (Yk1 P xn)) (Spec.colVarK 8192 (Yk1 P xn)) P.W2 P.b2
    (fun p q => (at_idx (s := S8192x256) (W11_of m ρ c main_v71_0 (by decide)) (ix2 p q)).trans (L.1 p q))
    (fun d => (host5_gamma (W10 m ρ c) d).trans ((at_idx (s := S256) (keep10 m ρ c main_arg13 (by decide)) (ix1 d)).trans (h.hγ2 d)))
    (fun d => (host5_beta (W10 m ρ c) d).trans ((at_idx (s := S256) (keep10 m ρ c main_arg14 (by decide)) (ix1 d)).trans (h.hβ2 d)))
    (fun d => (host5_mean (W10 m ρ c) _ L.2.1 d).trans (congrArg Real.toEReal (tiles_mean (by norm_num) 8192 (Yk1 P xn) d)))
    (fun d => (host5_var (W10 m ρ c) _ _ L.2.1 L.2.2 d).trans (congrArg Real.toEReal (tiles_var (by norm_num) 8192 (Yk1 P xn) d)))
    (fun o d => (at_idx (s := S128x256) ((W11_of m ρ c main_arg7 (by decide)).trans ((W10_of_not_mem m ρ c main_arg7 (by decide)).trans ((W9_of m ρ c main_arg7 (by decide)).trans ((W8_of_not_mem m ρ c main_arg7 (by decide)).trans ((W7_of m ρ c main_arg7 (by decide)).trans ((W6_in m ρ c 5 rfl).trans (keep5 m ρ c main_arg7 (by decide)))))))) (ix2 o d)).trans (h.hW2 o d))
    (fun o => (host5_bias (W10 m ρ c) o).trans ((at_idx (s := S128) (keep10 m ρ c main_arg8 (by decide)) (ix1 o)).trans (h.hb2 o)))
    (fun d => Spec.colVarK_add_pos (by norm_num) (by norm_num) Cert.RealCoe.epsR_pos)

include hy

-- Each layer's inputs are the previous layer's outputs and the column statistics made of them; the readout reads both last layers.
theorem kernel_value_of (E0 : Eff0 m ρ c) (E1 : Eff1 m ρ c) (E2 : Eff2 m ρ c) (E3 : Eff3 m ρ c) (E4 : Eff4 m ρ c)
    (E5 : Eff5 m ρ c) (E6 : Eff6 m ρ c) (i : Fin 4096) (o : Fin 10) :
    (W16 m ρ c (Proc.devRef .tc main_v92) : S4096x10.Idx → EReal) (ix2 i o) = ((Spec.kernelR Iface.epsR Iface.negR P x xn y i o : ℝ) : EReal) := by
  have L2 := enc2_out m ρ c P x xn y h E2 (enc1_out m ρ c P x xn y h E1 (enc0_out m ρ c P x xn y h E0))
  have L5 := enc5_out m ρ c P x xn y h E5 (enc4_out m ρ c P x xn y h E4 (enc3_out m ρ c P x xn y h E3))
  exact (host7_slice (W15 m ρ c) i o).trans (E6 (Yq2 P x) (Yk2 P xn) y
    (fun i d => (at_idx (s := S4096x128) ((W14_of m ρ c main_v42_0 (by decide)).trans ((W13_of m ρ c main_v42_0 (by decide)).trans ((W12_of_not_mem m ρ c main_v42_0 (by decide)).trans ((W11_of m ρ c main_v42_0 (by decide)).trans ((W10_of_not_mem m ρ c main_v42_0 (by decide)).trans ((W9_of m ρ c main_v42_0 (by decide)).trans ((W8_of_not_mem m ρ c main_v42_0 (by decide)).trans (W7_of m ρ c main_v42_0 (by decide))))))))) (ix2 i d)).trans (L2 i d))
    (fun j d => (at_idx (s := S8192x128) ((W14_of m ρ c main_v85_0 (by decide)).trans (W13_of m ρ c main_v85_0 (by decide))) (ix2 j d)).trans (L5 j d))
    (host6_1_norm (W13 m ρ c) (Yk2 P xn) (fun j d => (at_idx (s := S8192x128) (W13_of m ρ c main_v85_0 (by decide)) (ix2 j d)).trans (L5 j d)))
    (fun j c' => (at_idx (s := S8192x128) (W14_of m ρ c main_v86 (by decide)) (ix2 j c')).trans
      (host6_onehot (W12 m ρ c) y (fun j => (congrArg BitVec.toInt (at_idx (s := S8192) (keep12 m ρ c main_arg2 (by decide)) (ix1 j))).trans (h.hy j)) j c'))
    hy i _)

end Chain

end Cert.KernelIdeal.HandValue

end
-- ==== Proof.KI.EncVal0.lean ====
import proofs.«428610_j54915451847256_3_alg».proof.Proof.KI.Enc0
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 4096
local notation "Nblk" => 4
local notation "Din" => 1024
local notation "Dout" => 512

section Pay

-- One axis is contracted, so the product at (r, o) is the sum over that axis of row r of one factor times row o of the other.
theorem matmulBlk_apply (l : FVec Ideal S1024x1024 .bf16) (w : FVec Ideal S512x1024 .bf16) (r : Fin 1024) (o : Fin Dout) :
    matmul dot_S1024x1024_S512x1024_S1024x512_1_1_0_0_n_n none l w (constant (F := Ideal) S1024x512 .f32 0x00000000#32) (ix2 r o)
      = ∑ d : Fin Din, l (ix2 r d) * w (ix2 o d) := by
  simp only [matmul]
  rw [Ideal.matmul_constant_zero_apply, ← Equiv.sum_comp (ValueIdx.contrEquiv1 dot_S1024x1024_S512x1024_S1024x512_1_1_0_0_n_n Din rfl rfl).symm]
  refine Finset.sum_congr rfl fun k _ => ?_
  have hk := ValueIdx.contrEquiv1_symm_val dot_S1024x1024_S512x1024_S1024x512_1_1_0_0_n_n Din rfl rfl k
  have el : dot_S1024x1024_S512x1024_S1024x512_1_1_0_0_n_n.lhsIdx (ix2 r o) ((ValueIdx.contrEquiv1 dot_S1024x1024_S512x1024_S1024x512_1_1_0_0_n_n Din rfl rfl).symm k) = ix2 r k := funext fun a => Fin.ext (by
    match a with
    | ⟨0, _⟩ => rfl
    | ⟨1, _⟩ => exact (dot_S1024x1024_S512x1024_S1024x512_1_1_0_0_n_n.lhsIdx_val_of_single rfl _ _).trans hk)
  have er : dot_S1024x1024_S512x1024_S1024x512_1_1_0_0_n_n.rhsIdx (ix2 r o) ((ValueIdx.contrEquiv1 dot_S1024x1024_S512x1024_S1024x512_1_1_0_0_n_n Din rfl rfl).symm k) = ix2 o k := funext fun a => Fin.ext (by
    match a with
    | ⟨0, _⟩ => rfl
    | ⟨1, _⟩ => exact (dot_S1024x1024_S512x1024_S1024x512_1_1_0_0_n_n.rhsIdx_val_of_single rfl _ _).trans hk)
  rw [el, er]

-- On real entries every step of the layer is the real operation; a variance plus the offset is positive, so its reciprocal square root is real.
theorem pay2_apply (v0 : Vec Ideal S1024x1024 .f32) (v1 v6 v12 v16 : Vec Ideal S1x1024 .f32) (v21 : Vec Ideal S512x1024 .f32) (v24 : Vec Ideal S1x512 .f32)
    (x : Fin 1024 → Fin Din → ℝ) (vr μ γ β : Fin Din → ℝ) (W : Fin Dout → Fin Din → ℝ) (b : Fin Dout → ℝ)
    (h0 : ∀ r d, v0 (ix2 r d) = ((x r d : ℝ) : EReal)) (h1 : ∀ d, v1 (ix2 0 d) = ((vr d : ℝ) : EReal))
    (h6 : ∀ d, v6 (ix2 0 d) = ((μ d : ℝ) : EReal)) (h12 : ∀ d, v12 (ix2 0 d) = ((γ d : ℝ) : EReal))
    (h16 : ∀ d, v16 (ix2 0 d) = ((β d : ℝ) : EReal)) (h21 : ∀ o d, v21 (ix2 o d) = ((W o d : ℝ) : EReal))
    (h24 : ∀ o, v24 (ix2 0 o) = ((b o : ℝ) : EReal))
    (hε : Ideal.ofBits .f32 0x3727C5AC#32 = ((Cert.Iface.epsR : ℝ) : EReal))
    (hv : ∀ d, 0 < vr d + Cert.Iface.epsR) (r : Fin 1024) (o : Fin Dout) :
    k0_pay2 (F := Ideal) v0 v1 v6 v12 v16 v21 v24 (ix2 r o) = ((Cert.Spec.linK Cert.Iface.epsR x γ β μ vr W b r o : ℝ) : EReal) := by
  unfold k0_pay2
  simp only [shapeCast_self]
  rw [Cert.RealCoe.tanh_apply, addf_apply, matmulBlk_apply, broadcastTo_1b_ab_apply, h24]
  simp only [truncf_apply, addf_apply, mulf_apply, subf_apply, broadcastTo_1b_ab_apply, Cert.RealCoe.rsqrt_apply, broadcast_apply,
    Ideal.ofBits_def, h0, h1, h6, h12, h16, h21, hε]
  simp only [← EReal.coe_add, fun d => Cert.RealCoe.rsqrt_coe_pos (hv d), ← EReal.coe_sub, ← EReal.coe_mul]
  rw [Cert.RealCoe.coe_sum Finset.univ, ← EReal.coe_add, Ideal.tanh_coe]
  rfl

-- Index (u, w, o) of shape [1, 1, n] and index o of shape [n] have the same row-major position.
theorem colsum_apply (src : FVec Ideal S1024x512 .f32) (hφ : FKind.Formats .f32)
    (hacc : (0x00000000#32 : BitVec 32) = FKind.add.neutral .f32 hφ) (u w : Fin 1) (o : Fin Dout) :
    shapeCast S1x1x512 (multiReduction .add [0] S512 src 0x00000000#32 reduces_S1024x512_S512 hφ hacc) shapeCasts_S512_S1x1x512 (ix3 u w o)
      = ∑ r : Fin 1024, src (ix2 r o) := by
  refine (shapeCast_apply _ shapeCasts_S512_S1x1x512 (ix3 u w o) (ix1 o) ?_).trans ?_
  · rw [Shape.rowMajor_val_one, Shape.rowMajor_val_three]
    show o.val = (u.val * 1 + w.val) * Dout + o.val
    omega
  · refine (Ideal.multiReduction_add_single src 0x00000000#32 reduces_S1024x512_S512 hφ hacc (ix1 o)).trans ?_
    refine Finset.sum_congr rfl fun k _ => congrArg src ?_
    funext a
    match a with
    | ⟨0, _⟩ => rfl
    | ⟨1, _⟩ => rfl

end Pay

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg0.N) : t.val < Nblk := by
  have h : t.val < cfg0.N := t.isLt
  have e : cfg0.N = Nblk := N_0
  omega

theorem widx0_0 : ∀ t : Fin cfg0.N, win0_0.index t (0 : Fin 2) = t.val ∧ win0_0.index t (1 : Fin 2) = 0 :=
  (by decide +kernel : ∀ t : Fin grid0.N, _)
theorem widx0_1 : ∀ (t : Fin cfg0.N) (a : Fin 2), win0_1.index t a = 0 := (by decide +kernel : ∀ (t : Fin grid0.N) (a : Fin 2), _)
theorem widx0_2 : ∀ (t : Fin cfg0.N) (a : Fin 2), win0_2.index t a = 0 := (by decide +kernel : ∀ (t : Fin grid0.N) (a : Fin 2), _)
theorem widx0_3 : ∀ (t : Fin cfg0.N) (a : Fin 2), win0_3.index t a = 0 := (by decide +kernel : ∀ (t : Fin grid0.N) (a : Fin 2), _)
theorem widx0_4 : ∀ (t : Fin cfg0.N) (a : Fin 2), win0_4.index t a = 0 := (by decide +kernel : ∀ (t : Fin grid0.N) (a : Fin 2), _)
theorem widx0_5 : ∀ (t : Fin cfg0.N) (a : Fin 2), win0_5.index t a = 0 := (by decide +kernel : ∀ (t : Fin grid0.N) (a : Fin 2), _)
theorem widx0_6 : ∀ (t : Fin cfg0.N) (a : Fin 2), win0_6.index t a = 0 := (by decide +kernel : ∀ (t : Fin grid0.N) (a : Fin 2), _)
theorem widx0_7 : ∀ t : Fin cfg0.N, win0_7.index t (0 : Fin 2) = t.val ∧ win0_7.index t (1 : Fin 2) = 0 :=
  (by decide +kernel : ∀ t : Fin grid0.N, _)
theorem widx0_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem widx0_9 : ∀ t : Fin cfg0.N, win0_9.index t (0 : Fin 3) = t.val ∧ win0_9.index t (1 : Fin 3) = 0 ∧ win0_9.index t (2 : Fin 3) = 0 :=
  (by decide +kernel : ∀ t : Fin grid0.N, _)

section Arrays
variable (V : (c : Dev nD) → (b : Ref sig .tc) → Buf (Elt Ideal) ((c : Thread nD τ).loc b))

theorem iblk0_0_apply (c : Dev nD) (t : Fin cfg0.N) (r : Fin 1024) (d : Fin Din) (k : S4096x1024.Idx)
    (hk0 : (k 0).val = t.val * 1024 + r.val) (hk1 : (k 1).val = d.val) :
    (iblk0 V c 0 t : Vec Ideal S1024x1024 .f32) (ix2 r d) = (V c (Pipeline.arrRef spec0 0) : S4096x1024.Idx → EReal) k := by
  obtain ⟨e0, e1⟩ := widx0_0 t
  unfold iblk0
  rw [View.read_apply]
  show V c (Pipeline.arrRef spec0 0) _ = V c (Pipeline.arrRef spec0 0) k
  congr 1
  funext a
  apply Fin.ext
  match a with
  | ⟨0, _⟩ => show win0_0.index t (0 : Fin 2) * 1024 + 1 * r.val = (k 0).val; rw [e0, hk0]; omega
  | ⟨1, _⟩ => show win0_0.index t (1 : Fin 2) * Din + 1 * d.val = (k 1).val; rw [e1, hk1]; omega

theorem iblk0_1_apply (c : Dev nD) (t : Fin cfg0.N) (d : Fin Din) :
    (iblk0 V c 1 t : Vec Ideal S1x1024 .f32) (ix2 0 d) = (V c (Pipeline.arrRef spec0 1) : S1x1024.Idx → EReal) (ix2 0 d) :=
  congrArg (V c (Pipeline.arrRef spec0 1) : S1x1024.Idx → EReal) (funext fun a => Fin.ext (win0_1.rect_emb_val_of_index_zero t a (widx0_1 t a) _))
theorem iblk0_2_apply (c : Dev nD) (t : Fin cfg0.N) (d : Fin Din) :
    (iblk0 V c 2 t : Vec Ideal S1x1024 .f32) (ix2 0 d) = (V c (Pipeline.arrRef spec0 2) : S1x1024.Idx → EReal) (ix2 0 d) :=
  congrArg (V c (Pipeline.arrRef spec0 2) : S1x1024.Idx → EReal) (funext fun a => Fin.ext (win0_2.rect_emb_val_of_index_zero t a (widx0_2 t a) _))
theorem iblk0_3_apply (c : Dev nD) (t : Fin cfg0.N) (d : Fin Din) :
    (iblk0 V c 3 t : Vec Ideal S1x1024 .f32) (ix2 0 d) = (V c (Pipeline.arrRef spec0 3) : S1x1024.Idx → EReal) (ix2 0 d) :=
  congrArg (V c (Pipeline.arrRef spec0 3) : S1x1024.Idx → EReal) (funext fun a => Fin.ext (win0_3.rect_emb_val_of_index_zero t a (widx0_3 t a) _))
theorem iblk0_4_apply (c : Dev nD) (t : Fin cfg0.N) (d : Fin Din) :
    (iblk0 V c 4 t : Vec Ideal S1x1024 .f32) (ix2 0 d) = (V c (Pipeline.arrRef spec0 4) : S1x1024.Idx → EReal) (ix2 0 d) :=
  congrArg (V c (Pipeline.arrRef spec0 4) : S1x1024.Idx → EReal) (funext fun a => Fin.ext (win0_4.rect_emb_val_of_index_zero t a (widx0_4 t a) _))
theorem iblk0_5_apply (c : Dev nD) (t : Fin cfg0.N) (o : Fin Dout) (d : Fin Din) :
    (iblk0 V c 5 t : Vec Ideal S512x1024 .f32) (ix2 o d) = (V c (Pipeline.arrRef spec0 5) : S512x1024.Idx → EReal) (ix2 o d) :=
  congrArg (V c (Pipeline.arrRef spec0 5) : S512x1024.Idx → EReal) (funext fun a => Fin.ext (win0_5.rect_emb_val_of_index_zero t a (widx0_5 t a) _))
theorem iblk0_6_apply (c : Dev nD) (t : Fin cfg0.N) (o : Fin Dout) :
    (iblk0 V c 6 t : Vec Ideal S1x512 .f32) (ix2 0 o) = (V c (Pipeline.arrRef spec0 6) : S1x512.Idx → EReal) (ix2 0 o) :=
  congrArg (V c (Pipeline.arrRef spec0 6) : S1x512.Idx → EReal) (funext fun a => Fin.ext (win0_6.rect_emb_val_of_index_zero t a (widx0_6 t a) _))
end Arrays

theorem mem_blk7 (t : Fin cfg0.N) (i : S4096x512.Idx) :
    i ∈ ((cfg0.win 7).blk t).view.set ↔ (win0_7.index t 0 * 1024 ≤ (i 0).val ∧ (i 0).val < win0_7.index t 0 * 1024 + 1024)
      ∧ (win0_7.index t 1 * Dout ≤ (i 1).val ∧ (i 1).val < win0_7.index t 1 * Dout + Dout) := by
  show i ∈ ((View.whole main_v14_0).slice (win0_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S4096x512.Idx) : ∃ t : Fin cfg0.N, (cfg0.win 7).flush t = true ∧ i ∈ ((cfg0.win 7).blk t).view.set := by
  have hi0 : (i 0).val < Nrow := (i 0).isLt
  have hi1 : (i 1).val < Dout := (i 1).isLt
  have ht : (i 0).val / 1024 < cfg0.N := by have hN : cfg0.N = Nblk := N_0; omega
  obtain ⟨e0, e1⟩ := widx0_7 ⟨_, ht⟩
  have e0' : win0_7.index ⟨_, ht⟩ (0 : Fin 2) = (i 0).val / 1024 := e0
  refine ⟨⟨_, ht⟩, flush0_7 _, (mem_blk7 _ i).mpr ?_⟩
  rw [e0', e1]
  omega

theorem mem_blk8 (t : Fin cfg0.N) (i : S4x1x512.Idx) :
    i ∈ ((cfg0.win 8).blk t).view.set ↔ (win0_8.index t 0 * 1 ≤ (i 0).val ∧ (i 0).val < win0_8.index t 0 * 1 + 1)
      ∧ (win0_8.index t 1 * 1 ≤ (i 1).val ∧ (i 1).val < win0_8.index t 1 * 1 + 1)
      ∧ (win0_8.index t 2 * Dout ≤ (i 2).val ∧ (i 2).val < win0_8.index t 2 * Dout + Dout) := by
  show i ∈ ((View.whole main_v14_1).slice (win0_8.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover8 (i : S4x1x512.Idx) : ∃ t : Fin cfg0.N, (cfg0.win 8).flush t = true ∧ i ∈ ((cfg0.win 8).blk t).view.set := by
  have hi0 : (i 0).val < Nblk := (i 0).isLt
  have hi1 : (i 1).val < 1 := (i 1).isLt
  have hi2 : (i 2).val < Dout := (i 2).isLt
  have ht : (i 0).val < cfg0.N := by have hN : cfg0.N = Nblk := N_0; omega
  obtain ⟨e0, e1, e2⟩ := widx0_8 ⟨_, ht⟩
  have e0' : win0_8.index ⟨_, ht⟩ (0 : Fin 3) = (i 0).val := e0
  refine ⟨⟨_, ht⟩, flush0_8 _, (mem_blk8 _ i).mpr ?_⟩
  rw [e0', e1, e2]
  omega

theorem mem_blk9 (t : Fin cfg0.N) (i : S4x1x512.Idx) :
    i ∈ ((cfg0.win 9).blk t).view.set ↔ (win0_9.index t 0 * 1 ≤ (i 0).val ∧ (i 0).val < win0_9.index t 0 * 1 + 1)
      ∧ (win0_9.index t 1 * 1 ≤ (i 1).val ∧ (i 1).val < win0_9.index t 1 * 1 + 1)
      ∧ (win0_9.index t 2 * Dout ≤ (i 2).val ∧ (i 2).val < win0_9.index t 2 * Dout + Dout) := by
  show i ∈ ((View.whole main_v14_2).slice (win0_9.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover9 (i : S4x1x512.Idx) : ∃ t : Fin cfg0.N, (cfg0.win 9).flush t = true ∧ i ∈ ((cfg0.win 9).blk t).view.set := by
  have hi0 : (i 0).val < Nblk := (i 0).isLt
  have hi1 : (i 1).val < 1 := (i 1).isLt
  have hi2 : (i 2).val < Dout := (i 2).isLt
  have ht : (i 0).val < cfg0.N := by have hN : cfg0.N = Nblk := N_0; omega
  obtain ⟨e0, e1, e2⟩ := widx0_9 ⟨_, ht⟩
  have e0' : win0_9.index ⟨_, ht⟩ (0 : Fin 3) = (i 0).val := e0
  refine ⟨⟨_, ht⟩, flush0_9 _, (mem_blk9 _ i).mpr ?_⟩
  rw [e0', e1, e2]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S4096x512.Idx → EReal :=
  fun i => ((Cert.Spec.linK Cert.Iface.epsR X γ β μ v W b ⟨(i 0).val, idx2_lt0 i⟩ ⟨(i 1).val, idx2_lt1 i⟩ : ℝ) : EReal)

def G8 : S4x1x512.Idx → EReal :=
  fun i => ((∑ r : Fin 1024, Cert.Spec.linK Cert.Iface.epsR X γ β μ v W b
      ⟨(i 0).val * 1024 + r.val, by have h : (i 0).val < Nblk := (i 0).isLt; have := r.isLt; omega⟩ ⟨(i 2).val, (i 2).isLt⟩ : ℝ) : EReal)

def G9 : S4x1x512.Idx → EReal :=
  fun i => ((∑ r : Fin 1024,
      Cert.Spec.linK Cert.Iface.epsR X γ β μ v W b
        ⟨(i 0).val * 1024 + r.val, by have h : (i 0).val < Nblk := (i 0).isLt; have := r.isLt; omega⟩ ⟨(i 2).val, (i 2).isLt⟩
      * Cert.Spec.linK Cert.Iface.epsR X γ β μ v W b
        ⟨(i 0).val * 1024 + r.val, by have h : (i 0).val < Nblk := (i 0).isLt; have := r.isLt; omega⟩ ⟨(i 2).val, (i 2).isLt⟩ : ℝ) : EReal)

variable (hX : ∀ p q, (V c (Pipeline.arrRef spec0 0) : S4096x1024.Idx → EReal) (ix2 p q) = ((X p q : ℝ) : EReal))
    (hγ : ∀ d, (V c (Pipeline.arrRef spec0 1) : S1x1024.Idx → EReal) (ix2 0 d) = ((γ d : ℝ) : EReal))
    (hβ : ∀ d, (V c (Pipeline.arrRef spec0 2) : S1x1024.Idx → EReal) (ix2 0 d) = ((β d : ℝ) : EReal))
    (hμ : ∀ d, (V c (Pipeline.arrRef spec0 3) : S1x1024.Idx → EReal) (ix2 0 d) = ((μ d : ℝ) : EReal))
    (hv : ∀ d, (V c (Pipeline.arrRef spec0 4) : S1x1024.Idx → EReal) (ix2 0 d) = ((v d : ℝ) : EReal))
    (hW : ∀ o d, (V c (Pipeline.arrRef spec0 5) : S512x1024.Idx → EReal) (ix2 o d) = ((W o d : ℝ) : EReal))
    (hb : ∀ o, (V c (Pipeline.arrRef spec0 6) : S1x512.Idx → EReal) (ix2 0 o) = ((b o : ℝ) : EReal))
    (hpos : ∀ d, 0 < v d + Cert.Iface.epsR)
include hX hγ hβ hμ hv hW hb hpos

theorem blk7_apply (t : Fin cfg0.N) (r : Fin 1024) (o : Fin Dout) (hlt : t.val * 1024 + r.val < Nrow) :
    k0_pay2 (F := Ideal) (iblk0 V c 0 t) (iblk0 V c 4 t) (iblk0 V c 3 t) (iblk0 V c 1 t) (iblk0 V c 2 t) (iblk0 V c 5 t) (iblk0 V c 6 t) (ix2 r o)
      = ((Cert.Spec.linK Cert.Iface.epsR X γ β μ v W b ⟨t.val * 1024 + r.val, hlt⟩ o : ℝ) : EReal) :=
  (pay2_apply (iblk0 V c 0 t) (iblk0 V c 4 t) (iblk0 V c 3 t) (iblk0 V c 1 t) (iblk0 V c 2 t) (iblk0 V c 5 t) (iblk0 V c 6 t)
    (fun r d => X ⟨t.val * 1024 + r.val, by have := point_lt t; have := r.isLt; omega⟩ d) v μ γ β W b
    (fun r d => (iblk0_0_apply V c t r d (ix2 ⟨t.val * 1024 + r.val, by have := point_lt t; have := r.isLt; omega⟩ d) rfl rfl).trans (hX _ _))
    (fun d => (iblk0_4_apply V c t d).trans (hv d)) (fun d => (iblk0_3_apply V c t d).trans (hμ d))
    (fun d => (iblk0_1_apply V c t d).trans (hγ d)) (fun d => (iblk0_2_apply V c t d).trans (hβ d))
    (fun o d => (iblk0_5_apply V c t o d).trans (hW o d)) (fun o => (iblk0_6_apply V c t o).trans (hb o)) Cert.RealCoe.ofBits_eps hpos r o).trans rfl

set_option maxHeartbeats 1000000 in
theorem flushed7_eq (t : Fin cfg0.N) :
    (dat0 V c).flushed 7 t = ((cfg0.win 7).blk t).view.read (Elt Ideal) (G7 X γ β μ v W b) := by
  show (cfg0.win 7).cut (grid0.coords t) ((dat0 V c).after 7 t) = _
  rw [after0_7]
  unfold out0_7
  rw [View.canon_unit_zero hz2]
  simp only [View.ld_unit_zero (S := S1024x1024) hz2, View.ld_unit_zero (S := S1x1024) hz2,
    View.ld_unit_zero (S := S512x1024) hz2, View.ld_unit_zero (S := S1x512) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx0_7 t
  show k0_pay2 (F := Ideal) (iblk0 V c 0 t) (iblk0 V c 4 t) (iblk0 V c 3 t) (iblk0 V c 1 t) (iblk0 V c 2 t) (iblk0 V c 5 t) (iblk0 V c 6 t) (ix2 r o)
    = G7 X γ β μ v W b (((cfg0.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win0_7.index t (0 : Fin 2) * 1024 + 1 * r.val
    rw [e0]; omega
  · show o.val = win0_7.index t (1 : Fin 2) * Dout + 1 * o.val
    rw [e1]; omega

-- A column sum of the block is the sum over its rows of entries that are each the layer's real function.
theorem blk8_apply (t : Fin cfg0.N) (u w : Fin 1) (o : Fin Dout) :
    k0_pay3 (F := Ideal) (iblk0 V c 0 t) (iblk0 V c 4 t) (iblk0 V c 3 t) (iblk0 V c 1 t) (iblk0 V c 2 t) (iblk0 V c 5 t) (iblk0 V c 6 t) (ix3 u w o)
      = ((∑ r : Fin 1024, Cert.Spec.linK Cert.Iface.epsR X γ β μ v W b
          ⟨t.val * 1024 + r.val, by have := point_lt t; have := r.isLt; omega⟩ o : ℝ) : EReal) := by
  unfold k0_pay3
  refine (colsum_apply _ _ _ u w o).trans ?_
  rw [← Cert.RealCoe.coe_sum]
  exact Finset.sum_congr rfl fun r _ => blk7_apply V c X γ β μ v W b hX hγ hβ hμ hv hW hb hpos t r o _

theorem blk9_apply (t : Fin cfg0.N) (u w : Fin 1) (o : Fin Dout) :
    k0_pay1 (F := Ideal) (k0_pay4 (F := Ideal) (iblk0 V c 0 t) (iblk0 V c 4 t) (iblk0 V c 3 t) (iblk0 V c 1 t) (iblk0 V c 2 t) (iblk0 V c 5 t) (iblk0 V c 6 t)) (ix3 u w o)
      = ((∑ r : Fin 1024,
          Cert.Spec.linK Cert.Iface.epsR X γ β μ v W b ⟨t.val * 1024 + r.val, by have := point_lt t; have := r.isLt; omega⟩ o
          * Cert.Spec.linK Cert.Iface.epsR X γ β μ v W b ⟨t.val * 1024 + r.val, by have := point_lt t; have := r.isLt; omega⟩ o : ℝ) : EReal) := by
  unfold k0_pay1 k0_pay4
  refine (colsum_apply _ _ _ u w o).trans ?_
  rw [← Cert.RealCoe.coe_sum]
  refine Finset.sum_congr rfl fun r _ => ?_
  rw [mulf_apply, blk7_apply V c X γ β μ v W b hX hγ hβ hμ hv hW hb hpos t r o (by have := point_lt t; have := r.isLt; omega), ← EReal.coe_mul]

set_option maxHeartbeats 1000000 in
theorem flushed8_eq (t : Fin cfg0.N) :
    (dat0 V c).flushed 8 t = ((cfg0.win 8).blk t).view.read (Elt Ideal) (G8 X γ β μ v W b) := by
  show (cfg0.win 8).cut (grid0.coords t) ((dat0 V c).after 8 t) = _
  rw [after0_8]
  unfold out0_8
  rw [View.canon_unit_zero hz3]
  simp only [View.ld_unit_zero (S := S1024x1024) hz2, View.ld_unit_zero (S := S1x1024) hz2,
    View.ld_unit_zero (S := S512x1024) hz2, View.ld_unit_zero (S := S1x512) hz2]
  funext j
  obtain ⟨u, w, o, rfl⟩ : ∃ (u w : Fin 1) (o : Fin Dout), j = ix3 u w o := ⟨j 0, j 1, j 2, eq_ix3 j⟩
  obtain ⟨e0, e1, e2⟩ := widx0_8 t
  show k0_pay3 (F := Ideal) (iblk0 V c 0 t) (iblk0 V c 4 t) (iblk0 V c 3 t) (iblk0 V c 1 t) (iblk0 V c 2 t) (iblk0 V c 5 t) (iblk0 V c 6 t) (ix3 u w o)
    = G8 X γ β μ v W b (((cfg0.win 8).blk t).view.emb (ix3 u w o))
  rw [blk8_apply V c X γ β μ v W b hX hγ hβ hμ hv hW hb hpos t u w o]
  unfold G8
  refine congrArg _ (Finset.sum_congr rfl fun r _ => linK_congr X γ β μ v W b _ _ _ _ ?_ ?_)
  · show t.val * 1024 + r.val = (win0_8.index t (0 : Fin 3) * 1 + 1 * u.val) * 1024 + r.val
    rw [e0]; have := u.isLt; omega
  · show o.val = win0_8.index t (2 : Fin 3) * Dout + 1 * o.val
    rw [e2]; omega

set_option maxHeartbeats 1000000 in
theorem flushed9_eq (t : Fin cfg0.N) :
    (dat0 V c).flushed 9 t = ((cfg0.win 9).blk t).view.read (Elt Ideal) (G9 X γ β μ v W b) := by
  show (cfg0.win 9).cut (grid0.coords t) ((dat0 V c).after 9 t) = _
  rw [after0_9]
  unfold out0_9
  rw [View.canon_unit_zero hz3]
  simp only [View.ld_unit_zero (S := S1024x1024) hz2, View.ld_unit_zero (S := S1x1024) hz2,
    View.ld_unit_zero (S := S512x1024) hz2, View.ld_unit_zero (S := S1x512) hz2]
  funext j
  obtain ⟨u, w, o, rfl⟩ : ∃ (u w : Fin 1) (o : Fin Dout), j = ix3 u w o := ⟨j 0, j 1, j 2, eq_ix3 j⟩
  obtain ⟨e0, e1, e2⟩ := widx0_9 t
  show k0_pay1 (F := Ideal) (k0_pay4 (F := Ideal) (iblk0 V c 0 t) (iblk0 V c 4 t) (iblk0 V c 3 t) (iblk0 V c 1 t) (iblk0 V c 2 t) (iblk0 V c 5 t) (iblk0 V c 6 t)) (ix3 u w o)
    = G9 X γ β μ v W b (((cfg0.win 9).blk t).view.emb (ix3 u w o))
  rw [blk9_apply V c X γ β μ v W b hX hγ hβ hμ hv hW hb hpos t u w o]
  unfold G9
  have hr : ∀ r : Fin 1024, t.val * 1024 + r.val = (win0_9.index t (0 : Fin 3) * 1 + 1 * u.val) * 1024 + r.val := fun r => by
    rw [e0]; have := u.isLt; omega
  have ho : o.val = win0_9.index t (2 : Fin 3) * Dout + 1 * o.val := by rw [e2]; omega
  refine congrArg _ (Finset.sum_congr rfl fun r _ => ?_)
  refine congrArg₂ (fun a a' : ℝ => a * a') (linK_congr X γ β μ v W b _ _ _ _ ?_ ?_) (linK_congr X γ β μ v W b _ _ _ _ ?_ ?_)
  · exact hr r
  · exact ho
  · exact hr r
  · exact ho

theorem arrAt7_apply (p : Fin Nrow) (o : Fin Dout) :
    ((dat0 V c).arrAt 7 cfg0.N : S4096x512.Idx → EReal) (ix2 p o)
      = ((Cert.Spec.linK Cert.Iface.epsR X γ β μ v W b p o : ℝ) : EReal) :=
  congrFun ((dat0 V c).arrAt_eq_of_cover 7 (G7 X γ β μ v W b) (fun t _ => flushed7_eq V c X γ β μ v W b hX hγ hβ hμ hv hW hb hpos t) cover7) (ix2 p o)

theorem arrAt8_apply (t : Fin Nblk) (o : Fin Dout) (h : ∀ r : Fin 1024, t.val * 1024 + r.val < Nrow) :
    ((dat0 V c).arrAt 8 cfg0.N : S4x1x512.Idx → EReal) (ix3 t 0 o)
      = ((∑ r : Fin 1024, Cert.Spec.linK Cert.Iface.epsR X γ β μ v W b ⟨t.val * 1024 + r.val, h r⟩ o : ℝ) : EReal) :=
  congrFun ((dat0 V c).arrAt_eq_of_cover 8 (G8 X γ β μ v W b) (fun t _ => flushed8_eq V c X γ β μ v W b hX hγ hβ hμ hv hW hb hpos t) cover8) (ix3 t 0 o)

theorem arrAt9_apply (t : Fin Nblk) (o : Fin Dout) (h : ∀ r : Fin 1024, t.val * 1024 + r.val < Nrow) :
    ((dat0 V c).arrAt 9 cfg0.N : S4x1x512.Idx → EReal) (ix3 t 0 o)
      = ((∑ r : Fin 1024, Cert.Spec.linK Cert.Iface.epsR X γ β μ v W b ⟨t.val * 1024 + r.val, h r⟩ o
          * Cert.Spec.linK Cert.Iface.epsR X γ β μ v W b ⟨t.val * 1024 + r.val, h r⟩ o : ℝ) : EReal) :=
  congrFun ((dat0 V c).arrAt_eq_of_cover 9 (G9 X γ β μ v W b) (fun t _ => flushed9_eq V c X γ β μ v W b hX hγ hβ hμ hv hW hb hpos t) cover9) (ix3 t 0 o)

end Final

end Cert.KernelIdeal.HandValue.Enc0

end
-- ==== Proof.KI.EncVal1.lean ====
import proofs.«428610_j54915451847256_3_alg».proof.Proof.KI.Enc1
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 4096
local notation "Nblk" => 4
local notation "Din" => 512
local notation "Dout" => 256

section Pay

-- One axis is contracted, so the product at (r, o) is the sum over that axis of row r of one factor times row o of the other.
theorem matmulBlk_apply (l : FVec Ideal S1024x512 .bf16) (w : FVec Ideal S256x512 .bf16) (r : Fin 1024) (o : Fin Dout) :
    matmul dot_S1024x512_S256x512_S1024x256_1_1_0_0_n_n none l w (constant (F := Ideal) S1024x256 .f32 0x00000000#32) (ix2 r o)
      = ∑ d : Fin Din, l (ix2 r d) * w (ix2 o d) := by
  simp only [matmul]
  rw [Ideal.matmul_constant_zero_apply, ← Equiv.sum_comp (ValueIdx.contrEquiv1 dot_S1024x512_S256x512_S1024x256_1_1_0_0_n_n Din rfl rfl).symm]
  refine Finset.sum_congr rfl fun k _ => ?_
  have hk := ValueIdx.contrEquiv1_symm_val dot_S1024x512_S256x512_S1024x256_1_1_0_0_n_n Din rfl rfl k
  have el : dot_S1024x512_S256x512_S1024x256_1_1_0_0_n_n.lhsIdx (ix2 r o) ((ValueIdx.contrEquiv1 dot_S1024x512_S256x512_S1024x256_1_1_0_0_n_n Din rfl rfl).symm k) = ix2 r k := funext fun a => Fin.ext (by
    match a with
    | ⟨0, _⟩ => rfl
    | ⟨1, _⟩ => exact (dot_S1024x512_S256x512_S1024x256_1_1_0_0_n_n.lhsIdx_val_of_single rfl _ _).trans hk)
  have er : dot_S1024x512_S256x512_S1024x256_1_1_0_0_n_n.rhsIdx (ix2 r o) ((ValueIdx.contrEquiv1 dot_S1024x512_S256x512_S1024x256_1_1_0_0_n_n Din rfl rfl).symm k) = ix2 o k := funext fun a => Fin.ext (by
    match a with
    | ⟨0, _⟩ => rfl
    | ⟨1, _⟩ => exact (dot_S1024x512_S256x512_S1024x256_1_1_0_0_n_n.rhsIdx_val_of_single rfl _ _).trans hk)
  rw [el, er]

-- On real entries every step of the layer is the real operation; a variance plus the offset is positive, so its reciprocal square root is real.
theorem pay2_apply (v0 : Vec Ideal S1024x512 .f32) (v1 v6 v12 v16 : Vec Ideal S1x512 .f32) (v21 : Vec Ideal S256x512 .f32) (v24 : Vec Ideal S1x256 .f32)
    (x : Fin 1024 → Fin Din → ℝ) (vr μ γ β : Fin Din → ℝ) (W : Fin Dout → Fin Din → ℝ) (b : Fin Dout → ℝ)
    (h0 : ∀ r d, v0 (ix2 r d) = ((x r d : ℝ) : EReal)) (h1 : ∀ d, v1 (ix2 0 d) = ((vr d : ℝ) : EReal))
    (h6 : ∀ d, v6 (ix2 0 d) = ((μ d : ℝ) : EReal)) (h12 : ∀ d, v12 (ix2 0 d) = ((γ d : ℝ) : EReal))
    (h16 : ∀ d, v16 (ix2 0 d) = ((β d : ℝ) : EReal)) (h21 : ∀ o d, v21 (ix2 o d) = ((W o d : ℝ) : EReal))
    (h24 : ∀ o, v24 (ix2 0 o) = ((b o : ℝ) : EReal))
    (hε : Ideal.ofBits .f32 0x3727C5AC#32 = ((Cert.Iface.epsR : ℝ) : EReal))
    (hv : ∀ d, 0 < vr d + Cert.Iface.epsR) (r : Fin 1024) (o : Fin Dout) :
    k1_pay2 (F := Ideal) v0 v1 v6 v12 v16 v21 v24 (ix2 r o) = ((Cert.Spec.linK Cert.Iface.epsR x γ β μ vr W b r o : ℝ) : EReal) := by
  unfold k1_pay2
  simp only [shapeCast_self]
  rw [Cert.RealCoe.tanh_apply, addf_apply, matmulBlk_apply, broadcastTo_1b_ab_apply, h24]
  simp only [truncf_apply, addf_apply, mulf_apply, subf_apply, broadcastTo_1b_ab_apply, Cert.RealCoe.rsqrt_apply, broadcast_apply,
    Ideal.ofBits_def, h0, h1, h6, h12, h16, h21, hε]
  simp only [← EReal.coe_add, fun d => Cert.RealCoe.rsqrt_coe_pos (hv d), ← EReal.coe_sub, ← EReal.coe_mul]
  rw [Cert.RealCoe.coe_sum Finset.univ, ← EReal.coe_add, Ideal.tanh_coe]
  rfl

-- Index (u, w, o) of shape [1, 1, n] and index o of shape [n] have the same row-major position.
theorem colsum_apply (src : FVec Ideal S1024x256 .f32) (hφ : FKind.Formats .f32)
    (hacc : (0x00000000#32 : BitVec 32) = FKind.add.neutral .f32 hφ) (u w : Fin 1) (o : Fin Dout) :
    shapeCast S1x1x256 (multiReduction .add [0] S256 src 0x00000000#32 reduces_S1024x256_S256 hφ hacc) shapeCasts_S256_S1x1x256 (ix3 u w o)
      = ∑ r : Fin 1024, src (ix2 r o) := by
  refine (shapeCast_apply _ shapeCasts_S256_S1x1x256 (ix3 u w o) (ix1 o) ?_).trans ?_
  · rw [Shape.rowMajor_val_one, Shape.rowMajor_val_three]
    show o.val = (u.val * 1 + w.val) * Dout + o.val
    omega
  · refine (Ideal.multiReduction_add_single src 0x00000000#32 reduces_S1024x256_S256 hφ hacc (ix1 o)).trans ?_
    refine Finset.sum_congr rfl fun k _ => congrArg src ?_
    funext a
    match a with
    | ⟨0, _⟩ => rfl
    | ⟨1, _⟩ => rfl

end Pay

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg1.N) : t.val < Nblk := by
  have h : t.val < cfg1.N := t.isLt
  have e : cfg1.N = Nblk := N_1
  omega

theorem widx1_0 : ∀ t : Fin cfg1.N, win1_0.index t (0 : Fin 2) = t.val ∧ win1_0.index t (1 : Fin 2) = 0 :=
  (by decide +kernel : ∀ t : Fin grid1.N, _)
theorem widx1_1 : ∀ (t : Fin cfg1.N) (a : Fin 2), win1_1.index t a = 0 := (by decide +kernel : ∀ (t : Fin grid1.N) (a : Fin 2), _)
theorem widx1_2 : ∀ (t : Fin cfg1.N) (a : Fin 2), win1_2.index t a = 0 := (by decide +kernel : ∀ (t : Fin grid1.N) (a : Fin 2), _)
theorem widx1_3 : ∀ (t : Fin cfg1.N) (a : Fin 2), win1_3.index t a = 0 := (by decide +kernel : ∀ (t : Fin grid1.N) (a : Fin 2), _)
theorem widx1_4 : ∀ (t : Fin cfg1.N) (a : Fin 2), win1_4.index t a = 0 := (by decide +kernel : ∀ (t : Fin grid1.N) (a : Fin 2), _)
theorem widx1_5 : ∀ (t : Fin cfg1.N) (a : Fin 2), win1_5.index t a = 0 := (by decide +kernel : ∀ (t : Fin grid1.N) (a : Fin 2), _)
theorem widx1_6 : ∀ (t : Fin cfg1.N) (a : Fin 2), win1_6.index t a = 0 := (by decide +kernel : ∀ (t : Fin grid1.N) (a : Fin 2), _)
theorem widx1_7 : ∀ t : Fin cfg1.N, win1_7.index t (0 : Fin 2) = t.val ∧ win1_7.index t (1 : Fin 2) = 0 :=
  (by decide +kernel : ∀ t : Fin grid1.N, _)
theorem widx1_8 : ∀ t : Fin cfg1.N, win1_8.index t (0 : Fin 3) = t.val ∧ win1_8.index t (1 : Fin 3) = 0 ∧ win1_8.index t (2 : Fin 3) = 0 :=
  (by decide +kernel : ∀ t : Fin grid1.N, _)
theorem widx1_9 : ∀ t : Fin cfg1.N, win1_9.index t (0 : Fin 3) = t.val ∧ win1_9.index t (1 : Fin 3) = 0 ∧ win1_9.index t (2 : Fin 3) = 0 :=
  (by decide +kernel : ∀ t : Fin grid1.N, _)

section Arrays
variable (V : (c : Dev nD) → (b : Ref sig .tc) → Buf (Elt Ideal) ((c : Thread nD τ).loc b))

theorem iblk1_0_apply (c : Dev nD) (t : Fin cfg1.N) (r : Fin 1024) (d : Fin Din) (k : S4096x512.Idx)
    (hk0 : (k 0).val = t.val * 1024 + r.val) (hk1 : (k 1).val = d.val) :
    (iblk1 V c 0 t : Vec Ideal S1024x512 .f32) (ix2 r d) = (V c (Pipeline.arrRef spec1 0) : S4096x512.Idx → EReal) k := by
  obtain ⟨e0, e1⟩ := widx1_0 t
  unfold iblk1
  rw [View.read_apply]
  show V c (Pipeline.arrRef spec1 0) _ = V c (Pipeline.arrRef spec1 0) k
  congr 1
  funext a
  apply Fin.ext
  match a with
  | ⟨0, _⟩ => show win1_0.index t (0 : Fin 2) * 1024 + 1 * r.val = (k 0).val; rw [e0, hk0]; omega
  | ⟨1, _⟩ => show win1_0.index t (1 : Fin 2) * Din + 1 * d.val = (k 1).val; rw [e1, hk1]; omega

theorem iblk1_1_apply (c : Dev nD) (t : Fin cfg1.N) (d : Fin Din) :
    (iblk1 V c 1 t : Vec Ideal S1x512 .f32) (ix2 0 d) = (V c (Pipeline.arrRef spec1 1) : S1x512.Idx → EReal) (ix2 0 d) :=
  congrArg (V c (Pipeline.arrRef spec1 1) : S1x512.Idx → EReal) (funext fun a => Fin.ext (win1_1.rect_emb_val_of_index_zero t a (widx1_1 t a) _))
theorem iblk1_2_apply (c : Dev nD) (t : Fin cfg1.N) (d : Fin Din) :
    (iblk1 V c 2 t : Vec Ideal S1x512 .f32) (ix2 0 d) = (V c (Pipeline.arrRef spec1 2) : S1x512.Idx → EReal) (ix2 0 d) :=
  congrArg (V c (Pipeline.arrRef spec1 2) : S1x512.Idx → EReal) (funext fun a => Fin.ext (win1_2.rect_emb_val_of_index_zero t a (widx1_2 t a) _))
theorem iblk1_3_apply (c : Dev nD) (t : Fin cfg1.N) (d : Fin Din) :
    (iblk1 V c 3 t : Vec Ideal S1x512 .f32) (ix2 0 d) = (V c (Pipeline.arrRef spec1 3) : S1x512.Idx → EReal) (ix2 0 d) :=
  congrArg (V c (Pipeline.arrRef spec1 3) : S1x512.Idx → EReal) (funext fun a => Fin.ext (win1_3.rect_emb_val_of_index_zero t a (widx1_3 t a) _))
theorem iblk1_4_apply (c : Dev nD) (t : Fin cfg1.N) (d : Fin Din) :
    (iblk1 V c 4 t : Vec Ideal S1x512 .f32) (ix2 0 d) = (V c (Pipeline.arrRef spec1 4) : S1x512.Idx → EReal) (ix2 0 d) :=
  congrArg (V c (Pipeline.arrRef spec1 4) : S1x512.Idx → EReal) (funext fun a => Fin.ext (win1_4.rect_emb_val_of_index_zero t a (widx1_4 t a) _))
theorem iblk1_5_apply (c : Dev nD) (t : Fin cfg1.N) (o : Fin Dout) (d : Fin Din) :
    (iblk1 V c 5 t : Vec Ideal S256x512 .f32) (ix2 o d) = (V c (Pipeline.arrRef spec1 5) : S256x512.Idx → EReal) (ix2 o d) :=
  congrArg (V c (Pipeline.arrRef spec1 5) : S256x512.Idx → EReal) (funext fun a => Fin.ext (win1_5.rect_emb_val_of_index_zero t a (widx1_5 t a) _))
theorem iblk1_6_apply (c : Dev nD) (t : Fin cfg1.N) (o : Fin Dout) :
    (iblk1 V c 6 t : Vec Ideal S1x256 .f32) (ix2 0 o) = (V c (Pipeline.arrRef spec1 6) : S1x256.Idx → EReal) (ix2 0 o) :=
  congrArg (V c (Pipeline.arrRef spec1 6) : S1x256.Idx → EReal) (funext fun a => Fin.ext (win1_6.rect_emb_val_of_index_zero t a (widx1_6 t a) _))
end Arrays

theorem mem_blk7 (t : Fin cfg1.N) (i : S4096x256.Idx) :
    i ∈ ((cfg1.win 7).blk t).view.set ↔ (win1_7.index t 0 * 1024 ≤ (i 0).val ∧ (i 0).val < win1_7.index t 0 * 1024 + 1024)
      ∧ (win1_7.index t 1 * Dout ≤ (i 1).val ∧ (i 1).val < win1_7.index t 1 * Dout + Dout) := by
  show i ∈ ((View.whole main_v28_0).slice (win1_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S4096x256.Idx) : ∃ t : Fin cfg1.N, (cfg1.win 7).flush t = true ∧ i ∈ ((cfg1.win 7).blk t).view.set := by
  have hi0 : (i 0).val < Nrow := (i 0).isLt
  have hi1 : (i 1).val < Dout := (i 1).isLt
  have ht : (i 0).val / 1024 < cfg1.N := by have hN : cfg1.N = Nblk := N_1; omega
  obtain ⟨e0, e1⟩ := widx1_7 ⟨_, ht⟩
  have e0' : win1_7.index ⟨_, ht⟩ (0 : Fin 2) = (i 0).val / 1024 := e0
  refine ⟨⟨_, ht⟩, flush1_7 _, (mem_blk7 _ i).mpr ?_⟩
  rw [e0', e1]
  omega

theorem mem_blk8 (t : Fin cfg1.N) (i : S4x1x256.Idx) :
    i ∈ ((cfg1.win 8).blk t).view.set ↔ (win1_8.index t 0 * 1 ≤ (i 0).val ∧ (i 0).val < win1_8.index t 0 * 1 + 1)
      ∧ (win1_8.index t 1 * 1 ≤ (i 1).val ∧ (i 1).val < win1_8.index t 1 * 1 + 1)
      ∧ (win1_8.index t 2 * Dout ≤ (i 2).val ∧ (i 2).val < win1_8.index t 2 * Dout + Dout) := by
  show i ∈ ((View.whole main_v28_1).slice (win1_8.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover8 (i : S4x1x256.Idx) : ∃ t : Fin cfg1.N, (cfg1.win 8).flush t = true ∧ i ∈ ((cfg1.win 8).blk t).view.set := by
  have hi0 : (i 0).val < Nblk := (i 0).isLt
  have hi1 : (i 1).val < 1 := (i 1).isLt
  have hi2 : (i 2).val < Dout := (i 2).isLt
  have ht : (i 0).val < cfg1.N := by have hN : cfg1.N = Nblk := N_1; omega
  obtain ⟨e0, e1, e2⟩ := widx1_8 ⟨_, ht⟩
  have e0' : win1_8.index ⟨_, ht⟩ (0 : Fin 3) = (i 0).val := e0
  refine ⟨⟨_, ht⟩, flush1_8 _, (mem_blk8 _ i).mpr ?_⟩
  rw [e0', e1, e2]
  omega

theorem mem_blk9 (t : Fin cfg1.N) (i : S4x1x256.Idx) :
    i ∈ ((cfg1.win 9).blk t).view.set ↔ (win1_9.index t 0 * 1 ≤ (i 0).val ∧ (i 0).val < win1_9.index t 0 * 1 + 1)
      ∧ (win1_9.index t 1 * 1 ≤ (i 1).val ∧ (i 1).val < win1_9.index t 1 * 1 + 1)
      ∧ (win1_9.index t 2 * Dout ≤ (i 2).val ∧ (i 2).val < win1_9.index t 2 * Dout + Dout) := by
  show i ∈ ((View.whole main_v28_2).slice (win1_9.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover9 (i : S4x1x256.Idx) : ∃ t : Fin cfg1.N, (cfg1.win 9).flush t = true ∧ i ∈ ((cfg1.win 9).blk t).view.set := by
  have hi0 : (i 0).val < Nblk := (i 0).isLt
  have hi1 : (i 1).val < 1 := (i 1).isLt
  have hi2 : (i 2).val < Dout := (i 2).isLt
  have ht : (i 0).val < cfg1.N := by have hN : cfg1.N = Nblk := N_1; omega
  obtain ⟨e0, e1, e2⟩ := widx1_9 ⟨_, ht⟩
  have e0' : win1_9.index ⟨_, ht⟩ (0 : Fin 3) = (i 0).val := e0
  refine ⟨⟨_, ht⟩, flush1_9 _, (mem_blk9 _ i).mpr ?_⟩
  rw [e0', e1, e2]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S4096x256.Idx → EReal :=
  fun i => ((Cert.Spec.linK Cert.Iface.epsR X γ β μ v W b ⟨(i 0).val, idx2_lt0 i⟩ ⟨(i 1).val, idx2_lt1 i⟩ : ℝ) : EReal)

def G8 : S4x1x256.Idx → EReal :=
  fun i => ((∑ r : Fin 1024, Cert.Spec.linK Cert.Iface.epsR X γ β μ v W b
      ⟨(i 0).val * 1024 + r.val, by have h : (i 0).val < Nblk := (i 0).isLt; have := r.isLt; omega⟩ ⟨(i 2).val, (i 2).isLt⟩ : ℝ) : EReal)

def G9 : S4x1x256.Idx → EReal :=
  fun i => ((∑ r : Fin 1024,
      Cert.Spec.linK Cert.Iface.epsR X γ β μ v W b
        ⟨(i 0).val * 1024 + r.val, by have h : (i 0).val < Nblk := (i 0).isLt; have := r.isLt; omega⟩ ⟨(i 2).val, (i 2).isLt⟩
      * Cert.Spec.linK Cert.Iface.epsR X γ β μ v W b
        ⟨(i 0).val * 1024 + r.val, by have h : (i 0).val < Nblk := (i 0).isLt; have := r.isLt; omega⟩ ⟨(i 2).val, (i 2).isLt⟩ : ℝ) : EReal)

variable (hX : ∀ p q, (V c (Pipeline.arrRef spec1 0) : S4096x512.Idx → EReal) (ix2 p q) = ((X p q : ℝ) : EReal))
    (hγ : ∀ d, (V c (Pipeline.arrRef spec1 1) : S1x512.Idx → EReal) (ix2 0 d) = ((γ d : ℝ) : EReal))
    (hβ : ∀ d, (V c (Pipeline.arrRef spec1 2) : S1x512.Idx → EReal) (ix2 0 d) = ((β d : ℝ) : EReal))
    (hμ : ∀ d, (V c (Pipeline.arrRef spec1 3) : S1x512.Idx → EReal) (ix2 0 d) = ((μ d : ℝ) : EReal))
    (hv : ∀ d, (V c (Pipeline.arrRef spec1 4) : S1x512.Idx → EReal) (ix2 0 d) = ((v d : ℝ) : EReal))
    (hW : ∀ o d, (V c (Pipeline.arrRef spec1 5) : S256x512.Idx → EReal) (ix2 o d) = ((W o d : ℝ) : EReal))
    (hb : ∀ o, (V c (Pipeline.arrRef spec1 6) : S1x256.Idx → EReal) (ix2 0 o) = ((b o : ℝ) : EReal))
    (hpos : ∀ d, 0 < v d + Cert.Iface.epsR)
include hX hγ hβ hμ hv hW hb hpos

theorem blk7_apply (t : Fin cfg1.N) (r : Fin 1024) (o : Fin Dout) (hlt : t.val * 1024 + r.val < Nrow) :
    k1_pay2 (F := Ideal) (iblk1 V c 0 t) (iblk1 V c 4 t) (iblk1 V c 3 t) (iblk1 V c 1 t) (iblk1 V c 2 t) (iblk1 V c 5 t) (iblk1 V c 6 t) (ix2 r o)
      = ((Cert.Spec.linK Cert.Iface.epsR X γ β μ v W b ⟨t.val * 1024 + r.val, hlt⟩ o : ℝ) : EReal) :=
  (pay2_apply (iblk1 V c 0 t) (iblk1 V c 4 t) (iblk1 V c 3 t) (iblk1 V c 1 t) (iblk1 V c 2 t) (iblk1 V c 5 t) (iblk1 V c 6 t)
    (fun r d => X ⟨t.val * 1024 + r.val, by have := point_lt t; have := r.isLt; omega⟩ d) v μ γ β W b
    (fun r d => (iblk1_0_apply V c t r d (ix2 ⟨t.val * 1024 + r.val, by have := point_lt t; have := r.isLt; omega⟩ d) rfl rfl).trans (hX _ _))
    (fun d => (iblk1_4_apply V c t d).trans (hv d)) (fun d => (iblk1_3_apply V c t d).trans (hμ d))
    (fun d => (iblk1_1_apply V c t d).trans (hγ d)) (fun d => (iblk1_2_apply V c t d).trans (hβ d))
    (fun o d => (iblk1_5_apply V c t o d).trans (hW o d)) (fun o => (iblk1_6_apply V c t o).trans (hb o)) Cert.RealCoe.ofBits_eps hpos r o).trans rfl

set_option maxHeartbeats 1000000 in
theorem flushed7_eq (t : Fin cfg1.N) :
    (dat1 V c).flushed 7 t = ((cfg1.win 7).blk t).view.read (Elt Ideal) (G7 X γ β μ v W b) := by
  show (cfg1.win 7).cut (grid1.coords t) ((dat1 V c).after 7 t) = _
  rw [after1_7]
  unfold out1_7
  rw [View.canon_unit_zero hz2]
  simp only [View.ld_unit_zero (S := S1024x512) hz2, View.ld_unit_zero (S := S1x512) hz2,
    View.ld_unit_zero (S := S256x512) hz2, View.ld_unit_zero (S := S1x256) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx1_7 t
  show k1_pay2 (F := Ideal) (iblk1 V c 0 t) (iblk1 V c 4 t) (iblk1 V c 3 t) (iblk1 V c 1 t) (iblk1 V c 2 t) (iblk1 V c 5 t) (iblk1 V c 6 t) (ix2 r o)
    = G7 X γ β μ v W b (((cfg1.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win1_7.index t (0 : Fin 2) * 1024 + 1 * r.val
    rw [e0]; omega
  · show o.val = win1_7.index t (1 : Fin 2) * Dout + 1 * o.val
    rw [e1]; omega

-- A column sum of the block is the sum over its rows of entries that are each the layer's real function.
theorem blk8_apply (t : Fin cfg1.N) (u w : Fin 1) (o : Fin Dout) :
    k1_pay3 (F := Ideal) (iblk1 V c 0 t) (iblk1 V c 4 t) (iblk1 V c 3 t) (iblk1 V c 1 t) (iblk1 V c 2 t) (iblk1 V c 5 t) (iblk1 V c 6 t) (ix3 u w o)
      = ((∑ r : Fin 1024, Cert.Spec.linK Cert.Iface.epsR X γ β μ v W b
          ⟨t.val * 1024 + r.val, by have := point_lt t; have := r.isLt; omega⟩ o : ℝ) : EReal) := by
  unfold k1_pay3
  refine (colsum_apply _ _ _ u w o).trans ?_
  rw [← Cert.RealCoe.coe_sum]
  exact Finset.sum_congr rfl fun r _ => blk7_apply V c X γ β μ v W b hX hγ hβ hμ hv hW hb hpos t r o _

theorem blk9_apply (t : Fin cfg1.N) (u w : Fin 1) (o : Fin Dout) :
    k1_pay1 (F := Ideal) (k1_pay4 (F := Ideal) (iblk1 V c 0 t) (iblk1 V c 4 t) (iblk1 V c 3 t) (iblk1 V c 1 t) (iblk1 V c 2 t) (iblk1 V c 5 t) (iblk1 V c 6 t)) (ix3 u w o)
      = ((∑ r : Fin 1024,
          Cert.Spec.linK Cert.Iface.epsR X γ β μ v W b ⟨t.val * 1024 + r.val, by have := point_lt t; have := r.isLt; omega⟩ o
          * Cert.Spec.linK Cert.Iface.epsR X γ β μ v W b ⟨t.val * 1024 + r.val, by have := point_lt t; have := r.isLt; omega⟩ o : ℝ) : EReal) := by
  unfold k1_pay1 k1_pay4
  refine (colsum_apply _ _ _ u w o).trans ?_
  rw [← Cert.RealCoe.coe_sum]
  refine Finset.sum_congr rfl fun r _ => ?_
  rw [mulf_apply, blk7_apply V c X γ β μ v W b hX hγ hβ hμ hv hW hb hpos t r o (by have := point_lt t; have := r.isLt; omega), ← EReal.coe_mul]

set_option maxHeartbeats 1000000 in
theorem flushed8_eq (t : Fin cfg1.N) :
    (dat1 V c).flushed 8 t = ((cfg1.win 8).blk t).view.read (Elt Ideal) (G8 X γ β μ v W b) := by
  show (cfg1.win 8).cut (grid1.coords t) ((dat1 V c).after 8 t) = _
  rw [after1_8]
  unfold out1_8
  rw [View.canon_unit_zero hz3]
  simp only [View.ld_unit_zero (S := S1024x512) hz2, View.ld_unit_zero (S := S1x512) hz2,
    View.ld_unit_zero (S := S256x512) hz2, View.ld_unit_zero (S := S1x256) hz2]
  funext j
  obtain ⟨u, w, o, rfl⟩ : ∃ (u w : Fin 1) (o : Fin Dout), j = ix3 u w o := ⟨j 0, j 1, j 2, eq_ix3 j⟩
  obtain ⟨e0, e1, e2⟩ := widx1_8 t
  show k1_pay3 (F := Ideal) (iblk1 V c 0 t) (iblk1 V c 4 t) (iblk1 V c 3 t) (iblk1 V c 1 t) (iblk1 V c 2 t) (iblk1 V c 5 t) (iblk1 V c 6 t) (ix3 u w o)
    = G8 X γ β μ v W b (((cfg1.win 8).blk t).view.emb (ix3 u w o))
  rw [blk8_apply V c X γ β μ v W b hX hγ hβ hμ hv hW hb hpos t u w o]
  unfold G8
  refine congrArg _ (Finset.sum_congr rfl fun r _ => linK_congr X γ β μ v W b _ _ _ _ ?_ ?_)
  · show t.val * 1024 + r.val = (win1_8.index t (0 : Fin 3) * 1 + 1 * u.val) * 1024 + r.val
    rw [e0]; have := u.isLt; omega
  · show o.val = win1_8.index t (2 : Fin 3) * Dout + 1 * o.val
    rw [e2]; omega

set_option maxHeartbeats 1000000 in
theorem flushed9_eq (t : Fin cfg1.N) :
    (dat1 V c).flushed 9 t = ((cfg1.win 9).blk t).view.read (Elt Ideal) (G9 X γ β μ v W b) := by
  show (cfg1.win 9).cut (grid1.coords t) ((dat1 V c).after 9 t) = _
  rw [after1_9]
  unfold out1_9
  rw [View.canon_unit_zero hz3]
  simp only [View.ld_unit_zero (S := S1024x512) hz2, View.ld_unit_zero (S := S1x512) hz2,
    View.ld_unit_zero (S := S256x512) hz2, View.ld_unit_zero (S := S1x256) hz2]
  funext j
  obtain ⟨u, w, o, rfl⟩ : ∃ (u w : Fin 1) (o : Fin Dout), j = ix3 u w o := ⟨j 0, j 1, j 2, eq_ix3 j⟩
  obtain ⟨e0, e1, e2⟩ := widx1_9 t
  show k1_pay1 (F := Ideal) (k1_pay4 (F := Ideal) (iblk1 V c 0 t) (iblk1 V c 4 t) (iblk1 V c 3 t) (iblk1 V c 1 t) (iblk1 V c 2 t) (iblk1 V c 5 t) (iblk1 V c 6 t)) (ix3 u w o)
    = G9 X γ β μ v W b (((cfg1.win 9).blk t).view.emb (ix3 u w o))
  rw [blk9_apply V c X γ β μ v W b hX hγ hβ hμ hv hW hb hpos t u w o]
  unfold G9
  have hr : ∀ r : Fin 1024, t.val * 1024 + r.val = (win1_9.index t (0 : Fin 3) * 1 + 1 * u.val) * 1024 + r.val := fun r => by
    rw [e0]; have := u.isLt; omega
  have ho : o.val = win1_9.index t (2 : Fin 3) * Dout + 1 * o.val := by rw [e2]; omega
  refine congrArg _ (Finset.sum_congr rfl fun r _ => ?_)
  refine congrArg₂ (fun a a' : ℝ => a * a') (linK_congr X γ β μ v W b _ _ _ _ ?_ ?_) (linK_congr X γ β μ v W b _ _ _ _ ?_ ?_)
  · exact hr r
  · exact ho
  · exact hr r
  · exact ho

theorem arrAt7_apply (p : Fin Nrow) (o : Fin Dout) :
    ((dat1 V c).arrAt 7 cfg1.N : S4096x256.Idx → EReal) (ix2 p o)
      = ((Cert.Spec.linK Cert.Iface.epsR X γ β μ v W b p o : ℝ) : EReal) :=
  congrFun ((dat1 V c).arrAt_eq_of_cover 7 (G7 X γ β μ v W b) (fun t _ => flushed7_eq V c X γ β μ v W b hX hγ hβ hμ hv hW hb hpos t) cover7) (ix2 p o)

theorem arrAt8_apply (t : Fin Nblk) (o : Fin Dout) (h : ∀ r : Fin 1024, t.val * 1024 + r.val < Nrow) :
    ((dat1 V c).arrAt 8 cfg1.N : S4x1x256.Idx → EReal) (ix3 t 0 o)
      = ((∑ r : Fin 1024, Cert.Spec.linK Cert.Iface.epsR X γ β μ v W b ⟨t.val * 1024 + r.val, h r⟩ o : ℝ) : EReal) :=
  congrFun ((dat1 V c).arrAt_eq_of_cover 8 (G8 X γ β μ v W b) (fun t _ => flushed8_eq V c X γ β μ v W b hX hγ hβ hμ hv hW hb hpos t) cover8) (ix3 t 0 o)

theorem arrAt9_apply (t : Fin Nblk) (o : Fin Dout) (h : ∀ r : Fin 1024, t.val * 1024 + r.val < Nrow) :
    ((dat1 V c).arrAt 9 cfg1.N : S4x1x256.Idx → EReal) (ix3 t 0 o)
      = ((∑ r : Fin 1024, Cert.Spec.linK Cert.Iface.epsR X γ β μ v W b ⟨t.val * 1024 + r.val, h r⟩ o
          * Cert.Spec.linK Cert.Iface.epsR X γ β μ v W b ⟨t.val * 1024 + r.val, h r⟩ o : ℝ) : EReal) :=
  congrFun ((dat1 V c).arrAt_eq_of_cover 9 (G9 X γ β μ v W b) (fun t _ => flushed9_eq V c X γ β μ v W b hX hγ hβ hμ hv hW hb hpos t) cover9) (ix3 t 0 o)

end Final

end Cert.KernelIdeal.HandValue.Enc1

end
-- ==== Proof.KI.EncVal2.lean ====
import proofs.«428610_j54915451847256_3_alg».proof.Proof.KI.Enc2
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 4096
local notation "Nblk" => 4
local notation "Din" => 256
local notation "Dout" => 128

section Pay

-- One axis is contracted, so the product at (r, o) is the sum over that axis of row r of one factor times row o of the other.
theorem matmulBlk_apply (l : FVec Ideal S1024x256 .bf16) (w : FVec Ideal S128x256 .bf16) (r : Fin 1024) (o : Fin Dout) :
    matmul dot_S1024x256_S128x256_S1024x128_1_1_0_0_n_n none l w (constant (F := Ideal) S1024x128 .f32 0x00000000#32) (ix2 r o)
      = ∑ d : Fin Din, l (ix2 r d) * w (ix2 o d) := by
  simp only [matmul]
  rw [Ideal.matmul_constant_zero_apply, ← Equiv.sum_comp (ValueIdx.contrEquiv1 dot_S1024x256_S128x256_S1024x128_1_1_0_0_n_n Din rfl rfl).symm]
  refine Finset.sum_congr rfl fun k _ => ?_
  have hk := ValueIdx.contrEquiv1_symm_val dot_S1024x256_S128x256_S1024x128_1_1_0_0_n_n Din rfl rfl k
  have el : dot_S1024x256_S128x256_S1024x128_1_1_0_0_n_n.lhsIdx (ix2 r o) ((ValueIdx.contrEquiv1 dot_S1024x256_S128x256_S1024x128_1_1_0_0_n_n Din rfl rfl).symm k) = ix2 r k := funext fun a => Fin.ext (by
    match a with
    | ⟨0, _⟩ => rfl
    | ⟨1, _⟩ => exact (dot_S1024x256_S128x256_S1024x128_1_1_0_0_n_n.lhsIdx_val_of_single rfl _ _).trans hk)
  have er : dot_S1024x256_S128x256_S1024x128_1_1_0_0_n_n.rhsIdx (ix2 r o) ((ValueIdx.contrEquiv1 dot_S1024x256_S128x256_S1024x128_1_1_0_0_n_n Din rfl rfl).symm k) = ix2 o k := funext fun a => Fin.ext (by
    match a with
    | ⟨0, _⟩ => rfl
    | ⟨1, _⟩ => exact (dot_S1024x256_S128x256_S1024x128_1_1_0_0_n_n.rhsIdx_val_of_single rfl _ _).trans hk)
  rw [el, er]

-- On real entries every step of the layer is the real operation; a variance plus the offset is positive, so its reciprocal square root is real.
theorem pay2_apply (v0 : Vec Ideal S1024x256 .f32) (v1 v6 v12 v16 : Vec Ideal S1x256 .f32) (v21 : Vec Ideal S128x256 .f32) (v24 : Vec Ideal S1x128 .f32)
    (x : Fin 1024 → Fin Din → ℝ) (vr μ γ β : Fin Din → ℝ) (W : Fin Dout → Fin Din → ℝ) (b : Fin Dout → ℝ)
    (h0 : ∀ r d, v0 (ix2 r d) = ((x r d : ℝ) : EReal)) (h1 : ∀ d, v1 (ix2 0 d) = ((vr d : ℝ) : EReal))
    (h6 : ∀ d, v6 (ix2 0 d) = ((μ d : ℝ) : EReal)) (h12 : ∀ d, v12 (ix2 0 d) = ((γ d : ℝ) : EReal))
    (h16 : ∀ d, v16 (ix2 0 d) = ((β d : ℝ) : EReal)) (h21 : ∀ o d, v21 (ix2 o d) = ((W o d : ℝ) : EReal))
    (h24 : ∀ o, v24 (ix2 0 o) = ((b o : ℝ) : EReal))
    (hε : Ideal.ofBits .f32 0x3727C5AC#32 = ((Cert.Iface.epsR : ℝ) : EReal))
    (hv : ∀ d, 0 < vr d + Cert.Iface.epsR) (r : Fin 1024) (o : Fin Dout) :
    k2_pay2 (F := Ideal) v0 v1 v6 v12 v16 v21 v24 (ix2 r o) = ((Cert.Spec.linK Cert.Iface.epsR x γ β μ vr W b r o : ℝ) : EReal) := by
  unfold k2_pay2
  simp only [shapeCast_self]
  rw [Cert.RealCoe.tanh_apply, addf_apply, matmulBlk_apply, broadcastTo_1b_ab_apply, h24]
  simp only [truncf_apply, addf_apply, mulf_apply, subf_apply, broadcastTo_1b_ab_apply, Cert.RealCoe.rsqrt_apply, broadcast_apply,
    Ideal.ofBits_def, h0, h1, h6, h12, h16, h21, hε]
  simp only [← EReal.coe_add, fun d => Cert.RealCoe.rsqrt_coe_pos (hv d), ← EReal.coe_sub, ← EReal.coe_mul]
  rw [Cert.RealCoe.coe_sum Finset.univ, ← EReal.coe_add, Ideal.tanh_coe]
  rfl

end Pay

theorem hz2 : (![0, 0] : Fin 2 → Nat) = fun _ => 0 := funext fun a => by fin_cases a <;> rfl

theorem point_lt (t : Fin cfg2.N) : t.val < Nblk := by
  have h : t.val < cfg2.N := t.isLt
  have e : cfg2.N = Nblk := N_2
  omega

theorem widx2_0 : ∀ t : Fin cfg2.N, win2_0.index t (0 : Fin 2) = t.val ∧ win2_0.index t (1 : Fin 2) = 0 :=
  (by decide +kernel : ∀ t : Fin grid2.N, _)
theorem widx2_1 : ∀ (t : Fin cfg2.N) (a : Fin 2), win2_1.index t a = 0 := (by decide +kernel : ∀ (t : Fin grid2.N) (a : Fin 2), _)
theorem widx2_2 : ∀ (t : Fin cfg2.N) (a : Fin 2), win2_2.index t a = 0 := (by decide +kernel : ∀ (t : Fin grid2.N) (a : Fin 2), _)
theorem widx2_3 : ∀ (t : Fin cfg2.N) (a : Fin 2), win2_3.index t a = 0 := (by decide +kernel : ∀ (t : Fin grid2.N) (a : Fin 2), _)
theorem widx2_4 : ∀ (t : Fin cfg2.N) (a : Fin 2), win2_4.index t a = 0 := (by decide +kernel : ∀ (t : Fin grid2.N) (a : Fin 2), _)
theorem widx2_5 : ∀ (t : Fin cfg2.N) (a : Fin 2), win2_5.index t a = 0 := (by decide +kernel : ∀ (t : Fin grid2.N) (a : Fin 2), _)
theorem widx2_6 : ∀ (t : Fin cfg2.N) (a : Fin 2), win2_6.index t a = 0 := (by decide +kernel : ∀ (t : Fin grid2.N) (a : Fin 2), _)
theorem widx2_7 : ∀ t : Fin cfg2.N, win2_7.index t (0 : Fin 2) = t.val ∧ win2_7.index t (1 : Fin 2) = 0 :=
  (by decide +kernel : ∀ t : Fin grid2.N, _)

section Arrays
variable (V : (c : Dev nD) → (b : Ref sig .tc) → Buf (Elt Ideal) ((c : Thread nD τ).loc b))

theorem iblk2_0_apply (c : Dev nD) (t : Fin cfg2.N) (r : Fin 1024) (d : Fin Din) (k : S4096x256.Idx)
    (hk0 : (k 0).val = t.val * 1024 + r.val) (hk1 : (k 1).val = d.val) :
    (iblk2 V c 0 t : Vec Ideal S1024x256 .f32) (ix2 r d) = (V c (Pipeline.arrRef spec2 0) : S4096x256.Idx → EReal) k := by
  obtain ⟨e0, e1⟩ := widx2_0 t
  unfold iblk2
  rw [View.read_apply]
  show V c (Pipeline.arrRef spec2 0) _ = V c (Pipeline.arrRef spec2 0) k
  congr 1
  funext a
  apply Fin.ext
  match a with
  | ⟨0, _⟩ => show win2_0.index t (0 : Fin 2) * 1024 + 1 * r.val = (k 0).val; rw [e0, hk0]; omega
  | ⟨1, _⟩ => show win2_0.index t (1 : Fin 2) * Din + 1 * d.val = (k 1).val; rw [e1, hk1]; omega

theorem iblk2_1_apply (c : Dev nD) (t : Fin cfg2.N) (d : Fin Din) :
    (iblk2 V c 1 t : Vec Ideal S1x256 .f32) (ix2 0 d) = (V c (Pipeline.arrRef spec2 1) : S1x256.Idx → EReal) (ix2 0 d) :=
  congrArg (V c (Pipeline.arrRef spec2 1) : S1x256.Idx → EReal) (funext fun a => Fin.ext (win2_1.rect_emb_val_of_index_zero t a (widx2_1 t a) _))
theorem iblk2_2_apply (c : Dev nD) (t : Fin cfg2.N) (d : Fin Din) :
    (iblk2 V c 2 t : Vec Ideal S1x256 .f32) (ix2 0 d) = (V c (Pipeline.arrRef spec2 2) : S1x256.Idx → EReal) (ix2 0 d) :=
  congrArg (V c (Pipeline.arrRef spec2 2) : S1x256.Idx → EReal) (funext fun a => Fin.ext (win2_2.rect_emb_val_of_index_zero t a (widx2_2 t a) _))
theorem iblk2_3_apply (c : Dev nD) (t : Fin cfg2.N) (d : Fin Din) :
    (iblk2 V c 3 t : Vec Ideal S1x256 .f32) (ix2 0 d) = (V c (Pipeline.arrRef spec2 3) : S1x256.Idx → EReal) (ix2 0 d) :=
  congrArg (V c (Pipeline.arrRef spec2 3) : S1x256.Idx → EReal) (funext fun a => Fin.ext (win2_3.rect_emb_val_of_index_zero t a (widx2_3 t a) _))
theorem iblk2_4_apply (c : Dev nD) (t : Fin cfg2.N) (d : Fin Din) :
    (iblk2 V c 4 t : Vec Ideal S1x256 .f32) (ix2 0 d) = (V c (Pipeline.arrRef spec2 4) : S1x256.Idx → EReal) (ix2 0 d) :=
  congrArg (V c (Pipeline.arrRef spec2 4) : S1x256.Idx → EReal) (funext fun a => Fin.ext (win2_4.rect_emb_val_of_index_zero t a (widx2_4 t a) _))
theorem iblk2_5_apply (c : Dev nD) (t : Fin cfg2.N) (o : Fin Dout) (d : Fin Din) :
    (iblk2 V c 5 t : Vec Ideal S128x256 .f32) (ix2 o d) = (V c (Pipeline.arrRef spec2 5) : S128x256.Idx → EReal) (ix2 o d) :=
  congrArg (V c (Pipeline.arrRef spec2 5) : S128x256.Idx → EReal) (funext fun a => Fin.ext (win2_5.rect_emb_val_of_index_zero t a (widx2_5 t a) _))
theorem iblk2_6_apply (c : Dev nD) (t : Fin cfg2.N) (o : Fin Dout) :
    (iblk2 V c 6 t : Vec Ideal S1x128 .f32) (ix2 0 o) = (V c (Pipeline.arrRef spec2 6) : S1x128.Idx → EReal) (ix2 0 o) :=
  congrArg (V c (Pipeline.arrRef spec2 6) : S1x128.Idx → EReal) (funext fun a => Fin.ext (win2_6.rect_emb_val_of_index_zero t a (widx2_6 t a) _))
end Arrays

theorem mem_blk7 (t : Fin cfg2.N) (i : S4096x128.Idx) :
    i ∈ ((cfg2.win 7).blk t).view.set ↔ (win2_7.index t 0 * 1024 ≤ (i 0).val ∧ (i 0).val < win2_7.index t 0 * 1024 + 1024)
      ∧ (win2_7.index t 1 * Dout ≤ (i 1).val ∧ (i 1).val < win2_7.index t 1 * Dout + Dout) := by
  show i ∈ ((View.whole main_v42_0).slice (win2_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S4096x128.Idx) : ∃ t : Fin cfg2.N, (cfg2.win 7).flush t = true ∧ i ∈ ((cfg2.win 7).blk t).view.set := by
  have hi0 : (i 0).val < Nrow := (i 0).isLt
  have hi1 : (i 1).val < Dout := (i 1).isLt
  have ht : (i 0).val / 1024 < cfg2.N := by have hN : cfg2.N = Nblk := N_2; omega
  obtain ⟨e0, e1⟩ := widx2_7 ⟨_, ht⟩
  have e0' : win2_7.index ⟨_, ht⟩ (0 : Fin 2) = (i 0).val / 1024 := e0
  refine ⟨⟨_, ht⟩, flush2_7 _, (mem_blk7 _ i).mpr ?_⟩
  rw [e0', e1]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S4096x128.Idx → EReal :=
  fun i => ((Cert.Spec.linK Cert.Iface.epsR X γ β μ v W b ⟨(i 0).val, idx2_lt0 i⟩ ⟨(i 1).val, idx2_lt1 i⟩ : ℝ) : EReal)

variable (hX : ∀ p q, (V c (Pipeline.arrRef spec2 0) : S4096x256.Idx → EReal) (ix2 p q) = ((X p q : ℝ) : EReal))
    (hγ : ∀ d, (V c (Pipeline.arrRef spec2 1) : S1x256.Idx → EReal) (ix2 0 d) = ((γ d : ℝ) : EReal))
    (hβ : ∀ d, (V c (Pipeline.arrRef spec2 2) : S1x256.Idx → EReal) (ix2 0 d) = ((β d : ℝ) : EReal))
    (hμ : ∀ d, (V c (Pipeline.arrRef spec2 3) : S1x256.Idx → EReal) (ix2 0 d) = ((μ d : ℝ) : EReal))
    (hv : ∀ d, (V c (Pipeline.arrRef spec2 4) : S1x256.Idx → EReal) (ix2 0 d) = ((v d : ℝ) : EReal))
    (hW : ∀ o d, (V c (Pipeline.arrRef spec2 5) : S128x256.Idx → EReal) (ix2 o d) = ((W o d : ℝ) : EReal))
    (hb : ∀ o, (V c (Pipeline.arrRef spec2 6) : S1x128.Idx → EReal) (ix2 0 o) = ((b o : ℝ) : EReal))
    (hpos : ∀ d, 0 < v d + Cert.Iface.epsR)
include hX hγ hβ hμ hv hW hb hpos

theorem blk7_apply (t : Fin cfg2.N) (r : Fin 1024) (o : Fin Dout) (hlt : t.val * 1024 + r.val < Nrow) :
    k2_pay3 (F := Ideal) (iblk2 V c 0 t) (iblk2 V c 4 t) (iblk2 V c 3 t) (iblk2 V c 1 t) (iblk2 V c 2 t) (iblk2 V c 5 t) (iblk2 V c 6 t) (ix2 r o)
      = ((Cert.Spec.linK Cert.Iface.epsR X γ β μ v W b ⟨t.val * 1024 + r.val, hlt⟩ o : ℝ) : EReal) := by
  unfold k2_pay3
  exact (truncf_apply _ bitsLt_bf16_f32 (ix2 r o)).trans ((pay2_apply (iblk2 V c 0 t) (iblk2 V c 4 t) (iblk2 V c 3 t) (iblk2 V c 1 t) (iblk2 V c 2 t) (iblk2 V c 5 t) (iblk2 V c 6 t)
    (fun r d => X ⟨t.val * 1024 + r.val, by have := point_lt t; have := r.isLt; omega⟩ d) v μ γ β W b
    (fun r d => (iblk2_0_apply V c t r d (ix2 ⟨t.val * 1024 + r.val, by have := point_lt t; have := r.isLt; omega⟩ d) rfl rfl).trans (hX _ _))
    (fun d => (iblk2_4_apply V c t d).trans (hv d)) (fun d => (iblk2_3_apply V c t d).trans (hμ d))
    (fun d => (iblk2_1_apply V c t d).trans (hγ d)) (fun d => (iblk2_2_apply V c t d).trans (hβ d))
    (fun o d => (iblk2_5_apply V c t o d).trans (hW o d)) (fun o => (iblk2_6_apply V c t o).trans (hb o)) Cert.RealCoe.ofBits_eps hpos r o).trans rfl)

theorem flushed7_eq (t : Fin cfg2.N) :
    (dat2 V c).flushed 7 t = ((cfg2.win 7).blk t).view.read (Elt Ideal) (G7 X γ β μ v W b) := by
  show (cfg2.win 7).cut (grid2.coords t) ((dat2 V c).after 7 t) = _
  rw [after2_7]
  unfold out2_7
  rw [View.canon_unit_zero hz2]
  simp only [View.ld_unit_zero (S := S1024x256) hz2, View.ld_unit_zero (S := S1x256) hz2,
    View.ld_unit_zero (S := S128x256) hz2, View.ld_unit_zero (S := S1x128) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx2_7 t
  show k2_pay3 (F := Ideal) (iblk2 V c 0 t) (iblk2 V c 4 t) (iblk2 V c 3 t) (iblk2 V c 1 t) (iblk2 V c 2 t) (iblk2 V c 5 t) (iblk2 V c 6 t) (ix2 r o)
    = G7 X γ β μ v W b (((cfg2.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win2_7.index t (0 : Fin 2) * 1024 + 1 * r.val
    rw [e0]; omega
  · show o.val = win2_7.index t (1 : Fin 2) * Dout + 1 * o.val
    rw [e1]; omega

theorem arrAt7_apply (p : Fin Nrow) (o : Fin Dout) :
    ((dat2 V c).arrAt 7 cfg2.N : S4096x128.Idx → EReal) (ix2 p o)
      = ((Cert.Spec.linK Cert.Iface.epsR X γ β μ v W b p o : ℝ) : EReal) :=
  congrFun ((dat2 V c).arrAt_eq_of_cover 7 (G7 X γ β μ v W b) (fun t _ => flushed7_eq V c X γ β μ v W b hX hγ hβ hμ hv hW hb hpos t) cover7) (ix2 p o)

end Final

end Cert.KernelIdeal.HandValue.Enc2

end
-- ==== Proof.KI.EncVal3.lean ====
import proofs.«428610_j54915451847256_3_alg».proof.Proof.KI.Enc3
import proofs.«428610_j54915451847256_3_alg».proof.Proof.KI.EncVal0
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc3

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 8192
local notation "Nblk" => 8
local notation "Din" => 1024
local notation "Dout" => 512

open Cert.KernelIdeal.HandValue.Enc0 (pay2_apply colsum_apply)

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg3.N) : t.val < Nblk := by
  have h : t.val < cfg3.N := t.isLt
  have e : cfg3.N = Nblk := N_3
  omega

theorem widx3_0 : ∀ t : Fin cfg3.N, win3_0.index t (0 : Fin 2) = t.val ∧ win3_0.index t (1 : Fin 2) = 0 :=
  (by decide +kernel : ∀ t : Fin grid3.N, _)
theorem widx3_1 : ∀ (t : Fin cfg3.N) (a : Fin 2), win3_1.index t a = 0 := (by decide +kernel : ∀ (t : Fin grid3.N) (a : Fin 2), _)
theorem widx3_2 : ∀ (t : Fin cfg3.N) (a : Fin 2), win3_2.index t a = 0 := (by decide +kernel : ∀ (t : Fin grid3.N) (a : Fin 2), _)
theorem widx3_3 : ∀ (t : Fin cfg3.N) (a : Fin 2), win3_3.index t a = 0 := (by decide +kernel : ∀ (t : Fin grid3.N) (a : Fin 2), _)
theorem widx3_4 : ∀ (t : Fin cfg3.N) (a : Fin 2), win3_4.index t a = 0 := (by decide +kernel : ∀ (t : Fin grid3.N) (a : Fin 2), _)
theorem widx3_5 : ∀ (t : Fin cfg3.N) (a : Fin 2), win3_5.index t a = 0 := (by decide +kernel : ∀ (t : Fin grid3.N) (a : Fin 2), _)
theorem widx3_6 : ∀ (t : Fin cfg3.N) (a : Fin 2), win3_6.index t a = 0 := (by decide +kernel : ∀ (t : Fin grid3.N) (a : Fin 2), _)
theorem widx3_7 : ∀ t : Fin cfg3.N, win3_7.index t (0 : Fin 2) = t.val ∧ win3_7.index t (1 : Fin 2) = 0 :=
  (by decide +kernel : ∀ t : Fin grid3.N, _)
theorem widx3_8 : ∀ t : Fin cfg3.N, win3_8.index t (0 : Fin 3) = t.val ∧ win3_8.index t (1 : Fin 3) = 0 ∧ win3_8.index t (2 : Fin 3) = 0 :=
  (by decide +kernel : ∀ t : Fin grid3.N, _)
theorem widx3_9 : ∀ t : Fin cfg3.N, win3_9.index t (0 : Fin 3) = t.val ∧ win3_9.index t (1 : Fin 3) = 0 ∧ win3_9.index t (2 : Fin 3) = 0 :=
  (by decide +kernel : ∀ t : Fin grid3.N, _)

section Arrays
variable (V : (c : Dev nD) → (b : Ref sig .tc) → Buf (Elt Ideal) ((c : Thread nD τ).loc b))

theorem iblk3_0_apply (c : Dev nD) (t : Fin cfg3.N) (r : Fin 1024) (d : Fin Din) (k : S8192x1024.Idx)
    (hk0 : (k 0).val = t.val * 1024 + r.val) (hk1 : (k 1).val = d.val) :
    (iblk3 V c 0 t : Vec Ideal S1024x1024 .f32) (ix2 r d) = (V c (Pipeline.arrRef spec3 0) : S8192x1024.Idx → EReal) k := by
  obtain ⟨e0, e1⟩ := widx3_0 t
  unfold iblk3
  rw [View.read_apply]
  show V c (Pipeline.arrRef spec3 0) _ = V c (Pipeline.arrRef spec3 0) k
  congr 1
  funext a
  apply Fin.ext
  match a with
  | ⟨0, _⟩ => show win3_0.index t (0 : Fin 2) * 1024 + 1 * r.val = (k 0).val; rw [e0, hk0]; omega
  | ⟨1, _⟩ => show win3_0.index t (1 : Fin 2) * Din + 1 * d.val = (k 1).val; rw [e1, hk1]; omega

theorem iblk3_1_apply (c : Dev nD) (t : Fin cfg3.N) (d : Fin Din) :
    (iblk3 V c 1 t : Vec Ideal S1x1024 .f32) (ix2 0 d) = (V c (Pipeline.arrRef spec3 1) : S1x1024.Idx → EReal) (ix2 0 d) :=
  congrArg (V c (Pipeline.arrRef spec3 1) : S1x1024.Idx → EReal) (funext fun a => Fin.ext (win3_1.rect_emb_val_of_index_zero t a (widx3_1 t a) _))
theorem iblk3_2_apply (c : Dev nD) (t : Fin cfg3.N) (d : Fin Din) :
    (iblk3 V c 2 t : Vec Ideal S1x1024 .f32) (ix2 0 d) = (V c (Pipeline.arrRef spec3 2) : S1x1024.Idx → EReal) (ix2 0 d) :=
  congrArg (V c (Pipeline.arrRef spec3 2) : S1x1024.Idx → EReal) (funext fun a => Fin.ext (win3_2.rect_emb_val_of_index_zero t a (widx3_2 t a) _))
theorem iblk3_3_apply (c : Dev nD) (t : Fin cfg3.N) (d : Fin Din) :
    (iblk3 V c 3 t : Vec Ideal S1x1024 .f32) (ix2 0 d) = (V c (Pipeline.arrRef spec3 3) : S1x1024.Idx → EReal) (ix2 0 d) :=
  congrArg (V c (Pipeline.arrRef spec3 3) : S1x1024.Idx → EReal) (funext fun a => Fin.ext (win3_3.rect_emb_val_of_index_zero t a (widx3_3 t a) _))
theorem iblk3_4_apply (c : Dev nD) (t : Fin cfg3.N) (d : Fin Din) :
    (iblk3 V c 4 t : Vec Ideal S1x1024 .f32) (ix2 0 d) = (V c (Pipeline.arrRef spec3 4) : S1x1024.Idx → EReal) (ix2 0 d) :=
  congrArg (V c (Pipeline.arrRef spec3 4) : S1x1024.Idx → EReal) (funext fun a => Fin.ext (win3_4.rect_emb_val_of_index_zero t a (widx3_4 t a) _))
theorem iblk3_5_apply (c : Dev nD) (t : Fin cfg3.N) (o : Fin Dout) (d : Fin Din) :
    (iblk3 V c 5 t : Vec Ideal S512x1024 .f32) (ix2 o d) = (V c (Pipeline.arrRef spec3 5) : S512x1024.Idx → EReal) (ix2 o d) :=
  congrArg (V c (Pipeline.arrRef spec3 5) : S512x1024.Idx → EReal) (funext fun a => Fin.ext (win3_5.rect_emb_val_of_index_zero t a (widx3_5 t a) _))
theorem iblk3_6_apply (c : Dev nD) (t : Fin cfg3.N) (o : Fin Dout) :
    (iblk3 V c 6 t : Vec Ideal S1x512 .f32) (ix2 0 o) = (V c (Pipeline.arrRef spec3 6) : S1x512.Idx → EReal) (ix2 0 o) :=
  congrArg (V c (Pipeline.arrRef spec3 6) : S1x512.Idx → EReal) (funext fun a => Fin.ext (win3_6.rect_emb_val_of_index_zero t a (widx3_6 t a) _))
end Arrays

theorem mem_blk7 (t : Fin cfg3.N) (i : S8192x512.Idx) :
    i ∈ ((cfg3.win 7).blk t).view.set ↔ (win3_7.index t 0 * 1024 ≤ (i 0).val ∧ (i 0).val < win3_7.index t 0 * 1024 + 1024)
      ∧ (win3_7.index t 1 * Dout ≤ (i 1).val ∧ (i 1).val < win3_7.index t 1 * Dout + Dout) := by
  show i ∈ ((View.whole main_v57_0).slice (win3_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S8192x512.Idx) : ∃ t : Fin cfg3.N, (cfg3.win 7).flush t = true ∧ i ∈ ((cfg3.win 7).blk t).view.set := by
  have hi0 : (i 0).val < Nrow := (i 0).isLt
  have hi1 : (i 1).val < Dout := (i 1).isLt
  have ht : (i 0).val / 1024 < cfg3.N := by have hN : cfg3.N = Nblk := N_3; omega
  obtain ⟨e0, e1⟩ := widx3_7 ⟨_, ht⟩
  have e0' : win3_7.index ⟨_, ht⟩ (0 : Fin 2) = (i 0).val / 1024 := e0
  refine ⟨⟨_, ht⟩, flush3_7 _, (mem_blk7 _ i).mpr ?_⟩
  rw [e0', e1]
  omega

theorem mem_blk8 (t : Fin cfg3.N) (i : S8x1x512.Idx) :
    i ∈ ((cfg3.win 8).blk t).view.set ↔ (win3_8.index t 0 * 1 ≤ (i 0).val ∧ (i 0).val < win3_8.index t 0 * 1 + 1)
      ∧ (win3_8.index t 1 * 1 ≤ (i 1).val ∧ (i 1).val < win3_8.index t 1 * 1 + 1)
      ∧ (win3_8.index t 2 * Dout ≤ (i 2).val ∧ (i 2).val < win3_8.index t 2 * Dout + Dout) := by
  show i ∈ ((View.whole main_v57_1).slice (win3_8.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover8 (i : S8x1x512.Idx) : ∃ t : Fin cfg3.N, (cfg3.win 8).flush t = true ∧ i ∈ ((cfg3.win 8).blk t).view.set := by
  have hi0 : (i 0).val < Nblk := (i 0).isLt
  have hi1 : (i 1).val < 1 := (i 1).isLt
  have hi2 : (i 2).val < Dout := (i 2).isLt
  have ht : (i 0).val < cfg3.N := by have hN : cfg3.N = Nblk := N_3; omega
  obtain ⟨e0, e1, e2⟩ := widx3_8 ⟨_, ht⟩
  have e0' : win3_8.index ⟨_, ht⟩ (0 : Fin 3) = (i 0).val := e0
  refine ⟨⟨_, ht⟩, flush3_8 _, (mem_blk8 _ i).mpr ?_⟩
  rw [e0', e1, e2]
  omega

theorem mem_blk9 (t : Fin cfg3.N) (i : S8x1x512.Idx) :
    i ∈ ((cfg3.win 9).blk t).view.set ↔ (win3_9.index t 0 * 1 ≤ (i 0).val ∧ (i 0).val < win3_9.index t 0 * 1 + 1)
      ∧ (win3_9.index t 1 * 1 ≤ (i 1).val ∧ (i 1).val < win3_9.index t 1 * 1 + 1)
      ∧ (win3_9.index t 2 * Dout ≤ (i 2).val ∧ (i 2).val < win3_9.index t 2 * Dout + Dout) := by
  show i ∈ ((View.whole main_v57_2).slice (win3_9.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover9 (i : S8x1x512.Idx) : ∃ t : Fin cfg3.N, (cfg3.win 9).flush t = true ∧ i ∈ ((cfg3.win 9).blk t).view.set := by
  have hi0 : (i 0).val < Nblk := (i 0).isLt
  have hi1 : (i 1).val < 1 := (i 1).isLt
  have hi2 : (i 2).val < Dout := (i 2).isLt
  have ht : (i 0).val < cfg3.N := by have hN : cfg3.N = Nblk := N_3; omega
  obtain ⟨e0, e1, e2⟩ := widx3_9 ⟨_, ht⟩
  have e0' : win3_9.index ⟨_, ht⟩ (0 : Fin 3) = (i 0).val := e0
  refine ⟨⟨_, ht⟩, flush3_9 _, (mem_blk9 _ i).mpr ?_⟩
  rw [e0', e1, e2]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S8192x512.Idx → EReal :=
  fun i => ((Cert.Spec.linK Cert.Iface.epsR X γ β μ v W b ⟨(i 0).val, idx2_lt0 i⟩ ⟨(i 1).val, idx2_lt1 i⟩ : ℝ) : EReal)

def G8 : S8x1x512.Idx → EReal :=
  fun i => ((∑ r : Fin 1024, Cert.Spec.linK Cert.Iface.epsR X γ β μ v W b
      ⟨(i 0).val * 1024 + r.val, by have h : (i 0).val < Nblk := (i 0).isLt; have := r.isLt; omega⟩ ⟨(i 2).val, (i 2).isLt⟩ : ℝ) : EReal)

def G9 : S8x1x512.Idx → EReal :=
  fun i => ((∑ r : Fin 1024,
      Cert.Spec.linK Cert.Iface.epsR X γ β μ v W b
        ⟨(i 0).val * 1024 + r.val, by have h : (i 0).val < Nblk := (i 0).isLt; have := r.isLt; omega⟩ ⟨(i 2).val, (i 2).isLt⟩
      * Cert.Spec.linK Cert.Iface.epsR X γ β μ v W b
        ⟨(i 0).val * 1024 + r.val, by have h : (i 0).val < Nblk := (i 0).isLt; have := r.isLt; omega⟩ ⟨(i 2).val, (i 2).isLt⟩ : ℝ) : EReal)

variable (hX : ∀ p q, (V c (Pipeline.arrRef spec3 0) : S8192x1024.Idx → EReal) (ix2 p q) = ((X p q : ℝ) : EReal))
    (hγ : ∀ d, (V c (Pipeline.arrRef spec3 1) : S1x1024.Idx → EReal) (ix2 0 d) = ((γ d : ℝ) : EReal))
    (hβ : ∀ d, (V c (Pipeline.arrRef spec3 2) : S1x1024.Idx → EReal) (ix2 0 d) = ((β d : ℝ) : EReal))
    (hμ : ∀ d, (V c (Pipeline.arrRef spec3 3) : S1x1024.Idx → EReal) (ix2 0 d) = ((μ d : ℝ) : EReal))
    (hv : ∀ d, (V c (Pipeline.arrRef spec3 4) : S1x1024.Idx → EReal) (ix2 0 d) = ((v d : ℝ) : EReal))
    (hW : ∀ o d, (V c (Pipeline.arrRef spec3 5) : S512x1024.Idx → EReal) (ix2 o d) = ((W o d : ℝ) : EReal))
    (hb : ∀ o, (V c (Pipeline.arrRef spec3 6) : S1x512.Idx → EReal) (ix2 0 o) = ((b o : ℝ) : EReal))
    (hpos : ∀ d, 0 < v d + Cert.Iface.epsR)
include hX hγ hβ hμ hv hW hb hpos

theorem blk7_apply (t : Fin cfg3.N) (r : Fin 1024) (o : Fin Dout) (hlt : t.val * 1024 + r.val < Nrow) :
    k0_pay2 (F := Ideal) (iblk3 V c 0 t) (iblk3 V c 4 t) (iblk3 V c 3 t) (iblk3 V c 1 t) (iblk3 V c 2 t) (iblk3 V c 5 t) (iblk3 V c 6 t) (ix2 r o)
      = ((Cert.Spec.linK Cert.Iface.epsR X γ β μ v W b ⟨t.val * 1024 + r.val, hlt⟩ o : ℝ) : EReal) :=
  (pay2_apply (iblk3 V c 0 t) (iblk3 V c 4 t) (iblk3 V c 3 t) (iblk3 V c 1 t) (iblk3 V c 2 t) (iblk3 V c 5 t) (iblk3 V c 6 t)
    (fun r d => X ⟨t.val * 1024 + r.val, by have := point_lt t; have := r.isLt; omega⟩ d) v μ γ β W b
    (fun r d => (iblk3_0_apply V c t r d (ix2 ⟨t.val * 1024 + r.val, by have := point_lt t; have := r.isLt; omega⟩ d) rfl rfl).trans (hX _ _))
    (fun d => (iblk3_4_apply V c t d).trans (hv d)) (fun d => (iblk3_3_apply V c t d).trans (hμ d))
    (fun d => (iblk3_1_apply V c t d).trans (hγ d)) (fun d => (iblk3_2_apply V c t d).trans (hβ d))
    (fun o d => (iblk3_5_apply V c t o d).trans (hW o d)) (fun o => (iblk3_6_apply V c t o).trans (hb o)) Cert.RealCoe.ofBits_eps hpos r o).trans rfl

set_option maxHeartbeats 1000000 in
theorem flushed7_eq (t : Fin cfg3.N) :
    (dat3 V c).flushed 7 t = ((cfg3.win 7).blk t).view.read (Elt Ideal) (G7 X γ β μ v W b) := by
  show (cfg3.win 7).cut (grid3.coords t) ((dat3 V c).after 7 t) = _
  rw [after3_7]
  unfold out3_7
  rw [View.canon_unit_zero hz2]
  simp only [View.ld_unit_zero (S := S1024x1024) hz2, View.ld_unit_zero (S := S1x1024) hz2,
    View.ld_unit_zero (S := S512x1024) hz2, View.ld_unit_zero (S := S1x512) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx3_7 t
  show k0_pay2 (F := Ideal) (iblk3 V c 0 t) (iblk3 V c 4 t) (iblk3 V c 3 t) (iblk3 V c 1 t) (iblk3 V c 2 t) (iblk3 V c 5 t) (iblk3 V c 6 t) (ix2 r o)
    = G7 X γ β μ v W b (((cfg3.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win3_7.index t (0 : Fin 2) * 1024 + 1 * r.val
    rw [e0]; omega
  · show o.val = win3_7.index t (1 : Fin 2) * Dout + 1 * o.val
    rw [e1]; omega

-- A column sum of the block is the sum over its rows of entries that are each the layer's real function.
theorem blk8_apply (t : Fin cfg3.N) (u w : Fin 1) (o : Fin Dout) :
    k0_pay3 (F := Ideal) (iblk3 V c 0 t) (iblk3 V c 4 t) (iblk3 V c 3 t) (iblk3 V c 1 t) (iblk3 V c 2 t) (iblk3 V c 5 t) (iblk3 V c 6 t) (ix3 u w o)
      = ((∑ r : Fin 1024, Cert.Spec.linK Cert.Iface.epsR X γ β μ v W b
          ⟨t.val * 1024 + r.val, by have := point_lt t; have := r.isLt; omega⟩ o : ℝ) : EReal) := by
  unfold k0_pay3
  refine (colsum_apply _ _ _ u w o).trans ?_
  rw [← Cert.RealCoe.coe_sum]
  exact Finset.sum_congr rfl fun r _ => blk7_apply V c X γ β μ v W b hX hγ hβ hμ hv hW hb hpos t r o _

theorem blk9_apply (t : Fin cfg3.N) (u w : Fin 1) (o : Fin Dout) :
    k0_pay1 (F := Ideal) (k0_pay4 (F := Ideal) (iblk3 V c 0 t) (iblk3 V c 4 t) (iblk3 V c 3 t) (iblk3 V c 1 t) (iblk3 V c 2 t) (iblk3 V c 5 t) (iblk3 V c 6 t)) (ix3 u w o)
      = ((∑ r : Fin 1024,
          Cert.Spec.linK Cert.Iface.epsR X γ β μ v W b ⟨t.val * 1024 + r.val, by have := point_lt t; have := r.isLt; omega⟩ o
          * Cert.Spec.linK Cert.Iface.epsR X γ β μ v W b ⟨t.val * 1024 + r.val, by have := point_lt t; have := r.isLt; omega⟩ o : ℝ) : EReal) := by
  unfold k0_pay1 k0_pay4
  refine (colsum_apply _ _ _ u w o).trans ?_
  rw [← Cert.RealCoe.coe_sum]
  refine Finset.sum_congr rfl fun r _ => ?_
  rw [mulf_apply, blk7_apply V c X γ β μ v W b hX hγ hβ hμ hv hW hb hpos t r o (by have := point_lt t; have := r.isLt; omega), ← EReal.coe_mul]

set_option maxHeartbeats 1000000 in
theorem flushed8_eq (t : Fin cfg3.N) :
    (dat3 V c).flushed 8 t = ((cfg3.win 8).blk t).view.read (Elt Ideal) (G8 X γ β μ v W b) := by
  show (cfg3.win 8).cut (grid3.coords t) ((dat3 V c).after 8 t) = _
  rw [after3_8]
  unfold out3_8
  rw [View.canon_unit_zero hz3]
  simp only [View.ld_unit_zero (S := S1024x1024) hz2, View.ld_unit_zero (S := S1x1024) hz2,
    View.ld_unit_zero (S := S512x1024) hz2, View.ld_unit_zero (S := S1x512) hz2]
  funext j
  obtain ⟨u, w, o, rfl⟩ : ∃ (u w : Fin 1) (o : Fin Dout), j = ix3 u w o := ⟨j 0, j 1, j 2, eq_ix3 j⟩
  obtain ⟨e0, e1, e2⟩ := widx3_8 t
  show k0_pay3 (F := Ideal) (iblk3 V c 0 t) (iblk3 V c 4 t) (iblk3 V c 3 t) (iblk3 V c 1 t) (iblk3 V c 2 t) (iblk3 V c 5 t) (iblk3 V c 6 t) (ix3 u w o)
    = G8 X γ β μ v W b (((cfg3.win 8).blk t).view.emb (ix3 u w o))
  rw [blk8_apply V c X γ β μ v W b hX hγ hβ hμ hv hW hb hpos t u w o]
  unfold G8
  refine congrArg _ (Finset.sum_congr rfl fun r _ => linK_congr X γ β μ v W b _ _ _ _ ?_ ?_)
  · show t.val * 1024 + r.val = (win3_8.index t (0 : Fin 3) * 1 + 1 * u.val) * 1024 + r.val
    rw [e0]; have := u.isLt; omega
  · show o.val = win3_8.index t (2 : Fin 3) * Dout + 1 * o.val
    rw [e2]; omega

set_option maxHeartbeats 1000000 in
theorem flushed9_eq (t : Fin cfg3.N) :
    (dat3 V c).flushed 9 t = ((cfg3.win 9).blk t).view.read (Elt Ideal) (G9 X γ β μ v W b) := by
  show (cfg3.win 9).cut (grid3.coords t) ((dat3 V c).after 9 t) = _
  rw [after3_9]
  unfold out3_9
  rw [View.canon_unit_zero hz3]
  simp only [View.ld_unit_zero (S := S1024x1024) hz2, View.ld_unit_zero (S := S1x1024) hz2,
    View.ld_unit_zero (S := S512x1024) hz2, View.ld_unit_zero (S := S1x512) hz2]
  funext j
  obtain ⟨u, w, o, rfl⟩ : ∃ (u w : Fin 1) (o : Fin Dout), j = ix3 u w o := ⟨j 0, j 1, j 2, eq_ix3 j⟩
  obtain ⟨e0, e1, e2⟩ := widx3_9 t
  show k0_pay1 (F := Ideal) (k0_pay4 (F := Ideal) (iblk3 V c 0 t) (iblk3 V c 4 t) (iblk3 V c 3 t) (iblk3 V c 1 t) (iblk3 V c 2 t) (iblk3 V c 5 t) (iblk3 V c 6 t)) (ix3 u w o)
    = G9 X γ β μ v W b (((cfg3.win 9).blk t).view.emb (ix3 u w o))
  rw [blk9_apply V c X γ β μ v W b hX hγ hβ hμ hv hW hb hpos t u w o]
  unfold G9
  have hr : ∀ r : Fin 1024, t.val * 1024 + r.val = (win3_9.index t (0 : Fin 3) * 1 + 1 * u.val) * 1024 + r.val := fun r => by
    rw [e0]; have := u.isLt; omega
  have ho : o.val = win3_9.index t (2 : Fin 3) * Dout + 1 * o.val := by rw [e2]; omega
  refine congrArg _ (Finset.sum_congr rfl fun r _ => ?_)
  refine congrArg₂ (fun a a' : ℝ => a * a') (linK_congr X γ β μ v W b _ _ _ _ ?_ ?_) (linK_congr X γ β μ v W b _ _ _ _ ?_ ?_)
  · exact hr r
  · exact ho
  · exact hr r
  · exact ho

theorem arrAt7_apply (p : Fin Nrow) (o : Fin Dout) :
    ((dat3 V c).arrAt 7 cfg3.N : S8192x512.Idx → EReal) (ix2 p o)
      = ((Cert.Spec.linK Cert.Iface.epsR X γ β μ v W b p o : ℝ) : EReal) :=
  congrFun ((dat3 V c).arrAt_eq_of_cover 7 (G7 X γ β μ v W b) (fun t _ => flushed7_eq V c X γ β μ v W b hX hγ hβ hμ hv hW hb hpos t) cover7) (ix2 p o)

theorem arrAt8_apply (t : Fin Nblk) (o : Fin Dout) (h : ∀ r : Fin 1024, t.val * 1024 + r.val < Nrow) :
    ((dat3 V c).arrAt 8 cfg3.N : S8x1x512.Idx → EReal) (ix3 t 0 o)
      = ((∑ r : Fin 1024, Cert.Spec.linK Cert.Iface.epsR X γ β μ v W b ⟨t.val * 1024 + r.val, h r⟩ o : ℝ) : EReal) :=
  congrFun ((dat3 V c).arrAt_eq_of_cover 8 (G8 X γ β μ v W b) (fun t _ => flushed8_eq V c X γ β μ v W b hX hγ hβ hμ hv hW hb hpos t) cover8) (ix3 t 0 o)

theorem arrAt9_apply (t : Fin Nblk) (o : Fin Dout) (h : ∀ r : Fin 1024, t.val * 1024 + r.val < Nrow) :
    ((dat3 V c).arrAt 9 cfg3.N : S8x1x512.Idx → EReal) (ix3 t 0 o)
      = ((∑ r : Fin 1024, Cert.Spec.linK Cert.Iface.epsR X γ β μ v W b ⟨t.val * 1024 + r.val, h r⟩ o
          * Cert.Spec.linK Cert.Iface.epsR X γ β μ v W b ⟨t.val * 1024 + r.val, h r⟩ o : ℝ) : EReal) :=
  congrFun ((dat3 V c).arrAt_eq_of_cover 9 (G9 X γ β μ v W b) (fun t _ => flushed9_eq V c X γ β μ v W b hX hγ hβ hμ hv hW hb hpos t) cover9) (ix3 t 0 o)

end Final

end Cert.KernelIdeal.HandValue.Enc3

end
-- ==== Proof.KI.EncVal4.lean ====
import proofs.«428610_j54915451847256_3_alg».proof.Proof.KI.Enc4
import proofs.«428610_j54915451847256_3_alg».proof.Proof.KI.EncVal1
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc4

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 8192
local notation "Nblk" => 8
local notation "Din" => 512
local notation "Dout" => 256

open Cert.KernelIdeal.HandValue.Enc1 (pay2_apply colsum_apply)

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg4.N) : t.val < Nblk := by
  have h : t.val < cfg4.N := t.isLt
  have e : cfg4.N = Nblk := N_4
  omega

theorem widx4_0 : ∀ t : Fin cfg4.N, win4_0.index t (0 : Fin 2) = t.val ∧ win4_0.index t (1 : Fin 2) = 0 :=
  (by decide +kernel : ∀ t : Fin grid4.N, _)
theorem widx4_1 : ∀ (t : Fin cfg4.N) (a : Fin 2), win4_1.index t a = 0 := (by decide +kernel : ∀ (t : Fin grid4.N) (a : Fin 2), _)
theorem widx4_2 : ∀ (t : Fin cfg4.N) (a : Fin 2), win4_2.index t a = 0 := (by decide +kernel : ∀ (t : Fin grid4.N) (a : Fin 2), _)
theorem widx4_3 : ∀ (t : Fin cfg4.N) (a : Fin 2), win4_3.index t a = 0 := (by decide +kernel : ∀ (t : Fin grid4.N) (a : Fin 2), _)
theorem widx4_4 : ∀ (t : Fin cfg4.N) (a : Fin 2), win4_4.index t a = 0 := (by decide +kernel : ∀ (t : Fin grid4.N) (a : Fin 2), _)
theorem widx4_5 : ∀ (t : Fin cfg4.N) (a : Fin 2), win4_5.index t a = 0 := (by decide +kernel : ∀ (t : Fin grid4.N) (a : Fin 2), _)
theorem widx4_6 : ∀ (t : Fin cfg4.N) (a : Fin 2), win4_6.index t a = 0 := (by decide +kernel : ∀ (t : Fin grid4.N) (a : Fin 2), _)
theorem widx4_7 : ∀ t : Fin cfg4.N, win4_7.index t (0 : Fin 2) = t.val ∧ win4_7.index t (1 : Fin 2) = 0 :=
  (by decide +kernel : ∀ t : Fin grid4.N, _)
theorem widx4_8 : ∀ t : Fin cfg4.N, win4_8.index t (0 : Fin 3) = t.val ∧ win4_8.index t (1 : Fin 3) = 0 ∧ win4_8.index t (2 : Fin 3) = 0 :=
  (by decide +kernel : ∀ t : Fin grid4.N, _)
theorem widx4_9 : ∀ t : Fin cfg4.N, win4_9.index t (0 : Fin 3) = t.val ∧ win4_9.index t (1 : Fin 3) = 0 ∧ win4_9.index t (2 : Fin 3) = 0 :=
  (by decide +kernel : ∀ t : Fin grid4.N, _)

section Arrays
variable (V : (c : Dev nD) → (b : Ref sig .tc) → Buf (Elt Ideal) ((c : Thread nD τ).loc b))

theorem iblk4_0_apply (c : Dev nD) (t : Fin cfg4.N) (r : Fin 1024) (d : Fin Din) (k : S8192x512.Idx)
    (hk0 : (k 0).val = t.val * 1024 + r.val) (hk1 : (k 1).val = d.val) :
    (iblk4 V c 0 t : Vec Ideal S1024x512 .f32) (ix2 r d) = (V c (Pipeline.arrRef spec4 0) : S8192x512.Idx → EReal) k := by
  obtain ⟨e0, e1⟩ := widx4_0 t
  unfold iblk4
  rw [View.read_apply]
  show V c (Pipeline.arrRef spec4 0) _ = V c (Pipeline.arrRef spec4 0) k
  congr 1
  funext a
  apply Fin.ext
  match a with
  | ⟨0, _⟩ => show win4_0.index t (0 : Fin 2) * 1024 + 1 * r.val = (k 0).val; rw [e0, hk0]; omega
  | ⟨1, _⟩ => show win4_0.index t (1 : Fin 2) * Din + 1 * d.val = (k 1).val; rw [e1, hk1]; omega

theorem iblk4_1_apply (c : Dev nD) (t : Fin cfg4.N) (d : Fin Din) :
    (iblk4 V c 1 t : Vec Ideal S1x512 .f32) (ix2 0 d) = (V c (Pipeline.arrRef spec4 1) : S1x512.Idx → EReal) (ix2 0 d) :=
  congrArg (V c (Pipeline.arrRef spec4 1) : S1x512.Idx → EReal) (funext fun a => Fin.ext (win4_1.rect_emb_val_of_index_zero t a (widx4_1 t a) _))
theorem iblk4_2_apply (c : Dev nD) (t : Fin cfg4.N) (d : Fin Din) :
    (iblk4 V c 2 t : Vec Ideal S1x512 .f32) (ix2 0 d) = (V c (Pipeline.arrRef spec4 2) : S1x512.Idx → EReal) (ix2 0 d) :=
  congrArg (V c (Pipeline.arrRef spec4 2) : S1x512.Idx → EReal) (funext fun a => Fin.ext (win4_2.rect_emb_val_of_index_zero t a (widx4_2 t a) _))
theorem iblk4_3_apply (c : Dev nD) (t : Fin cfg4.N) (d : Fin Din) :
    (iblk4 V c 3 t : Vec Ideal S1x512 .f32) (ix2 0 d) = (V c (Pipeline.arrRef spec4 3) : S1x512.Idx → EReal) (ix2 0 d) :=
  congrArg (V c (Pipeline.arrRef spec4 3) : S1x512.Idx → EReal) (funext fun a => Fin.ext (win4_3.rect_emb_val_of_index_zero t a (widx4_3 t a) _))
theorem iblk4_4_apply (c : Dev nD) (t : Fin cfg4.N) (d : Fin Din) :
    (iblk4 V c 4 t : Vec Ideal S1x512 .f32) (ix2 0 d) = (V c (Pipeline.arrRef spec4 4) : S1x512.Idx → EReal) (ix2 0 d) :=
  congrArg (V c (Pipeline.arrRef spec4 4) : S1x512.Idx → EReal) (funext fun a => Fin.ext (win4_4.rect_emb_val_of_index_zero t a (widx4_4 t a) _))
theorem iblk4_5_apply (c : Dev nD) (t : Fin cfg4.N) (o : Fin Dout) (d : Fin Din) :
    (iblk4 V c 5 t : Vec Ideal S256x512 .f32) (ix2 o d) = (V c (Pipeline.arrRef spec4 5) : S256x512.Idx → EReal) (ix2 o d) :=
  congrArg (V c (Pipeline.arrRef spec4 5) : S256x512.Idx → EReal) (funext fun a => Fin.ext (win4_5.rect_emb_val_of_index_zero t a (widx4_5 t a) _))
theorem iblk4_6_apply (c : Dev nD) (t : Fin cfg4.N) (o : Fin Dout) :
    (iblk4 V c 6 t : Vec Ideal S1x256 .f32) (ix2 0 o) = (V c (Pipeline.arrRef spec4 6) : S1x256.Idx → EReal) (ix2 0 o) :=
  congrArg (V c (Pipeline.arrRef spec4 6) : S1x256.Idx → EReal) (funext fun a => Fin.ext (win4_6.rect_emb_val_of_index_zero t a (widx4_6 t a) _))
end Arrays

theorem mem_blk7 (t : Fin cfg4.N) (i : S8192x256.Idx) :
    i ∈ ((cfg4.win 7).blk t).view.set ↔ (win4_7.index t 0 * 1024 ≤ (i 0).val ∧ (i 0).val < win4_7.index t 0 * 1024 + 1024)
      ∧ (win4_7.index t 1 * Dout ≤ (i 1).val ∧ (i 1).val < win4_7.index t 1 * Dout + Dout) := by
  show i ∈ ((View.whole main_v71_0).slice (win4_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S8192x256.Idx) : ∃ t : Fin cfg4.N, (cfg4.win 7).flush t = true ∧ i ∈ ((cfg4.win 7).blk t).view.set := by
  have hi0 : (i 0).val < Nrow := (i 0).isLt
  have hi1 : (i 1).val < Dout := (i 1).isLt
  have ht : (i 0).val / 1024 < cfg4.N := by have hN : cfg4.N = Nblk := N_4; omega
  obtain ⟨e0, e1⟩ := widx4_7 ⟨_, ht⟩
  have e0' : win4_7.index ⟨_, ht⟩ (0 : Fin 2) = (i 0).val / 1024 := e0
  refine ⟨⟨_, ht⟩, flush4_7 _, (mem_blk7 _ i).mpr ?_⟩
  rw [e0', e1]
  omega

theorem mem_blk8 (t : Fin cfg4.N) (i : S8x1x256.Idx) :
    i ∈ ((cfg4.win 8).blk t).view.set ↔ (win4_8.index t 0 * 1 ≤ (i 0).val ∧ (i 0).val < win4_8.index t 0 * 1 + 1)
      ∧ (win4_8.index t 1 * 1 ≤ (i 1).val ∧ (i 1).val < win4_8.index t 1 * 1 + 1)
      ∧ (win4_8.index t 2 * Dout ≤ (i 2).val ∧ (i 2).val < win4_8.index t 2 * Dout + Dout) := by
  show i ∈ ((View.whole main_v71_1).slice (win4_8.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover8 (i : S8x1x256.Idx) : ∃ t : Fin cfg4.N, (cfg4.win 8).flush t = true ∧ i ∈ ((cfg4.win 8).blk t).view.set := by
  have hi0 : (i 0).val < Nblk := (i 0).isLt
  have hi1 : (i 1).val < 1 := (i 1).isLt
  have hi2 : (i 2).val < Dout := (i 2).isLt
  have ht : (i 0).val < cfg4.N := by have hN : cfg4.N = Nblk := N_4; omega
  obtain ⟨e0, e1, e2⟩ := widx4_8 ⟨_, ht⟩
  have e0' : win4_8.index ⟨_, ht⟩ (0 : Fin 3) = (i 0).val := e0
  refine ⟨⟨_, ht⟩, flush4_8 _, (mem_blk8 _ i).mpr ?_⟩
  rw [e0', e1, e2]
  omega

theorem mem_blk9 (t : Fin cfg4.N) (i : S8x1x256.Idx) :
    i ∈ ((cfg4.win 9).blk t).view.set ↔ (win4_9.index t 0 * 1 ≤ (i 0).val ∧ (i 0).val < win4_9.index t 0 * 1 + 1)
      ∧ (win4_9.index t 1 * 1 ≤ (i 1).val ∧ (i 1).val < win4_9.index t 1 * 1 + 1)
      ∧ (win4_9.index t 2 * Dout ≤ (i 2).val ∧ (i 2).val < win4_9.index t 2 * Dout + Dout) := by
  show i ∈ ((View.whole main_v71_2).slice (win4_9.rect t)).set ↔ _
  rw [View.set_slice_whole, Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem cover9 (i : S8x1x256.Idx) : ∃ t : Fin cfg4.N, (cfg4.win 9).flush t = true ∧ i ∈ ((cfg4.win 9).blk t).view.set := by
  have hi0 : (i 0).val < Nblk := (i 0).isLt
  have hi1 : (i 1).val < 1 := (i 1).isLt
  have hi2 : (i 2).val < Dout := (i 2).isLt
  have ht : (i 0).val < cfg4.N := by have hN : cfg4.N = Nblk := N_4; omega
  obtain ⟨e0, e1, e2⟩ := widx4_9 ⟨_, ht⟩
  have e0' : win4_9.index ⟨_, ht⟩ (0 : Fin 3) = (i 0).val := e0
  refine ⟨⟨_, ht⟩, flush4_9 _, (mem_blk9 _ i).mpr ?_⟩
  rw [e0', e1, e2]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S8192x256.Idx → EReal :=
  fun i => ((Cert.Spec.linK Cert.Iface.epsR X γ β μ v W b ⟨(i 0).val, idx2_lt0 i⟩ ⟨(i 1).val, idx2_lt1 i⟩ : ℝ) : EReal)

def G8 : S8x1x256.Idx → EReal :=
  fun i => ((∑ r : Fin 1024, Cert.Spec.linK Cert.Iface.epsR X γ β μ v W b
      ⟨(i 0).val * 1024 + r.val, by have h : (i 0).val < Nblk := (i 0).isLt; have := r.isLt; omega⟩ ⟨(i 2).val, (i 2).isLt⟩ : ℝ) : EReal)

def G9 : S8x1x256.Idx → EReal :=
  fun i => ((∑ r : Fin 1024,
      Cert.Spec.linK Cert.Iface.epsR X γ β μ v W b
        ⟨(i 0).val * 1024 + r.val, by have h : (i 0).val < Nblk := (i 0).isLt; have := r.isLt; omega⟩ ⟨(i 2).val, (i 2).isLt⟩
      * Cert.Spec.linK Cert.Iface.epsR X γ β μ v W b
        ⟨(i 0).val * 1024 + r.val, by have h : (i 0).val < Nblk := (i 0).isLt; have := r.isLt; omega⟩ ⟨(i 2).val, (i 2).isLt⟩ : ℝ) : EReal)

variable (hX : ∀ p q, (V c (Pipeline.arrRef spec4 0) : S8192x512.Idx → EReal) (ix2 p q) = ((X p q : ℝ) : EReal))
    (hγ : ∀ d, (V c (Pipeline.arrRef spec4 1) : S1x512.Idx → EReal) (ix2 0 d) = ((γ d : ℝ) : EReal))
    (hβ : ∀ d, (V c (Pipeline.arrRef spec4 2) : S1x512.Idx → EReal) (ix2 0 d) = ((β d : ℝ) : EReal))
    (hμ : ∀ d, (V c (Pipeline.arrRef spec4 3) : S1x512.Idx → EReal) (ix2 0 d) = ((μ d : ℝ) : EReal))
    (hv : ∀ d, (V c (Pipeline.arrRef spec4 4) : S1x512.Idx → EReal) (ix2 0 d) = ((v d : ℝ) : EReal))
    (hW : ∀ o d, (V c (Pipeline.arrRef spec4 5) : S256x512.Idx → EReal) (ix2 o d) = ((W o d : ℝ) : EReal))
    (hb : ∀ o, (V c (Pipeline.arrRef spec4 6) : S1x256.Idx → EReal) (ix2 0 o) = ((b o : ℝ) : EReal))
    (hpos : ∀ d, 0 < v d + Cert.Iface.epsR)
include hX hγ hβ hμ hv hW hb hpos

theorem blk7_apply (t : Fin cfg4.N) (r : Fin 1024) (o : Fin Dout) (hlt : t.val * 1024 + r.val < Nrow) :
    k1_pay2 (F := Ideal) (iblk4 V c 0 t) (iblk4 V c 4 t) (iblk4 V c 3 t) (iblk4 V c 1 t) (iblk4 V c 2 t) (iblk4 V c 5 t) (iblk4 V c 6 t) (ix2 r o)
      = ((Cert.Spec.linK Cert.Iface.epsR X γ β μ v W b ⟨t.val * 1024 + r.val, hlt⟩ o : ℝ) : EReal) :=
  (pay2_apply (iblk4 V c 0 t) (iblk4 V c 4 t) (iblk4 V c 3 t) (iblk4 V c 1 t) (iblk4 V c 2 t) (iblk4 V c 5 t) (iblk4 V c 6 t)
    (fun r d => X ⟨t.val * 1024 + r.val, by have := point_lt t; have := r.isLt; omega⟩ d) v μ γ β W b
    (fun r d => (iblk4_0_apply V c t r d (ix2 ⟨t.val * 1024 + r.val, by have := point_lt t; have := r.isLt; omega⟩ d) rfl rfl).trans (hX _ _))
    (fun d => (iblk4_4_apply V c t d).trans (hv d)) (fun d => (iblk4_3_apply V c t d).trans (hμ d))
    (fun d => (iblk4_1_apply V c t d).trans (hγ d)) (fun d => (iblk4_2_apply V c t d).trans (hβ d))
    (fun o d => (iblk4_5_apply V c t o d).trans (hW o d)) (fun o => (iblk4_6_apply V c t o).trans (hb o)) Cert.RealCoe.ofBits_eps hpos r o).trans rfl

set_option maxHeartbeats 1000000 in
theorem flushed7_eq (t : Fin cfg4.N) :
    (dat4 V c).flushed 7 t = ((cfg4.win 7).blk t).view.read (Elt Ideal) (G7 X γ β μ v W b) := by
  show (cfg4.win 7).cut (grid4.coords t) ((dat4 V c).after 7 t) = _
  rw [after4_7]
  unfold out4_7
  rw [View.canon_unit_zero hz2]
  simp only [View.ld_unit_zero (S := S1024x512) hz2, View.ld_unit_zero (S := S1x512) hz2,
    View.ld_unit_zero (S := S256x512) hz2, View.ld_unit_zero (S := S1x256) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx4_7 t
  show k1_pay2 (F := Ideal) (iblk4 V c 0 t) (iblk4 V c 4 t) (iblk4 V c 3 t) (iblk4 V c 1 t) (iblk4 V c 2 t) (iblk4 V c 5 t) (iblk4 V c 6 t) (ix2 r o)
    = G7 X γ β μ v W b (((cfg4.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win4_7.index t (0 : Fin 2) * 1024 + 1 * r.val
    rw [e0]; omega
  · show o.val = win4_7.index t (1 : Fin 2) * Dout + 1 * o.val
    rw [e1]; omega

-- A column sum of the block is the sum over its rows of entries that are each the layer's real function.
theorem blk8_apply (t : Fin cfg4.N) (u w : Fin 1) (o : Fin Dout) :
    k1_pay3 (F := Ideal) (iblk4 V c 0 t) (iblk4 V c 4 t) (iblk4 V c 3 t) (iblk4 V c 1 t) (iblk4 V c 2 t) (iblk4 V c 5 t) (iblk4 V c 6 t) (ix3 u w o)
      = ((∑ r : Fin 1024, Cert.Spec.linK Cert.Iface.epsR X γ β μ v W b
          ⟨t.val * 1024 + r.val, by have := point_lt t; have := r.isLt; omega⟩ o : ℝ) : EReal) := by
  unfold k1_pay3
  refine (colsum_apply _ _ _ u w o).trans ?_
  rw [← Cert.RealCoe.coe_sum]
  exact Finset.sum_congr rfl fun r _ => blk7_apply V c X γ β μ v W b hX hγ hβ hμ hv hW hb hpos t r o _

theorem blk9_apply (t : Fin cfg4.N) (u w : Fin 1) (o : Fin Dout) :
    k1_pay1 (F := Ideal) (k1_pay4 (F := Ideal) (iblk4 V c 0 t) (iblk4 V c 4 t) (iblk4 V c 3 t) (iblk4 V c 1 t) (iblk4 V c 2 t) (iblk4 V c 5 t) (iblk4 V c 6 t)) (ix3 u w o)
      = ((∑ r : Fin 1024,
          Cert.Spec.linK Cert.Iface.epsR X γ β μ v W b ⟨t.val * 1024 + r.val, by have := point_lt t; have := r.isLt; omega⟩ o
          * Cert.Spec.linK Cert.Iface.epsR X γ β μ v W b ⟨t.val * 1024 + r.val, by have := point_lt t; have := r.isLt; omega⟩ o : ℝ) : EReal) := by
  unfold k1_pay1 k1_pay4
  refine (colsum_apply _ _ _ u w o).trans ?_
  rw [← Cert.RealCoe.coe_sum]
  refine Finset.sum_congr rfl fun r _ => ?_
  rw [mulf_apply, blk7_apply V c X γ β μ v W b hX hγ hβ hμ hv hW hb hpos t r o (by have := point_lt t; have := r.isLt; omega), ← EReal.coe_mul]

set_option maxHeartbeats 1000000 in
theorem flushed8_eq (t : Fin cfg4.N) :
    (dat4 V c).flushed 8 t = ((cfg4.win 8).blk t).view.read (Elt Ideal) (G8 X γ β μ v W b) := by
  show (cfg4.win 8).cut (grid4.coords t) ((dat4 V c).after 8 t) = _
  rw [after4_8]
  unfold out4_8
  rw [View.canon_unit_zero hz3]
  simp only [View.ld_unit_zero (S := S1024x512) hz2, View.ld_unit_zero (S := S1x512) hz2,
    View.ld_unit_zero (S := S256x512) hz2, View.ld_unit_zero (S := S1x256) hz2]
  funext j
  obtain ⟨u, w, o, rfl⟩ : ∃ (u w : Fin 1) (o : Fin Dout), j = ix3 u w o := ⟨j 0, j 1, j 2, eq_ix3 j⟩
  obtain ⟨e0, e1, e2⟩ := widx4_8 t
  show k1_pay3 (F := Ideal) (iblk4 V c 0 t) (iblk4 V c 4 t) (iblk4 V c 3 t) (iblk4 V c 1 t) (iblk4 V c 2 t) (iblk4 V c 5 t) (iblk4 V c 6 t) (ix3 u w o)
    = G8 X γ β μ v W b (((cfg4.win 8).blk t).view.emb (ix3 u w o))
  rw [blk8_apply V c X γ β μ v W b hX hγ hβ hμ hv hW hb hpos t u w o]
  unfold G8
  refine congrArg _ (Finset.sum_congr rfl fun r _ => linK_congr X γ β μ v W b _ _ _ _ ?_ ?_)
  · show t.val * 1024 + r.val = (win4_8.index t (0 : Fin 3) * 1 + 1 * u.val) * 1024 + r.val
    rw [e0]; have := u.isLt; omega
  · show o.val = win4_8.index t (2 : Fin 3) * Dout + 1 * o.val
    rw [e2]; omega

set_option maxHeartbeats 1000000 in
theorem flushed9_eq (t : Fin cfg4.N) :
    (dat4 V c).flushed 9 t = ((cfg4.win 9).blk t).view.read (Elt Ideal) (G9 X γ β μ v W b) := by
  show (cfg4.win 9).cut (grid4.coords t) ((dat4 V c).after 9 t) = _
  rw [after4_9]
  unfold out4_9
  rw [View.canon_unit_zero hz3]
  simp only [View.ld_unit_zero (S := S1024x512) hz2, View.ld_unit_zero (S := S1x512) hz2,
    View.ld_unit_zero (S := S256x512) hz2, View.ld_unit_zero (S := S1x256) hz2]
  funext j
  obtain ⟨u, w, o, rfl⟩ : ∃ (u w : Fin 1) (o : Fin Dout), j = ix3 u w o := ⟨j 0, j 1, j 2, eq_ix3 j⟩
  obtain ⟨e0, e1, e2⟩ := widx4_9 t
  show k1_pay1 (F := Ideal) (k1_pay4 (F := Ideal) (iblk4 V c 0 t) (iblk4 V c 4 t) (iblk4 V c 3 t) (iblk4 V c 1 t) (iblk4 V c 2 t) (iblk4 V c 5 t) (iblk4 V c 6 t)) (ix3 u w o)
    = G9 X γ β μ v W b (((cfg4.win 9).blk t).view.emb (ix3 u w o))
  rw [blk9_apply V c X γ β μ v W b hX hγ hβ hμ hv hW hb hpos t u w o]
  unfold G9
  have hr : ∀ r : Fin 1024, t.val * 1024 + r.val = (win4_9.index t (0 : Fin 3) * 1 + 1 * u.val) * 1024 + r.val := fun r => by
    rw [e0]; have := u.isLt; omega
  have ho : o.val = win4_9.index t (2 : Fin 3) * Dout + 1 * o.val := by rw [e2]; omega
  refine congrArg _ (Finset.sum_congr rfl fun r _ => ?_)
  refine congrArg₂ (fun a a' : ℝ => a * a') (linK_congr X γ β μ v W b _ _ _ _ ?_ ?_) (linK_congr X γ β μ v W b _ _ _ _ ?_ ?_)
  · exact hr r
  · exact ho
  · exact hr r
  · exact ho

theorem arrAt7_apply (p : Fin Nrow) (o : Fin Dout) :
    ((dat4 V c).arrAt 7 cfg4.N : S8192x256.Idx → EReal) (ix2 p o)
      = ((Cert.Spec.linK Cert.Iface.epsR X γ β μ v W b p o : ℝ) : EReal) :=
  congrFun ((dat4 V c).arrAt_eq_of_cover 7 (G7 X γ β μ v W b) (fun t _ => flushed7_eq V c X γ β μ v W b hX hγ hβ hμ hv hW hb hpos t) cover7) (ix2 p o)

theorem arrAt8_apply (t : Fin Nblk) (o : Fin Dout) (h : ∀ r : Fin 1024, t.val * 1024 + r.val < Nrow) :
    ((dat4 V c).arrAt 8 cfg4.N : S8x1x256.Idx → EReal) (ix3 t 0 o)
      = ((∑ r : Fin 1024, Cert.Spec.linK Cert.Iface.epsR X γ β μ v W b ⟨t.val * 1024 + r.val, h r⟩ o : ℝ) : EReal) :=
  congrFun ((dat4 V c).arrAt_eq_of_cover 8 (G8 X γ β μ v W b) (fun t _ => flushed8_eq V c X γ β μ v W b hX hγ hβ hμ hv hW hb hpos t) cover8) (ix3 t 0 o)

theorem arrAt9_apply (t : Fin Nblk) (o : Fin Dout) (h : ∀ r : Fin 1024, t.val * 1024 + r.val < Nrow) :
    ((dat4 V c).arrAt 9 cfg4.N : S8x1x256.Idx → EReal) (ix3 t 0 o)
      = ((∑ r : Fin 1024, Cert.Spec.linK Cert.Iface.epsR X γ β μ v W b ⟨t.val * 1024 + r.val, h r⟩ o
          * Cert.Spec.linK Cert.Iface.epsR X γ β μ v W b ⟨t.val * 1024 + r.val, h r⟩ o : ℝ) : EReal) :=
  congrFun ((dat4 V c).arrAt_eq_of_cover 9 (G9 X γ β μ v W b) (fun t _ => flushed9_eq V c X γ β μ v W b hX hγ hβ hμ hv hW hb hpos t) cover9) (ix3 t 0 o)

end Final

end Cert.KernelIdeal.HandValue.Enc4

end
-- ==== Proof.KI.EncVal5.lean ====
import proofs.«428610_j54915451847256_3_alg».proof.Proof.KI.Enc5
import proofs.«428610_j54915451847256_3_alg».proof.Proof.KI.EncVal2
import proofs.«428610_j54915451847256_3_alg».proof.Proof.LibRealCoe
import proofs.«428610_j54915451847256_3_alg».proof.Proof.Spec
import proofs.«428610_j54915451847256_3_alg».proof.Proof.Iface
import Idealize.ShloMosaic.Lib.Pipeline.Value
import Idealize.ShloMosaic.Lib.ValueLayout
import Idealize.ShloMosaic.PureOps.Ideal.Laws

noncomputable section

namespace Cert.KernelIdeal.HandValue.Enc5

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

local notation "Nrow" => 8192
local notation "Nblk" => 8
local notation "Din" => 256
local notation "Dout" => 128

open Cert.KernelIdeal.HandValue.Enc2 (pay2_apply)

theorem hz2 : (![0, 0] : Fin 2 → Nat) = fun _ => 0 := funext fun a => by fin_cases a <;> rfl

theorem point_lt (t : Fin cfg5.N) : t.val < Nblk := by
  have h : t.val < cfg5.N := t.isLt
  have e : cfg5.N = Nblk := N_5
  omega

theorem widx5_0 : ∀ t : Fin cfg5.N, win5_0.index t (0 : Fin 2) = t.val ∧ win5_0.index t (1 : Fin 2) = 0 :=
  (by decide +kernel : ∀ t : Fin grid5.N, _)
theorem widx5_1 : ∀ (t : Fin cfg5.N) (a : Fin 2), win5_1.index t a = 0 := (by decide +kernel : ∀ (t : Fin grid5.N) (a : Fin 2), _)
theorem widx5_2 : ∀ (t : Fin cfg5.N) (a : Fin 2), win5_2.index t a = 0 := (by decide +kernel : ∀ (t : Fin grid5.N) (a : Fin 2), _)
theorem widx5_3 : ∀ (t : Fin cfg5.N) (a : Fin 2), win5_3.index t a = 0 := (by decide +kernel : ∀ (t : Fin grid5.N) (a : Fin 2), _)
theorem widx5_4 : ∀ (t : Fin cfg5.N) (a : Fin 2), win5_4.index t a = 0 := (by decide +kernel : ∀ (t : Fin grid5.N) (a : Fin 2), _)
theorem widx5_5 : ∀ (t : Fin cfg5.N) (a : Fin 2), win5_5.index t a = 0 := (by decide +kernel : ∀ (t : Fin grid5.N) (a : Fin 2), _)
theorem widx5_6 : ∀ (t : Fin cfg5.N) (a : Fin 2), win5_6.index t a = 0 := (by decide +kernel : ∀ (t : Fin grid5.N) (a : Fin 2), _)
theorem widx5_7 : ∀ t : Fin cfg5.N, win5_7.index t (0 : Fin 2) = t.val ∧ win5_7.index t (1 : Fin 2) = 0 :=
  (by decide +kernel : ∀ t : Fin grid5.N, _)

section Arrays
variable (V : (c : Dev nD) → (b : Ref sig .tc) → Buf (Elt Ideal) ((c : Thread nD τ).loc b))

theorem iblk5_0_apply (c : Dev nD) (t : Fin cfg5.N) (r : Fin 1024) (d : Fin Din) (k : S8192x256.Idx)
    (hk0 : (k 0).val = t.val * 1024 + r.val) (hk1 : (k 1).val = d.val) :
    (iblk5 V c 0 t : Vec Ideal S1024x256 .f32) (ix2 r d) = (V c (Pipeline.arrRef spec5 0) : S8192x256.Idx → EReal) k := by
  obtain ⟨e0, e1⟩ := widx5_0 t
  unfold iblk5
  rw [View.read_apply]
  show V c (Pipeline.arrRef spec5 0) _ = V c (Pipeline.arrRef spec5 0) k
  congr 1
  funext a
  apply Fin.ext
  match a with
  | ⟨0, _⟩ => show win5_0.index t (0 : Fin 2) * 1024 + 1 * r.val = (k 0).val; rw [e0, hk0]; omega
  | ⟨1, _⟩ => show win5_0.index t (1 : Fin 2) * Din + 1 * d.val = (k 1).val; rw [e1, hk1]; omega

theorem iblk5_1_apply (c : Dev nD) (t : Fin cfg5.N) (d : Fin Din) :
    (iblk5 V c 1 t : Vec Ideal S1x256 .f32) (ix2 0 d) = (V c (Pipeline.arrRef spec5 1) : S1x256.Idx → EReal) (ix2 0 d) :=
  congrArg (V c (Pipeline.arrRef spec5 1) : S1x256.Idx → EReal) (funext fun a => Fin.ext (win5_1.rect_emb_val_of_index_zero t a (widx5_1 t a) _))
theorem iblk5_2_apply (c : Dev nD) (t : Fin cfg5.N) (d : Fin Din) :
    (iblk5 V c 2 t : Vec Ideal S1x256 .f32) (ix2 0 d) = (V c (Pipeline.arrRef spec5 2) : S1x256.Idx → EReal) (ix2 0 d) :=
  congrArg (V c (Pipeline.arrRef spec5 2) : S1x256.Idx → EReal) (funext fun a => Fin.ext (win5_2.rect_emb_val_of_index_zero t a (widx5_2 t a) _))
theorem iblk5_3_apply (c : Dev nD) (t : Fin cfg5.N) (d : Fin Din) :
    (iblk5 V c 3 t : Vec Ideal S1x256 .f32) (ix2 0 d) = (V c (Pipeline.arrRef spec5 3) : S1x256.Idx → EReal) (ix2 0 d) :=
  congrArg (V c (Pipeline.arrRef spec5 3) : S1x256.Idx → EReal) (funext fun a => Fin.ext (win5_3.rect_emb_val_of_index_zero t a (widx5_3 t a) _))
theorem iblk5_4_apply (c : Dev nD) (t : Fin cfg5.N) (d : Fin Din) :
    (iblk5 V c 4 t : Vec Ideal S1x256 .f32) (ix2 0 d) = (V c (Pipeline.arrRef spec5 4) : S1x256.Idx → EReal) (ix2 0 d) :=
  congrArg (V c (Pipeline.arrRef spec5 4) : S1x256.Idx → EReal) (funext fun a => Fin.ext (win5_4.rect_emb_val_of_index_zero t a (widx5_4 t a) _))
theorem iblk5_5_apply (c : Dev nD) (t : Fin cfg5.N) (o : Fin Dout) (d : Fin Din) :
    (iblk5 V c 5 t : Vec Ideal S128x256 .f32) (ix2 o d) = (V c (Pipeline.arrRef spec5 5) : S128x256.Idx → EReal) (ix2 o d) :=
  congrArg (V c (Pipeline.arrRef spec5 5) : S128x256.Idx → EReal) (funext fun a => Fin.ext (win5_5.rect_emb_val_of_index_zero t a (widx5_5 t a) _))
theorem iblk5_6_apply (c : Dev nD) (t : Fin cfg5.N) (o : Fin Dout) :
    (iblk5 V c 6 t : Vec Ideal S1x128 .f32) (ix2 0 o) = (V c (Pipeline.arrRef spec5 6) : S1x128.Idx → EReal) (ix2 0 o) :=
  congrArg (V c (Pipeline.arrRef spec5 6) : S1x128.Idx → EReal) (funext fun a => Fin.ext (win5_6.rect_emb_val_of_index_zero t a (widx5_6 t a) _))
end Arrays

theorem mem_blk7 (t : Fin cfg5.N) (i : S8192x128.Idx) :
    i ∈ ((cfg5.win 7).blk t).view.set ↔ (win5_7.index t 0 * 1024 ≤ (i 0).val ∧ (i 0).val < win5_7.index t 0 * 1024 + 1024)
      ∧ (win5_7.index t 1 * Dout ≤ (i 1).val ∧ (i 1).val < win5_7.index t 1 * Dout + Dout) := by
  show i ∈ ((View.whole main_v85_0).slice (win5_7.rect t)).set ↔ _
  rw [View.set_slice_whole, Rect.mem_set_unit]
  exact ⟨fun h => ⟨h 0, h 1⟩, fun h a => by
    match a with
    | ⟨0, _⟩ => exact h.1
    | ⟨1, _⟩ => exact h.2⟩

-- Row p lies in the block of rows 1024 (p / 1024) … 1024 (p / 1024) + 1023.
theorem cover7 (i : S8192x128.Idx) : ∃ t : Fin cfg5.N, (cfg5.win 7).flush t = true ∧ i ∈ ((cfg5.win 7).blk t).view.set := by
  have hi0 : (i 0).val < Nrow := (i 0).isLt
  have hi1 : (i 1).val < Dout := (i 1).isLt
  have ht : (i 0).val / 1024 < cfg5.N := by have hN : cfg5.N = Nblk := N_5; omega
  obtain ⟨e0, e1⟩ := widx5_7 ⟨_, ht⟩
  have e0' : win5_7.index ⟨_, ht⟩ (0 : Fin 2) = (i 0).val / 1024 := e0
  refine ⟨⟨_, ht⟩, flush5_7 _, (mem_blk7 _ i).mpr ?_⟩
  rw [e0', e1]
  omega

section Final
variable (V : (c : Dev nD) → (b : Ref sig .tc) → Buf (Elt Ideal) ((c : Thread nD τ).loc b)) (c : Dev nD)
variable (X : Fin Nrow → Fin Din → ℝ) (γ β μ v : Fin Din → ℝ) (W : Fin Dout → Fin Din → ℝ) (b : Fin Dout → ℝ)

theorem linK_congr (i i' : Fin Nrow) (o o' : Fin Dout) (hi : i.val = i'.val) (ho : o.val = o'.val) :
    Cert.Spec.linK Cert.Iface.epsR X γ β μ v W b i o = Cert.Spec.linK Cert.Iface.epsR X γ β μ v W b i' o' := by
  obtain rfl := Fin.ext hi
  obtain rfl := Fin.ext ho
  rfl

def G7 : S8192x128.Idx → EReal :=
  fun i => ((Cert.Spec.linK Cert.Iface.epsR X γ β μ v W b ⟨(i 0).val, idx2_lt0 i⟩ ⟨(i 1).val, idx2_lt1 i⟩ : ℝ) : EReal)

variable (hX : ∀ p q, (V c (Pipeline.arrRef spec5 0) : S8192x256.Idx → EReal) (ix2 p q) = ((X p q : ℝ) : EReal))
    (hγ : ∀ d, (V c (Pipeline.arrRef spec5 1) : S1x256.Idx → EReal) (ix2 0 d) = ((γ d : ℝ) : EReal))
    (hβ : ∀ d, (V c (Pipeline.arrRef spec5 2) : S1x256.Idx → EReal) (ix2 0 d) = ((β d : ℝ) : EReal))
    (hμ : ∀ d, (V c (Pipeline.arrRef spec5 3) : S1x256.Idx → EReal) (ix2 0 d) = ((μ d : ℝ) : EReal))
    (hv : ∀ d, (V c (Pipeline.arrRef spec5 4) : S1x256.Idx → EReal) (ix2 0 d) = ((v d : ℝ) : EReal))
    (hW : ∀ o d, (V c (Pipeline.arrRef spec5 5) : S128x256.Idx → EReal) (ix2 o d) = ((W o d : ℝ) : EReal))
    (hb : ∀ o, (V c (Pipeline.arrRef spec5 6) : S1x128.Idx → EReal) (ix2 0 o) = ((b o : ℝ) : EReal))
    (hpos : ∀ d, 0 < v d + Cert.Iface.epsR)
include hX hγ hβ hμ hv hW hb hpos

theorem blk7_apply (t : Fin cfg5.N) (r : Fin 1024) (o : Fin Dout) (hlt : t.val * 1024 + r.val < Nrow) :
    k2_pay3 (F := Ideal) (iblk5 V c 0 t) (iblk5 V c 4 t) (iblk5 V c 3 t) (iblk5 V c 1 t) (iblk5 V c 2 t) (iblk5 V c 5 t) (iblk5 V c 6 t) (ix2 r o)
      = ((Cert.Spec.linK Cert.Iface.epsR X γ β μ v W b ⟨t.val * 1024 + r.val, hlt⟩ o : ℝ) : EReal) := by
  unfold k2_pay3
  exact (truncf_apply _ bitsLt_bf16_f32 (ix2 r o)).trans ((pay2_apply (iblk5 V c 0 t) (iblk5 V c 4 t) (iblk5 V c 3 t) (iblk5 V c 1 t) (iblk5 V c 2 t) (iblk5 V c 5 t) (iblk5 V c 6 t)
    (fun r d => X ⟨t.val * 1024 + r.val, by have := point_lt t; have := r.isLt; omega⟩ d) v μ γ β W b
    (fun r d => (iblk5_0_apply V c t r d (ix2 ⟨t.val * 1024 + r.val, by have := point_lt t; have := r.isLt; omega⟩ d) rfl rfl).trans (hX _ _))
    (fun d => (iblk5_4_apply V c t d).trans (hv d)) (fun d => (iblk5_3_apply V c t d).trans (hμ d))
    (fun d => (iblk5_1_apply V c t d).trans (hγ d)) (fun d => (iblk5_2_apply V c t d).trans (hβ d))
    (fun o d => (iblk5_5_apply V c t o d).trans (hW o d)) (fun o => (iblk5_6_apply V c t o).trans (hb o)) Cert.RealCoe.ofBits_eps hpos r o).trans rfl)

theorem flushed7_eq (t : Fin cfg5.N) :
    (dat5 V c).flushed 7 t = ((cfg5.win 7).blk t).view.read (Elt Ideal) (G7 X γ β μ v W b) := by
  show (cfg5.win 7).cut (grid5.coords t) ((dat5 V c).after 7 t) = _
  rw [after5_7]
  unfold out5_7
  rw [View.canon_unit_zero hz2]
  simp only [View.ld_unit_zero (S := S1024x256) hz2, View.ld_unit_zero (S := S1x256) hz2,
    View.ld_unit_zero (S := S128x256) hz2, View.ld_unit_zero (S := S1x128) hz2]
  funext j
  obtain ⟨r, o, rfl⟩ : ∃ (r : Fin 1024) (o : Fin Dout), j = ix2 r o := ⟨j 0, j 1, eq_ix2 j⟩
  have hlt : t.val * 1024 + r.val < Nrow := by have := point_lt t; have := r.isLt; omega
  obtain ⟨e0, e1⟩ := widx5_7 t
  show k2_pay3 (F := Ideal) (iblk5 V c 0 t) (iblk5 V c 4 t) (iblk5 V c 3 t) (iblk5 V c 1 t) (iblk5 V c 2 t) (iblk5 V c 5 t) (iblk5 V c 6 t) (ix2 r o)
    = G7 X γ β μ v W b (((cfg5.win 7).blk t).view.emb (ix2 r o))
  rw [blk7_apply V c X γ β μ v W b hX hγ hβ hμ hv hW hb hpos t r o hlt]
  unfold G7
  refine congrArg _ (linK_congr X γ β μ v W b _ _ _ _ ?_ ?_)
  · show t.val * 1024 + r.val = win5_7.index t (0 : Fin 2) * 1024 + 1 * r.val
    rw [e0]; omega
  · show o.val = win5_7.index t (1 : Fin 2) * Dout + 1 * o.val
    rw [e1]; omega

theorem arrAt7_apply (p : Fin Nrow) (o : Fin Dout) :
    ((dat5 V c).arrAt 7 cfg5.N : S8192x128.Idx → EReal) (ix2 p o)
      = ((Cert.Spec.linK Cert.Iface.epsR X γ β μ v W b p o : ℝ) : EReal) :=
  congrFun ((dat5 V c).arrAt_eq_of_cover 7 (G7 X γ β μ v W b) (fun t _ => flushed7_eq V c X γ β μ v W b hX hγ hβ hμ hv hW hb hpos t) cover7) (ix2 p o)

end Final

end Cert.KernelIdeal.HandValue.Enc5

end
-- ==== Proof.KI.FlashPieces.lean ====
import proofs.«428610_j54915451847256_3_alg».proof.Proof.KI.FlashOuts
import Idealize.ShloMosaic.Lib.Pipeline.Value

noncomputable section

namespace Cert.KernelIdeal.HandValue.Flash

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz2 : (![0, 0] : Fin 2 → Nat) = fun _ => 0 := funext fun a => by fin_cases a <;> rfl

section
variable (c : Dev nD) (i : grid6.Coords)
  (arg2 : Memref sig .tc .vmem S1024x128 .bf16) (harg2 : arg2.IsWhole)
  (arg3 : Memref sig .tc .vmem S1024x128 .bf16) (harg3 : arg3.IsWhole)
  (arg4 : Memref sig .tc .vmem S1x1024 .f32) (harg4 : arg4.IsWhole)
  (arg5 : Memref sig .tc .vmem S1024x128 .bf16) (harg5 : arg5.IsWhole)
  (arg6 : Memref sig .tc .vmem S1024x128 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x128 .f32) (harg9 : arg9.IsWhole)

section
variable (hc0 : cond6_0 i) (hc1 : ¬cond6_1 i)
  (x0 : Vec F S1024x128 .bf16) (x1 : Vec F S1024x128 .bf16) (x2 : Vec F S1x1024 .f32) (x3 : Vec F S1024x128 .bf16)

theorem sout6_A_0_eq :
    sout6_A_0 c i arg2 harg2 arg3 harg3 arg4 harg4 arg5 harg5 arg6 harg6 arg7 harg7 arg8 harg8 arg9 harg9 hc0 hc1 x0 x1 x2 x3 = k6_pay3 (k6_pay9 x0 x1 x2 (k6_pay5 (F := F))) := by
  unfold sout6_A_0
  rw [View.read_writes_eq_canon _ _ _ (scover6_A_0 c i arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S1024x1) hz2]
  simp only [View.readAt_eq_ld, harg2.read_unread, harg3.read_unread, harg4.read_unread, View.ld_unit_zero (S := S1024x128) hz2, View.ld_unit_zero (S := S1x1024) hz2, View.readCov_unit_zero (S := S1024x1) _ hz2]

theorem sout6_A_1_eq :
    sout6_A_1 c i arg2 harg2 arg3 harg3 arg4 harg4 arg5 harg5 arg6 harg6 arg7 harg7 arg8 harg8 arg9 harg9 hc0 hc1 x0 x1 x2 x3 = k6_pay1 (k6_pay12 x0 x1 x2 (k6_pay5 (F := F)) (k6_pay5 (F := F)) x3 (k6_pay6 (F := F))) := by
  unfold sout6_A_1
  rw [View.read_writes_eq_canon _ _ _ (scover6_A_1 c i arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S1024x1) hz2]
  simp only [View.readAt_eq_ld, harg2.read_unread, harg3.read_unread, harg4.read_unread, harg5.read_unread, View.ld_unit_zero (S := S1024x128) hz2, View.ld_unit_zero (S := S1x1024) hz2, View.readCov_unit_zero (S := S1024x1) _ hz2]

theorem sout6_A_2_eq :
    sout6_A_2 c i arg2 harg2 arg3 harg3 arg4 harg4 arg5 harg5 arg6 harg6 arg7 harg7 arg8 harg8 arg9 harg9 hc0 hc1 x0 x1 x2 x3 = k6_pay2 (k6_pay10 x0 x1 x2 (k6_pay5 (F := F)) (k6_pay5 (F := F))) (k6_pay11 x0 x1 x2 (k6_pay5 (F := F)) x3) (k6_pay7 (F := F)) := by
  unfold sout6_A_2
  rw [View.read_writes_eq_canon _ _ _ (scover6_A_2 c i arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S1024x128) hz2]
  simp only [View.readAt_eq_ld, harg2.read_unread, harg3.read_unread, harg4.read_unread, harg5.read_unread, View.ld_unit_zero (S := S1024x128) hz2, View.ld_unit_zero (S := S1x1024) hz2, View.readCov_unit_zero (S := S1024x1) _ hz2, View.readCov_unit_zero (S := S1024x128) _ hz2]

end

section
variable (hc0 : ¬cond6_0 i) (hc1 : ¬cond6_1 i)
  (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

theorem sout6_B_0_eq :
    sout6_B_0 c i arg2 harg2 arg3 harg3 arg4 harg4 arg5 harg5 arg6 harg6 arg7 harg7 arg8 harg8 arg9 harg9 hc0 hc1 x0 x1 x2 x3 xs0 xs1 xs2 = k6_pay3 (k6_pay9 x0 x1 x2 xs0) := by
  unfold sout6_B_0
  rw [View.read_writes_eq_canon _ _ _ (scover6_B_0 c i arg2 harg2 arg3 harg3 arg4 harg4 arg5 harg5 arg6 harg6 arg7 harg7 arg8 harg8 arg9 harg9 hc0 hc1 x0 x1 x2 x3 xs0 xs1 xs2)]
  unfold kernelRun6_B
  dsimp only
  sl_unfold_words
  rw [View.canon_unit_zero hz2]
  simp only [View.readAt_eq_ld, harg2.read_unread, harg3.read_unread, harg4.read_unread, harg7.read_unread, View.ld_unit_zero (S := S1024x128) hz2, View.ld_unit_zero (S := S1024x1) hz2, View.ld_unit_zero (S := S1x1024) hz2]

theorem sout6_B_1_eq :
    sout6_B_1 c i arg2 harg2 arg3 harg3 arg4 harg4 arg5 harg5 arg6 harg6 arg7 harg7 arg8 harg8 arg9 harg9 hc0 hc1 x0 x1 x2 x3 xs0 xs1 xs2 = k6_pay1 (k6_pay12 x0 x1 x2 xs0 xs0 x3 xs1) := by
  unfold sout6_B_1
  rw [View.read_writes_eq_canon _ _ _ (scover6_B_1 c i arg2 harg2 arg3 harg3 arg4 harg4 arg5 harg5 arg6 harg6 arg7 harg7 arg8 harg8 arg9 harg9 hc0 hc1 x0 x1 x2 x3 xs0 xs1 xs2)]
  unfold kernelRun6_B
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x128) hz2, View.ld_unit_zero (S := S1024x1) hz2, View.ld_unit_zero (S := S1x1024) hz2]

theorem sout6_B_2_eq :
    sout6_B_2 c i arg2 harg2 arg3 harg3 arg4 harg4 arg5 harg5 arg6 harg6 arg7 harg7 arg8 harg8 arg9 harg9 hc0 hc1 x0 x1 x2 x3 xs0 xs1 xs2 = k6_pay2 (k6_pay10 x0 x1 x2 xs0 xs0) (k6_pay11 x0 x1 x2 xs0 x3) xs2 := by
  unfold sout6_B_2
  rw [View.read_writes_eq_canon _ _ _ (scover6_B_2 c i arg2 harg2 arg3 harg3 arg4 harg4 arg5 harg5 arg6 harg6 arg7 harg7 arg8 harg8 arg9 harg9 hc0 hc1 x0 x1 x2 x3 xs0 xs1 xs2)]
  unfold kernelRun6_B
  dsimp only
  sl_unfold_words
  rw [View.canon_unit_zero hz2]
  simp only [View.readAt_eq_ld, harg2.read_unread, harg3.read_unread, harg4.read_unread, harg5.read_unread, harg7.read_unread, harg9.read_unread, View.ld_unit_zero (S := S1024x128) hz2, View.ld_unit_zero (S := S1024x1) hz2, View.ld_unit_zero (S := S1x1024) hz2]

end

section
variable (hc0 : ¬cond6_0 i) (hc1 : cond6_1 i)
  (x0 : Vec F S1024x128 .bf16) (x1 : Vec F S1024x128 .bf16) (x2 : Vec F S1x1024 .f32) (x3 : Vec F S1024x128 .bf16) (xs0 : Vec F S1024x1 .f32) (xs1 : Vec F S1024x1 .f32) (xs2 : Vec F S1024x128 .f32)

theorem sout6_C_0_eq :
    sout6_C_0 c i arg2 harg2 arg3 harg3 arg4 harg4 arg5 harg5 arg6 harg6 arg7 harg7 arg8 harg8 arg9 harg9 hc0 hc1 x0 x1 x2 x3 xs0 xs1 xs2 = k6_pay3 (k6_pay9 x0 x1 x2 xs0) := by
  unfold sout6_C_0
  rw [View.read_writes_eq_canon _ _ _ (scover6_C_0 c i arg2 harg2 arg3 harg3 arg4 harg4 arg5 harg5 arg6 harg6 arg7 harg7 arg8 harg8 arg9 harg9 hc0 hc1 x0 x1 x2 x3 xs0 xs1 xs2)]
  unfold kernelRun6_C
  dsimp only
  sl_unfold_words
  rw [View.canon_unit_zero hz2]
  simp only [View.readAt_eq_ld, harg2.read_unread, harg3.read_unread, harg4.read_unread, harg7.read_unread, View.ld_unit_zero (S := S1024x128) hz2, View.ld_unit_zero (S := S1024x1) hz2, View.ld_unit_zero (S := S1x1024) hz2]

theorem sout6_C_1_eq :
    sout6_C_1 c i arg2 harg2 arg3 harg3 arg4 harg4 arg5 harg5 arg6 harg6 arg7 harg7 arg8 harg8 arg9 harg9 hc0 hc1 x0 x1 x2 x3 xs0 xs1 xs2 = k6_pay1 (k6_pay12 x0 x1 x2 xs0 xs0 x3 xs1) := by
  unfold sout6_C_1
  rw [View.read_writes_eq_canon _ _ _ (scover6_C_1 c i arg2 harg2 arg3 harg3 arg4 harg4 arg5 harg5 arg6 harg6 arg7 harg7 arg8 harg8 arg9 harg9 hc0 hc1 x0 x1 x2 x3 xs0 xs1 xs2)]
  unfold kernelRun6_C
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x128) hz2, View.ld_unit_zero (S := S1024x1) hz2, View.ld_unit_zero (S := S1x1024) hz2]

theorem sout6_C_2_eq :
    sout6_C_2 c i arg2 harg2 arg3 harg3 arg4 harg4 arg5 harg5 arg6 harg6 arg7 harg7 arg8 harg8 arg9 harg9 hc0 hc1 x0 x1 x2 x3 xs0 xs1 xs2 = k6_pay2 (k6_pay10 x0 x1 x2 xs0 xs0) (k6_pay11 x0 x1 x2 xs0 x3) xs2 := by
  unfold sout6_C_2
  rw [View.read_writes_eq_canon _ _ _ (scover6_C_2 c i arg2 harg2 arg3 harg3 arg4 harg4 arg5 harg5 arg6 harg6 arg7 harg7 arg8 harg8 arg9 harg9 hc0 hc1 x0 x1 x2 x3 xs0 xs1 xs2)]
  unfold kernelRun6_C
  dsimp only
  sl_unfold_words
  rw [View.canon_unit_zero hz2]
  simp only [View.readAt_eq_ld, harg2.read_unread, harg3.read_unread, harg4.read_unread, harg5.read_unread, harg7.read_unread, harg9.read_unread, View.ld_unit_zero (S := S1024x128) hz2, View.ld_unit_zero (S := S1024x1) hz2, View.ld_unit_zero (S := S1x1024) hz2]

theorem out6_C_4_eq :
    out6_C_4 c i arg2 harg2 arg3 harg3 arg4 harg4 arg5 harg5 arg6 harg6 arg7 harg7 arg8 harg8 arg9 harg9 hc0 hc1 x0 x1 x2 x3 xs0 xs1 xs2 = k6_pay4 (k6_pay2 (k6_pay10 x0 x1 x2 xs0 xs0) (k6_pay11 x0 x1 x2 xs0 x3) xs2) (k6_pay1 (k6_pay12 x0 x1 x2 xs0 xs0 x3 xs1)) := by
  unfold out6_C_4
  rw [View.read_writes_eq_canon _ _ _ (cover6_C_4 c i arg2 harg2 arg3 harg3 arg4 harg4 arg5 harg5 arg6 harg6 arg7 harg7 arg8 harg8 arg9 harg9 hc0 hc1 x0 x1 x2 x3 xs0 xs1 xs2)]
  unfold kernelRun6_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S1024x1) hz2, View.ld_unit_zero (S := S1x1024) hz2, View.readCov_unit_zero (S := S1024x1) _ hz2, View.readCov_unit_zero (S := S1024x128) _ hz2]

end

end

end Cert.KernelIdeal.HandValue.Flash

end
-- ==== Proof.KI.FlashPay.lean ====
import proofs.«428610_j54915451847256_3_alg».proof.Proof.Gen.KernelIdeal.Skeleton
import proofs.«428610_j54915451847256_3_alg».proof.Proof.LibRealCoe
import Idealize.ShloMosaic.PureOps.Ideal.Laws
import Idealize.ShloMosaic.Lib.ValueLayout

noncomputable section

namespace Cert.KernelIdeal.HandValue.Flash

open Idealize.ShloMosaic Idealize.ShloMosaic.ValueIdx Cert.KernelIdeal Cert.KernelIdeal.Gen
open scoped BigOperators

theorem qk_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl

theorem qk_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q

theorem qk_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

theorem qk_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

theorem qk_apply (a b : FVec Ideal S1024x128 .bf16) (r r' : Fin 1024) :
    matmul dot_S1024x128_S1024x128_S1024x1024_1_1_0_0_n_n none a b (constant S1024x1024 .f32 0x00000000#32) (ix2 r r')
      = ∑ d : Fin 128, a (ix2 r d) * b (ix2 r' d) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 r r') ((ValueIdx.contrEquiv1 dot_S1024x128_S1024x128_S1024x1024_1_1_0_0_n_n 128 rfl rfl).symm k) = ix2 r k := funext fun a => Fin.ext (by
    match a with
    | ⟨0, _⟩ => exact qk_lhs_0 _ _
    | ⟨1, _⟩ => exact (qk_lhs_1 _ _).trans hk)
  have er : dot_S1024x128_S1024x128_S1024x1024_1_1_0_0_n_n.rhsIdx (ix2 r r') ((ValueIdx.contrEquiv1 dot_S1024x128_S1024x128_S1024x1024_1_1_0_0_n_n 128 rfl rfl).symm k) = ix2 r' k := funext fun a => Fin.ext (by
    match a with
    | ⟨0, _⟩ => exact qk_rhs_0 _ _
    | ⟨1, _⟩ => exact (qk_rhs_1 _ _).trans hk)
  rw [el, er]

theorem pv_lhs_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl

theorem pv_lhs_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q

theorem pv_rhs_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q

theorem pv_rhs_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem pv_apply (a : FVec Ideal S1024x1024 .bf16) (b : FVec Ideal S1024x128 .bf16) (r : Fin 1024) (c : Fin 128) :
    matmul dot_S1024x1024_S1024x128_S1024x128_1_0_0_1_n_n none a b (constant S1024x128 .f32 0x00000000#32) (ix2 r c)
      = ∑ r' : Fin 1024, a (ix2 r r') * b (ix2 r' c) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r c) ((ValueIdx.contrEquiv1 dot_S1024x1024_S1024x128_S1024x128_1_0_0_1_n_n 1024 rfl rfl).symm k) = ix2 r k := funext fun a => Fin.ext (by
    match a with
    | ⟨0, _⟩ => exact pv_lhs_0 _ _
    | ⟨1, _⟩ => exact (pv_lhs_1 _ _).trans hk)
  have er : dot_S1024x1024_S1024x128_S1024x128_1_0_0_1_n_n.rhsIdx (ix2 r c) ((ValueIdx.contrEquiv1 dot_S1024x1024_S1024x128_S1024x128_1_0_0_1_n_n 1024 rfl rfl).symm k) = ix2 k c := funext fun a => Fin.ext (by
    match a with
    | ⟨0, _⟩ => exact (pv_rhs_0 _ _).trans hk
    | ⟨1, _⟩ => exact pv_rhs_1 _ _)
  rw [el, er]

theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1024)).fold max (⊥ : EReal) (fun r' => src (ix2 r r')) := by
  refine (Ideal.multiReduction_maximumf_single src 0xFF800000#32 h hφ hacc (ix1 r)).trans ?_
  have hb : (FloatOps.ofBits .f32 0xFF800000#32 : Ideal .f32) = (⊥ : EReal) := by
    exact Cert.RealCoe.ofBits_neginf
  rw [hb]
  refine congrArg (Finset.fold max (⊥ : EReal) · Finset.univ) (funext fun r' => ?_)
  exact congrArg src (funext fun a => Fin.ext (by match a with | ⟨0, _⟩ => rfl | ⟨1, _⟩ => rfl))

theorem rowSum_apply (src : FVec Ideal S1024x128 .f32) (h : S1024x128.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 128, src (ix2 r c) := by
  refine (Ideal.multiReduction_add_single src 0x00000000#32 h hφ hacc (ix1 r)).trans ?_
  refine Finset.sum_congr rfl fun c _ => ?_
  exact congrArg src (funext fun a => Fin.ext (by match a with | ⟨0, _⟩ => rfl | ⟨1, _⟩ => rfl))

def simT (Q K : Fin 1024 → Fin 128 → ℝ) (KK : Fin 1024 → ℝ) (r r' : Fin 1024) : ℝ :=
  2 * (∑ d, Q r d * K r' d) - KK r'

theorem exp_apply' {s : Shape} {φ : FTy} (x : FVec Ideal s φ) (i : s.Idx) : exp x i = Ideal.exp (x i) := rfl

theorem pay9_def {F : FTy → Type} [FloatOps F] (v3 v5 : FVec F S1024x128 .bf16) (v7 : FVec F S1x1024 .f32) (v14 : FVec F S1024x1 .f32) :
    k6_pay9 v3 v5 v7 v14
      = maximumf v14 (shapeCast S1024x1 (multiReduction .maximumf [1] S1024 (k6_pay8 v3 v5 v7) 0xFF800000#32
          reduces_S1024x1024_S1024 (.inl rfl) rfl) shapeCasts_S1024_S1024x1) := rfl

theorem pay12_def {F : FTy → Type} [FloatOps F] (v3 v5 v25 : FVec F S1024x128 .bf16) (v7 : FVec F S1x1024 .f32)
    (v14 v18 v28 : FVec F S1024x1 .f32) :
    k6_pay12 v3 v5 v7 v14 v18 v25 v28
      = addf (mulf (k6_pay10 v3 v5 v7 v14 v18) v28) (shapeCast S1024x1 (multiReduction .add [1] S1024
          (k6_pay11 v3 v5 v7 v14 v25) 0x00000000#32 reduces_S1024x128_S1024 (.inl rfl) rfl) shapeCasts_S1024_S1024x1) := rfl

section Pass
variable (qb kb ohb : FVec Ideal S1024x128 .bf16) (kkb : FVec Ideal S1x1024 .f32)
  (mb mb' lb : FVec Ideal S1024x1 .f32) (accb : FVec Ideal S1024x128 .f32)
  (Q K OH : Fin 1024 → Fin 128 → ℝ) (KK M L : Fin 1024 → ℝ) (A : Fin 1024 → Fin 128 → ℝ)
  (hq : ∀ r d, qb (ix2 r d) = ((Q r d : ℝ) : EReal)) (hk : ∀ r d, kb (ix2 r d) = ((K r d : ℝ) : EReal))
  (hkk : ∀ r, kkb (ix2 (0 : Fin 1) r) = ((KK r : ℝ) : EReal))
  (hoh : ∀ r c, ohb (ix2 r c) = ((OH r c : ℝ) : EReal))
  (hm : ∀ r, mb (ix2 r (0 : Fin 1)) = ((M r : ℝ) : EReal)) (hm' : ∀ r, mb' (ix2 r (0 : Fin 1)) = ((M r : ℝ) : EReal))
  (hl : ∀ r, lb (ix2 r (0 : Fin 1)) = ((L r : ℝ) : EReal))
  (hacc : ∀ r c, accb (ix2 r c) = ((A r c : ℝ) : EReal))
include hq hk hkk

theorem pay8_apply (r r' : Fin 1024) :
    k6_pay8 (F := Ideal) qb kb kkb (ix2 r r') = ((simT Q K KK r r' : ℝ) : EReal) := by
  unfold k6_pay8
  simp only [subf_apply, mulf_apply, broadcast_apply, shapeCast_self]
  rw [qk_apply, broadcastTo_1b_ab_apply, hkk]
  simp only [hq, hk]
  rw [show (FloatOps.ofBits .f32 0x40000000#32 : Ideal .f32) = ((2 : ℝ) : EReal) from Cert.RealCoe.ofBits_two]
  simp only [← EReal.coe_mul, Cert.RealCoe.coe_sum, ← EReal.coe_sub]
  rfl

include hm

theorem pay9_apply (r : Fin 1024) :
    k6_pay9 (F := Ideal) qb kb kkb mb (ix2 r (0 : Fin 1))
      = ((max (M r) (Finset.univ.sup' Finset.univ_nonempty (simT Q K KK r)) : ℝ) : EReal) := by
  have e : (fun r' => k6_pay8 (F := Ideal) qb kb kkb (ix2 r r')) = fun r' => ((simT Q K KK r r' : ℝ) : EReal) :=
    funext fun r' => pay8_apply qb kb kkb Q K KK hq hk hkk r r'
  refine (congrFun (pay9_def qb kb kkb mb) _).trans ((maximumf_apply _ _ _).trans ?_)
  refine (congrArg₂ max (hm r) ((shapeCast_a_a1_apply _ _ r 0).trans ((rowMax_apply _ _ _ _ r).trans ?_))).trans
    (Cert.RealCoe.max_coe _ _)
  rw [e]
  exact Cert.RealCoe.fold_max_bot_coe _ _ _

include hm'

theorem pay10_apply (r : Fin 1024) :
    k6_pay10 (F := Ideal) qb kb kkb mb mb' (ix2 r (0 : Fin 1))
      = ((Real.exp (M r - max (M r) (Finset.univ.sup' Finset.univ_nonempty (simT Q K KK r))) : ℝ) : EReal) := by
  unfold k6_pay10
  simp only [exp_apply', subf_apply]
  rw [hm', pay9_apply qb kb kkb mb Q K KK M hq hk hkk hm, ← EReal.coe_sub, Ideal.exp_coe]
omit hm'

include hoh

theorem pay11_apply (r : Fin 1024) (c : Fin 128) :
    k6_pay11 (F := Ideal) qb kb kkb mb ohb (ix2 r c)
      = ((∑ r' : Fin 1024, Real.exp (simT Q K KK r r' - max (M r) (Finset.univ.sup' Finset.univ_nonempty (simT Q K KK r))) * OH r' c : ℝ) : EReal) := by
  unfold k6_pay11
  simp only [shapeCast_self]
  rw [pv_apply, ← Cert.RealCoe.coe_sum]
  refine Finset.sum_congr rfl fun r' _ => ?_
  simp only [truncf_apply, exp_apply', subf_apply]
  rw [broadcastTo_a1_ab_apply, pay8_apply qb kb kkb Q K KK hq hk hkk, pay9_apply qb kb kkb mb Q K KK M hq hk hkk hm, hoh,
    ← EReal.coe_sub, Ideal.exp_coe, ← EReal.coe_mul]

include hm' hl

theorem pay12_apply (r : Fin 1024) :
    k6_pay12 (F := Ideal) qb kb kkb mb mb' ohb lb (ix2 r (0 : Fin 1))
      = (((Spec.flashStep (simT Q K KK r) OH ⟨M r, L r, A r⟩).l : ℝ) : EReal) := by
  have e : (fun c => k6_pay11 (F := Ideal) qb kb kkb mb ohb (ix2 r c))
      = fun c => ((∑ r' : Fin 1024, Real.exp (simT Q K KK r r' - max (M r) (Finset.univ.sup' Finset.univ_nonempty (simT Q K KK r))) * OH r' c : ℝ) : EReal) :=
    funext fun c => pay11_apply qb kb ohb kkb mb Q K OH KK M hq hk hkk hoh hm r c
  have e1 : mulf (k6_pay10 (F := Ideal) qb kb kkb mb mb') lb (ix2 r (0 : Fin 1))
      = ((Real.exp (M r - max (M r) (Finset.univ.sup' Finset.univ_nonempty (simT Q K KK r))) * L r : ℝ) : EReal) :=
    (mulf_apply _ _ _).trans (by rw [pay10_apply qb kb kkb mb mb' Q K KK M hq hk hkk hm hm', hl, ← EReal.coe_mul])
  have e2 : shapeCast S1024x1 (multiReduction .add [1] S1024 (k6_pay11 (F := Ideal) qb kb kkb mb ohb) 0x00000000#32
        reduces_S1024x128_S1024 (.inl rfl) rfl) shapeCasts_S1024_S1024x1 (ix2 r (0 : Fin 1))
      = ((∑ c : Fin 128, ∑ r' : Fin 1024, Real.exp (simT Q K KK r r' - max (M r) (Finset.univ.sup' Finset.univ_nonempty (simT Q K KK r))) * OH r' c : ℝ) : EReal) :=
    (shapeCast_a_a1_apply _ _ r 0).trans ((rowSum_apply _ _ _ _ r).trans (by rw [e]; exact Cert.RealCoe.coe_sum _ _))
  refine (congrFun (pay12_def qb kb ohb kkb mb mb' lb) _).trans ((addf_apply _ _ _).trans ?_)
  refine (congrArg₂ (fun a b : EReal => a + b) e1 e2).trans ?_
  rw [← EReal.coe_add]
  rfl
end Pass

theorem pay1_eq {F : FTy → Type} [FloatOps F] (v : FVec F S1024x1 .f32) : k6_pay1 v = v := by
  unfold k6_pay1; exact shapeCast_self v _

theorem pay3_eq {F : FTy → Type} [FloatOps F] (v : FVec F S1024x1 .f32) : k6_pay3 v = v := by
  unfold k6_pay3; exact shapeCast_self v _

theorem pay2_apply (a : FVec Ideal S1024x1 .f32) (pvb accb : FVec Ideal S1024x128 .f32) (r : Fin 1024) (c : Fin 128) :
    k6_pay2 (F := Ideal) a pvb accb (ix2 r c) = a (ix2 r (0 : Fin 1)) * accb (ix2 r c) + pvb (ix2 r c) := by
  unfold k6_pay2
  simp only [shapeCast_self, addf_apply, mulf_apply]
  rw [broadcastTo_a1_ab_apply]

theorem pay4_apply (accb : FVec Ideal S1024x128 .f32) (lb : FVec Ideal S1024x1 .f32) (r : Fin 1024) (c : Fin 128)
    (a l : ℝ) (ha : accb (ix2 r c) = ((a : ℝ) : EReal)) (hl : lb (ix2 r (0 : Fin 1)) = ((l : ℝ) : EReal)) (hl0 : l ≠ 0) :
    k6_pay4 (F := Ideal) accb lb (ix2 r c) = ((Spec.clip01 (a / l) : ℝ) : EReal) := by
  unfold k6_pay4
  simp only [minimumf_apply, maximumf_apply, divf_apply, broadcast_apply]
  rw [broadcastTo_a1_ab_apply, ha, hl, Cert.RealCoe.div_coe_coe hl0,
    show (FloatOps.ofBits .f32 0x00000000#32 : Ideal .f32) = ((0 : ℝ) : EReal) from Cert.RealCoe.ofBits_zero_coe,
    show (FloatOps.ofBits .f32 0x3F800000#32 : Ideal .f32) = ((1 : ℝ) : EReal) from Cert.RealCoe.ofBits_one_coe,
    Cert.RealCoe.max_coe, Cert.RealCoe.min_coe]
  rfl

theorem pay5_apply (r : Fin 1024) : k6_pay5 (F := Ideal) (ix2 r (0 : Fin 1)) = ((Iface.negR : ℝ) : EReal) := by
  unfold k6_pay5
  simp only [shapeCast_self, broadcast_apply]
  exact Cert.RealCoe.ofBits_neg

theorem pay6_apply (r : Fin 1024) : k6_pay6 (F := Ideal) (ix2 r (0 : Fin 1)) = ((0 : ℝ) : EReal) := by
  unfold k6_pay6
  simp only [shapeCast_self, broadcast_apply]
  exact Cert.RealCoe.ofBits_zero_coe

theorem pay7_apply (r : Fin 1024) (c : Fin 128) : k6_pay7 (F := Ideal) (ix2 r c) = ((0 : ℝ) : EReal) := by
  unfold k6_pay7
  simp only [shapeCast_self, broadcast_apply]
  exact Cert.RealCoe.ofBits_zero_coe

section Step
variable (qb kb ohb : FVec Ideal S1024x128 .bf16) (kkb : FVec Ideal S1x1024 .f32)
  (mb lb : FVec Ideal S1024x1 .f32) (accb : FVec Ideal S1024x128 .f32)
  (Q K OH : Fin 1024 → Fin 128 → ℝ) (KK : Fin 1024 → ℝ) (st : Fin 1024 → Spec.Carry)
  (hq : ∀ r d, qb (ix2 r d) = ((Q r d : ℝ) : EReal)) (hk : ∀ r d, kb (ix2 r d) = ((K r d : ℝ) : EReal))
  (hkk : ∀ r, kkb (ix2 (0 : Fin 1) r) = ((KK r : ℝ) : EReal))
  (hoh : ∀ r c, ohb (ix2 r c) = ((OH r c : ℝ) : EReal))
  (hm : ∀ r, mb (ix2 r (0 : Fin 1)) = (((st r).m : ℝ) : EReal))
  (hl : ∀ r, lb (ix2 r (0 : Fin 1)) = (((st r).l : ℝ) : EReal))
  (hacc : ∀ r c, accb (ix2 r c) = (((st r).acc c : ℝ) : EReal))
include hq hk hkk hm

theorem step_m (r : Fin 1024) :
    k6_pay3 (k6_pay9 (F := Ideal) qb kb kkb mb) (ix2 r (0 : Fin 1))
      = (((Spec.flashStep (simT Q K KK r) OH (st r)).m : ℝ) : EReal) := by
  rw [pay3_eq]
  exact pay9_apply qb kb kkb mb Q K KK (fun r => (st r).m) hq hk hkk hm r

include hoh hl

theorem step_l (r : Fin 1024) :
    k6_pay1 (k6_pay12 (F := Ideal) qb kb kkb mb mb ohb lb) (ix2 r (0 : Fin 1))
      = (((Spec.flashStep (simT Q K KK r) OH (st r)).l : ℝ) : EReal) := by
  rw [pay1_eq]
  exact pay12_apply qb kb ohb kkb mb mb lb Q K OH KK (fun r => (st r).m) (fun r => (st r).l) (fun r => (st r).acc)
    hq hk hkk hoh hm hm hl r
omit hl

include hacc

theorem step_acc (r : Fin 1024) (c : Fin 128) :
    k6_pay2 (k6_pay10 (F := Ideal) qb kb kkb mb mb) (k6_pay11 (F := Ideal) qb kb kkb mb ohb) accb (ix2 r c)
      = (((Spec.flashStep (simT Q K KK r) OH (st r)).acc c : ℝ) : EReal) := by
  rw [pay2_apply, pay10_apply qb kb kkb mb mb Q K KK (fun r => (st r).m) hq hk hkk hm hm,
    pay11_apply qb kb ohb kkb mb Q K OH KK (fun r => (st r).m) hq hk hkk hoh hm, hacc, ← EReal.coe_mul, ← EReal.coe_add]
  rfl
end Step

end Cert.KernelIdeal.HandValue.Flash

end
-- ==== Proof.KI.FlashFold.lean ====
import proofs.«428610_j54915451847256_3_alg».proof.Proof.KI.FlashPay

noncomputable section

namespace Cert.KernelIdeal.HandValue.Flash

open Idealize.ShloMosaic Idealize.ShloMosaic.ValueIdx Cert.KernelIdeal Cert.KernelIdeal.Gen
open scoped BigOperators

def qRowN (n : ℕ) (r : Fin 1024) : Fin 4096 :=
  ⟨n / 8 % 4 * 1024 + r.val, by have := r.isLt; have := Nat.mod_lt (n / 8) (show 0 < 4 by norm_num); omega⟩

def kTileN (n : ℕ) : Fin 8 := ⟨n % 8, Nat.mod_lt _ (by norm_num)⟩

theorem qRowN_succ (n : ℕ) (h : (n + 1) % 8 ≠ 0) (r : Fin 1024) : qRowN (n + 1) r = qRowN n r :=
  Fin.ext (by show (n + 1) / 8 % 4 * 1024 + r.val = n / 8 % 4 * 1024 + r.val; have : (n + 1) / 8 = n / 8 := by omega
              rw [this])

theorem flashAt_of_eq_zero (neg : ℝ) (s : Fin 8 → Fin 1024 → ℝ) (oh : Fin 8 → Fin 1024 → Fin 128 → ℝ) (T : ℕ) (h : T < 8)
    (e : T = 0) : Spec.flashAt neg s oh T h = Spec.flashStep (s ⟨T, h⟩) (oh ⟨T, h⟩) ⟨neg, 0, fun _ => 0⟩ := by
  subst e; rfl
theorem flashAt_of_eq_succ (neg : ℝ) (s : Fin 8 → Fin 1024 → ℝ) (oh : Fin 8 → Fin 1024 → Fin 128 → ℝ) (T T' : ℕ) (h : T < 8)
    (h' : T' < 8) (e : T = T' + 1) :
    Spec.flashAt neg s oh T h = Spec.flashStep (s ⟨T, h⟩) (oh ⟨T, h⟩) (Spec.flashAt neg s oh T' h') := by
  subst e; rfl

theorem flashAt_congr (neg : ℝ) (s : Fin 8 → Fin 1024 → ℝ) (oh : Fin 8 → Fin 1024 → Fin 128 → ℝ) {T T' : ℕ} (e : T = T')
    (h : T < 8) (h' : T' < 8) : Spec.flashAt neg s oh T h = Spec.flashAt neg s oh T' h' := by
  subst e; rfl

section Fold
variable (q : Fin 4096 → Fin 128 → ℝ) (k : Fin 8192 → Fin 128 → ℝ) (y : Fin 8192 → ℤ)

abbrev simRow (i : Fin 4096) : Fin 8 → Fin 1024 → ℝ := fun T r' => Spec.simK q k i (Spec.keyOf T r')
abbrev ohTile : Fin 8 → Fin 1024 → Fin 128 → ℝ := fun T r' => Spec.oneHot 128 y (Spec.keyOf T r')

def carryN (n : ℕ) (r : Fin 1024) : Spec.Carry :=
  Spec.flashAt Iface.negR (simRow q k (qRowN n r)) (ohTile y) (n % 8) (Nat.mod_lt _ (by norm_num))

theorem carryN_first (n : ℕ) (h0 : n % 8 = 0) (r : Fin 1024) :
    carryN q k y n r
      = Spec.flashStep (simRow q k (qRowN n r) (kTileN n)) (ohTile y (kTileN n)) ⟨Iface.negR, 0, fun _ => 0⟩ :=
  flashAt_of_eq_zero _ _ _ (n % 8) _ h0

theorem carryN_next (n : ℕ) (h0 : (n + 1) % 8 ≠ 0) (r : Fin 1024) :
    carryN q k y (n + 1) r
      = Spec.flashStep (simRow q k (qRowN (n + 1) r) (kTileN (n + 1))) (ohTile y (kTileN (n + 1))) (carryN q k y n r) := by
  unfold carryN
  rw [qRowN_succ n h0 r]
  exact flashAt_of_eq_succ _ _ _ ((n + 1) % 8) (n % 8) _ _ (by omega)

theorem carryN_last (n : ℕ) (h7 : n % 8 = 7) (r : Fin 1024) :
    carryN q k y n r = Spec.flashAt Iface.negR (simRow q k (qRowN n r)) (ohTile y) 7 (by norm_num) :=
  flashAt_congr _ _ _ h7 _ _

theorem flashOut_eq (n : ℕ) (h7 : n % 8 = 7) (r : Fin 1024) (c' : Fin 128) :
    Spec.flashOut Iface.negR q k y (qRowN n r) c'
      = Spec.clip01 ((carryN q k y n r).acc c' / (carryN q k y n r).l) := by
  rw [carryN_last q k y n h7 r]; rfl

def RowsHold (mb lb : FVec Ideal S1024x1 .f32) (accb : FVec Ideal S1024x128 .f32) (st : Fin 1024 → Spec.Carry) : Prop :=
  ∀ r : Fin 1024, mb (ix2 r (0 : Fin 1)) = (((st r).m : ℝ) : EReal) ∧ lb (ix2 r (0 : Fin 1)) = (((st r).l : ℝ) : EReal)
    ∧ ∀ c : Fin 128, accb (ix2 r c) = (((st r).acc c : ℝ) : EReal)

structure BlocksAt (n : ℕ) (qb kb ohb : FVec Ideal S1024x128 .bf16) (kkb : FVec Ideal S1x1024 .f32) : Prop where
  hq : ∀ r d, qb (ix2 r d) = ((q (qRowN n r) d : ℝ) : EReal)
  hk : ∀ r d, kb (ix2 r d) = ((k (Spec.keyOf (kTileN n) r) d : ℝ) : EReal)
  hkk : ∀ r, kkb (ix2 (0 : Fin 1) r)
    = ((∑ d, k (Spec.keyOf (kTileN n) r) d * k (Spec.keyOf (kTileN n) r) d : ℝ) : EReal)
  hoh : ∀ r c, ohb (ix2 r c) = ((Spec.oneHot 128 y (Spec.keyOf (kTileN n) r) c : ℝ) : EReal)

theorem rows_pass (n : ℕ) (qb kb ohb : FVec Ideal S1024x128 .bf16) (kkb : FVec Ideal S1x1024 .f32)
    (hb : BlocksAt q k y n qb kb ohb kkb) (mb lb : FVec Ideal S1024x1 .f32) (accb : FVec Ideal S1024x128 .f32)
    (st : Fin 1024 → Spec.Carry) (hst : RowsHold mb lb accb st) :
    RowsHold (k6_pay3 (k6_pay9 qb kb kkb mb)) (k6_pay1 (k6_pay12 qb kb kkb mb mb ohb lb))
      (k6_pay2 (k6_pay10 qb kb kkb mb mb) (k6_pay11 qb kb kkb mb ohb) accb)
      (fun r => Spec.flashStep (simRow q k (qRowN n r) (kTileN n)) (ohTile y (kTileN n)) (st r)) := fun r =>
  ⟨step_m qb kb kkb mb (fun r d => q (qRowN n r) d) (fun r' d => k (Spec.keyOf (kTileN n) r') d)
      (fun r' c => Spec.oneHot 128 y (Spec.keyOf (kTileN n) r') c)
      (fun r' => ∑ d, k (Spec.keyOf (kTileN n) r') d * k (Spec.keyOf (kTileN n) r') d) st
      hb.hq hb.hk hb.hkk (fun r => (hst r).1) r,
    step_l qb kb ohb kkb mb lb (fun r d => q (qRowN n r) d) (fun r' d => k (Spec.keyOf (kTileN n) r') d)
      (fun r' c => Spec.oneHot 128 y (Spec.keyOf (kTileN n) r') c)
      (fun r' => ∑ d, k (Spec.keyOf (kTileN n) r') d * k (Spec.keyOf (kTileN n) r') d) st
      hb.hq hb.hk hb.hkk hb.hoh (fun r => (hst r).1) (fun r => (hst r).2.1) r,
    fun c => step_acc qb kb ohb kkb mb accb (fun r d => q (qRowN n r) d) (fun r' d => k (Spec.keyOf (kTileN n) r') d)
      (fun r' c => Spec.oneHot 128 y (Spec.keyOf (kTileN n) r') c)
      (fun r' => ∑ d, k (Spec.keyOf (kTileN n) r') d * k (Spec.keyOf (kTileN n) r') d) st
      hb.hq hb.hk hb.hkk hb.hoh (fun r => (hst r).1) (fun r => (hst r).2.2) r c⟩

theorem rows_reset : RowsHold (k6_pay5 (F := Ideal)) (k6_pay6 (F := Ideal)) (k6_pay7 (F := Ideal))
    (fun _ => ⟨Iface.negR, 0, fun _ => 0⟩) := fun r => ⟨pay5_apply r, pay6_apply r, fun c => pay7_apply r c⟩

theorem rows_fold (N : ℕ)
    (qbs kbs ohbs : (n : ℕ) → n < N → FVec Ideal S1024x128 .bf16) (kkbs : (n : ℕ) → n < N → FVec Ideal S1x1024 .f32)
    (ms ls : (n : ℕ) → n < N → FVec Ideal S1024x1 .f32) (accs : (n : ℕ) → n < N → FVec Ideal S1024x128 .f32)
    (hb : ∀ n (h : n < N), BlocksAt q k y n (qbs n h) (kbs n h) (ohbs n h) (kkbs n h))
    (hA : ∀ n (h : n < N), n % 8 = 0 →
      ms n h = k6_pay3 (k6_pay9 (qbs n h) (kbs n h) (kkbs n h) k6_pay5)
      ∧ ls n h = k6_pay1 (k6_pay12 (qbs n h) (kbs n h) (kkbs n h) k6_pay5 k6_pay5 (ohbs n h) k6_pay6)
      ∧ accs n h = k6_pay2 (k6_pay10 (qbs n h) (kbs n h) (kkbs n h) k6_pay5 k6_pay5)
          (k6_pay11 (qbs n h) (kbs n h) (kkbs n h) k6_pay5 (ohbs n h)) k6_pay7)
    (hB : ∀ n (h : n + 1 < N), (n + 1) % 8 ≠ 0 →
      ms (n + 1) h = k6_pay3 (k6_pay9 (qbs (n + 1) h) (kbs (n + 1) h) (kkbs (n + 1) h) (ms n (Nat.lt_of_succ_lt h)))
      ∧ ls (n + 1) h = k6_pay1 (k6_pay12 (qbs (n + 1) h) (kbs (n + 1) h) (kkbs (n + 1) h) (ms n (Nat.lt_of_succ_lt h))
          (ms n (Nat.lt_of_succ_lt h)) (ohbs (n + 1) h) (ls n (Nat.lt_of_succ_lt h)))
      ∧ accs (n + 1) h = k6_pay2 (k6_pay10 (qbs (n + 1) h) (kbs (n + 1) h) (kkbs (n + 1) h) (ms n (Nat.lt_of_succ_lt h))
            (ms n (Nat.lt_of_succ_lt h)))
          (k6_pay11 (qbs (n + 1) h) (kbs (n + 1) h) (kkbs (n + 1) h) (ms n (Nat.lt_of_succ_lt h)) (ohbs (n + 1) h))
          (accs n (Nat.lt_of_succ_lt h))) :
    ∀ n (h : n < N), RowsHold (ms n h) (ls n h) (accs n h) (carryN q k y n) := by
  have first : ∀ n (h : n < N), n % 8 = 0 → RowsHold (ms n h) (ls n h) (accs n h) (carryN q k y n) := fun n h h0 => by
    obtain ⟨em, el, ea⟩ := hA n h h0
    rw [em, el, ea, show carryN q k y n = fun r => Spec.flashStep (simRow q k (qRowN n r) (kTileN n)) (ohTile y (kTileN n))
      ⟨Iface.negR, 0, fun _ => 0⟩ from funext fun r => carryN_first q k y n h0 r]
    exact rows_pass q k y n _ _ _ _ (hb n h) _ _ _ _ rows_reset
  intro n
  induction n with
  | zero => exact fun h => first 0 h rfl
  | succ n ih =>
    intro h
    by_cases h0 : (n + 1) % 8 = 0
    · exact first (n + 1) h h0
    · obtain ⟨em, el, ea⟩ := hB n h h0
      rw [em, el, ea, show carryN q k y (n + 1) = fun r => Spec.flashStep (simRow q k (qRowN (n + 1) r) (kTileN (n + 1)))
        (ohTile y (kTileN (n + 1))) (carryN q k y n r) from funext fun r => carryN_next q k y n h0 r]
      exact rows_pass q k y (n + 1) _ _ _ _ (hb (n + 1) h) _ _ _ _ (ih (Nat.lt_of_succ_lt h))

end Fold

end Cert.KernelIdeal.HandValue.Flash

end
-- ==== Proof.KI.FlashBlocks.lean ====
import proofs.«428610_j54915451847256_3_alg».proof.Proof.KI.FlashBase
import proofs.«428610_j54915451847256_3_alg».proof.Proof.Iface
import Idealize.ShloMosaic.Lib.Pipeline.Value
import Idealize.ShloMosaic.Lib.ValueIdx

noncomputable section

namespace Cert.KernelIdeal.HandValue.Flash

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)
open scoped BigOperators

theorem N6 : cfg6.N = 32 := N_6

def qOf (t : Fin cfg6.N) : Fin 4 := ⟨t.val / 8, by have := t.isLt; have hN := N6; omega⟩
def kOf (t : Fin cfg6.N) : Fin 8 := ⟨t.val % 8, Nat.mod_lt _ (by norm_num)⟩

def rowOf (I : Fin 4) (r : Fin 1024) : Fin 4096 := ⟨I.val * 1024 + r.val, by have := I.isLt; have := r.isLt; omega⟩

theorem idx6 : ∀ t : Fin cfg6.N,
    win6_0.index t (0 : Fin 2) = t.val / 8 ∧ win6_0.index t (1 : Fin 2) = 0
    ∧ win6_1.index t (0 : Fin 2) = t.val % 8 ∧ win6_1.index t (1 : Fin 2) = 0
    ∧ win6_2.index t (0 : Fin 2) = 0 ∧ win6_2.index t (1 : Fin 2) = t.val % 8
    ∧ win6_3.index t (0 : Fin 2) = t.val % 8 ∧ win6_3.index t (1 : Fin 2) = 0
    ∧ win6_4.index t (0 : Fin 2) = t.val / 8 ∧ win6_4.index t (1 : Fin 2) = 0 :=
  (by decide +kernel : ∀ t : Fin grid6.N, _)

section Blocks
variable {F : FTy → Type} [FloatOps F]
variable (V : (c : Dev nD) → (b : Ref sig .tc) → Buf (Elt F) ((c : Thread nD τ).loc b))

abbrev qblk (c : Dev nD) (t : Fin cfg6.N) : FVec F S1024x128 .bf16 := iblk6 V c 0 t
abbrev kblk (c : Dev nD) (t : Fin cfg6.N) : FVec F S1024x128 .bf16 := iblk6 V c 1 t
abbrev kkblk (c : Dev nD) (t : Fin cfg6.N) : FVec F S1x1024 .f32 := iblk6 V c 2 t
abbrev ohblk (c : Dev nD) (t : Fin cfg6.N) : FVec F S1024x128 .bf16 := iblk6 V c 3 t

abbrev qarr (c : Dev nD) : FVec F S4096x128 .bf16 := V c (Pipeline.arrRef spec6 0)
abbrev karr (c : Dev nD) : FVec F S8192x128 .bf16 := V c (Pipeline.arrRef spec6 1)
abbrev kkarr (c : Dev nD) : FVec F S1x8192 .f32 := V c (Pipeline.arrRef spec6 2)
abbrev oharr (c : Dev nD) : FVec F S8192x128 .bf16 := V c (Pipeline.arrRef spec6 3)

theorem qblk_apply (c : Dev nD) (t : Fin cfg6.N) (r : Fin 1024) (d : Fin 128) :
    qblk V c t (ix2 r d) = qarr V c (ix2 (rowOf (qOf t) r) d) := by
  show V c (Pipeline.arrRef spec6 0) (((cfg6.win 0).blk t).view.emb (ix2 r d)) = V c (Pipeline.arrRef spec6 0) (ix2 (rowOf (qOf t) r) d)
  refine congrArg (V c (Pipeline.arrRef spec6 0)) (funext fun a => Fin.ext ?_)
  obtain ⟨e0, e1, -⟩ := idx6 t
  match a with
  | ⟨0, _⟩ => show win6_0.index t (0 : Fin 2) * 1024 + 1 * r.val = t.val / 8 * 1024 + r.val; rw [e0]; omega
  | ⟨1, _⟩ => show win6_0.index t (1 : Fin 2) * 128 + 1 * d.val = d.val; rw [e1]; omega

theorem kblk_apply (c : Dev nD) (t : Fin cfg6.N) (r : Fin 1024) (d : Fin 128) :
    kblk V c t (ix2 r d) = karr V c (ix2 (Spec.keyOf (kOf t) r) d) := by
  show V c (Pipeline.arrRef spec6 1) (((cfg6.win 1).blk t).view.emb (ix2 r d)) = V c (Pipeline.arrRef spec6 1) (ix2 (Spec.keyOf (kOf t) r) d)
  refine congrArg (V c (Pipeline.arrRef spec6 1)) (funext fun a => Fin.ext ?_)
  obtain ⟨-, -, e0, e1, -⟩ := idx6 t
  match a with
  | ⟨0, _⟩ => show win6_1.index t (0 : Fin 2) * 1024 + 1 * r.val = t.val % 8 * 1024 + r.val; rw [e0]; omega
  | ⟨1, _⟩ => show win6_1.index t (1 : Fin 2) * 128 + 1 * d.val = d.val; rw [e1]; omega

theorem kkblk_apply (c : Dev nD) (t : Fin cfg6.N) (r : Fin 1024) :
    kkblk V c t (ix2 (0 : Fin 1) r) = kkarr V c (ix2 (0 : Fin 1) (Spec.keyOf (kOf t) r)) := by
  show V c (Pipeline.arrRef spec6 2) (((cfg6.win 2).blk t).view.emb (ix2 (0 : Fin 1) r)) = V c (Pipeline.arrRef spec6 2) (ix2 (0 : Fin 1) (Spec.keyOf (kOf t) r))
  refine congrArg (V c (Pipeline.arrRef spec6 2)) (funext fun a => Fin.ext ?_)
  obtain ⟨-, -, -, -, e0, e1, -⟩ := idx6 t
  match a with
  | ⟨0, _⟩ => show win6_2.index t (0 : Fin 2) * 1 + 1 * 0 = 0; rw [e0]
  | ⟨1, _⟩ => show win6_2.index t (1 : Fin 2) * 1024 + 1 * r.val = t.val % 8 * 1024 + r.val; rw [e1]; omega

theorem ohblk_apply (c : Dev nD) (t : Fin cfg6.N) (r : Fin 1024) (d : Fin 128) :
    ohblk V c t (ix2 r d) = oharr V c (ix2 (Spec.keyOf (kOf t) r) d) := by
  show V c (Pipeline.arrRef spec6 3) (((cfg6.win 3).blk t).view.emb (ix2 r d)) = V c (Pipeline.arrRef spec6 3) (ix2 (Spec.keyOf (kOf t) r) d)
  refine congrArg (V c (Pipeline.arrRef spec6 3)) (funext fun a => Fin.ext ?_)
  obtain ⟨-, -, -, -, -, -, e0, e1, -⟩ := idx6 t
  match a with
  | ⟨0, _⟩ => show win6_3.index t (0 : Fin 2) * 1024 + 1 * r.val = t.val % 8 * 1024 + r.val; rw [e0]; omega
  | ⟨1, _⟩ => show win6_3.index t (1 : Fin 2) * 128 + 1 * d.val = d.val; rw [e1]; omega

end Blocks

end Cert.KernelIdeal.HandValue.Flash

end
-- ==== Proof.KI.FlashVal.lean ====
import proofs.«428610_j54915451847256_3_alg».proof.Proof.KI.FlashPieces
import proofs.«428610_j54915451847256_3_alg».proof.Proof.KI.FlashFold
import proofs.«428610_j54915451847256_3_alg».proof.Proof.KI.FlashBlocks

noncomputable section

namespace Cert.KernelIdeal.HandValue.Flash

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)
open scoped BigOperators

theorem out_eq_pay4 {F : FTy → Type} [FloatOps F]
    (V : (c : Dev nD) → (b : Ref sig .tc) → Buf (Elt F) ((c : Thread nD τ).loc b)) (c : Dev nD)
    (t : Fin cfg6.N) (h7 : t.val % 8 = 7) :
    (outsAt6 V c t.val t.isLt).1 = k6_pay4 (outsAt6 V c t.val t.isLt).2.2.2 (outsAt6 V c t.val t.isLt).2.2.1 := by
  have h0 : ¬t.val % 8 = 0 := by omega
  rw [outsAt6_C V c t h0 h7]
  dsimp only
  rw [out6_C_4_eq, sout6_C_2_eq, sout6_C_1_eq]

section Value
variable (V : (c : Dev nD) → (b : Ref sig .tc) → Buf (Elt Ideal) ((c : Thread nD τ).loc b)) (c : Dev nD)
  (q : Fin 4096 → Fin 128 → ℝ) (k : Fin 8192 → Fin 128 → ℝ) (y : Fin 8192 → ℤ)
  (hq : ∀ p d, qarr V c (ix2 p d) = ((q p d : ℝ) : EReal))
  (hk : ∀ j d, karr V c (ix2 j d) = ((k j d : ℝ) : EReal))
  (hkk : ∀ j, kkarr V c (ix2 (0 : Fin 1) j) = ((∑ d, k j d * k j d : ℝ) : EReal))
  (hoh : ∀ j c', oharr V c (ix2 j c') = ((Spec.oneHot 128 y j c' : ℝ) : EReal))
include hq hk hkk hoh

theorem blocksAt (n : ℕ) (h : n < cfg6.N) :
    BlocksAt q k y n (qblk V c ⟨n, h⟩) (kblk V c ⟨n, h⟩) (ohblk V c ⟨n, h⟩) (kkblk V c ⟨n, h⟩) where
  hq r d := by
    have e : rowOf (qOf ⟨n, h⟩) r = qRowN n r := Fin.ext (by
      show n / 8 * 1024 + r.val = n / 8 % 4 * 1024 + r.val
      have hN := N6
      have : n / 8 % 4 = n / 8 := Nat.mod_eq_of_lt (by omega)
      rw [this])
    rw [qblk_apply, hq, e]
  hk r d := by rw [kblk_apply, hk]; rfl
  hkk r := by rw [kkblk_apply, hkk]; rfl
  hoh r c' := by rw [ohblk_apply, hoh]; rfl

theorem rows_at (n : ℕ) (h : n < cfg6.N) :
    RowsHold (outsAt6 V c n h).2.1 (outsAt6 V c n h).2.2.1 (outsAt6 V c n h).2.2.2 (carryN q k y n) :=
  rows_fold q k y cfg6.N (fun n h => qblk V c ⟨n, h⟩) (fun n h => kblk V c ⟨n, h⟩) (fun n h => ohblk V c ⟨n, h⟩)
    (fun n h => kkblk V c ⟨n, h⟩)
    (fun n h => (outsAt6 V c n h).2.1) (fun n h => (outsAt6 V c n h).2.2.1) (fun n h => (outsAt6 V c n h).2.2.2)
    (fun n h => blocksAt V c q k y hq hk hkk hoh n h)
    (fun n h h0 => by
      have h1 : ¬n % 8 = 7 := by omega
      rw [outsAt6_A V c ⟨n, h⟩ h0 h1]
      dsimp only
      rw [sout6_A_0_eq, sout6_A_1_eq, sout6_A_2_eq]
      exact ⟨rfl, rfl, rfl⟩)
    (fun n h h0 => by
      by_cases h1 : (n + 1) % 8 = 7
      · rw [outsAt6_C V c ⟨n + 1, h⟩ h0 h1]
        dsimp only
        rw [sout6_C_0_eq, sout6_C_1_eq, sout6_C_2_eq]
        exact ⟨rfl, rfl, rfl⟩
      · rw [outsAt6_B V c ⟨n + 1, h⟩ h0 h1]
        dsimp only
        rw [sout6_B_0_eq, sout6_B_1_eq, sout6_B_2_eq]
        exact ⟨rfl, rfl, rfl⟩)
    n h

variable (hpos : ∀ i : Fin 4096, 0 < (Spec.flashAt Iface.negR (fun T r => Spec.simK q k i (Spec.keyOf T r))
  (fun T r => Spec.oneHot 128 y (Spec.keyOf T r)) 7 (by norm_num)).l)
include hpos

theorem out_apply (t : Fin cfg6.N) (h7 : t.val % 8 = 7) (j : S1024x128.Idx) :
    k6_pay4 (outsAt6 V c t.val t.isLt).2.2.2 (outsAt6 V c t.val t.isLt).2.2.1 j
      = ((Spec.flashOut Iface.negR q k y (qRowN t.val (j 0)) (j 1) : ℝ) : EReal) := by
  obtain ⟨r, c', rfl⟩ : ∃ (r : Fin 1024) (c' : Fin 128), j = ix2 r c' := ⟨j 0, j 1, eq_ix2 j⟩
  have hrows := rows_at V c q k y hq hk hkk hoh t.val t.isLt r
  have hl0 : (carryN q k y t.val r).l ≠ 0 := by
    rw [carryN_last q k y t.val h7 r]
    exact (hpos (qRowN t.val r)).ne'
  refine (pay4_apply _ _ r c' _ _ (hrows.2.2 c') hrows.2.1 hl0).trans ?_
  show _ = ((Spec.flashOut Iface.negR q k y (qRowN t.val r) c' : ℝ) : EReal)
  rw [flashOut_eq q k y t.val h7 r c']

def outG : FVec Ideal S4096x128 .f32 := fun j => ((Spec.flashOut Iface.negR q k y (j 0) (j 1) : ℝ) : EReal)

theorem flushed_eq (t : Fin cfg6.N) (hf : (cfg6.win 4).flush t = true) :
    (dat6 V c).flushed 4 t = ((cfg6.win 4).blk t).view.read (Elt Ideal) (outG q k y) := by
  have h7 : t.val % 8 = 7 := (flush6_4 t).mp hf
  show (cfg6.win 4).cut (grid6.coords t) ((dat6 V c).after 4 t) = _
  rw [after6_4, out_eq_pay4 V c t h7]
  funext j
  refine (out_apply V c q k y hq hk hkk hoh hpos t h7 j).trans ?_
  show _ = ((Spec.flashOut Iface.negR q k y ((((cfg6.win 4).blk t).view.emb j) 0) ((((cfg6.win 4).blk t).view.emb j) 1) : ℝ) : EReal)
  obtain ⟨-, -, -, -, -, -, -, -, e0, e1⟩ := idx6 t
  have hN := N6
  have ht := t.isLt
  refine congrArg₂ (fun a b => ((Spec.flashOut Iface.negR q k y a b : ℝ) : EReal)) (Fin.ext ?_) (Fin.ext ?_)
  · show t.val / 8 % 4 * 1024 + (j 0).val = win6_4.index t (0 : Fin 2) * 1024 + 1 * (j 0).val
    rw [e0]; omega
  · show (j 1).val = win6_4.index t (1 : Fin 2) * 128 + 1 * (j 1).val
    rw [e1]; omega

omit hq hk hkk hoh hpos in

theorem mem_blk4 (t : Fin cfg6.N) (i : S4096x128.Idx) :
    i ∈ ((cfg6.win 4).blk t).view.set ↔ ∀ a : Fin 2, win6_4.index t a * S1024x128.size a ≤ (i a).val
      ∧ (i a).val < win6_4.index t a * S1024x128.size a + S1024x128.size a := by
  show i ∈ ((View.whole main_v91).slice (win6_4.rect t)).set ↔ _
  rw [View.set_slice_whole, Rect.mem_set_unit]
  exact Iff.rfl

omit hq hk hkk hoh hpos in

theorem cover4 (i : S4096x128.Idx) :
    ∃ t : Fin cfg6.N, (cfg6.win 4).flush t = true ∧ i ∈ ((cfg6.win 4).blk t).view.set := by
  have hi0 : (i 0).val < 4096 := (i 0).isLt
  have hi1 : (i 1).val < 128 := (i 1).isLt
  have hN := N6
  refine ⟨⟨(i 0).val / 1024 * 8 + 7, by omega⟩, (flush6_4 _).mpr (by show ((i 0).val / 1024 * 8 + 7) % 8 = 7; omega), ?_⟩
  rw [mem_blk4]
  obtain ⟨-, -, -, -, -, -, -, -, e0, e1⟩ := idx6 ⟨(i 0).val / 1024 * 8 + 7, by omega⟩
  intro a
  match a with
  | ⟨0, _⟩ =>
    show win6_4.index _ (0 : Fin 2) * 1024 ≤ (i 0).val ∧ (i 0).val < win6_4.index _ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win6_4.index _ (1 : Fin 2) * 128 ≤ (i 1).val ∧ (i 1).val < win6_4.index _ (1 : Fin 2) * 128 + 128
    rw [e1]; omega

theorem flash_value (i : Fin 4096) (c' : Fin 128) :
    (dat6 V c).arrAt 4 cfg6.N (ix2 i c') = ((Spec.flashOut Iface.negR q k y i c' : ℝ) : EReal) :=
  congrFun ((dat6 V c).arrAt_eq_of_cover 4 (outG q k y)
    (fun t hf => flushed_eq V c q k y hq hk hkk hoh hpos t hf) cover4) (ix2 i c')

end Value

end Cert.KernelIdeal.HandValue.Flash

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open scoped BigOperators

theorem flash_value (V : (c : Dev nD) → (b : Ref sig .tc) → Buf (Elt Ideal) ((c : Thread nD τ).loc b)) (c : Dev nD)
    (q : Fin 4096 → Fin 128 → ℝ) (k : Fin 8192 → Fin 128 → ℝ) (y : Fin 8192 → ℤ)
    (hq : ∀ p d, Flash.qarr V c (ix2 p d) = ((q p d : ℝ) : EReal))
    (hk : ∀ j d, Flash.karr V c (ix2 j d) = ((k j d : ℝ) : EReal))
    (hkk : ∀ j, Flash.kkarr V c (ix2 (0 : Fin 1) j) = ((∑ d, k j d * k j d : ℝ) : EReal))
    (hoh : ∀ j c', Flash.oharr V c (ix2 j c') = ((Spec.oneHot 128 y j c' : ℝ) : EReal))
    (hpos : ∀ i : Fin 4096, 0 < (Spec.flashAt Iface.negR (fun T r => Spec.simK q k i (Spec.keyOf T r))
      (fun T r => Spec.oneHot 128 y (Spec.keyOf T r)) 7 (by norm_num)).l)
    (i : Fin 4096) (c' : Fin 128) :
    (dat6 V c).arrAt 4 cfg6.N (ix2 i c') = ((Spec.flashOut Iface.negR q k y i c' : ℝ) : EReal) :=
  Flash.flash_value V c q k y hq hk hkk hoh hpos i c'

end Cert.KernelIdeal.HandValue

end
-- ==== Proof.KI.KernelValue.lean ====
import proofs.«428610_j54915451847256_3_alg».proof.Proof.KI.KernelChain
import proofs.«428610_j54915451847256_3_alg».proof.Proof.KI.EncVal0
import proofs.«428610_j54915451847256_3_alg».proof.Proof.KI.EncVal1
import proofs.«428610_j54915451847256_3_alg».proof.Proof.KI.EncVal2
import proofs.«428610_j54915451847256_3_alg».proof.Proof.KI.EncVal3
import proofs.«428610_j54915451847256_3_alg».proof.Proof.KI.EncVal4
import proofs.«428610_j54915451847256_3_alg».proof.Proof.KI.EncVal5
import proofs.«428610_j54915451847256_3_alg».proof.Proof.KI.FlashVal

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen Cert.KernelIdeal.Hand

section Close
variable (m : (ℓ : Loc nD τ sig) → Buf (Elt Ideal) ℓ) (ρ : Dev nD → PrngReg) (c : Dev nD)

theorem eff0 : Eff0 m ρ c := fun X γ β μ v Wt b hX hγ hβ hμ hv hW hb hpos =>
  ⟨fun p o => (at_idx (s := S4096x512) (W2_arr m ρ c 7) (ix2 p o)).trans (Enc0.arrAt7_apply (V1 m ρ) c X γ β μ v Wt b hX hγ hβ hμ hv hW hb hpos p o),
   fun t o => (at_idx (s := S4x1x512) (W2_arr m ρ c 8) (ix3 t (0 : Fin 1) o)).trans (Enc0.arrAt8_apply (V1 m ρ) c X γ β μ v Wt b hX hγ hβ hμ hv hW hb hpos t o (fun r => by have := t.isLt; have := r.isLt; omega)),
   fun t o => (at_idx (s := S4x1x512) (W2_arr m ρ c 9) (ix3 t (0 : Fin 1) o)).trans (Enc0.arrAt9_apply (V1 m ρ) c X γ β μ v Wt b hX hγ hβ hμ hv hW hb hpos t o (fun r => by have := t.isLt; have := r.isLt; omega))⟩

theorem eff1 : Eff1 m ρ c := fun X γ β μ v Wt b hX hγ hβ hμ hv hW hb hpos =>
  ⟨fun p o => (at_idx (s := S4096x256) (W4_arr m ρ c 7) (ix2 p o)).trans (Enc1.arrAt7_apply (V3 m ρ) c X γ β μ v Wt b hX hγ hβ hμ hv hW hb hpos p o),
   fun t o => (at_idx (s := S4x1x256) (W4_arr m ρ c 8) (ix3 t (0 : Fin 1) o)).trans (Enc1.arrAt8_apply (V3 m ρ) c X γ β μ v Wt b hX hγ hβ hμ hv hW hb hpos t o (fun r => by have := t.isLt; have := r.isLt; omega)),
   fun t o => (at_idx (s := S4x1x256) (W4_arr m ρ c 9) (ix3 t (0 : Fin 1) o)).trans (Enc1.arrAt9_apply (V3 m ρ) c X γ β μ v Wt b hX hγ hβ hμ hv hW hb hpos t o (fun r => by have := t.isLt; have := r.isLt; omega))⟩

theorem eff2 : Eff2 m ρ c := fun X γ β μ v Wt b hX hγ hβ hμ hv hW hb hpos p o =>
  (at_idx (s := S4096x128) (W6_arr m ρ c 7) (ix2 p o)).trans (Enc2.arrAt7_apply (V5 m ρ) c X γ β μ v Wt b hX hγ hβ hμ hv hW hb hpos p o)

theorem eff3 : Eff3 m ρ c := fun X γ β μ v Wt b hX hγ hβ hμ hv hW hb hpos =>
  ⟨fun p o => (at_idx (s := S8192x512) (W8_arr m ρ c 7) (ix2 p o)).trans (Enc3.arrAt7_apply (V7 m ρ) c X γ β μ v Wt b hX hγ hβ hμ hv hW hb hpos p o),
   fun t o => (at_idx (s := S8x1x512) (W8_arr m ρ c 8) (ix3 t (0 : Fin 1) o)).trans (Enc3.arrAt8_apply (V7 m ρ) c X γ β μ v Wt b hX hγ hβ hμ hv hW hb hpos t o (fun r => by have := t.isLt; have := r.isLt; omega)),
   fun t o => (at_idx (s := S8x1x512) (W8_arr m ρ c 9) (ix3 t (0 : Fin 1) o)).trans (Enc3.arrAt9_apply (V7 m ρ) c X γ β μ v Wt b hX hγ hβ hμ hv hW hb hpos t o (fun r => by have := t.isLt; have := r.isLt; omega))⟩

theorem eff4 : Eff4 m ρ c := fun X γ β μ v Wt b hX hγ hβ hμ hv hW hb hpos =>
  ⟨fun p o => (at_idx (s := S8192x256) (W10_arr m ρ c 7) (ix2 p o)).trans (Enc4.arrAt7_apply (V9 m ρ) c X γ β μ v Wt b hX hγ hβ hμ hv hW hb hpos p o),
   fun t o => (at_idx (s := S8x1x256) (W10_arr m ρ c 8) (ix3 t (0 : Fin 1) o)).trans (Enc4.arrAt8_apply (V9 m ρ) c X γ β μ v Wt b hX hγ hβ hμ hv hW hb hpos t o (fun r => by have := t.isLt; have := r.isLt; omega)),
   fun t o => (at_idx (s := S8x1x256) (W10_arr m ρ c 9) (ix3 t (0 : Fin 1) o)).trans (Enc4.arrAt9_apply (V9 m ρ) c X γ β μ v Wt b hX hγ hβ hμ hv hW hb hpos t o (fun r => by have := t.isLt; have := r.isLt; omega))⟩

theorem eff5 : Eff5 m ρ c := fun X γ β μ v Wt b hX hγ hβ hμ hv hW hb hpos p o =>
  (at_idx (s := S8192x128) (W12_arr m ρ c 7) (ix2 p o)).trans (Enc5.arrAt7_apply (V11 m ρ) c X γ β μ v Wt b hX hγ hβ hμ hv hW hb hpos p o)

theorem eff6 : Eff6 m ρ c := fun q k y hq hk hn hoh hy i c' =>
  (at_idx (s := S4096x128) (W15_arr m ρ c 4) (ix2 i c')).trans
    (flash_value (V14 m ρ) c q k y hq hk hn hoh (fun i => Spec.flashAt_l_pos Iface.negR _ y hy 7 _) i c')

theorem kernel_value (P : Spec.Params) (x : Fin 4096 → Fin 1024 → ℝ) (xn : Fin 8192 → Fin 1024 → ℝ) (y : Fin 8192 → ℤ)
    (h : Iface.ArgsReal (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) P x xn y)
    (hy : Iface.LabelsInRange y) (i : Fin 4096) (o : Fin 10) :
    (W16 m ρ c (Proc.devRef .tc main_v92) : S4096x10.Idx → EReal) (ix2 i o)
      = ((Spec.kernelR Iface.epsR Iface.negR P x xn y i o : ℝ) : EReal) :=
  kernel_value_of m ρ c P x xn y h hy (eff0 m ρ c) (eff1 m ρ c) (eff2 m ρ c) (eff3 m ρ c) (eff4 m ρ c) (eff5 m ρ c)
    (eff6 m ρ c) i o

end Close

end Cert.KernelIdeal.HandValue

end
-- ==== Proof.Ref.EncLift.lean ====
import Idealize.ShloMosaic.PureOps.Ideal.Laws
import proofs.«428610_j54915451847256_3_alg».proof.Proof.Spec

noncomputable section

namespace Cert.ReferenceIdeal.HandValue.Enc

open Idealize.ShloMosaic Finset

theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_coe_coe (a : ℝ) {n : ℝ} (hn : n ≠ 0) : Ideal.div (a : EReal) (n : EReal) = ((a / n : ℝ) : EReal) := by
  rw [Ideal.div_coe hn, ← EReal.coe_mul, mul_one_div]

theorem sqrt_coe_nonneg {r : ℝ} (hr : 0 ≤ r) : Ideal.sqrt (r : EReal) = ((Real.sqrt r : ℝ) : EReal) := by
  rw [Ideal.sqrt_coe, if_neg (not_lt.mpr hr)]

variable {N D O : ℕ}

theorem colVarR_nonneg {n : ℝ} (hn : 0 ≤ n) (X : Fin N → Fin D → ℝ) (d : Fin D) : 0 ≤ Spec.colVarR n X d :=
  div_nonneg (Finset.sum_nonneg fun _ _ => mul_self_nonneg _) hn

theorem mean_coe {n : ℝ} (hn : n ≠ 0) (X : Fin N → Fin D → ℝ) (d : Fin D) :
    Ideal.div (Ideal.ofBits .f32 0x00000000#32 + ∑ k : Fin N, ((X k d : ℝ) : EReal)) (n : EReal)
      = ((Spec.colMean n X d : ℝ) : EReal) := by
  rw [Ideal.ofBits_zero_f32, zero_add, coe_sum, div_coe_coe _ hn]
  rfl

theorem var_coe {n : ℝ} (hn : n ≠ 0) (X : Fin N → Fin D → ℝ) (d : Fin D) :
    Ideal.div (Ideal.ofBits .f32 0x00000000#32
        + ∑ k : Fin N, ((X k d - Spec.colMean n X d : ℝ) : EReal) * ((X k d - Spec.colMean n X d : ℝ) : EReal)) (n : EReal)
      = ((Spec.colVarR n X d : ℝ) : EReal) := by
  simp only [← EReal.coe_mul]
  rw [Ideal.ofBits_zero_f32, zero_add, coe_sum, div_coe_coe _ hn]
  rfl

theorem sd_coe {v ε : ℝ} (h : 0 ≤ v + ε) :
    Ideal.sqrt ((v : EReal) + (ε : EReal)) = ((Real.sqrt (v + ε) : ℝ) : EReal) := by
  rw [← EReal.coe_add, sqrt_coe_nonneg h]

theorem norm_coe (g x m b : ℝ) {s : ℝ} (hs : s ≠ 0) :
    Ideal.div ((g : EReal) * ((x - m : ℝ) : EReal)) (s : EReal) + (b : EReal) = ((g * (x - m) / s + b : ℝ) : EReal) := by
  rw [← EReal.coe_mul, div_coe_coe _ hs, ← EReal.coe_add]

theorem lin_coe (ε : ℝ) (X : Fin N → Fin D → ℝ) (γ β μ v : Fin D → ℝ) (W : Fin O → Fin D → ℝ) (b : Fin O → ℝ)
    (p : Fin N) (o : Fin O) :
    Ideal.tanh ((∑ k : Fin D, ((γ k * (X p k - μ k) / Real.sqrt (v k + ε) + β k : ℝ) : EReal) * ((W o k : ℝ) : EReal))
        + ((b o : ℝ) : EReal))
      = ((Spec.linR ε X γ β μ v W b p o : ℝ) : EReal) := by
  simp only [← EReal.coe_mul]
  rw [coe_sum, ← EReal.coe_add, Ideal.tanh_coe]
  rfl

end Cert.ReferenceIdeal.HandValue.Enc

end
-- ==== Proof.Ref.EncConst.lean ====
import Idealize.ShloMosaic.PureOps.Ideal.Laws
import proofs.«428610_j54915451847256_3_alg».proof.Proof.Iface

noncomputable section

namespace Cert.ReferenceIdeal.HandValue.Enc

open Idealize.ShloMosaic

theorem c4096 : Ideal.ofBits .f32 0x45800000#32 = ((4096 : ℝ) : EReal) := by
  simp [Ideal.ofBits, Ideal.ieee]
  rw [← EReal.coe_mul]; norm_num

theorem c8192 : Ideal.ofBits .f32 0x46000000#32 = ((8192 : ℝ) : EReal) := by
  simp [Ideal.ofBits, Ideal.ieee]
  rw [← EReal.coe_mul]; norm_num

theorem eps_real : ∃ r : ℝ, 0 < r ∧ Ideal.ofBits .f32 0x3727C5AC#32 = ((r : ℝ) : EReal) := by
  refine ⟨10995116 * ((2 : ℝ) ^ 40)⁻¹, by positivity, ?_⟩
  simp [Ideal.ofBits, Ideal.ieee]

theorem ceps : Ideal.ofBits .f32 0x3727C5AC#32 = ((Iface.epsR : ℝ) : EReal) := by
  obtain ⟨r, _, e⟩ := eps_real
  unfold Iface.epsR
  rw [e, EReal.toReal_coe]

theorem epsR_pos : 0 < Iface.epsR := by
  obtain ⟨r, hr, e⟩ := eps_real
  unfold Iface.epsR
  rw [e, EReal.toReal_coe]
  exact hr

end Cert.ReferenceIdeal.HandValue.Enc

end
-- ==== Proof.Ref.EncX1.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a0 : FVec Ideal (Iface.Sh2 4096 1024) .f32) (a3 : FVec Ideal (Iface.Sh2 512 1024) .f32)
  (a4 : FVec Ideal (Iface.Sh1 512) .f32) (a9 : FVec Ideal (Iface.Sh1 1024) .f32)
  (a10 : FVec Ideal (Iface.Sh1 1024) .f32) (X : Fin 4096 → Fin 1024 → ℝ) (γ β : Fin 1024 → ℝ)
  (W : Fin 512 → Fin 1024 → ℝ) (b : Fin 512 → ℝ) (hX : ∀ p d, a0 (ix2 p d) = ((X p d : ℝ) : EReal))
  (hγ : ∀ d, a9 (ix1 d) = ((γ d : ℝ) : EReal)) (hβ : ∀ d, a10 (ix1 d) = ((β d : ℝ) : EReal))
  (hW : ∀ o d, a3 (ix2 o d) = ((W o d : ℝ) : EReal)) (hb : ∀ o, a4 (ix1 o) = ((b o : ℝ) : EReal))

include hX

theorem x1_mean (d : Fin 1024) :
    Read.val_main_v2 (F := Ideal) a0 (ix1 d) = ((Spec.colMean 4096 X d : ℝ) : EReal) := by
  rw [Read.val_main_v2_apply, Read.val_main_v0_apply, Read.val_main_v1_apply, Read.val_main_cst_0_apply,
    Read.val_main_cst_apply]
  have e : ∀ k : Fin 4096, a0 (Read.idx_main_v0 (ix1 d) k) = ((X k d : ℝ) : EReal) := fun k => by
    have hi : Read.idx_main_v0 (ix1 d) k = ix2 k d := eq_ix2 _
    rw [hi, hX k d]
  simp only [e, Ideal.hostDivf_def, Ideal.ofBits_def, c4096]
  exact mean_coe (by norm_num) X d

theorem x1_dev (r : Fin 4096) (d : Fin 1024) :
    Read.val_main_v5 (F := Ideal) a0 (ix2 r d) = ((X r d - Spec.colMean 4096 X d : ℝ) : EReal) := by
  rw [Read.val_main_v5_apply, Read.val_main_v4_apply, Read.val_main_v3_apply]
  have hi : Read.idx_main_v3 (Read.idx_main_v4 (ix2 r d)) = ix1 d := eq_ix1 _
  rw [hi, x1_mean a0 X hX d, hX r d, Ideal.subf_def, ← EReal.coe_sub]

theorem x1_var (d : Fin 1024) :
    Read.val_main_v9 (F := Ideal) a0 (ix1 d) = ((Spec.colVarR 4096 X d : ℝ) : EReal) := by
  rw [Read.val_main_v9_apply, Read.val_main_v7_apply, Read.val_main_v8_apply, Read.val_main_cst_2_apply,
    Read.val_main_cst_1_apply]
  have e : ∀ k : Fin 4096, Read.val_main_v6 (F := Ideal) a0 (Read.idx_main_v7 (ix1 d) k)
      = ((X k d - Spec.colMean 4096 X d : ℝ) : EReal) * ((X k d - Spec.colMean 4096 X d : ℝ) : EReal) := fun k => by
    have hi : Read.idx_main_v7 (ix1 d) k = ix2 k d := eq_ix2 _
    rw [hi, Read.val_main_v6_apply, x1_dev a0 X hX k d, Ideal.mulf_def]
  simp only [e, Ideal.hostDivf_def, Ideal.ofBits_def, c4096]
  exact var_coe (by norm_num) X d

theorem x1_sd (d : Fin 1024) :
    Read.val_main_v18 (F := Ideal) a0 (ix1 d) = ((Real.sqrt (Spec.colVarR 4096 X d + Iface.epsR) : ℝ) : EReal) := by
  rw [Read.val_main_v18_apply, Read.val_main_v17_apply, Read.val_main_v16_apply, Read.val_main_cst_3_apply,
    x1_var a0 X hX d]
  simp only [Ideal.hostUnary_sqrt_def, Ideal.addf_def, Ideal.ofBits_def, ceps]
  exact sd_coe (add_nonneg (colVarR_nonneg (by norm_num) X d) epsR_pos.le)

theorem x1_dev2 (r : Fin 4096) (d : Fin 1024) :
    Read.val_main_v12 (F := Ideal) a0 (ix2 r d) = ((X r d - Spec.colMean 4096 X d : ℝ) : EReal) := by
  rw [Read.val_main_v12_apply, Read.val_main_v11_apply, Read.val_main_v10_apply]
  have hi : Read.idx_main_v10 (Read.idx_main_v11 (ix2 r d)) = ix1 d := eq_ix1 _
  rw [hi, x1_mean a0 X hX d, hX r d, Ideal.subf_def, ← EReal.coe_sub]

include hγ hβ

theorem x1_norm (p : Fin 4096) (d : Fin 1024) :
    Read.val_main_v24 (F := Ideal) a0 a9 a10 (ix2 p d)
      = ((γ d * (X p d - Spec.colMean 4096 X d) / Real.sqrt (Spec.colVarR 4096 X d + Iface.epsR) + β d : ℝ) : EReal) := by
  rw [Read.val_main_v24_apply, Read.val_main_v21_apply, Read.val_main_v15_apply, Read.val_main_v14_apply,
    Read.val_main_v13_apply, Read.val_main_v20_apply, Read.val_main_v19_apply, Read.val_main_v23_apply,
    Read.val_main_v22_apply]
  have h1 : Read.idx_main_v13 (Read.idx_main_v14 (ix2 p d)) = ix1 d := eq_ix1 _
  have h2 : Read.idx_main_v19 (Read.idx_main_v20 (ix2 p d)) = ix1 d := eq_ix1 _
  have h3 : Read.idx_main_v22 (Read.idx_main_v23 (ix2 p d)) = ix1 d := eq_ix1 _
  rw [h1, h2, h3, hγ d, hβ d, x1_dev2 a0 X hX p d, x1_sd a0 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem x1_out (p : Fin 4096) (o : Fin 512) :
    Read.val_main_v30 (F := Ideal) a0 a3 a4 a9 a10 (ix2 p o)
      = ((Spec.layerR Iface.epsR 4096 X γ β W b p o : ℝ) : EReal) := by
  rw [Read.val_main_v30_apply, Read.val_main_v29_apply, Read.val_main_v26_apply, Read.val_main_v28_apply,
    Read.val_main_v27_apply]
  have hi : Read.idx_main_v27 (Read.idx_main_v28 (ix2 p o)) = ix1 o := eq_ix1 _
  have e1 : ∀ k : Fin 1024, Read.val_main_v24 (F := Ideal) a0 a9 a10 (Read.lidx_main_v26 (ix2 p o) k)
      = ((γ k * (X p k - Spec.colMean 4096 X k) / Real.sqrt (Spec.colVarR 4096 X k + Iface.epsR) + β k : ℝ) : EReal) :=
    fun k => by
      have hl : Read.lidx_main_v26 (ix2 p o) k = ix2 p k := eq_ix2 _
      rw [hl, x1_norm a0 a9 a10 X γ β hX hγ hβ p k]
  have e2 : ∀ k : Fin 1024, Read.val_main_v25 (F := Ideal) a3 (Read.ridx_main_v26 (ix2 p o) k) = ((W o k : ℝ) : EReal) :=
    fun k => by
      have hr : Read.ridx_main_v26 (ix2 p o) k = ix2 k o := eq_ix2 _
      have ht : Read.idx_main_v25 (ix2 k o) = ix2 o k := eq_ix2 _
      rw [hr, Read.val_main_v25_apply, ht, hW o k]
  simp only [e1, e2]
  rw [hi, hb o]
  simp only [Ideal.hostUnary_tanh_def, Ideal.addf_def]
  exact lin_coe Iface.epsR X γ β (Spec.colMean 4096 X) (Spec.colVarR 4096 X) W b p o

end Cert.ReferenceIdeal.HandValue

end
-- ==== Proof.Ref.EncX2.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a0 : FVec Ideal (Iface.Sh2 4096 1024) .f32) (a3 : FVec Ideal (Iface.Sh2 512 1024) .f32)
  (a4 : FVec Ideal (Iface.Sh1 512) .f32) (a5 : FVec Ideal (Iface.Sh2 256 512) .f32)
  (a6 : FVec Ideal (Iface.Sh1 256) .f32) (a9 : FVec Ideal (Iface.Sh1 1024) .f32)
  (a10 : FVec Ideal (Iface.Sh1 1024) .f32) (a11 : FVec Ideal (Iface.Sh1 512) .f32)
  (a12 : FVec Ideal (Iface.Sh1 512) .f32) (X : Fin 4096 → Fin 512 → ℝ) (γ β : Fin 512 → ℝ) (W : Fin 256 → Fin 512 → ℝ)
  (b : Fin 256 → ℝ) (hX : ∀ p d, (Read.val_main_v30 (F := Ideal) a0 a3 a4 a9 a10) (ix2 p d) = ((X p d : ℝ) : EReal))
  (hγ : ∀ d, a11 (ix1 d) = ((γ d : ℝ) : EReal)) (hβ : ∀ d, a12 (ix1 d) = ((β d : ℝ) : EReal))
  (hW : ∀ o d, a5 (ix2 o d) = ((W o d : ℝ) : EReal)) (hb : ∀ o, a6 (ix1 o) = ((b o : ℝ) : EReal))

include hX

theorem x2_mean (d : Fin 512) :
    Read.val_main_v33 (F := Ideal) a0 a3 a4 a9 a10 (ix1 d) = ((Spec.colMean 4096 X d : ℝ) : EReal) := by
  rw [Read.val_main_v33_apply, Read.val_main_v31_apply, Read.val_main_v32_apply, Read.val_main_cst_5_apply,
    Read.val_main_cst_4_apply]
  have e : ∀ k : Fin 4096, (Read.val_main_v30 (F := Ideal) a0 a3 a4 a9 a10) (Read.idx_main_v31 (ix1 d) k) = ((X k d : ℝ) : EReal) := fun k => by
    have hi : Read.idx_main_v31 (ix1 d) k = ix2 k d := eq_ix2 _
    rw [hi, hX k d]
  simp only [e, Ideal.hostDivf_def, Ideal.ofBits_def, c4096]
  exact mean_coe (by norm_num) X d

theorem x2_dev (r : Fin 4096) (d : Fin 512) :
    Read.val_main_v36 (F := Ideal) a0 a3 a4 a9 a10 (ix2 r d) = ((X r d - Spec.colMean 4096 X d : ℝ) : EReal) := by
  rw [Read.val_main_v36_apply, Read.val_main_v35_apply, Read.val_main_v34_apply]
  have hi : Read.idx_main_v34 (Read.idx_main_v35 (ix2 r d)) = ix1 d := eq_ix1 _
  rw [hi, x2_mean a0 a3 a4 a9 a10 X hX d, hX r d, Ideal.subf_def, ← EReal.coe_sub]

theorem x2_var (d : Fin 512) :
    Read.val_main_v40 (F := Ideal) a0 a3 a4 a9 a10 (ix1 d) = ((Spec.colVarR 4096 X d : ℝ) : EReal) := by
  rw [Read.val_main_v40_apply, Read.val_main_v38_apply, Read.val_main_v39_apply, Read.val_main_cst_7_apply,
    Read.val_main_cst_6_apply]
  have e : ∀ k : Fin 4096, Read.val_main_v37 (F := Ideal) a0 a3 a4 a9 a10 (Read.idx_main_v38 (ix1 d) k)
      = ((X k d - Spec.colMean 4096 X d : ℝ) : EReal) * ((X k d - Spec.colMean 4096 X d : ℝ) : EReal) := fun k => by
    have hi : Read.idx_main_v38 (ix1 d) k = ix2 k d := eq_ix2 _
    rw [hi, Read.val_main_v37_apply, x2_dev a0 a3 a4 a9 a10 X hX k d, Ideal.mulf_def]
  simp only [e, Ideal.hostDivf_def, Ideal.ofBits_def, c4096]
  exact var_coe (by norm_num) X d

theorem x2_sd (d : Fin 512) :
    Read.val_main_v49 (F := Ideal) a0 a3 a4 a9 a10 (ix1 d) = ((Real.sqrt (Spec.colVarR 4096 X d + Iface.epsR) : ℝ) : EReal) := by
  rw [Read.val_main_v49_apply, Read.val_main_v48_apply, Read.val_main_v47_apply, Read.val_main_cst_8_apply,
    x2_var a0 a3 a4 a9 a10 X hX d]
  simp only [Ideal.hostUnary_sqrt_def, Ideal.addf_def, Ideal.ofBits_def, ceps]
  exact sd_coe (add_nonneg (colVarR_nonneg (by norm_num) X d) epsR_pos.le)

theorem x2_dev2 (r : Fin 4096) (d : Fin 512) :
    Read.val_main_v43 (F := Ideal) a0 a3 a4 a9 a10 (ix2 r d) = ((X r d - Spec.colMean 4096 X d : ℝ) : EReal) := by
  rw [Read.val_main_v43_apply, Read.val_main_v42_apply, Read.val_main_v41_apply]
  have hi : Read.idx_main_v41 (Read.idx_main_v42 (ix2 r d)) = ix1 d := eq_ix1 _
  rw [hi, x2_mean a0 a3 a4 a9 a10 X hX d, hX r d, Ideal.subf_def, ← EReal.coe_sub]

include hγ hβ

theorem x2_norm (p : Fin 4096) (d : Fin 512) :
    Read.val_main_v55 (F := Ideal) a0 a3 a4 a9 a10 a11 a12 (ix2 p d)
      = ((γ d * (X p d - Spec.colMean 4096 X d) / Real.sqrt (Spec.colVarR 4096 X d + Iface.epsR) + β d : ℝ) : EReal) := by
  rw [Read.val_main_v55_apply, Read.val_main_v52_apply, Read.val_main_v46_apply, Read.val_main_v45_apply,
    Read.val_main_v44_apply, Read.val_main_v51_apply, Read.val_main_v50_apply, Read.val_main_v54_apply,
    Read.val_main_v53_apply]
  have h1 : Read.idx_main_v44 (Read.idx_main_v45 (ix2 p d)) = ix1 d := eq_ix1 _
  have h2 : Read.idx_main_v50 (Read.idx_main_v51 (ix2 p d)) = ix1 d := eq_ix1 _
  have h3 : Read.idx_main_v53 (Read.idx_main_v54 (ix2 p d)) = ix1 d := eq_ix1 _
  rw [h1, h2, h3, hγ d, hβ d, x2_dev2 a0 a3 a4 a9 a10 X hX p d, x2_sd a0 a3 a4 a9 a10 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem x2_out (p : Fin 4096) (o : Fin 256) :
    Read.val_main_v61 (F := Ideal) a0 a3 a4 a5 a6 a9 a10 a11 a12 (ix2 p o)
      = ((Spec.layerR Iface.epsR 4096 X γ β W b p o : ℝ) : EReal) := by
  rw [Read.val_main_v61_apply, Read.val_main_v60_apply, Read.val_main_v57_apply, Read.val_main_v59_apply,
    Read.val_main_v58_apply]
  have hi : Read.idx_main_v58 (Read.idx_main_v59 (ix2 p o)) = ix1 o := eq_ix1 _
  have e1 : ∀ k : Fin 512, Read.val_main_v55 (F := Ideal) a0 a3 a4 a9 a10 a11 a12 (Read.lidx_main_v57 (ix2 p o) k)
      = ((γ k * (X p k - Spec.colMean 4096 X k) / Real.sqrt (Spec.colVarR 4096 X k + Iface.epsR) + β k : ℝ) : EReal) :=
    fun k => by
      have hl : Read.lidx_main_v57 (ix2 p o) k = ix2 p k := eq_ix2 _
      rw [hl, x2_norm a0 a3 a4 a9 a10 a11 a12 X γ β hX hγ hβ p k]
  have e2 : ∀ k : Fin 512, Read.val_main_v56 (F := Ideal) a5 (Read.ridx_main_v57 (ix2 p o) k) = ((W o k : ℝ) : EReal) :=
    fun k => by
      have hr : Read.ridx_main_v57 (ix2 p o) k = ix2 k o := eq_ix2 _
      have ht : Read.idx_main_v56 (ix2 k o) = ix2 o k := eq_ix2 _
      rw [hr, Read.val_main_v56_apply, ht, hW o k]
  simp only [e1, e2]
  rw [hi, hb o]
  simp only [Ideal.hostUnary_tanh_def, Ideal.addf_def]
  exact lin_coe Iface.epsR X γ β (Spec.colMean 4096 X) (Spec.colVarR 4096 X) W b p o

end Cert.ReferenceIdeal.HandValue

end
-- ==== Proof.Ref.EncX3.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a0 : FVec Ideal (Iface.Sh2 4096 1024) .f32) (a3 : FVec Ideal (Iface.Sh2 512 1024) .f32)
  (a4 : FVec Ideal (Iface.Sh1 512) .f32) (a5 : FVec Ideal (Iface.Sh2 256 512) .f32)
  (a6 : FVec Ideal (Iface.Sh1 256) .f32) (a7 : FVec Ideal (Iface.Sh2 128 256) .f32)
  (a8 : FVec Ideal (Iface.Sh1 128) .f32) (a9 : FVec Ideal (Iface.Sh1 1024) .f32)
  (a10 : FVec Ideal (Iface.Sh1 1024) .f32) (a11 : FVec Ideal (Iface.Sh1 512) .f32)
  (a12 : FVec Ideal (Iface.Sh1 512) .f32) (a13 : FVec Ideal (Iface.Sh1 256) .f32)
  (a14 : FVec Ideal (Iface.Sh1 256) .f32) (X : Fin 4096 → Fin 256 → ℝ) (γ β : Fin 256 → ℝ) (W : Fin 128 → Fin 256 → ℝ)
  (b : Fin 128 → ℝ)
  (hX : ∀ p d, (Read.val_main_v61 (F := Ideal) a0 a3 a4 a5 a6 a9 a10 a11 a12) (ix2 p d) = ((X p d : ℝ) : EReal))
  (hγ : ∀ d, a13 (ix1 d) = ((γ d : ℝ) : EReal)) (hβ : ∀ d, a14 (ix1 d) = ((β d : ℝ) : EReal))
  (hW : ∀ o d, a7 (ix2 o d) = ((W o d : ℝ) : EReal)) (hb : ∀ o, a8 (ix1 o) = ((b o : ℝ) : EReal))

include hX

theorem x3_mean (d : Fin 256) :
    Read.val_main_v64 (F := Ideal) a0 a3 a4 a5 a6 a9 a10 a11 a12 (ix1 d) = ((Spec.colMean 4096 X d : ℝ) : EReal) := by
  rw [Read.val_main_v64_apply, Read.val_main_v62_apply, Read.val_main_v63_apply, Read.val_main_cst_10_apply,
    Read.val_main_cst_9_apply]
  have e : ∀ k : Fin 4096, (Read.val_main_v61 (F := Ideal) a0 a3 a4 a5 a6 a9 a10 a11 a12) (Read.idx_main_v62 (ix1 d) k) = ((X k d : ℝ) : EReal) := fun k => by
    have hi : Read.idx_main_v62 (ix1 d) k = ix2 k d := eq_ix2 _
    rw [hi, hX k d]
  simp only [e, Ideal.hostDivf_def, Ideal.ofBits_def, c4096]
  exact mean_coe (by norm_num) X d

theorem x3_dev (r : Fin 4096) (d : Fin 256) :
    Read.val_main_v67 (F := Ideal) a0 a3 a4 a5 a6 a9 a10 a11 a12 (ix2 r d) = ((X r d - Spec.colMean 4096 X d : ℝ) : EReal) := by
  rw [Read.val_main_v67_apply, Read.val_main_v66_apply, Read.val_main_v65_apply]
  have hi : Read.idx_main_v65 (Read.idx_main_v66 (ix2 r d)) = ix1 d := eq_ix1 _
  rw [hi, x3_mean a0 a3 a4 a5 a6 a9 a10 a11 a12 X hX d, hX r d, Ideal.subf_def, ← EReal.coe_sub]

theorem x3_var (d : Fin 256) :
    Read.val_main_v71 (F := Ideal) a0 a3 a4 a5 a6 a9 a10 a11 a12 (ix1 d) = ((Spec.colVarR 4096 X d : ℝ) : EReal) := by
  rw [Read.val_main_v71_apply, Read.val_main_v69_apply, Read.val_main_v70_apply, Read.val_main_cst_12_apply,
    Read.val_main_cst_11_apply]
  have e : ∀ k : Fin 4096, Read.val_main_v68 (F := Ideal) a0 a3 a4 a5 a6 a9 a10 a11 a12 (Read.idx_main_v69 (ix1 d) k)
      = ((X k d - Spec.colMean 4096 X d : ℝ) : EReal) * ((X k d - Spec.colMean 4096 X d : ℝ) : EReal) := fun k => by
    have hi : Read.idx_main_v69 (ix1 d) k = ix2 k d := eq_ix2 _
    rw [hi, Read.val_main_v68_apply, x3_dev a0 a3 a4 a5 a6 a9 a10 a11 a12 X hX k d, Ideal.mulf_def]
  simp only [e, Ideal.hostDivf_def, Ideal.ofBits_def, c4096]
  exact var_coe (by norm_num) X d

theorem x3_sd (d : Fin 256) :
    Read.val_main_v80 (F := Ideal) a0 a3 a4 a5 a6 a9 a10 a11 a12 (ix1 d) = ((Real.sqrt (Spec.colVarR 4096 X d + Iface.epsR) : ℝ) : EReal) := by
  rw [Read.val_main_v80_apply, Read.val_main_v79_apply, Read.val_main_v78_apply, Read.val_main_cst_13_apply,
    x3_var a0 a3 a4 a5 a6 a9 a10 a11 a12 X hX d]
  simp only [Ideal.hostUnary_sqrt_def, Ideal.addf_def, Ideal.ofBits_def, ceps]
  exact sd_coe (add_nonneg (colVarR_nonneg (by norm_num) X d) epsR_pos.le)

theorem x3_dev2 (r : Fin 4096) (d : Fin 256) :
    Read.val_main_v74 (F := Ideal) a0 a3 a4 a5 a6 a9 a10 a11 a12 (ix2 r d) = ((X r d - Spec.colMean 4096 X d : ℝ) : EReal) := by
  rw [Read.val_main_v74_apply, Read.val_main_v73_apply, Read.val_main_v72_apply]
  have hi : Read.idx_main_v72 (Read.idx_main_v73 (ix2 r d)) = ix1 d := eq_ix1 _
  rw [hi, x3_mean a0 a3 a4 a5 a6 a9 a10 a11 a12 X hX d, hX r d, Ideal.subf_def, ← EReal.coe_sub]

include hγ hβ

theorem x3_norm (p : Fin 4096) (d : Fin 256) :
    Read.val_main_v86 (F := Ideal) a0 a3 a4 a5 a6 a9 a10 a11 a12 a13 a14 (ix2 p d)
      = ((γ d * (X p d - Spec.colMean 4096 X d) / Real.sqrt (Spec.colVarR 4096 X d + Iface.epsR) + β d : ℝ) : EReal) := by
  rw [Read.val_main_v86_apply, Read.val_main_v83_apply, Read.val_main_v77_apply, Read.val_main_v76_apply,
    Read.val_main_v75_apply, Read.val_main_v82_apply, Read.val_main_v81_apply, Read.val_main_v85_apply,
    Read.val_main_v84_apply]
  have h1 : Read.idx_main_v75 (Read.idx_main_v76 (ix2 p d)) = ix1 d := eq_ix1 _
  have h2 : Read.idx_main_v81 (Read.idx_main_v82 (ix2 p d)) = ix1 d := eq_ix1 _
  have h3 : Read.idx_main_v84 (Read.idx_main_v85 (ix2 p d)) = ix1 d := eq_ix1 _
  rw [h1, h2, h3, hγ d, hβ d, x3_dev2 a0 a3 a4 a5 a6 a9 a10 a11 a12 X hX p d, x3_sd a0 a3 a4 a5 a6 a9 a10 a11 a12 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem x3_out (p : Fin 4096) (o : Fin 128) :
    Read.val_main_v92 (F := Ideal) a0 a3 a4 a5 a6 a7 a8 a9 a10 a11 a12 a13 a14 (ix2 p o)
      = ((Spec.layerR Iface.epsR 4096 X γ β W b p o : ℝ) : EReal) := by
  rw [Read.val_main_v92_apply, Read.val_main_v91_apply, Read.val_main_v88_apply, Read.val_main_v90_apply,
    Read.val_main_v89_apply]
  have hi : Read.idx_main_v89 (Read.idx_main_v90 (ix2 p o)) = ix1 o := eq_ix1 _
  have e1 : ∀ k : Fin 256, Read.val_main_v86 (F := Ideal) a0 a3 a4 a5 a6 a9 a10 a11 a12 a13 a14 (Read.lidx_main_v88 (ix2 p o) k)
      = ((γ k * (X p k - Spec.colMean 4096 X k) / Real.sqrt (Spec.colVarR 4096 X k + Iface.epsR) + β k : ℝ) : EReal) :=
    fun k => by
      have hl : Read.lidx_main_v88 (ix2 p o) k = ix2 p k := eq_ix2 _
      rw [hl, x3_norm a0 a3 a4 a5 a6 a9 a10 a11 a12 a13 a14 X γ β hX hγ hβ p k]
  have e2 : ∀ k : Fin 256, Read.val_main_v87 (F := Ideal) a7 (Read.ridx_main_v88 (ix2 p o) k) = ((W o k : ℝ) : EReal) :=
    fun k => by
      have hr : Read.ridx_main_v88 (ix2 p o) k = ix2 k o := eq_ix2 _
      have ht : Read.idx_main_v87 (ix2 k o) = ix2 o k := eq_ix2 _
      rw [hr, Read.val_main_v87_apply, ht, hW o k]
  simp only [e1, e2]
  rw [hi, hb o]
  simp only [Ideal.hostUnary_tanh_def, Ideal.addf_def]
  exact lin_coe Iface.epsR X γ β (Spec.colMean 4096 X) (Spec.colVarR 4096 X) W b p o

end Cert.ReferenceIdeal.HandValue

end
-- ==== Proof.Ref.EncN1.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a1 : FVec Ideal (Iface.Sh2 8192 1024) .f32) (a3 : FVec Ideal (Iface.Sh2 512 1024) .f32)
  (a4 : FVec Ideal (Iface.Sh1 512) .f32) (a9 : FVec Ideal (Iface.Sh1 1024) .f32)
  (a10 : FVec Ideal (Iface.Sh1 1024) .f32) (X : Fin 8192 → Fin 1024 → ℝ) (γ β : Fin 1024 → ℝ)
  (W : Fin 512 → Fin 1024 → ℝ) (b : Fin 512 → ℝ) (hX : ∀ p d, a1 (ix2 p d) = ((X p d : ℝ) : EReal))
  (hγ : ∀ d, a9 (ix1 d) = ((γ d : ℝ) : EReal)) (hβ : ∀ d, a10 (ix1 d) = ((β d : ℝ) : EReal))
  (hW : ∀ o d, a3 (ix2 o d) = ((W o d : ℝ) : EReal)) (hb : ∀ o, a4 (ix1 o) = ((b o : ℝ) : EReal))

include hX

theorem n1_mean (d : Fin 1024) :
    Read.val_main_v95 (F := Ideal) a1 (ix1 d) = ((Spec.colMean 8192 X d : ℝ) : EReal) := by
  rw [Read.val_main_v95_apply, Read.val_main_v93_apply, Read.val_main_v94_apply, Read.val_main_cst_15_apply,
    Read.val_main_cst_14_apply]
  have e : ∀ k : Fin 8192, a1 (Read.idx_main_v93 (ix1 d) k) = ((X k d : ℝ) : EReal) := fun k => by
    have hi : Read.idx_main_v93 (ix1 d) k = ix2 k d := eq_ix2 _
    rw [hi, hX k d]
  simp only [e, Ideal.hostDivf_def, Ideal.ofBits_def, c8192]
  exact mean_coe (by norm_num) X d

theorem n1_dev (r : Fin 8192) (d : Fin 1024) :
    Read.val_main_v98 (F := Ideal) a1 (ix2 r d) = ((X r d - Spec.colMean 8192 X d : ℝ) : EReal) := by
  rw [Read.val_main_v98_apply, Read.val_main_v97_apply, Read.val_main_v96_apply]
  have hi : Read.idx_main_v96 (Read.idx_main_v97 (ix2 r d)) = ix1 d := eq_ix1 _
  rw [hi, n1_mean a1 X hX d, hX r d, Ideal.subf_def, ← EReal.coe_sub]

theorem n1_var (d : Fin 1024) :
    Read.val_main_v102 (F := Ideal) a1 (ix1 d) = ((Spec.colVarR 8192 X d : ℝ) : EReal) := by
  rw [Read.val_main_v102_apply, Read.val_main_v100_apply, Read.val_main_v101_apply, Read.val_main_cst_17_apply,
    Read.val_main_cst_16_apply]
  have e : ∀ k : Fin 8192, Read.val_main_v99 (F := Ideal) a1 (Read.idx_main_v100 (ix1 d) k)
      = ((X k d - Spec.colMean 8192 X d : ℝ) : EReal) * ((X k d - Spec.colMean 8192 X d : ℝ) : EReal) := fun k => by
    have hi : Read.idx_main_v100 (ix1 d) k = ix2 k d := eq_ix2 _
    rw [hi, Read.val_main_v99_apply, n1_dev a1 X hX k d, Ideal.mulf_def]
  simp only [e, Ideal.hostDivf_def, Ideal.ofBits_def, c8192]
  exact var_coe (by norm_num) X d

theorem n1_sd (d : Fin 1024) :
    Read.val_main_v111 (F := Ideal) a1 (ix1 d) = ((Real.sqrt (Spec.colVarR 8192 X d + Iface.epsR) : ℝ) : EReal) := by
  rw [Read.val_main_v111_apply, Read.val_main_v110_apply, Read.val_main_v109_apply, Read.val_main_cst_18_apply,
    n1_var a1 X hX d]
  simp only [Ideal.hostUnary_sqrt_def, Ideal.addf_def, Ideal.ofBits_def, ceps]
  exact sd_coe (add_nonneg (colVarR_nonneg (by norm_num) X d) epsR_pos.le)

theorem n1_dev2 (r : Fin 8192) (d : Fin 1024) :
    Read.val_main_v105 (F := Ideal) a1 (ix2 r d) = ((X r d - Spec.colMean 8192 X d : ℝ) : EReal) := by
  rw [Read.val_main_v105_apply, Read.val_main_v104_apply, Read.val_main_v103_apply]
  have hi : Read.idx_main_v103 (Read.idx_main_v104 (ix2 r d)) = ix1 d := eq_ix1 _
  rw [hi, n1_mean a1 X hX d, hX r d, Ideal.subf_def, ← EReal.coe_sub]

include hγ hβ

theorem n1_norm (p : Fin 8192) (d : Fin 1024) :
    Read.val_main_v117 (F := Ideal) a1 a9 a10 (ix2 p d)
      = ((γ d * (X p d - Spec.colMean 8192 X d) / Real.sqrt (Spec.colVarR 8192 X d + Iface.epsR) + β d : ℝ) : EReal) := by
  rw [Read.val_main_v117_apply, Read.val_main_v114_apply, Read.val_main_v108_apply, Read.val_main_v107_apply,
    Read.val_main_v106_apply, Read.val_main_v113_apply, Read.val_main_v112_apply, Read.val_main_v116_apply,
    Read.val_main_v115_apply]
  have h1 : Read.idx_main_v106 (Read.idx_main_v107 (ix2 p d)) = ix1 d := eq_ix1 _
  have h2 : Read.idx_main_v112 (Read.idx_main_v113 (ix2 p d)) = ix1 d := eq_ix1 _
  have h3 : Read.idx_main_v115 (Read.idx_main_v116 (ix2 p d)) = ix1 d := eq_ix1 _
  rw [h1, h2, h3, hγ d, hβ d, n1_dev2 a1 X hX p d, n1_sd a1 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem n1_out (p : Fin 8192) (o : Fin 512) :
    Read.val_main_v123 (F := Ideal) a1 a3 a4 a9 a10 (ix2 p o)
      = ((Spec.layerR Iface.epsR 8192 X γ β W b p o : ℝ) : EReal) := by
  rw [Read.val_main_v123_apply, Read.val_main_v122_apply, Read.val_main_v119_apply, Read.val_main_v121_apply,
    Read.val_main_v120_apply]
  have hi : Read.idx_main_v120 (Read.idx_main_v121 (ix2 p o)) = ix1 o := eq_ix1 _
  have e1 : ∀ k : Fin 1024, Read.val_main_v117 (F := Ideal) a1 a9 a10 (Read.lidx_main_v119 (ix2 p o) k)
      = ((γ k * (X p k - Spec.colMean 8192 X k) / Real.sqrt (Spec.colVarR 8192 X k + Iface.epsR) + β k : ℝ) : EReal) :=
    fun k => by
      have hl : Read.lidx_main_v119 (ix2 p o) k = ix2 p k := eq_ix2 _
      rw [hl, n1_norm a1 a9 a10 X γ β hX hγ hβ p k]
  have e2 : ∀ k : Fin 1024, Read.val_main_v118 (F := Ideal) a3 (Read.ridx_main_v119 (ix2 p o) k) = ((W o k : ℝ) : EReal) :=
    fun k => by
      have hr : Read.ridx_main_v119 (ix2 p o) k = ix2 k o := eq_ix2 _
      have ht : Read.idx_main_v118 (ix2 k o) = ix2 o k := eq_ix2 _
      rw [hr, Read.val_main_v118_apply, ht, hW o k]
  simp only [e1, e2]
  rw [hi, hb o]
  simp only [Ideal.hostUnary_tanh_def, Ideal.addf_def]
  exact lin_coe Iface.epsR X γ β (Spec.colMean 8192 X) (Spec.colVarR 8192 X) W b p o

end Cert.ReferenceIdeal.HandValue

end
-- ==== Proof.Ref.EncN2.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a1 : FVec Ideal (Iface.Sh2 8192 1024) .f32) (a3 : FVec Ideal (Iface.Sh2 512 1024) .f32)
  (a4 : FVec Ideal (Iface.Sh1 512) .f32) (a5 : FVec Ideal (Iface.Sh2 256 512) .f32)
  (a6 : FVec Ideal (Iface.Sh1 256) .f32) (a9 : FVec Ideal (Iface.Sh1 1024) .f32)
  (a10 : FVec Ideal (Iface.Sh1 1024) .f32) (a11 : FVec Ideal (Iface.Sh1 512) .f32)
  (a12 : FVec Ideal (Iface.Sh1 512) .f32) (X : Fin 8192 → Fin 512 → ℝ) (γ β : Fin 512 → ℝ) (W : Fin 256 → Fin 512 → ℝ)
  (b : Fin 256 → ℝ) (hX : ∀ p d, (Read.val_main_v123 (F := Ideal) a1 a3 a4 a9 a10) (ix2 p d) = ((X p d : ℝ) : EReal))
  (hγ : ∀ d, a11 (ix1 d) = ((γ d : ℝ) : EReal)) (hβ : ∀ d, a12 (ix1 d) = ((β d : ℝ) : EReal))
  (hW : ∀ o d, a5 (ix2 o d) = ((W o d : ℝ) : EReal)) (hb : ∀ o, a6 (ix1 o) = ((b o : ℝ) : EReal))

include hX

theorem n2_mean (d : Fin 512) :
    Read.val_main_v126 (F := Ideal) a1 a3 a4 a9 a10 (ix1 d) = ((Spec.colMean 8192 X d : ℝ) : EReal) := by
  rw [Read.val_main_v126_apply, Read.val_main_v124_apply, Read.val_main_v125_apply, Read.val_main_cst_20_apply,
    Read.val_main_cst_19_apply]
  have e : ∀ k : Fin 8192, (Read.val_main_v123 (F := Ideal) a1 a3 a4 a9 a10) (Read.idx_main_v124 (ix1 d) k) = ((X k d : ℝ) : EReal) := fun k => by
    have hi : Read.idx_main_v124 (ix1 d) k = ix2 k d := eq_ix2 _
    rw [hi, hX k d]
  simp only [e, Ideal.hostDivf_def, Ideal.ofBits_def, c8192]
  exact mean_coe (by norm_num) X d

theorem n2_dev (r : Fin 8192) (d : Fin 512) :
    Read.val_main_v129 (F := Ideal) a1 a3 a4 a9 a10 (ix2 r d) = ((X r d - Spec.colMean 8192 X d : ℝ) : EReal) := by
  rw [Read.val_main_v129_apply, Read.val_main_v128_apply, Read.val_main_v127_apply]
  have hi : Read.idx_main_v127 (Read.idx_main_v128 (ix2 r d)) = ix1 d := eq_ix1 _
  rw [hi, n2_mean a1 a3 a4 a9 a10 X hX d, hX r d, Ideal.subf_def, ← EReal.coe_sub]

theorem n2_var (d : Fin 512) :
    Read.val_main_v133 (F := Ideal) a1 a3 a4 a9 a10 (ix1 d) = ((Spec.colVarR 8192 X d : ℝ) : EReal) := by
  rw [Read.val_main_v133_apply, Read.val_main_v131_apply, Read.val_main_v132_apply, Read.val_main_cst_22_apply,
    Read.val_main_cst_21_apply]
  have e : ∀ k : Fin 8192, Read.val_main_v130 (F := Ideal) a1 a3 a4 a9 a10 (Read.idx_main_v131 (ix1 d) k)
      = ((X k d - Spec.colMean 8192 X d : ℝ) : EReal) * ((X k d - Spec.colMean 8192 X d : ℝ) : EReal) := fun k => by
    have hi : Read.idx_main_v131 (ix1 d) k = ix2 k d := eq_ix2 _
    rw [hi, Read.val_main_v130_apply, n2_dev a1 a3 a4 a9 a10 X hX k d, Ideal.mulf_def]
  simp only [e, Ideal.hostDivf_def, Ideal.ofBits_def, c8192]
  exact var_coe (by norm_num) X d

theorem n2_sd (d : Fin 512) :
    Read.val_main_v142 (F := Ideal) a1 a3 a4 a9 a10 (ix1 d) = ((Real.sqrt (Spec.colVarR 8192 X d + Iface.epsR) : ℝ) : EReal) := by
  rw [Read.val_main_v142_apply, Read.val_main_v141_apply, Read.val_main_v140_apply, Read.val_main_cst_23_apply,
    n2_var a1 a3 a4 a9 a10 X hX d]
  simp only [Ideal.hostUnary_sqrt_def, Ideal.addf_def, Ideal.ofBits_def, ceps]
  exact sd_coe (add_nonneg (colVarR_nonneg (by norm_num) X d) epsR_pos.le)

theorem n2_dev2 (r : Fin 8192) (d : Fin 512) :
    Read.val_main_v136 (F := Ideal) a1 a3 a4 a9 a10 (ix2 r d) = ((X r d - Spec.colMean 8192 X d : ℝ) : EReal) := by
  rw [Read.val_main_v136_apply, Read.val_main_v135_apply, Read.val_main_v134_apply]
  have hi : Read.idx_main_v134 (Read.idx_main_v135 (ix2 r d)) = ix1 d := eq_ix1 _
  rw [hi, n2_mean a1 a3 a4 a9 a10 X hX d, hX r d, Ideal.subf_def, ← EReal.coe_sub]

include hγ hβ

theorem n2_norm (p : Fin 8192) (d : Fin 512) :
    Read.val_main_v148 (F := Ideal) a1 a3 a4 a9 a10 a11 a12 (ix2 p d)
      = ((γ d * (X p d - Spec.colMean 8192 X d) / Real.sqrt (Spec.colVarR 8192 X d + Iface.epsR) + β d : ℝ) : EReal) := by
  rw [Read.val_main_v148_apply, Read.val_main_v145_apply, Read.val_main_v139_apply, Read.val_main_v138_apply,
    Read.val_main_v137_apply, Read.val_main_v144_apply, Read.val_main_v143_apply, Read.val_main_v147_apply,
    Read.val_main_v146_apply]
  have h1 : Read.idx_main_v137 (Read.idx_main_v138 (ix2 p d)) = ix1 d := eq_ix1 _
  have h2 : Read.idx_main_v143 (Read.idx_main_v144 (ix2 p d)) = ix1 d := eq_ix1 _
  have h3 : Read.idx_main_v146 (Read.idx_main_v147 (ix2 p d)) = ix1 d := eq_ix1 _
  rw [h1, h2, h3, hγ d, hβ d, n2_dev2 a1 a3 a4 a9 a10 X hX p d, n2_sd a1 a3 a4 a9 a10 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem n2_out (p : Fin 8192) (o : Fin 256) :
    Read.val_main_v154 (F := Ideal) a1 a3 a4 a5 a6 a9 a10 a11 a12 (ix2 p o)
      = ((Spec.layerR Iface.epsR 8192 X γ β W b p o : ℝ) : EReal) := by
  rw [Read.val_main_v154_apply, Read.val_main_v153_apply, Read.val_main_v150_apply, Read.val_main_v152_apply,
    Read.val_main_v151_apply]
  have hi : Read.idx_main_v151 (Read.idx_main_v152 (ix2 p o)) = ix1 o := eq_ix1 _
  have e1 : ∀ k : Fin 512, Read.val_main_v148 (F := Ideal) a1 a3 a4 a9 a10 a11 a12 (Read.lidx_main_v150 (ix2 p o) k)
      = ((γ k * (X p k - Spec.colMean 8192 X k) / Real.sqrt (Spec.colVarR 8192 X k + Iface.epsR) + β k : ℝ) : EReal) :=
    fun k => by
      have hl : Read.lidx_main_v150 (ix2 p o) k = ix2 p k := eq_ix2 _
      rw [hl, n2_norm a1 a3 a4 a9 a10 a11 a12 X γ β hX hγ hβ p k]
  have e2 : ∀ k : Fin 512, Read.val_main_v149 (F := Ideal) a5 (Read.ridx_main_v150 (ix2 p o) k) = ((W o k : ℝ) : EReal) :=
    fun k => by
      have hr : Read.ridx_main_v150 (ix2 p o) k = ix2 k o := eq_ix2 _
      have ht : Read.idx_main_v149 (ix2 k o) = ix2 o k := eq_ix2 _
      rw [hr, Read.val_main_v149_apply, ht, hW o k]
  simp only [e1, e2]
  rw [hi, hb o]
  simp only [Ideal.hostUnary_tanh_def, Ideal.addf_def]
  exact lin_coe Iface.epsR X γ β (Spec.colMean 8192 X) (Spec.colVarR 8192 X) W b p o

end Cert.ReferenceIdeal.HandValue

end
-- ==== Proof.Ref.EncN3.lean ====
import proofs.«428610_j54915451847256_3_alg».proof.Proof.Ref.ReadP
import proofs.«428610_j54915451847256_3_alg».proof.Proof.Iface
import proofs.«428610_j54915451847256_3_alg».proof.Proof.Ref.EncLift
import proofs.«428610_j54915451847256_3_alg».proof.Proof.Ref.EncConst

noncomputable section

namespace Cert.ReferenceIdeal.HandValue

open Cert Cert.ReferenceIdeal Idealize.ShloMosaic Idealize.ShloMosaic.ValueIdx Cert.ReferenceIdeal.HandValue.Enc

variable (a1 : FVec Ideal (Iface.Sh2 8192 1024) .f32) (a3 : FVec Ideal (Iface.Sh2 512 1024) .f32)
  (a4 : FVec Ideal (Iface.Sh1 512) .f32) (a5 : FVec Ideal (Iface.Sh2 256 512) .f32)
  (a6 : FVec Ideal (Iface.Sh1 256) .f32) (a7 : FVec Ideal (Iface.Sh2 128 256) .f32)
  (a8 : FVec Ideal (Iface.Sh1 128) .f32) (a9 : FVec Ideal (Iface.Sh1 1024) .f32)
  (a10 : FVec Ideal (Iface.Sh1 1024) .f32) (a11 : FVec Ideal (Iface.Sh1 512) .f32)
  (a12 : FVec Ideal (Iface.Sh1 512) .f32) (a13 : FVec Ideal (Iface.Sh1 256) .f32)
  (a14 : FVec Ideal (Iface.Sh1 256) .f32) (X : Fin 8192 → Fin 256 → ℝ) (γ β : Fin 256 → ℝ) (W : Fin 128 → Fin 256 → ℝ)
  (b : Fin 128 → ℝ)
  (hX : ∀ p d, (Read.val_main_v154 (F := Ideal) a1 a3 a4 a5 a6 a9 a10 a11 a12) (ix2 p d) = ((X p d : ℝ) : EReal))
  (hγ : ∀ d, a13 (ix1 d) = ((γ d : ℝ) : EReal)) (hβ : ∀ d, a14 (ix1 d) = ((β d : ℝ) : EReal))
  (hW : ∀ o d, a7 (ix2 o d) = ((W o d : ℝ) : EReal)) (hb : ∀ o, a8 (ix1 o) = ((b o : ℝ) : EReal))

include hX

theorem n3_mean (d : Fin 256) :
    Read.val_main_v157 (F := Ideal) a1 a3 a4 a5 a6 a9 a10 a11 a12 (ix1 d) = ((Spec.colMean 8192 X d : ℝ) : EReal) := by
  rw [Read.val_main_v157_apply, Read.val_main_v155_apply, Read.val_main_v156_apply, Read.val_main_cst_25_apply,
    Read.val_main_cst_24_apply]
  have e : ∀ k : Fin 8192, (Read.val_main_v154 (F := Ideal) a1 a3 a4 a5 a6 a9 a10 a11 a12) (Read.idx_main_v155 (ix1 d) k) = ((X k d : ℝ) : EReal) := fun k => by
    have hi : Read.idx_main_v155 (ix1 d) k = ix2 k d := eq_ix2 _
    rw [hi, hX k d]
  simp only [e, Ideal.hostDivf_def, Ideal.ofBits_def, c8192]
  exact mean_coe (by norm_num) X d

theorem n3_dev (r : Fin 8192) (d : Fin 256) :
    Read.val_main_v160 (F := Ideal) a1 a3 a4 a5 a6 a9 a10 a11 a12 (ix2 r d) = ((X r d - Spec.colMean 8192 X d : ℝ) : EReal) := by
  rw [Read.val_main_v160_apply, Read.val_main_v159_apply, Read.val_main_v158_apply]
  have hi : Read.idx_main_v158 (Read.idx_main_v159 (ix2 r d)) = ix1 d := eq_ix1 _
  rw [hi, n3_mean a1 a3 a4 a5 a6 a9 a10 a11 a12 X hX d, hX r d, Ideal.subf_def, ← EReal.coe_sub]

theorem n3_var (d : Fin 256) :
    Read.val_main_v164 (F := Ideal) a1 a3 a4 a5 a6 a9 a10 a11 a12 (ix1 d) = ((Spec.colVarR 8192 X d : ℝ) : EReal) := by
  rw [Read.val_main_v164_apply, Read.val_main_v162_apply, Read.val_main_v163_apply, Read.val_main_cst_27_apply,
    Read.val_main_cst_26_apply]
  have e : ∀ k : Fin 8192, Read.val_main_v161 (F := Ideal) a1 a3 a4 a5 a6 a9 a10 a11 a12 (Read.idx_main_v162 (ix1 d) k)
      = ((X k d - Spec.colMean 8192 X d : ℝ) : EReal) * ((X k d - Spec.colMean 8192 X d : ℝ) : EReal) := fun k => by
    have hi : Read.idx_main_v162 (ix1 d) k = ix2 k d := eq_ix2 _
    rw [hi, Read.val_main_v161_apply, n3_dev a1 a3 a4 a5 a6 a9 a10 a11 a12 X hX k d, Ideal.mulf_def]
  simp only [e, Ideal.hostDivf_def, Ideal.ofBits_def, c8192]
  exact var_coe (by norm_num) X d

theorem n3_sd (d : Fin 256) :
    Read.val_main_v173 (F := Ideal) a1 a3 a4 a5 a6 a9 a10 a11 a12 (ix1 d) = ((Real.sqrt (Spec.colVarR 8192 X d + Iface.epsR) : ℝ) : EReal) := by
  rw [Read.val_main_v173_apply, Read.val_main_v172_apply, Read.val_main_v171_apply, Read.val_main_cst_28_apply,
    n3_var a1 a3 a4 a5 a6 a9 a10 a11 a12 X hX d]
  simp only [Ideal.hostUnary_sqrt_def, Ideal.addf_def, Ideal.ofBits_def, ceps]
  exact sd_coe (add_nonneg (colVarR_nonneg (by norm_num) X d) epsR_pos.le)

theorem n3_dev2 (r : Fin 8192) (d : Fin 256) :
    Read.val_main_v167 (F := Ideal) a1 a3 a4 a5 a6 a9 a10 a11 a12 (ix2 r d) = ((X r d - Spec.colMean 8192 X d : ℝ) : EReal) := by
  rw [Read.val_main_v167_apply, Read.val_main_v166_apply, Read.val_main_v165_apply]
  have hi : Read.idx_main_v165 (Read.idx_main_v166 (ix2 r d)) = ix1 d := eq_ix1 _
  rw [hi, n3_mean a1 a3 a4 a5 a6 a9 a10 a11 a12 X hX d, hX r d, Ideal.subf_def, ← EReal.coe_sub]

include hγ hβ

theorem n3_norm (p : Fin 8192) (d : Fin 256) :
    Read.val_main_v179 (F := Ideal) a1 a3 a4 a5 a6 a9 a10 a11 a12 a13 a14 (ix2 p d)
      = ((γ d * (X p d - Spec.colMean 8192 X d) / Real.sqrt (Spec.colVarR 8192 X d + Iface.epsR) + β d : ℝ) : EReal) := by
  rw [Read.val_main_v179_apply, Read.val_main_v176_apply, Read.val_main_v170_apply, Read.val_main_v169_apply,
    Read.val_main_v168_apply, Read.val_main_v175_apply, Read.val_main_v174_apply, Read.val_main_v178_apply,
    Read.val_main_v177_apply]
  have h1 : Read.idx_main_v168 (Read.idx_main_v169 (ix2 p d)) = ix1 d := eq_ix1 _
  have h2 : Read.idx_main_v174 (Read.idx_main_v175 (ix2 p d)) = ix1 d := eq_ix1 _
  have h3 : Read.idx_main_v177 (Read.idx_main_v178 (ix2 p d)) = ix1 d := eq_ix1 _
  rw [h1, h2, h3, hγ d, hβ d, n3_dev2 a1 a3 a4 a5 a6 a9 a10 a11 a12 X hX p d, n3_sd a1 a3 a4 a5 a6 a9 a10 a11 a12 X hX d]
  simp only [Ideal.addf_def, Ideal.mulf_def, Ideal.hostDivf_def]
  exact norm_coe _ _ _ _
    (Real.sqrt_pos.mpr (add_pos_of_nonneg_of_pos (colVarR_nonneg (by norm_num) X d) epsR_pos)).ne'

include hW hb

theorem n3_out (p : Fin 8192) (o : Fin 128) :
    Read.val_main_v185 (F := Ideal) a1 a3 a4 a5 a6 a7 a8 a9 a10 a11 a12 a13 a14 (ix2 p o)
      = ((Spec.layerR Iface.epsR 8192 X γ β W b p o : ℝ) : EReal) := by
  rw [Read.val_main_v185_apply, Read.val_main_v184_apply, Read.val_main_v181_apply, Read.val_main_v183_apply,
    Read.val_main_v182_apply]
  have hi : Read.idx_main_v182 (Read.idx_main_v183 (ix2 p o)) = ix1 o := eq_ix1 _
  have e1 : ∀ k : Fin 256, Read.val_main_v179 (F := Ideal) a1 a3 a4 a5 a6 a9 a10 a11 a12 a13 a14 (Read.lidx_main_v181 (ix2 p o) k)
      = ((γ k * (X p k - Spec.colMean 8192 X k) / Real.sqrt (Spec.colVarR 8192 X k + Iface.epsR) + β k : ℝ) : EReal) :=
    fun k => by
      have hl : Read.lidx_main_v181 (ix2 p o) k = ix2 p k := eq_ix2 _
      rw [hl, n3_norm a1 a3 a4 a5 a6 a9 a10 a11 a12 a13 a14 X γ β hX hγ hβ p k]
  have e2 : ∀ k : Fin 256, Read.val_main_v180 (F := Ideal) a7 (Read.ridx_main_v181 (ix2 p o) k) = ((W o k : ℝ) : EReal) :=
    fun k => by
      have hr : Read.ridx_main_v181 (ix2 p o) k = ix2 k o := eq_ix2 _
      have ht : Read.idx_main_v180 (ix2 k o) = ix2 o k := eq_ix2 _
      rw [hr, Read.val_main_v180_apply, ht, hW o k]
  simp only [e1, e2]
  rw [hi, hb o]
  simp only [Ideal.hostUnary_tanh_def, Ideal.addf_def]
  exact lin_coe Iface.epsR X γ β (Spec.colMean 8192 X) (Spec.colVarR 8192 X) W b p o

end Cert.ReferenceIdeal.HandValue

end
-- ==== Proof.Ref.EncVal.lean ====
import proofs.«428610_j54915451847256_3_alg».proof.Proof.Ref.EncX1
import proofs.«428610_j54915451847256_3_alg».proof.Proof.Ref.EncX2
import proofs.«428610_j54915451847256_3_alg».proof.Proof.Ref.EncX3
import proofs.«428610_j54915451847256_3_alg».proof.Proof.Ref.EncN1
import proofs.«428610_j54915451847256_3_alg».proof.Proof.Ref.EncN2
import proofs.«428610_j54915451847256_3_alg».proof.Proof.Ref.EncN3

noncomputable section

namespace Cert.ReferenceIdeal.HandValue

open Cert Cert.ReferenceIdeal Idealize.ShloMosaic Idealize.ShloMosaic.ValueIdx

variable (a0 : FVec Ideal (Iface.Sh2 4096 1024) .f32) (a1 : FVec Ideal (Iface.Sh2 8192 1024) .f32)
  (a2 : IVec (Iface.Sh1 8192) 32) (a3 : FVec Ideal (Iface.Sh2 512 1024) .f32) (a4 : FVec Ideal (Iface.Sh1 512) .f32)
  (a5 : FVec Ideal (Iface.Sh2 256 512) .f32) (a6 : FVec Ideal (Iface.Sh1 256) .f32)
  (a7 : FVec Ideal (Iface.Sh2 128 256) .f32) (a8 : FVec Ideal (Iface.Sh1 128) .f32)
  (a9 a10 : FVec Ideal (Iface.Sh1 1024) .f32) (a11 a12 : FVec Ideal (Iface.Sh1 512) .f32)
  (a13 a14 : FVec Ideal (Iface.Sh1 256) .f32) (P : Spec.Params) (x : Fin 4096 → Fin 1024 → ℝ)
  (xn : Fin 8192 → Fin 1024 → ℝ) (y : Fin 8192 → ℤ)
  (h : Iface.ArgsReal a0 a1 a2 a3 a4 a5 a6 a7 a8 a9 a10 a11 a12 a13 a14 P x xn y)

include h

theorem enc_x_value (p : Fin 4096) (o : Fin 128) :
    Read.val_main_v92 (F := Ideal) a0 a3 a4 a5 a6 a7 a8 a9 a10 a11 a12 a13 a14 (ix2 p o)
      = ((Spec.encR Iface.epsR 4096 P x p o : ℝ) : EReal) :=
  x3_out a0 a3 a4 a5 a6 a7 a8 a9 a10 a11 a12 a13 a14
    (Spec.layerR Iface.epsR 4096 (Spec.layerR Iface.epsR 4096 x P.γ0 P.β0 P.W0 P.b0) P.γ1 P.β1 P.W1 P.b1)
    P.γ2 P.β2 P.W2 P.b2
    (fun p d => x2_out a0 a3 a4 a5 a6 a9 a10 a11 a12 (Spec.layerR Iface.epsR 4096 x P.γ0 P.β0 P.W0 P.b0)
      P.γ1 P.β1 P.W1 P.b1
      (fun p d => x1_out a0 a3 a4 a9 a10 x P.γ0 P.β0 P.W0 P.b0 h.hx h.hγ0 h.hβ0 h.hW0 h.hb0 p d)
      h.hγ1 h.hβ1 h.hW1 h.hb1 p d)
    h.hγ2 h.hβ2 h.hW2 h.hb2 p o

theorem enc_xn_value (p : Fin 8192) (o : Fin 128) :
    Read.val_main_v185 (F := Ideal) a1 a3 a4 a5 a6 a7 a8 a9 a10 a11 a12 a13 a14 (ix2 p o)
      = ((Spec.encR Iface.epsR 8192 P xn p o : ℝ) : EReal) :=
  n3_out a1 a3 a4 a5 a6 a7 a8 a9 a10 a11 a12 a13 a14
    (Spec.layerR Iface.epsR 8192 (Spec.layerR Iface.epsR 8192 xn P.γ0 P.β0 P.W0 P.b0) P.γ1 P.β1 P.W1 P.b1)
    P.γ2 P.β2 P.W2 P.b2
    (fun p d => n2_out a1 a3 a4 a5 a6 a9 a10 a11 a12 (Spec.layerR Iface.epsR 8192 xn P.γ0 P.β0 P.W0 P.b0)
      P.γ1 P.β1 P.W1 P.b1
      (fun p d => n1_out a1 a3 a4 a9 a10 xn P.γ0 P.β0 P.W0 P.b0 h.hxn h.hγ0 h.hβ0 h.hW0 h.hb0 p d)
      h.hγ1 h.hβ1 h.hW1 h.hb1 p d)
    h.hγ2 h.hβ2 h.hW2 h.hb2 p o

end Cert.ReferenceIdeal.HandValue

end
-- ==== Proof.Ref.SoftVal.lean ====
import proofs.«428610_j54915451847256_3_alg».proof.Proof.Ref.ReadP
import Idealize.ShloMosaic.PureOps.Ideal.Laws
import Idealize.ShloMosaic.PureOps.Reduce
import Idealize.ShloMosaic.Lib.ValueIdx
import Idealize.ShloMosaic.Lib.StableHlo.Predicate
import proofs.«428610_j54915451847256_3_alg».proof.Proof.Spec
import proofs.«428610_j54915451847256_3_alg».proof.Proof.Iface

noncomputable section

namespace Cert.ReferenceIdeal.HandValue

open Cert Idealize.ShloMosaic Idealize.ShloMosaic.ValueIdx
open scoped BigOperators

namespace Soft

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) :=
  ((EReal.coe_strictMono.monotone).map_max).symm

theorem min_coe (a b : ℝ) : min (a : EReal) (b : EReal) = ((min a b : ℝ) : EReal) :=
  ((EReal.coe_strictMono.monotone).map_min).symm

theorem div_coe_coe {a b : ℝ} (hb : b ≠ 0) : Ideal.div (a : EReal) (b : EReal) = ((a / b : ℝ) : EReal) := by
  rw [Ideal.div_coe hb, ← EReal.coe_mul, mul_one_div]

theorem fold_max_bot_coe {ι : Type} (s : Finset ι) (hs : s.Nonempty) (f : ι → ℝ) :
    s.fold max (⊥ : EReal) (fun j => ((f j : ℝ) : EReal)) = ((s.sup' hs f : ℝ) : EReal) := by
  apply le_antisymm
  · rw [Finset.fold_max_le]
    exact ⟨bot_le, fun j hj => EReal.coe_le_coe_iff.2 (Finset.le_sup' f hj)⟩
  · obtain ⟨j, hjm, hj⟩ := Finset.exists_mem_eq_sup' hs f
    rw [hj, Finset.le_fold_max]
    exact Or.inr ⟨j, hjm, le_rfl⟩

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_negInf : Ideal.ofBits .f32 0xFF800000#32 = (⊥ : EReal) := by simp [Ideal.ofBits, Ideal.ieee]

theorem word_eq_ofNat_iff (w : BitVec 32) (c : ℕ) (hc : c < 2 ^ 31) : w = BitVec.ofNat 32 c ↔ w.toInt = (c : ℤ) := by
  constructor
  · rintro rfl; exact StableHlo.Predicate.toInt_ofNat_small c hc
  · intro h; exact BitVec.eq_of_toInt_eq (h.trans (StableHlo.Predicate.toInt_ofNat_small c hc).symm)

theorem oneHot_word (w : BitVec 32) (c : Fin 10) (yj : ℤ) (hw : w.toInt = yj) :
    FloatOps.uitofp (F := Ideal) .f32 (IntOp.cmpi .eq w (BitVec.ofNat 32 c.val)) = (((if yj = (c.val : ℤ) then 1 else 0 : ℝ)) : EReal) := by
  have hc : c.val < 2 ^ 31 := lt_of_lt_of_le c.isLt (by norm_num)
  by_cases h : yj = (c.val : ℤ)
  · have e : IntOp.cmpi .eq w (BitVec.ofNat 32 c.val) = 1#1 :=
      StableHlo.Predicate.cmpi_eq_iff.2 ((word_eq_ofNat_iff w c.val hc).2 (hw.trans h))
    rw [e, if_pos h]; show (((1#1 : BitVec 1).toNat : ℝ) : EReal) = _; norm_num
  · have e : IntOp.cmpi .eq w (BitVec.ofNat 32 c.val) = 0#1 :=
      eq_zero_of_ne_one (fun h1 => h (hw.symm.trans ((word_eq_ofNat_iff w c.val hc).1 (StableHlo.Predicate.cmpi_eq_iff.1 h1))))
    rw [e, if_neg h]; show (((0#1 : BitVec 1).toNat : ℝ) : EReal) = _; norm_num

section Readout

variable
    {a0 : FVec Ideal (Iface.Sh2 4096 1024) .f32} {a1 : FVec Ideal (Iface.Sh2 8192 1024) .f32} {a2 : IVec (Iface.Sh1 8192) 32}
    {a3 : FVec Ideal (Iface.Sh2 512 1024) .f32} {a4 : FVec Ideal (Iface.Sh1 512) .f32}
    {a5 : FVec Ideal (Iface.Sh2 256 512) .f32} {a6 : FVec Ideal (Iface.Sh1 256) .f32}
    {a7 : FVec Ideal (Iface.Sh2 128 256) .f32} {a8 : FVec Ideal (Iface.Sh1 128) .f32}
    {a9 a10 : FVec Ideal (Iface.Sh1 1024) .f32} {a11 a12 : FVec Ideal (Iface.Sh1 512) .f32} {a13 a14 : FVec Ideal (Iface.Sh1 256) .f32}
    {q : Fin 4096 → Fin 128 → ℝ} {k : Fin 8192 → Fin 128 → ℝ} {y : Fin 8192 → ℤ}
    (hq : ∀ p o, Read.val_main_v92 (F := Ideal) a0 a3 a4 a5 a6 a7 a8 a9 a10 a11 a12 a13 a14 (ix2 p o) = ((q p o : ℝ) : EReal))
    (hk : ∀ p o, Read.val_main_v185 (F := Ideal) a1 a3 a4 a5 a6 a7 a8 a9 a10 a11 a12 a13 a14 (ix2 p o) = ((k p o : ℝ) : EReal))
    (hy : ∀ j, (a2 (ix1 j)).toInt = y j)

include hk in
theorem v186_val (d : Fin 128) (j : Fin 8192) :
    Read.val_main_v186 (F := Ideal) a1 a3 a4 a5 a6 a7 a8 a9 a10 a11 a12 a13 a14 (ix2 d j) = ((k j d : ℝ) : EReal) := by
  rw [Read.val_main_v186_apply, show Read.idx_main_v186 (ix2 d j) = ix2 j d from eq_ix2 _, hk]

include hq hk in
theorem v187_val (i : Fin 4096) (j : Fin 8192) :
    Read.val_main_v187 (F := Ideal) a0 a1 a3 a4 a5 a6 a7 a8 a9 a10 a11 a12 a13 a14 (ix2 i j) = ((∑ d, q i d * k j d : ℝ) : EReal) := by
  rw [Read.val_main_v187_apply, ← coe_sum]
  refine Finset.sum_congr rfl fun d _ => ?_
  rw [show Read.lidx_main_v187 (ix2 i j) d = ix2 i d from eq_ix2 _, show Read.ridx_main_v187 (ix2 i j) d = ix2 d j from eq_ix2 _,
    hq, v186_val hk, ← EReal.coe_mul]

include hq hk in
theorem v189_val (i : Fin 4096) (j : Fin 8192) :
    Read.val_main_v189 (F := Ideal) a0 a1 a3 a4 a5 a6 a7 a8 a9 a10 a11 a12 a13 a14 (ix2 i j) = ((2 * ∑ d, q i d * k j d : ℝ) : EReal) := by
  rw [Read.val_main_v189_apply, Read.val_main_v188_apply, Read.val_main_cst_29_apply, v187_val hq hk]
  show Ideal.ofBits .f32 0x40000000#32 * _ = _
  rw [ofBits_two, ← EReal.coe_mul]

include hq in
theorem v191_val (i : Fin 4096) :
    Read.val_main_v191 (F := Ideal) a0 a3 a4 a5 a6 a7 a8 a9 a10 a11 a12 a13 a14 (ix1 i) = ((∑ d, q i d * q i d : ℝ) : EReal) := by
  rw [Read.val_main_v191_apply, Read.val_main_cst_30_apply]
  show Ideal.ofBits .f32 0x00000000#32 + _ = _
  rw [ofBits_zero, ← coe_sum, EReal.coe_zero, zero_add]
  refine Finset.sum_congr rfl fun d _ => ?_
  rw [show Read.idx_main_v191 (ix1 i) d = ix2 i d from eq_ix2 _, Read.val_main_v190_apply, hq]
  exact (EReal.coe_mul _ _).symm

include hk in
theorem v196_val (j : Fin 8192) :
    Read.val_main_v196 (F := Ideal) a1 a3 a4 a5 a6 a7 a8 a9 a10 a11 a12 a13 a14 (ix1 j) = ((∑ d, k j d * k j d : ℝ) : EReal) := by
  rw [Read.val_main_v196_apply, Read.val_main_cst_31_apply]
  show Ideal.ofBits .f32 0x00000000#32 + _ = _
  rw [ofBits_zero, ← coe_sum, EReal.coe_zero, zero_add]
  refine Finset.sum_congr rfl fun d _ => ?_
  rw [show Read.idx_main_v196 (ix1 j) d = ix2 j d from eq_ix2 _, Read.val_main_v195_apply, hk]
  exact (EReal.coe_mul _ _).symm

include hq hk in
theorem v199_val (i : Fin 4096) (j : Fin 8192) :
    Read.val_main_v199 (F := Ideal) a0 a1 a3 a4 a5 a6 a7 a8 a9 a10 a11 a12 a13 a14 (ix2 i j) = ((Spec.simR q k i j : ℝ) : EReal) := by
  rw [Read.val_main_v199_apply, Read.val_main_v194_apply, v189_val hq hk,
    Read.val_main_v193_apply, show Read.idx_main_v193 (ix2 i j) = ix2 i (0 : Fin 1) from eq_ix2 _,
    Read.val_main_v192_apply, show Read.idx_main_v192 (ix2 i (0 : Fin 1)) = ix1 i from eq_ix1 _, v191_val hq,
    Read.val_main_v198_apply, show Read.idx_main_v198 (ix2 i j) = ix2 (0 : Fin 1) j from eq_ix2 _,
    Read.val_main_v197_apply, show Read.idx_main_v197 (ix2 (0 : Fin 1) j) = ix1 j from eq_ix1 _, v196_val hk]
  show ((_ : ℝ) : EReal) - ((_ : ℝ) : EReal) - ((_ : ℝ) : EReal) = _
  rw [← EReal.coe_sub, ← EReal.coe_sub]
  rfl

include hy in
theorem v200_val (j : Fin 8192) (c : Fin 10) :
    Read.val_main_v200 (F := Ideal) a2 (ix2 j c) = ((Spec.oneHot 10 y j c : ℝ) : EReal) := by
  rw [Read.val_main_v200_apply, Read.val_main_call0_v4_apply,
    Read.val_main_call0_v2_apply, show Read.idx_main_call0_v2 (ix2 j c) = ix2 j (0 : Fin 1) from eq_ix2 _,
    Read.val_main_call0_v0_apply, show Read.idx_main_call0_v0 (ix2 j (0 : Fin 1)) = ix1 j from eq_ix1 _,
    Read.val_main_call0_v3_apply, show Read.idx_main_call0_v3 (ix2 j c) = ix2 (0 : Fin 1) c from eq_ix2 _,
    Read.val_main_call0_v1_apply]
  exact oneHot_word (a2 (ix1 j)) c (y j) (hy j)

theorem lift_row (h : Cert.ReferenceIdeal.S4096x8192.Reduces [1] Cert.ReferenceIdeal.S4096) (i : Fin 4096)
    (j : Fin (Cert.ReferenceIdeal.S4096x8192.size 1)) : h.lift (ix1 i) j = ix2 i (⟨j.val, j.isLt⟩ : Fin 8192) := by
  funext c; apply Fin.ext
  match c with | ⟨0, _⟩ => rfl | ⟨1, _⟩ => rfl

include hq hk in
theorem v201_val (i : Fin 4096) :
    Read.val_main_v201 (F := Ideal) a0 a1 a3 a4 a5 a6 a7 a8 a9 a10 a11 a12 a13 a14 (ix1 i) = ((Finset.univ.sup' Finset.univ_nonempty (Spec.simR q k i) : ℝ) : EReal) := by
  unfold Read.val_main_v201
  have hred : Cert.ReferenceIdeal.S4096x8192.Reduces [1] Cert.ReferenceIdeal.S4096 := by decide
  rw [Host.reduce_eq_fold_single (FloatOps.maximumf (F := Ideal) (φ := .f32)) _ _ _ hred]
  have hf : (Read.val_main_v199 (F := Ideal) a0 a1 a3 a4 a5 a6 a7 a8 a9 a10 a11 a12 a13 a14 ∘ hred.lift (ix1 i)) = fun j : Fin 8192 => ((Spec.simR q k i j : ℝ) : EReal) :=
    funext fun j => (congrArg (Read.val_main_v199 (F := Ideal) a0 a1 a3 a4 a5 a6 a7 a8 a9 a10 a11 a12 a13 a14) (lift_row hred i j)).trans (v199_val hq hk i ⟨j.val, j.isLt⟩)
  rw [hf, Read.val_main_cst_32_apply]
  show Finset.fold max (Ideal.ofBits .f32 0xFF800000#32) _ _ = _
  rw [ofBits_negInf]
  exact fold_max_bot_coe _ _ (Spec.simR q k i)

include hq hk in
theorem v205_val (i : Fin 4096) (j : Fin 8192) :
    Read.val_main_v205 (F := Ideal) a0 a1 a3 a4 a5 a6 a7 a8 a9 a10 a11 a12 a13 a14 (ix2 i j) = ((Finset.univ.sup' Finset.univ_nonempty (Spec.simR q k i) : ℝ) : EReal) := by
  rw [Read.val_main_v205_apply, show Read.idx_main_v205 (ix2 i j) = ix2 i (0 : Fin 1) from eq_ix2 _,
    Read.val_main_v204_apply, show Read.idx_main_v204 (ix2 i (0 : Fin 1)) = ix1 i from eq_ix1 _,
    Read.val_main_v203_apply, Read.val_main_v202_apply, Read.val_main_cst_33_apply, v201_val hq hk]
  show max (Ideal.ofBits .f32 0xFF800000#32) _ = _
  rw [ofBits_negInf]
  exact max_eq_right bot_le

include hq hk in
theorem v207_val (i : Fin 4096) (j : Fin 8192) :
    Read.val_main_v207 (F := Ideal) a0 a1 a3 a4 a5 a6 a7 a8 a9 a10 a11 a12 a13 a14 (ix2 i j)
      = ((Real.exp (Spec.simR q k i j - Finset.univ.sup' Finset.univ_nonempty (Spec.simR q k i)) : ℝ) : EReal) := by
  rw [Read.val_main_v207_apply, Read.val_main_v206_apply, v199_val hq hk, v205_val hq hk]
  show Ideal.exp (((_ : ℝ) : EReal) - ((_ : ℝ) : EReal)) = _
  rw [← EReal.coe_sub]
  rfl

include hq hk in
theorem v208_val (i : Fin 4096) :
    Read.val_main_v208 (F := Ideal) a0 a1 a3 a4 a5 a6 a7 a8 a9 a10 a11 a12 a13 a14 (ix1 i)
      = ((∑ j, Real.exp (Spec.simR q k i j - Finset.univ.sup' Finset.univ_nonempty (Spec.simR q k i)) : ℝ) : EReal) := by
  rw [Read.val_main_v208_apply, Read.val_main_cst_34_apply]
  show Ideal.ofBits .f32 0x00000000#32 + _ = _
  rw [ofBits_zero, ← coe_sum, EReal.coe_zero, zero_add]
  refine Finset.sum_congr rfl fun j _ => ?_
  rw [show Read.idx_main_v208 (ix1 i) j = ix2 i j from eq_ix2 _, v207_val hq hk]

include hq hk in
theorem v211_val (i : Fin 4096) (j : Fin 8192) :
    Read.val_main_v211 (F := Ideal) a0 a1 a3 a4 a5 a6 a7 a8 a9 a10 a11 a12 a13 a14 (ix2 i j)
      = ((Real.exp (Spec.simR q k i j - Finset.univ.sup' Finset.univ_nonempty (Spec.simR q k i))
          / ∑ j', Real.exp (Spec.simR q k i j' - Finset.univ.sup' Finset.univ_nonempty (Spec.simR q k i)) : ℝ) : EReal) := by
  rw [Read.val_main_v211_apply, v207_val hq hk,
    Read.val_main_v210_apply, show Read.idx_main_v210 (ix2 i j) = ix2 i (0 : Fin 1) from eq_ix2 _,
    Read.val_main_v209_apply, show Read.idx_main_v209 (ix2 i (0 : Fin 1)) = ix1 i from eq_ix1 _, v208_val hq hk]
  exact div_coe_coe (ne_of_gt (Finset.sum_pos (fun j' _ => Real.exp_pos _) Finset.univ_nonempty))

include hq hk hy in
theorem v212_val (i : Fin 4096) (c : Fin 10) :
    Read.val_main_v212 (F := Ideal) a0 a1 a2 a3 a4 a5 a6 a7 a8 a9 a10 a11 a12 a13 a14 (ix2 i c)
      = ((∑ j, Real.exp (Spec.simR q k i j - Finset.univ.sup' Finset.univ_nonempty (Spec.simR q k i))
          / (∑ j', Real.exp (Spec.simR q k i j' - Finset.univ.sup' Finset.univ_nonempty (Spec.simR q k i)))
          * Spec.oneHot 10 y j c : ℝ) : EReal) := by
  rw [Read.val_main_v212_apply, ← coe_sum]
  refine Finset.sum_congr rfl fun j _ => ?_
  rw [show Read.lidx_main_v212 (ix2 i c) j = ix2 i j from eq_ix2 _, show Read.ridx_main_v212 (ix2 i c) j = ix2 j c from eq_ix2 _,
    v211_val hq hk, v200_val hy, ← EReal.coe_mul]

include hq hk hy in
theorem v213_val (i : Fin 4096) (c : Fin 10) :
    Read.val_main_v213 (F := Ideal) a0 a1 a2 a3 a4 a5 a6 a7 a8 a9 a10 a11 a12 a13 a14 (ix2 i c) = ((Spec.softOut q k y i c : ℝ) : EReal) := by
  rw [Read.val_main_v213_apply, Read.val_main_call1_v4_apply, Read.val_main_call1_v3_apply, Read.val_main_cst_36_apply,
    Read.val_main_call1_v2_apply, Read.val_main_call1_v1_apply, Read.val_main_call1_v0_apply, Read.val_main_cst_35_apply,
    v212_val hq hk hy]
  show min (Ideal.ofBits .f32 0x3F800000#32) (max (Ideal.ofBits .f32 0x00000000#32) _) = _
  rw [ofBits_one, ofBits_zero, max_coe, min_coe]
  rfl

end Readout

end Soft

theorem ref_value_of_enc
    (a0 : FVec Ideal (Iface.Sh2 4096 1024) .f32) (a1 : FVec Ideal (Iface.Sh2 8192 1024) .f32) (a2 : IVec (Iface.Sh1 8192) 32)
    (a3 : FVec Ideal (Iface.Sh2 512 1024) .f32) (a4 : FVec Ideal (Iface.Sh1 512) .f32)
    (a5 : FVec Ideal (Iface.Sh2 256 512) .f32) (a6 : FVec Ideal (Iface.Sh1 256) .f32)
    (a7 : FVec Ideal (Iface.Sh2 128 256) .f32) (a8 : FVec Ideal (Iface.Sh1 128) .f32)
    (a9 a10 : FVec Ideal (Iface.Sh1 1024) .f32) (a11 a12 : FVec Ideal (Iface.Sh1 512) .f32) (a13 a14 : FVec Ideal (Iface.Sh1 256) .f32)
    (P : Spec.Params) (x : Fin 4096 → Fin 1024 → ℝ) (xn : Fin 8192 → Fin 1024 → ℝ) (y : Fin 8192 → ℤ)
    (h : Iface.ArgsReal a0 a1 a2 a3 a4 a5 a6 a7 a8 a9 a10 a11 a12 a13 a14 P x xn y)
    (hx : ∀ p o, Read.val_main_v92 (F := Ideal) a0 a3 a4 a5 a6 a7 a8 a9 a10 a11 a12 a13 a14 (ix2 p o) = ((Spec.encR Iface.epsR 4096 P x p o : ℝ) : EReal))
    (hxn : ∀ p o, Read.val_main_v185 (F := Ideal) a1 a3 a4 a5 a6 a7 a8 a9 a10 a11 a12 a13 a14 (ix2 p o) = ((Spec.encR Iface.epsR 8192 P xn p o : ℝ) : EReal))
    (i : Fin 4096) (o : Fin 10) :
    Read.val_main_v213 (F := Ideal) a0 a1 a2 a3 a4 a5 a6 a7 a8 a9 a10 a11 a12 a13 a14 (ix2 i o) = ((Spec.refR Iface.epsR P x xn y i o : ℝ) : EReal) :=
  Soft.v213_val hx hxn h.hy i o

end Cert.ReferenceIdeal.HandValue

end
-- ==== Proof.Ref.RefValue.lean ====
import proofs.«428610_j54915451847256_3_alg».proof.Proof.Ref.EncVal
import proofs.«428610_j54915451847256_3_alg».proof.Proof.Ref.SoftVal

noncomputable section

namespace Cert.ReferenceIdeal.HandValue

open Cert Idealize.ShloMosaic Idealize.ShloMosaic.ValueIdx

theorem ref_value
    (a0 : FVec Ideal (Iface.Sh2 4096 1024) .f32) (a1 : FVec Ideal (Iface.Sh2 8192 1024) .f32) (a2 : IVec (Iface.Sh1 8192) 32)
    (a3 : FVec Ideal (Iface.Sh2 512 1024) .f32) (a4 : FVec Ideal (Iface.Sh1 512) .f32)
    (a5 : FVec Ideal (Iface.Sh2 256 512) .f32) (a6 : FVec Ideal (Iface.Sh1 256) .f32)
    (a7 : FVec Ideal (Iface.Sh2 128 256) .f32) (a8 : FVec Ideal (Iface.Sh1 128) .f32)
    (a9 a10 : FVec Ideal (Iface.Sh1 1024) .f32) (a11 a12 : FVec Ideal (Iface.Sh1 512) .f32) (a13 a14 : FVec Ideal (Iface.Sh1 256) .f32)
    (P : Spec.Params) (x : Fin 4096 → Fin 1024 → ℝ) (xn : Fin 8192 → Fin 1024 → ℝ) (y : Fin 8192 → ℤ)
    (h : Iface.ArgsReal a0 a1 a2 a3 a4 a5 a6 a7 a8 a9 a10 a11 a12 a13 a14 P x xn y) (i : Fin 4096) (o : Fin 10) :
    Read.val_main_v213 (F := Ideal) a0 a1 a2 a3 a4 a5 a6 a7 a8 a9 a10 a11 a12 a13 a14 (ix2 i o) = ((Spec.refR Iface.epsR P x xn y i o : ℝ) : EReal) :=
  ref_value_of_enc a0 a1 a2 a3 a4 a5 a6 a7 a8 a9 a10 a11 a12 a13 a14 P x xn y h
    (enc_x_value a0 a1 a2 a3 a4 a5 a6 a7 a8 a9 a10 a11 a12 a13 a14 P x xn y h) (enc_xn_value a0 a1 a2 a3 a4 a5 a6 a7 a8 a9 a10 a11 a12 a13 a14 P x xn y h) i o

end Cert.ReferenceIdeal.HandValue

end
-- ==== Proof.PreDecode.lean ====
import Idealize.ShloMosaic.Lib.ReduceAll
import Idealize.ShloMosaic.PureOps.Ideal
import Idealize.ShloMosaic.Lib.ValueIdx
import proofs.«428610_j54915451847256_3_alg».proof.Pre_finite_inputs
import proofs.«428610_j54915451847256_3_alg».proof.Proof.Iface

noncomputable section

namespace Cert.PreDecode

open Idealize.ShloMosaic Idealize.ShloMosaic.ValueIdx

instance scalarIdx_subsingleton : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : x = ((x.toReal : ℝ) : EReal) := by
  induction x using EReal.rec with
  | bot => simp at h
  | coe r => rfl
  | top => simp at h

theorem ofBool_eq_one (b : Bool) : BitVec.ofBool b = 1#1 ↔ b = true := by cases b <;> decide

theorem real_of_all_finite {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hu ix0 = 1#1) (i : s.Idx) :
    a i = (((a i).toReal : ℝ) : EReal) := by
  have hi := Host.reduce_andi_all _ _ hr hu ix0 e i
  refine real_of_abs_lt_top (a i) ?_
  change Ideal.cmp .olt (max (a i) (-(a i))) (Ideal.ofBits .f32 0x7F800000#32) = 1#1 at hi
  rw [ofBits_inf] at hi
  simpa only [Ideal.cmp, ofBool_eq_one, decide_eq_true_eq] using hi

theorem range_of_all {s : Shape} {axes : List (Fin s.rank)} (a : IVec s 32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (andi (cmpi .sge a (broadcastInDim s ![] hb (constantI ⟨0, ![]⟩ 32 0#32)))
                (cmpi .slt a (broadcastInDim s ![] hb (constantI ⟨0, ![]⟩ 32 10#32))))
          (constantI ⟨0, ![]⟩ 1 1#1) hr hu ix0 = 1#1) (i : s.Idx) :
    0 ≤ (a i).toInt ∧ (a i).toInt < 10 := by
  have hi := Host.reduce_andi_all _ _ hr hu ix0 e i
  change IntOp.andi (IntOp.cmpi .sge (a i) 0#32) (IntOp.cmpi .slt (a i) 10#32) = 1#1 at hi
  rw [IntOp.andi_eq_one, IntOp.cmpi_sge, IntOp.cmpi_slt] at hi
  rwa [show (0#32 : BitVec 32).toInt = 0 from by decide, show (10#32 : BitVec 32).toInt = 10 from by decide] at hi

theorem andi_at {s : Shape} (x y : IVec s 1) (i : s.Idx) : andi x y i = 1#1 ↔ x i = 1#1 ∧ y i = 1#1 :=
  IntOp.andi_eq_one

section Decode

open Cert.Pre_finite_inputs

variable [Cert.Pre_finite_inputs.Facts]

theorem args_real
    (a0 : FVec Ideal S4096x1024 .f32) (a1 : FVec Ideal S8192x1024 .f32) (a2 : IVec S8192 32)
    (a3 : FVec Ideal S512x1024 .f32) (a4 : FVec Ideal S512 .f32) (a5 : FVec Ideal S256x512 .f32)
    (a6 : FVec Ideal S256 .f32) (a7 : FVec Ideal S128x256 .f32) (a8 : FVec Ideal S128 .f32)
    (a9 : FVec Ideal S1024 .f32) (a10 : FVec Ideal S1024 .f32) (a11 : FVec Ideal S512 .f32)
    (a12 : FVec Ideal S512 .f32) (a13 : FVec Ideal S256 .f32) (a14 : FVec Ideal S256 .f32)
    (h : Cert.Pre_finite_inputs.fn (F := Ideal) a0 a1 a2 a3 a4 a5 a6 a7 a8 a9 a10 a11 a12 a13 a14 = (fun _ => 1#1)) :
    ∃ P x xn y, Cert.Iface.ArgsReal a0 a1 a2 a3 a4 a5 a6 a7 a8 a9 a10 a11 a12 a13 a14 P x xn y ∧ Cert.Iface.LabelsInRange y := by
  have e := congrFun h ix0
  dsimp only [fn, fn_part1, fn_part2, fn_part3, fn_part4] at e
  simp only [andi_at] at e
  obtain ⟨⟨⟨⟨⟨⟨⟨⟨⟨⟨⟨⟨⟨⟨e0, e1⟩, e3⟩, e4⟩, e5⟩, e6⟩, e7⟩, e8⟩, e9⟩, e10⟩, e11⟩, e12⟩, e13⟩, e14⟩, e2⟩ := e
  refine ⟨⟨fun d => (a9 (ix1 d)).toReal, fun d => (a10 (ix1 d)).toReal, fun o d => (a3 (ix2 o d)).toReal,
      fun o => (a4 (ix1 o)).toReal, fun d => (a11 (ix1 d)).toReal, fun d => (a12 (ix1 d)).toReal,
      fun o d => (a5 (ix2 o d)).toReal, fun o => (a6 (ix1 o)).toReal, fun d => (a13 (ix1 d)).toReal,
      fun d => (a14 (ix1 d)).toReal, fun o d => (a7 (ix2 o d)).toReal, fun o => (a8 (ix1 o)).toReal⟩,
    fun p q => (a0 (ix2 p q)).toReal, fun p q => (a1 (ix2 p q)).toReal, fun j => (a2 (ix1 j)).toInt, ?_, ?_⟩
  · exact
      { hx := fun p q => real_of_all_finite a0 _ _ _ e0 (ix2 p q)
        hxn := fun p q => real_of_all_finite a1 _ _ _ e1 (ix2 p q)
        hy := fun _ => rfl
        hW0 := fun o d => real_of_all_finite a3 _ _ _ e3 (ix2 o d)
        hb0 := fun o => real_of_all_finite a4 _ _ _ e4 (ix1 o)
        hW1 := fun o d => real_of_all_finite a5 _ _ _ e5 (ix2 o d)
        hb1 := fun o => real_of_all_finite a6 _ _ _ e6 (ix1 o)
        hW2 := fun o d => real_of_all_finite a7 _ _ _ e7 (ix2 o d)
        hb2 := fun o => real_of_all_finite a8 _ _ _ e8 (ix1 o)
        hγ0 := fun d => real_of_all_finite a9 _ _ _ e9 (ix1 d)
        hβ0 := fun d => real_of_all_finite a10 _ _ _ e10 (ix1 d)
        hγ1 := fun d => real_of_all_finite a11 _ _ _ e11 (ix1 d)
        hβ1 := fun d => real_of_all_finite a12 _ _ _ e12 (ix1 d)
        hγ2 := fun d => real_of_all_finite a13 _ _ _ e13 (ix1 d)
        hβ2 := fun d => real_of_all_finite a14 _ _ _ e14 (ix1 d) }
  · exact fun j => range_of_all a2 _ _ _ e2 (ix1 j)

end Decode

end Cert.PreDecode

end
-- ==== Proof.lean ====
/-
  Both programs compute, at the exact values, one real function of the arguments: three layers of
  "normalise each column by its mean and variance, scale, shift, multiply by the weights, add the bias, take tanh"
  on the queries and on the keys, then a softmax over the keys of minus the squared distance, summed against the
  one-hot labels and clipped to [0, 1]. The kernel takes the variance as mean of squares minus squared mean, runs
  the softmax one block of 1024 keys at a time with a carried maximum, and drops the query's squared norm; on finite
  inputs with labels in 0..9 these are the same numbers (a softmax row does not change under a shift, and a
  one-hot row sums to one).
-/
import proofs.«428610_j54915451847256_3_alg».proof.Defs
import proofs.«428610_j54915451847256_3_alg».proof.Proof.Gen.Kernel
import proofs.«428610_j54915451847256_3_alg».proof.Proof.Gen.KernelIdeal
import proofs.«428610_j54915451847256_3_alg».proof.Proof.Gen.ReferenceIdeal
import proofs.«428610_j54915451847256_3_alg».proof.Proof.Gen.Pre_finite_inputs
import proofs.«428610_j54915451847256_3_alg».proof.Proof.Ref.RunHand
import proofs.«428610_j54915451847256_3_alg».proof.Proof.K.Run
import proofs.«428610_j54915451847256_3_alg».proof.Proof.KI.Run
import proofs.«428610_j54915451847256_3_alg».proof.Proof.KI.KernelValue
import proofs.«428610_j54915451847256_3_alg».proof.Proof.Ref.RefValue
import proofs.«428610_j54915451847256_3_alg».proof.Proof.SpecMath
import proofs.«428610_j54915451847256_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ =>
  (θ_run Cert.Kernel.defs _ _).mono (fun _ h c => (h c).2) (Cert.Kernel.Hand.run_named (F := Bits) m ρ)

theorem frame_ki : Cert.frame_KernelIdeal := fun m ρ _ =>
  (θ_run Cert.KernelIdeal.defs _ _).mono (fun _ h c => (h c).2) (Cert.KernelIdeal.Hand.run_named (F := Ideal) m ρ)

theorem frame_ri : Cert.frame_ReferenceIdeal := fun m ρ _ =>
  (θ_run Cert.ReferenceIdeal.defs _ _).mono (fun _ h c => (h c).2) (Cert.ReferenceIdeal.HandRun.run (F := Ideal) m ρ)

theorem algebraic : Cert.algebraic_KernelIdeal_ReferenceIdeal := by
  intro m ρ m' ρ' hpre hagree
  refine ⟨fun c => Cert.KernelIdeal.Hand.W16 m ρ c (Proc.devRef .tc Cert.KernelIdeal.main_v92),
    Cert.KernelIdeal.Hand.run_named (F := Ideal) m ρ, ?_⟩
  refine (θ_run Cert.ReferenceIdeal.defs _ _).mono (fun _ h c => ⟨(h c).1.trans ?_, (h c).2⟩)
    (Cert.ReferenceIdeal.HandRun.run (F := Ideal) m' ρ')
  obtain ⟨P, x, xn, y, hA, hy⟩ := Cert.PreDecode.args_real _ _ _ _ _ _ _ _ _ _ _ _ _ _ _ (hpre c)
  obtain ⟨h0, h1, h2, h3, h4, h5, h6, h7, h8, h9, h10, h11, h12, h13, h14⟩ := hagree c
  rw [h0, h1, h2, h3, h4, h5, h6, h7, h8, h9, h10, h11, h12, h13, h14]
  funext j
  obtain ⟨i, o, rfl⟩ : ∃ (i : Fin 4096) (o : Fin 10), j = ix2 i o := ⟨j 0, j 1, eq_ix2 j⟩
  exact (Cert.ReferenceIdeal.HandValue.ref_value _ _ _ _ _ _ _ _ _ _ _ _ _ _ _ P x xn y hA i o).trans
    ((congrArg (fun r : ℝ => (r : EReal)) (Cert.Spec.kernelR_eq_refR _ _ P x xn y hy i o).symm).trans
      (Cert.KernelIdeal.HandValue.kernel_value m ρ c P x xn y hA hy i o).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
